-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S512x50000 : Shape := ⟨2, ![512, 50000]⟩
abbrev S512 : Shape := ⟨1, ![512]⟩
abbrev S256x512 : Shape := ⟨2, ![256, 512]⟩
abbrev S256 : Shape := ⟨1, ![256]⟩
abbrev S512x256 : Shape := ⟨2, ![512, 256]⟩
abbrev S50000x512 : Shape := ⟨2, ![50000, 512]⟩
abbrev S50000 : Shape := ⟨1, ![50000]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel
  bcast_S_S512x50000 : S_.BroadcastsInDim S512x50000 (![] : Fin 0 → Fin S512x50000.rank)
  reducesTo_S512x50000_S_d0_1 : S512x50000.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S50000x512 : S_.BroadcastsInDim S50000x512 (![] : Fin 0 → Fin S50000x512.rank)
  reducesTo_S50000x512_S_d0_1 : S50000x512.ReducesTo [0, 1] S_
  bcast_S_S50000 : S_.BroadcastsInDim S50000 (![] : Fin 0 → Fin S50000.rank)
  reducesTo_S50000_S_d0 : S50000.ReducesTo [0] S_

variable [Facts]

def fn_part3 {F : FTy → Type} [FloatOps F] (main_arg3 : IVec S262144 32) (main_arg4 : IVec S262144 32) (main_v48 : IVec S_ 1) (main_v50 : IVec S262144 1) : IVec S_ 1 :=
  let main_c_19 : IVec S_ 32 := constantI S_ 32 16384#32
  let main_v51 : IVec S262144 32 := broadcastInDim S262144 ![] bcast_S_S262144 main_c_19
  let main_v52 : IVec S262144 1 := cmpi .slt main_arg3 main_v51
  let main_v53 : IVec S262144 1 := andi main_v50 main_v52
  let main_c_20 : IVec S_ 1 := constantI S_ 1 1#1
  let main_v54 : IVec S_ 1 := (fun x v => Host.reduce IntOp.andi x v reducesTo_S262144_S_d0 h_S_) main_v53 main_c_20
  let main_v55 : IVec S_ 1 := andi main_v48 main_v54
  let main_c_21 : IVec S_ 32 := constantI S_ 32 0#32
  let main_v56 : IVec S262144 32 := broadcastInDim S262144 ![] bcast_S_S262144 main_c_21
  let main_v57 : IVec S262144 1 := cmpi .sge main_arg4 main_v56
  let main_c_22 : IVec S_ 32 := constantI S_ 32 50000#32
  let main_v58 : IVec S262144 32 := broadcastInDim S262144 ![] bcast_S_S262144 main_c_22
  let main_v59 : IVec S262144 1 := cmpi .slt main_arg4 main_v58
  let main_v60 : IVec S262144 1 := andi main_v57 main_v59
  let main_c_23 : IVec S_ 1 := constantI S_ 1 1#1
  let main_v61 : IVec S_ 1 := (fun x v => Host.reduce IntOp.andi x v reducesTo_S262144_S_d0 h_S_) main_v60 main_c_23
  let main_v62 : IVec S_ 1 := andi main_v55 main_v61
  main_v62

def fn_part2 {F : FTy → Type} [FloatOps F] (main_arg3 : IVec S262144 32) (main_arg4 : IVec S262144 32) (main_arg11 : FVec F S512 .f32) (main_arg12 : FVec F S50000x512 .f32) (main_arg13 : FVec F S50000 .f32) (main_v33 : IVec S_ 1) : IVec S_ 1 :=
  let main_v34 : FVec F S512 .f32 := Host.absf main_arg11
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S50000x512 .f32 := Host.absf main_arg12
  let main_cst_14 : FVec F S_ .f32 := constant S_ .f32 0x7F800000#32
  let main_v40 : FVec F S50000x512 .f32 := broadcastInDim S50000x512 ![] bcast_S_S50000x512 main_cst_14
  let main_v41 : IVec S50000x512 1 := cmpf .olt main_v39 main_v40
  let main_c_15 : IVec S_ 1 := constantI S_ 1 1#1
  let main_v42 : IVec S_ 1 := (fun x v => Host.reduce IntOp.andi x v reducesTo_S50000x512_S_d0_1 h_S_) main_v41 main_c_15
  let main_v43 : IVec S_ 1 := andi main_v38 main_v42
  let main_v44 : FVec F S50000 .f32 := Host.absf main_arg13
  let main_cst_16 : FVec F S_ .f32 := constant S_ .f32 0x7F800000#32
  let main_v45 : FVec F S50000 .f32 := broadcastInDim S50000 ![] bcast_S_S50000 main_cst_16
  let main_v46 : IVec S50000 1 := cmpf .olt main_v44 main_v45
  let main_c_17 : IVec S_ 1 := constantI S_ 1 1#1
  let main_v47 : IVec S_ 1 := (fun x v => Host.reduce IntOp.andi x v reducesTo_S50000_S_d0 h_S_) main_v46 main_c_17
  let main_v48 : IVec S_ 1 := andi main_v43 main_v47
  let main_c_18 : IVec S_ 32 := constantI S_ 32 0#32
  let main_v49 : IVec S262144 32 := broadcastInDim S262144 ![] bcast_S_S262144 main_c_18
  let main_v50 : IVec S262144 1 := cmpi .sge main_arg3 main_v49
  fn_part3 (F := F) main_arg3 main_arg4 main_v48 main_v50

def fn_part1 {F : FTy → Type} [FloatOps F] (main_arg3 : IVec S262144 32) (main_arg4 : IVec S262144 32) (main_arg8 : FVec F S256x512 .f32) (main_arg9 : FVec F S256 .f32) (main_arg10 : FVec F S512x256 .f32) (main_arg11 : FVec F S512 .f32) (main_arg12 : FVec F S50000x512 .f32) (main_arg13 : FVec F S50000 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S256x512 .f32 := Host.absf main_arg8
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg10
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg3 main_arg4 main_arg11 main_arg12 main_arg13 main_v33

def fn {F : FTy → Type} [FloatOps F] (main_arg0 : IVec S262144 32) (main_arg1 : IVec S262144 32) (main_arg2 : FVec F S262144 .f32) (main_arg3 : IVec S262144 32) (main_arg4 : IVec S262144 32) (main_arg5 : FVec F S262144 .f32) (main_arg6 : FVec F S512x50000 .f32) (main_arg7 : FVec F S512 .f32) (main_arg8 : FVec F S256x512 .f32) (main_arg9 : FVec F S256 .f32) (main_arg10 : FVec F S512x256 .f32) (main_arg11 : FVec F S512 .f32) (main_arg12 : FVec F S50000x512 .f32) (main_arg13 : FVec F S50000 .f32) : IVec S_ 1 :=
  let main_v0 : FVec F S262144 .f32 := Host.absf main_arg2
  let main_cst : FVec F S_ .f32 := constant S_ .f32 0x7F800000#32
  let main_v1 : FVec F S262144 .f32 := broadcastInDim S262144 ![] bcast_S_S262144 main_cst
  let main_v2 : IVec S262144 1 := cmpf .olt main_v0 main_v1
  let main_c : IVec S_ 1 := constantI S_ 1 1#1
  let main_v3 : IVec S_ 1 := (fun x v => Host.reduce IntOp.andi x v reducesTo_S262144_S_d0 h_S_) main_v2 main_c
  let main_v4 : FVec F S262144 .f32 := Host.absf main_arg5
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S512x50000 .f32 := Host.absf main_arg6
  let main_cst_2 : FVec F S_ .f32 := constant S_ .f32 0x7F800000#32
  let main_v10 : FVec F S512x50000 .f32 := broadcastInDim S512x50000 ![] bcast_S_S512x50000 main_cst_2
  let main_v11 : IVec S512x50000 1 := cmpf .olt main_v9 main_v10
  let main_c_3 : IVec S_ 1 := constantI S_ 1 1#1
  let main_v12 : IVec S_ 1 := (fun x v => Host.reduce IntOp.andi x v reducesTo_S512x50000_S_d0_1 h_S_) main_v11 main_c_3
  let main_v13 : IVec S_ 1 := andi main_v8 main_v12
  let main_v14 : FVec F S512 .f32 := Host.absf main_arg7
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg3 main_arg4 main_arg8 main_arg9 main_arg10 main_arg11 main_arg12 main_arg13 main_v13 main_v16
-- ==== Kernel.lean ====
abbrev S262144 : Shape := ⟨1, ![262144]⟩
abbrev S512x50000 : Shape := ⟨2, ![512, 50000]⟩
abbrev S512 : Shape := ⟨1, ![512]⟩
abbrev S256x512 : Shape := ⟨2, ![256, 512]⟩
abbrev S256 : Shape := ⟨1, ![256]⟩
abbrev S512x256 : Shape := ⟨2, ![512, 256]⟩
abbrev S50000x512 : Shape := ⟨2, ![50000, 512]⟩
abbrev S50000 : Shape := ⟨1, ![50000]⟩
abbrev S_ : Shape := ⟨0, ![]⟩
abbrev S262144x1 : Shape := ⟨2, ![262144, 1]⟩
abbrev S262144x512 : Shape := ⟨2, ![262144, 512]⟩
abbrev S16384x512 : Shape := ⟨2, ![16384, 512]⟩
abbrev S1x512 : Shape := ⟨2, ![1, 512]⟩
abbrev S1x256 : Shape := ⟨2, ![1, 256]⟩
abbrev S1024x512 : Shape := ⟨2, ![1024, 512]⟩
abbrev S1024x256 : Shape := ⟨2, ![1024, 256]⟩
abbrev S32768 : Shape := ⟨1, ![32768]⟩
abbrev S16384x1x512 : Shape := ⟨3, ![16384, 1, 512]⟩
abbrev S50000x1x512 : Shape := ⟨3, ![50000, 1, 512]⟩
abbrev S50000x1x1 : Shape := ⟨3, ![50000, 1, 1]⟩
abbrev S32768x1x1 : Shape := ⟨3, ![32768, 1, 1]⟩
abbrev S1x1x512 : Shape := ⟨3, ![1, 1, 512]⟩
abbrev S1 : Shape := ⟨1, ![1]⟩
abbrev S1x1x1 : Shape := ⟨3, ![1, 1, 1]⟩
abbrev S1x1 : Shape := ⟨2, ![1, 1]⟩

abbrev nBuf : Space → Nat
  | .hbm => 84
  | .vmem => 73
  | .smem => 16
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S262144, .f32⟩
  | .hbm, ⟨3, _⟩ => ⟨S262144, .i32⟩
  | .hbm, ⟨4, _⟩ => ⟨S262144, .i32⟩
  | .hbm, ⟨5, _⟩ => ⟨S262144, .f32⟩
  | .hbm, ⟨6, _⟩ => ⟨S512x50000, .f32⟩
  | .hbm, ⟨7, _⟩ => ⟨S512, .f32⟩
  | .hbm, ⟨8, _⟩ => ⟨S256x512, .f32⟩
  | .hbm, ⟨9, _⟩ => ⟨S256, .f32⟩
  | .hbm, ⟨10, _⟩ => ⟨S512x256, .f32⟩
  | .hbm, ⟨11, _⟩ => ⟨S512, .f32⟩
  | .hbm, ⟨12, _⟩ => ⟨S50000x512, .f32⟩
  | .hbm, ⟨13, _⟩ => ⟨S50000, .f32⟩
  | .hbm, ⟨14, _⟩ => ⟨S50000x512, .f32⟩
  | .hbm, ⟨15, _⟩ => ⟨S_, .i32⟩
  | .hbm, ⟨16, _⟩ => ⟨S262144, .i32⟩
  | .hbm, ⟨17, _⟩ => ⟨S262144, .i1⟩
  | .hbm, ⟨18, _⟩ => ⟨S_, .i32⟩
  | .hbm, ⟨19, _⟩ => ⟨S262144, .i32⟩
  | .hbm, ⟨20, _⟩ => ⟨S262144, .i32⟩
  | .hbm, ⟨21, _⟩ => ⟨S262144, .i32⟩
  | .hbm, ⟨22, _⟩ => ⟨S262144x1, .i32⟩
  | .hbm, ⟨23, _⟩ => ⟨S262144x512, .f32⟩
  | .hbm, ⟨24, _⟩ => ⟨S262144x1, .f32⟩
  | .hbm, ⟨25, _⟩ => ⟨S262144x512, .f32⟩
  | .hbm, ⟨26, _⟩ => ⟨S262144x512, .f32⟩
  | .hbm, ⟨27, _⟩ => ⟨S_, .f32⟩
  | .hbm, ⟨28, _⟩ => ⟨S16384x512, .f32⟩
  | .hbm, ⟨29, _⟩ => ⟨S262144x1, .i32⟩
  | .hbm, ⟨30, _⟩ => ⟨S16384x512, .f32⟩
  | .hbm, ⟨31, _⟩ => ⟨S512x256, .f32⟩
  | .hbm, ⟨32, _⟩ => ⟨S256x512, .f32⟩
  | .hbm, ⟨33, _⟩ => ⟨S1x512, .f32⟩
  | .hbm, ⟨34, _⟩ => ⟨S1x256, .f32⟩
  | .hbm, ⟨35, _⟩ => ⟨S1x512, .f32⟩
  | .hbm, ⟨36, _⟩ => ⟨S16384x512, .f32⟩
  | .hbm, ⟨37, _⟩ => ⟨S16384x1x512, .f32⟩
  | .hbm, ⟨38, _⟩ => ⟨S50000x1x512, .f32⟩
  | .hbm, ⟨39, _⟩ => ⟨S50000x1x1, .f32⟩
  | .hbm, ⟨40, _⟩ => ⟨S32768x1x1, .f32⟩
  | .hbm, ⟨41, _⟩ => ⟨S32768, .f32⟩
  | .hbm, ⟨42, _⟩ => ⟨S16384x1x512, .f32⟩
  | .hbm, ⟨43, _⟩ => ⟨S50000x1x512, .f32⟩
  | .hbm, ⟨44, _⟩ => ⟨S50000x1x1, .f32⟩
  | .hbm, ⟨45, _⟩ => ⟨S32768x1x1, .f32⟩
  | .hbm, ⟨46, _⟩ => ⟨S32768, .f32⟩
  | .hbm, ⟨47, _⟩ => ⟨S16384x1x512, .f32⟩
  | .hbm, ⟨48, _⟩ => ⟨S50000x1x512, .f32⟩
  | .hbm, ⟨49, _⟩ => ⟨S50000x1x1, .f32⟩
  | .hbm, ⟨50, _⟩ => ⟨S32768x1x1, .f32⟩
  | .hbm, ⟨51, _⟩ => ⟨S32768, .f32⟩
  | .hbm, ⟨52, _⟩ => ⟨S16384x1x512, .f32⟩
  | .hbm, ⟨53, _⟩ => ⟨S50000x1x512, .f32⟩
  | .hbm, ⟨54, _⟩ => ⟨S50000x1x1, .f32⟩
  | .hbm, ⟨55, _⟩ => ⟨S32768x1x1, .f32⟩
  | .hbm, ⟨56, _⟩ => ⟨S32768, .f32⟩
  | .hbm, ⟨57, _⟩ => ⟨S16384x1x512, .f32⟩
  | .hbm, ⟨58, _⟩ => ⟨S50000x1x512, .f32⟩
  | .hbm, ⟨59, _⟩ => ⟨S50000x1x1, .f32⟩
  | .hbm, ⟨60, _⟩ => ⟨S32768x1x1, .f32⟩
  | .hbm, ⟨61, _⟩ => ⟨S32768, .f32⟩
  | .hbm, ⟨62, _⟩ => ⟨S16384x1x512, .f32⟩
  | .hbm, ⟨63, _⟩ => ⟨S50000x1x512, .f32⟩
  | .hbm, ⟨64, _⟩ => ⟨S50000x1x1, .f32⟩
  | .hbm, ⟨65, _⟩ => ⟨S32768x1x1, .f32⟩
  | .hbm, ⟨66, _⟩ => ⟨S32768, .f32⟩
  | .hbm, ⟨67, _⟩ => ⟨S16384x1x512, .f32⟩
  | .hbm, ⟨68, _⟩ => ⟨S50000x1x512, .f32⟩
  | .hbm, ⟨69, _⟩ => ⟨S50000x1x1, .f32⟩
  | .hbm, ⟨70, _⟩ => ⟨S32768x1x1, .f32⟩
  | .hbm, ⟨71, _⟩ => ⟨S32768, .f32⟩
  | .hbm, ⟨72, _⟩ => ⟨S16384x1x512, .f32⟩
  | .hbm, ⟨73, _⟩ => ⟨S50000x1x512, .f32⟩
  | .hbm, ⟨74, _⟩ => ⟨S50000x1x1, .f32⟩
  | .hbm, ⟨75, _⟩ => ⟨S32768x1x1, .f32⟩
  | .hbm, ⟨76, _⟩ => ⟨S32768, .f32⟩
  | .hbm, ⟨77, _⟩ => ⟨S262144, .f32⟩
  | .hbm, ⟨78, _⟩ => ⟨S262144, .f32⟩
  | .hbm, ⟨79, _⟩ => ⟨S262144, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S512x256, .f32⟩
  | .local _ .vmem, ⟨4, _⟩ => ⟨S1x256, .f32⟩
  | .local _ .vmem, ⟨5, _⟩ => ⟨S256x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x1, .f32⟩
  | .local _ .vmem, ⟨14, _⟩ => ⟨S1x1x1, .f32⟩
  | .local _ .vmem, ⟨15, _⟩ => ⟨S1x1x1, .f32⟩
  | .local _ .vmem, ⟨16, _⟩ => ⟨S1x1x1, .f32⟩
  | .local _ .vmem, ⟨17, _⟩ => ⟨S1x1x512, .f32⟩
  | .local _ .vmem, ⟨18, _⟩ => ⟨S1x1x512, .f32⟩
  | .local _ .vmem, ⟨19, _⟩ => ⟨S1x1x512, .f32⟩
  | .local _ .vmem, ⟨20, _⟩ => ⟨S1x1x512, .f32⟩
  | .local _ .vmem, ⟨21, _⟩ => ⟨S1x1x1, .f32⟩
  | .local _ .vmem, ⟨22, _⟩ => ⟨S1x1x1, .f32⟩
  | .local _ .vmem, ⟨23, _⟩ => ⟨S1x1x1, .f32⟩
  | .local _ .vmem, ⟨24, _⟩ => ⟨S1x1x1, .f32⟩
  | .local _ .vmem, ⟨25, _⟩ => ⟨S1x1x512, .f32⟩
  | .local _ .vmem, ⟨26, _⟩ => ⟨S1x1x512, .f32⟩
  | .local _ .vmem, ⟨27, _⟩ => ⟨S1x1x512, .f32⟩
  | .local _ .vmem, ⟨28, _⟩ => ⟨S1x1x512, .f32⟩
  | .local _ .vmem, ⟨29, _⟩ => ⟨S1x1x1, .f32⟩
  | .local _ .vmem, ⟨30, _⟩ => ⟨S1x1x1, .f32⟩
  | .local _ .vmem, ⟨31, _⟩ => ⟨S1x1x1, .f32⟩
  | .local _ .vmem, ⟨32, _⟩ => ⟨S1x1x1, .f32⟩
  | .local _ .vmem, ⟨33, _⟩ => ⟨S1x1x512, .f32⟩
  | .local _ .vmem, ⟨34, _⟩ => ⟨S1x1x512, .f32⟩
  | .local _ .vmem, ⟨35, _⟩ => ⟨S1x1x512, .f32⟩
  | .local _ .vmem, ⟨36, _⟩ => ⟨S1x1x512, .f32⟩
  | .local _ .vmem, ⟨37, _⟩ => ⟨S1x1x1, .f32⟩
  | .local _ .vmem, ⟨38, _⟩ => ⟨S1x1x1, .f32⟩
  | .local _ .vmem, ⟨39, _⟩ => ⟨S1x1x1, .f32⟩
  | .local _ .vmem, ⟨40, _⟩ => ⟨S1x1x1, .f32⟩
  | .local _ .vmem, ⟨41, _⟩ => ⟨S1x1x512, .f32⟩
  | .local _ .vmem, ⟨42, _⟩ => ⟨S1x1x512, .f32⟩
  | .local _ .vmem, ⟨43, _⟩ => ⟨S1x1x512, .f32⟩
  | .local _ .vmem, ⟨44, _⟩ => ⟨S1x1x512, .f32⟩
  | .local _ .vmem, ⟨45, _⟩ => ⟨S1x1x1, .f32⟩
  | .local _ .vmem, ⟨46, _⟩ => ⟨S1x1x1, .f32⟩
  | .local _ .vmem, ⟨47, _⟩ => ⟨S1x1x1, .f32⟩
  | .local _ .vmem, ⟨48, _⟩ => ⟨S1x1x1, .f32⟩
  | .local _ .vmem, ⟨49, _⟩ => ⟨S1x1x512, .f32⟩
  | .local _ .vmem, ⟨50, _⟩ => ⟨S1x1x512, .f32⟩
  | .local _ .vmem, ⟨51, _⟩ => ⟨S1x1x512, .f32⟩
  | .local _ .vmem, ⟨52, _⟩ => ⟨S1x1x512, .f32⟩
  | .local _ .vmem, ⟨53, _⟩ => ⟨S1x1x1, .f32⟩
  | .local _ .vmem, ⟨54, _⟩ => ⟨S1x1x1, .f32⟩
  | .local _ .vmem, ⟨55, _⟩ => ⟨S1x1x1, .f32⟩
  | .local _ .vmem, ⟨56, _⟩ => ⟨S1x1x1, .f32⟩
  | .local _ .vmem, ⟨57, _⟩ => ⟨S1x1x512, .f32⟩
  | .local _ .vmem, ⟨58, _⟩ => ⟨S1x1x512, .f32⟩
  | .local _ .vmem, ⟨59, _⟩ => ⟨S1x1x512, .f32⟩
  | .local _ .vmem, ⟨60, _⟩ => ⟨S1x1x512, .f32⟩
  | .local _ .vmem, ⟨61, _⟩ => ⟨S1x1x1, .f32⟩
  | .local _ .vmem, ⟨62, _⟩ => ⟨S1x1x1, .f32⟩
  | .local _ .vmem, ⟨63, _⟩ => ⟨S1x1x1, .f32⟩
  | .local _ .vmem, ⟨64, _⟩ => ⟨S1x1x1, .f32⟩
  | .local _ .vmem, ⟨65, _⟩ => ⟨S1x1x512, .f32⟩
  | .local _ .vmem, ⟨66, _⟩ => ⟨S1x1x512, .f32⟩
  | .local _ .vmem, ⟨67, _⟩ => ⟨S1x1x512, .f32⟩
  | .local _ .vmem, ⟨68, _⟩ => ⟨S1x1x512, .f32⟩
  | .local _ .vmem, ⟨69, _⟩ => ⟨S1x1x1, .f32⟩
  | .local _ .vmem, ⟨70, _⟩ => ⟨S1x1x1, .f32⟩
  | .local _ .vmem, ⟨71, _⟩ => ⟨S1x1x1, .f32⟩
  | .local _ .vmem, ⟨72, _⟩ => ⟨S1x1x1, .f32⟩
  | .local _ .smem, ⟨0, _⟩ => ⟨S32768, .i32⟩
  | .local _ .smem, ⟨1, _⟩ => ⟨S32768, .i32⟩
  | .local _ .smem, ⟨2, _⟩ => ⟨S32768, .i32⟩
  | .local _ .smem, ⟨3, _⟩ => ⟨S32768, .i32⟩
  | .local _ .smem, ⟨4, _⟩ => ⟨S32768, .i32⟩
  | .local _ .smem, ⟨5, _⟩ => ⟨S32768, .i32⟩
  | .local _ .smem, ⟨6, _⟩ => ⟨S32768, .i32⟩
  | .local _ .smem, ⟨7, _⟩ => ⟨S32768, .i32⟩
  | .local _ .smem, ⟨8, _⟩ => ⟨S32768, .i32⟩
  | .local _ .smem, ⟨9, _⟩ => ⟨S32768, .i32⟩
  | .local _ .smem, ⟨10, _⟩ => ⟨S32768, .i32⟩
  | .local _ .smem, ⟨11, _⟩ => ⟨S32768, .i32⟩
  | .local _ .smem, ⟨12, _⟩ => ⟨S32768, .i32⟩
  | .local _ .smem, ⟨13, _⟩ => ⟨S32768, .i32⟩
  | .local _ .smem, ⟨14, _⟩ => ⟨S32768, .i32⟩
  | .local _ .smem, ⟨15, _⟩ => ⟨S32768, .i32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | _, _ => false

abbrev semScoped : Fin 0 → Bool
  | ⟨_, h⟩ => absurd h (Nat.not_lt_zero _)

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  ofTc nBuf bufTy 0 73 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v71 : Ref sig .tc := ⟨.hbm, 72, rfl⟩
abbrev main_v72 : Ref sig .tc := ⟨.hbm, 73, rfl⟩
abbrev main_v73 : Ref sig .tc := ⟨.hbm, 74, rfl⟩
abbrev main_v74 : Ref sig .tc := ⟨.hbm, 75, rfl⟩
abbrev main_v75 : Ref sig .tc := ⟨.hbm, 76, rfl⟩
abbrev main_v76 : Ref sig .tc := ⟨.hbm, 77, rfl⟩
abbrev main_v77 : Ref sig .tc := ⟨.hbm, 78, rfl⟩
abbrev main_v78 : Ref sig .tc := ⟨.hbm, 79, rfl⟩
abbrev main_cst_1 : Ref sig .tc := ⟨.hbm, 80, rfl⟩
abbrev main_v79 : Ref sig .tc := ⟨.hbm, 81, rfl⟩
abbrev main_cst_2 : Ref sig .tc := ⟨.hbm, 82, rfl⟩
abbrev main_v80 : Ref sig .tc := ⟨.hbm, 83, rfl⟩
abbrev main_v20 : Ref sig .tc := ⟨.smem, 0, rfl⟩
abbrev main_v21 : Ref sig .tc := ⟨.smem, 1, rfl⟩
abbrev main_v27 : Ref sig .tc := ⟨.smem, 2, rfl⟩
abbrev main_v28 : Ref sig .tc := ⟨.smem, 3, rfl⟩
abbrev main_v34 : Ref sig .tc := ⟨.smem, 4, rfl⟩
abbrev main_v35 : Ref sig .tc := ⟨.smem, 5, rfl⟩
abbrev main_v41 : Ref sig .tc := ⟨.smem, 6, rfl⟩
abbrev main_v42 : Ref sig .tc := ⟨.smem, 7, rfl⟩
abbrev main_v48 : Ref sig .tc := ⟨.smem, 8, rfl⟩
abbrev main_v49 : Ref sig .tc := ⟨.smem, 9, rfl⟩
abbrev main_v55 : Ref sig .tc := ⟨.smem, 10, rfl⟩
abbrev main_v56 : Ref sig .tc := ⟨.smem, 11, rfl⟩
abbrev main_v62 : Ref sig .tc := ⟨.smem, 12, rfl⟩
abbrev main_v63 : Ref sig .tc := ⟨.smem, 13, rfl⟩
abbrev main_v69 : Ref sig .tc := ⟨.smem, 14, rfl⟩
abbrev main_v70 : Ref sig .tc := ⟨.smem, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg3_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg3_1 : Ref sig .tc := ⟨.vmem, 48, rfl⟩
abbrev cc6_stg0_0 : Ref sig .tc := ⟨.vmem, 49, rfl⟩
abbrev cc6_stg0_1 : Ref sig .tc := ⟨.vmem, 50, rfl⟩
abbrev cc6_stg1_0 : Ref sig .tc := ⟨.vmem, 51, rfl⟩
abbrev cc6_stg1_1 : Ref sig .tc := ⟨.vmem, 52, rfl⟩
abbrev cc6_stg2_0 : Ref sig .tc := ⟨.vmem, 53, rfl⟩
abbrev cc6_stg2_1 : Ref sig .tc := ⟨.vmem, 54, rfl⟩
abbrev cc6_stg3_0 : Ref sig .tc := ⟨.vmem, 55, rfl⟩
abbrev cc6_stg3_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg1_1 : Ref sig .tc := ⟨.vmem, 60, rfl⟩
abbrev cc7_stg2_0 : Ref sig .tc := ⟨.vmem, 61, rfl⟩
abbrev cc7_stg2_1 : Ref sig .tc := ⟨.vmem, 62, rfl⟩
abbrev cc7_stg3_0 : Ref sig .tc := ⟨.vmem, 63, rfl⟩
abbrev cc7_stg3_1 : Ref sig .tc := ⟨.vmem, 64, rfl⟩
abbrev cc8_stg0_0 : Ref sig .tc := ⟨.vmem, 65, rfl⟩
abbrev cc8_stg0_1 : Ref sig .tc := ⟨.vmem, 66, rfl⟩
abbrev cc8_stg1_0 : Ref sig .tc := ⟨.vmem, 67, rfl⟩
abbrev cc8_stg1_1 : Ref sig .tc := ⟨.vmem, 68, rfl⟩
abbrev cc8_stg2_0 : Ref sig .tc := ⟨.vmem, 69, rfl⟩
abbrev cc8_stg2_1 : Ref sig .tc := ⟨.vmem, 70, rfl⟩
abbrev cc8_stg3_0 : Ref sig .tc := ⟨.vmem, 71, rfl⟩
abbrev cc8_stg3_1 : Ref sig .tc := ⟨.vmem, 72, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem3_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem3_1 : DmaSem sig := 48
abbrev cc6_sem0_0 : DmaSem sig := 49
abbrev cc6_sem0_1 : DmaSem sig := 50
abbrev cc6_sem1_0 : DmaSem sig := 51
abbrev cc6_sem1_1 : DmaSem sig := 52
abbrev cc6_sem2_0 : DmaSem sig := 53
abbrev cc6_sem2_1 : DmaSem sig := 54
abbrev cc6_sem3_0 : DmaSem sig := 55
abbrev cc6_sem3_1 : DmaSem sig := 56
abbrev cc7_sem0_0 : DmaSem sig := 57
abbrev cc7_sem0_1 : DmaSem sig := 58
abbrev cc7_sem1_0 : DmaSem sig := 59
abbrev cc7_sem1_1 : DmaSem sig := 60
abbrev cc7_sem2_0 : DmaSem sig := 61
abbrev cc7_sem2_1 : DmaSem sig := 62
abbrev cc7_sem3_0 : DmaSem sig := 63
abbrev cc7_sem3_1 : DmaSem sig := 64
abbrev cc8_sem0_0 : DmaSem sig := 65
abbrev cc8_sem0_1 : DmaSem sig := 66
abbrev cc8_sem1_0 : DmaSem sig := 67
abbrev cc8_sem1_1 : DmaSem sig := 68
abbrev cc8_sem2_0 : DmaSem sig := 69
abbrev cc8_sem2_1 : DmaSem sig := 70
abbrev cc8_sem3_0 : DmaSem sig := 71
abbrev cc8_sem3_1 : DmaSem sig := 72

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32768], ![false]⟩

abbrev pre1 : Pipeline.Prefetch sig := ⟨2, ![main_v20.idx, main_v21.idx], fun | 0 => main_v20.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (k1_off1_inb : ∀ i : grid1.Coords, ∀ a, (k1_off1 i) a + S1.size a ≤ S32768.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (k1_off1_inb : ∀ i : grid1.Coords, ∀ a, (k1_off1 i) a + S1.size a ≤ S32768.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S32768.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32768], ![false]⟩

abbrev pre2 : Pipeline.Prefetch sig := ⟨2, ![main_v27.idx, main_v28.idx], fun | 0 => main_v27.names | 1 => main_v28.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def cc2_transform_0 (k2_off1_inb : ∀ i : grid2.Coords, ∀ a, (k2_off1 i) a + S1.size a ≤ S32768.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_1 (k2_off1_inb : ∀ i : grid2.Coords, ∀ a, (k2_off1 i) a + S1.size a ≤ S32768.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_2 (k2_off1_inb : ∀ i : grid2.Coords, ∀ a, (k2_off1 i) a + S1.size a ≤ S32768.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32768], ![false]⟩

abbrev pre3 : Pipeline.Prefetch sig := ⟨2, ![main_v34.idx, main_v35.idx], fun | 0 => main_v34.names | 1 => main_v35.names | ⟨_ + 2, h⟩ => absurd h (Nat.not_lt.2 (Nat.le_add_left _ _)), fun | 0 => rfl | 1 => rfl | ⟨_ + 2, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def cc3_transform_0 (k3_off1_inb : ∀ i : grid3.Coords, ∀ a, (k3_off1 i) a + S1.size a ≤ S32768.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_1 (k3_off1_inb : ∀ i : grid3.Coords, ∀ a, (k3_off1 i) a + S1.size a ≤ S32768.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_2 (k3_off1_inb : ∀ i : grid3.Coords, ∀ a, (k3_off1 i) a + S1.size a ≤ S32768.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![32768], ![false]⟩

abbrev pre4 : Pipeline.Prefetch sig := ⟨2, ![main_v41.idx, main_v42.idx], fun | 0 => main_v41.names | 1 => main_v42.names | ⟨_ + 2, h⟩ => absurd h (Nat.not_lt.2 (Nat.le_add_left _ _)), fun | 0 => rfl | 1 => rfl | ⟨_ + 2, h⟩ => absurd h (Nat.not_lt.2 (Nat.le_add_left _ _))⟩

def k4_off1 (i : grid4.Coords) : Fin 1 → Nat :=
  let arg0 : BitVec 32 := BitVec.ofNat 32 (i 0).val
  let v0 : Index := Scalar.indexCast arg0
  ![v0.toNat]
def cc4_transform_0 (k4_off1_inb : ∀ i : grid4.Coords, ∀ a, (k4_off1 i) a + S1.size a ≤ S32768.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_1 (k4_off1_inb : ∀ i : grid4.Coords, ∀ a, (k4_off1 i) a + S1.size a ≤ S32768.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_2 (k4_off1_inb : ∀ i : grid4.Coords, ∀ a, (k4_off1 i) a + S1.size a ≤ S32768.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x1x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x1x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![32768], ![false]⟩

abbrev pre5 : Pipeline.Prefetch sig := ⟨2, ![main_v48.idx, main_v49.idx], fun | 0 => main_v48.names | 1 => main_v49.names | ⟨_ + 2, h⟩ => absurd h (Nat.not_lt.2 (Nat.le_add_left _ _)), fun | 0 => rfl | 1 => rfl | ⟨_ + 2, h⟩ => absurd h (Nat.not_lt.2 (Nat.le_add_left _ _))⟩

def k5_off1 (i : grid5.Coords) : Fin 1 → Nat :=
  let arg0 : BitVec 32 := BitVec.ofNat 32 (i 0).val
  let v0 : Index := Scalar.indexCast arg0
  ![v0.toNat]
def cc5_transform_0 (k5_off1_inb : ∀ i : grid5.Coords, ∀ a, (k5_off1 i) a + S1.size a ≤ S32768.size a) (numel1_S1 : S1.numel = 1) (pf : pre5.Contents (Elt F)) (i : grid5.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k5_off1_inb i)) numel1_S1
  let c0_i32 : BitVec 32 := 0#32
  let c0_i32_0 : BitVec 32 := 0#32
  let c0_i32_1 : BitVec 32 := 0#32
  ![v1.toNat, c0_i32.toNat, c0_i32_0.toNat]

def cc5_transform_1 (k5_off1_inb : ∀ i : grid5.Coords, ∀ a, (k5_off1 i) a + S1.size a ≤ S32768.size a) (numel1_S1 : S1.numel = 1) (pf : pre5.Contents (Elt F)) (i : grid5.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k5_off1_inb i)) numel1_S1
  let c0_i32 : BitVec 32 := 0#32
  let c0_i32_0 : BitVec 32 := 0#32
  let c0_i32_1 : BitVec 32 := 0#32
  ![v1.toNat, c0_i32.toNat, c0_i32_0.toNat]

def cc5_transform_2 (k5_off1_inb : ∀ i : grid5.Coords, ∀ a, (k5_off1 i) a + S1.size a ≤ S32768.size a) (numel1_S1 : S1.numel = 1) (pf : pre5.Contents (Elt F)) (i : grid5.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k5_off1_inb i)) numel1_S1
  let c0_i32 : BitVec 32 := 0#32
  let c0_i32_0 : BitVec 32 := 0#32
  let c0_i32_1 : BitVec 32 := 0#32
  ![v1.toNat, c0_i32.toNat, c0_i32_0.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x1x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x1x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x1x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1x1x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![32768], ![false]⟩

abbrev pre6 : Pipeline.Prefetch sig := ⟨2, ![main_v55.idx, main_v56.idx], fun | 0 => main_v55.names | 1 => main_v56.names | ⟨_ + 2, h⟩ => absurd h (Nat.not_lt.2 (Nat.le_add_left _ _)), fun | 0 => rfl | 1 => rfl | ⟨_ + 2, h⟩ => absurd h (Nat.not_lt.2 (Nat.le_add_left _ _))⟩

def k6_off1 (i : grid6.Coords) : Fin 1 → Nat :=
  let arg0 : BitVec 32 := BitVec.ofNat 32 (i 0).val
  let v0 : Index := Scalar.indexCast arg0
  ![v0.toNat]
def cc6_transform_0 (k6_off1_inb : ∀ i : grid6.Coords, ∀ a, (k6_off1 i) a + S1.size a ≤ S32768.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_1 (k6_off1_inb : ∀ i : grid6.Coords, ∀ a, (k6_off1 i) a + S1.size a ≤ S32768.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_2 (k6_off1_inb : ∀ i : grid6.Coords, ∀ a, (k6_off1 i) a + S1.size a ≤ S32768.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x1x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1x1x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![32768], ![false]⟩

abbrev pre7 : Pipeline.Prefetch sig := ⟨2, ![main_v62.idx, main_v63.idx], fun | 0 => main_v62.names | 1 => main_v63.names | ⟨_ + 2, h⟩ => absurd h (Nat.not_lt.2 (Nat.le_add_left _ _)), fun | 0 => rfl | 1 => rfl | ⟨_ + 2, h⟩ => absurd h (Nat.not_lt.2 (Nat.le_add_left _ _))⟩

def k7_off1 (i : grid7.Coords) : Fin 1 → Nat :=
  let arg0 : BitVec 32 := BitVec.ofNat 32 (i 0).val
  let v0 : Index := Scalar.indexCast arg0
  ![v0.toNat]
def cc7_transform_0 (k7_off1_inb : ∀ i : grid7.Coords, ∀ a, (k7_off1 i) a + S1.size a ≤ S32768.size a) (numel1_S1 : S1.numel = 1) (pf : pre7.Contents (Elt F)) (i : grid7.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k7_off1_inb i)) numel1_S1
  let c0_i32 : BitVec 32 := 0#32
  let c0_i32_0 : BitVec 32 := 0#32
  let c0_i32_1 : BitVec 32 := 0#32
  ![v1.toNat, c0_i32.toNat, c0_i32_0.toNat]

def cc7_transform_1 (k7_off1_inb : ∀ i : grid7.Coords, ∀ a, (k7_off1 i) a + S1.size a ≤ S32768.size a) (numel1_S1 : S1.numel = 1) (pf : pre7.Contents (Elt F)) (i : grid7.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k7_off1_inb i)) numel1_S1
  let c0_i32 : BitVec 32 := 0#32
  let c0_i32_0 : BitVec 32 := 0#32
  let c0_i32_1 : BitVec 32 := 0#32
  ![v1.toNat, c0_i32.toNat, c0_i32_0.toNat]

def cc7_transform_2 (k7_off1_inb : ∀ i : grid7.Coords, ∀ a, (k7_off1 i) a + S1.size a ≤ S32768.size a) (numel1_S1 : S1.numel = 1) (pf : pre7.Contents (Elt F)) (i : grid7.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k7_off1_inb i)) numel1_S1
  let c0_i32 : BitVec 32 := 0#32
  let c0_i32_0 : BitVec 32 := 0#32
  let c0_i32_1 : BitVec 32 := 0#32
  ![v1.toNat, c0_i32.toNat, c0_i32_0.toNat]

def cc7_transform_3 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x1x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x1x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1x1x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S1x1x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![32768], ![false]⟩

abbrev pre8 : Pipeline.Prefetch sig := ⟨2, ![main_v69.idx, main_v70.idx], fun | 0 => main_v69.names | 1 => main_v70.names | ⟨_ + 2, h⟩ => absurd h (Nat.not_lt.2 (Nat.le_add_left _ _)), fun | 0 => rfl | 1 => rfl | ⟨_ + 2, h⟩ => absurd h (Nat.not_lt.2 (Nat.le_add_left _ _))⟩

def k8_off1 (i : grid8.Coords) : Fin 1 → Nat :=
  let arg0 : BitVec 32 := BitVec.ofNat 32 (i 0).val
  let v0 : Index := Scalar.indexCast arg0
  ![v0.toNat]
def cc8_transform_0 (k8_off1_inb : ∀ i : grid8.Coords, ∀ a, (k8_off1 i) a + S1.size a ≤ S32768.size a) (numel1_S1 : S1.numel = 1) (pf : pre8.Contents (Elt F)) (i : grid8.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k8_off1_inb i)) numel1_S1
  let c0_i32 : BitVec 32 := 0#32
  let c0_i32_0 : BitVec 32 := 0#32
  let c0_i32_1 : BitVec 32 := 0#32
  ![v1.toNat, c0_i32.toNat, c0_i32_0.toNat]

def cc8_transform_1 (k8_off1_inb : ∀ i : grid8.Coords, ∀ a, (k8_off1 i) a + S1.size a ≤ S32768.size a) (numel1_S1 : S1.numel = 1) (pf : pre8.Contents (Elt F)) (i : grid8.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k8_off1_inb i)) numel1_S1
  let c0_i32 : BitVec 32 := 0#32
  let c0_i32_0 : BitVec 32 := 0#32
  let c0_i32_1 : BitVec 32 := 0#32
  ![v1.toNat, c0_i32.toNat, c0_i32_0.toNat]

def cc8_transform_2 (k8_off1_inb : ∀ i : grid8.Coords, ∀ a, (k8_off1 i) a + S1.size a ≤ S32768.size a) (numel1_S1 : S1.numel = 1) (pf : pre8.Contents (Elt F)) (i : grid8.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k8_off1_inb i)) numel1_S1
  let c0_i32 : BitVec 32 := 0#32
  let c0_i32_0 : BitVec 32 := 0#32
  let c0_i32_1 : BitVec 32 := 0#32
  ![v1.toNat, c0_i32.toNat, c0_i32_0.toNat]

def cc8_transform_3 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x1x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x1x512 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1x1x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S1x1x1 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  transposes_S512x50000_S50000x512_1_0 : S512x50000.Transposes [1, 0] S50000x512
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x512_0_1 : S262144x1.BroadcastsInDim S262144x512 (![0, 1] : Fin 2 → Fin S262144x512.rank)
  bcast_S_S16384x512 : S_.BroadcastsInDim S16384x512 (![] : Fin 0 → Fin S16384x512.rank)
  transposes_S256x512_S512x256_1_0 : S256x512.Transposes [1, 0] S512x256
  transposes_S512x256_S256x512_1_0 : S512x256.Transposes [1, 0] S256x512
  shapeCasts_S512_S1x512 : S512.ShapeCasts S1x512
  shapeCasts_S256_S1x256 : S256.ShapeCasts S1x256
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  slices_S262144_S32768_0 : S262144.Slices ![0] S32768
  shapeCasts_S16384x512_S16384x1x512 : S16384x512.ShapeCasts S16384x1x512
  shapeCasts_S50000x512_S50000x1x512 : S50000x512.ShapeCasts S50000x1x512
  shapeCasts_S50000_S50000x1x1 : S50000.ShapeCasts S50000x1x1
  numel1_S1 : S1.numel = 1
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  reduces_S1x1x512_S1x1 : S1x1x512.Reduces [2] S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  shapeCasts_S32768x1x1_S32768 : S32768x1x1.ShapeCasts S32768
  slices_S262144_S32768_32768 : S262144.Slices ![32768] S32768
  slices_S262144_S32768_65536 : S262144.Slices ![65536] S32768
  slices_S262144_S32768_98304 : S262144.Slices ![98304] S32768
  slices_S262144_S32768_131072 : S262144.Slices ![131072] S32768
  slices_S262144_S32768_163840 : S262144.Slices ![163840] S32768
  slices_S262144_S32768_196608 : S262144.Slices ![196608] S32768
  slices_S262144_S32768_229376 : S262144.Slices ![229376] S32768
  concatenates_S32768_S32768_S32768_S32768_S32768_S32768_S32768_S32768_S262144_d0 : Shape.Concatenates [S32768, S32768, S32768, S32768, S32768, S32768, S32768, S32768] S262144 0
  reducesTo_S262144_S_d0 : S262144.ReducesTo [0] S_
  h_S_ : 0 < S_.numel
  gather_S50000x512_S262144x1_S262144x512_1_0_n_n_0_1_1512_wf : GatherDims.WF S50000x512 S262144x1 S262144x512 [1] [0] [] [0] [] 1 ![1, 512]
  scatter_S16384x512_S262144x1_S262144x512_1_0_0_1_wf : ScatterDims.WF S16384x512 S262144x1 S262144x512 [1] [0] [0] 1
  dot_S1024x512_S512x256_S1024x256_1_0_0_1_n_n_wf : DotDims.WF S1024x512 S512x256 S1024x256 [1] [0] [0] [1] [] []
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .f32 = 32 ∨ (Rect.block (s := S256x512) S256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S16384x512.size a
  hwx0_6 : ∀ i : grid0.Coords, EltTy.bits .f32 = 32 ∨ (Rect.block (s := S16384x512) S1024x512.size (cc0_transform_6 i) (hinb0_6 i)).WholeWords (EltTy.packing .f32)
  hrank1 : 0 < grid1.rank
  k1_off1_inb : ∀ i : grid1.Coords, ∀ a, (k1_off1 i) a + S1.size a ≤ S32768.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S32768x1x1.size a
  hwx1_3 : ∀ i : grid1.Coords, EltTy.bits .f32 = 32 ∨ (Rect.block (s := S32768x1x1) S1x1x1.size (cc1_transform_3 i) (hinb1_3 i)).WholeWords (EltTy.packing .f32)
  hrank2 : 0 < grid2.rank
  k2_off1_inb : ∀ i : grid2.Coords, ∀ a, (k2_off1 i) a + S1.size a ≤ S32768.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ {F : FTy → Type} [FloatOps F] (pf : pre2.Contents (Elt F)) (i i' : grid2.Coords), (∀ a, reads2_1 a = true → i a = i' a) → cc2_transform_1 k2_off1_inb numel1_S1 pf i = cc2_transform_1 k2_off1_inb numel1_S1 pf i'
  hstage2_2 : ∀ j, (stage2_2 j).IsWhole
  nbuf2_2 : grid2.bufCount reads2_2 false = 2
  hreads2_2 : ∀ {F : FTy → Type} [FloatOps F] (pf : pre2.Contents (Elt F)) (i i' : grid2.Coords), (∀ a, reads2_2 a = true → i a = i' a) → cc2_transform_2 k2_off1_inb numel1_S1 pf i = cc2_transform_2 k2_off1_inb numel1_S1 pf i'
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x1.size a ≤ S32768x1x1.size a
  hwx2_3 : ∀ i : grid2.Coords, EltTy.bits .f32 = 32 ∨ (Rect.block (s := S32768x1x1) S1x1x1.size (cc2_transform_3 i) (hinb2_3 i)).WholeWords (EltTy.packing .f32)
  hrank3 : 0 < grid3.rank
  k3_off1_inb : ∀ i : grid3.Coords, ∀ a, (k3_off1 i) a + S1.size a ≤ S32768.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ {F : FTy → Type} [FloatOps F] (pf : pre3.Contents (Elt F)) (i i' : grid3.Coords), (∀ a, reads3_1 a = true → i a = i' a) → cc3_transform_1 k3_off1_inb numel1_S1 pf i = cc3_transform_1 k3_off1_inb numel1_S1 pf i'
  hstage3_2 : ∀ j, (stage3_2 j).IsWhole
  nbuf3_2 : grid3.bufCount reads3_2 false = 2
  hreads3_2 : ∀ {F : FTy → Type} [FloatOps F] (pf : pre3.Contents (Elt F)) (i i' : grid3.Coords), (∀ a, reads3_2 a = true → i a = i' a) → cc3_transform_2 k3_off1_inb numel1_S1 pf i = cc3_transform_2 k3_off1_inb numel1_S1 pf i'
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x1.size a ≤ S32768x1x1.size a
  hwx3_3 : ∀ i : grid3.Coords, EltTy.bits .f32 = 32 ∨ (Rect.block (s := S32768x1x1) S1x1x1.size (cc3_transform_3 i) (hinb3_3 i)).WholeWords (EltTy.packing .f32)
  hrank4 : 0 < grid4.rank
  k4_off1_inb : ∀ i : grid4.Coords, ∀ a, (k4_off1 i) a + S1.size a ≤ S32768.size a
  hstage4_0 : ∀ j, (stage4_0 j).IsWhole
  nbuf4_0 : grid4.bufCount reads4_0 false = 2
  hreads4_0 : ∀ {F : FTy → Type} [FloatOps F] (pf : pre4.Contents (Elt F)) (i i' : grid4.Coords), (∀ a, reads4_0 a = true → i a = i' a) → cc4_transform_0 k4_off1_inb numel1_S1 pf i = cc4_transform_0 k4_off1_inb numel1_S1 pf i'
  hstage4_1 : ∀ j, (stage4_1 j).IsWhole
  nbuf4_1 : grid4.bufCount reads4_1 false = 2
  hreads4_1 : ∀ {F : FTy → Type} [FloatOps F] (pf : pre4.Contents (Elt F)) (i i' : grid4.Coords), (∀ a, reads4_1 a = true → i a = i' a) → cc4_transform_1 k4_off1_inb numel1_S1 pf i = cc4_transform_1 k4_off1_inb numel1_S1 pf i'
  hstage4_2 : ∀ j, (stage4_2 j).IsWhole
  nbuf4_2 : grid4.bufCount reads4_2 false = 2
  hreads4_2 : ∀ {F : FTy → Type} [FloatOps F] (pf : pre4.Contents (Elt F)) (i i' : grid4.Coords), (∀ a, reads4_2 a = true → i a = i' a) → cc4_transform_2 k4_off1_inb numel1_S1 pf i = cc4_transform_2 k4_off1_inb numel1_S1 pf i'
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1x1.size a ≤ S32768x1x1.size a
  hwx4_3 : ∀ i : grid4.Coords, EltTy.bits .f32 = 32 ∨ (Rect.block (s := S32768x1x1) S1x1x1.size (cc4_transform_3 i) (hinb4_3 i)).WholeWords (EltTy.packing .f32)
  hrank5 : 0 < grid5.rank
  k5_off1_inb : ∀ i : grid5.Coords, ∀ a, (k5_off1 i) a + S1.size a ≤ S32768.size a
  hstage5_0 : ∀ j, (stage5_0 j).IsWhole
  nbuf5_0 : grid5.bufCount reads5_0 false = 2
  hreads5_0 : ∀ {F : FTy → Type} [FloatOps F] (pf : pre5.Contents (Elt F)) (i i' : grid5.Coords), (∀ a, reads5_0 a = true → i a = i' a) → cc5_transform_0 k5_off1_inb numel1_S1 pf i = cc5_transform_0 k5_off1_inb numel1_S1 pf i'
  hstage5_1 : ∀ j, (stage5_1 j).IsWhole
  nbuf5_1 : grid5.bufCount reads5_1 false = 2
  hreads5_1 : ∀ {F : FTy → Type} [FloatOps F] (pf : pre5.Contents (Elt F)) (i i' : grid5.Coords), (∀ a, reads5_1 a = true → i a = i' a) → cc5_transform_1 k5_off1_inb numel1_S1 pf i = cc5_transform_1 k5_off1_inb numel1_S1 pf i'
  hstage5_2 : ∀ j, (stage5_2 j).IsWhole
  nbuf5_2 : grid5.bufCount reads5_2 false = 2
  hreads5_2 : ∀ {F : FTy → Type} [FloatOps F] (pf : pre5.Contents (Elt F)) (i i' : grid5.Coords), (∀ a, reads5_2 a = true → i a = i' a) → cc5_transform_2 k5_off1_inb numel1_S1 pf i = cc5_transform_2 k5_off1_inb numel1_S1 pf i'
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x1x1.size a ≤ S32768x1x1.size a
  hwx5_3 : ∀ i : grid5.Coords, EltTy.bits .f32 = 32 ∨ (Rect.block (s := S32768x1x1) S1x1x1.size (cc5_transform_3 i) (hinb5_3 i)).WholeWords (EltTy.packing .f32)
  hrank6 : 0 < grid6.rank
  k6_off1_inb : ∀ i : grid6.Coords, ∀ a, (k6_off1 i) a + S1.size a ≤ S32768.size a
  hstage6_0 : ∀ j, (stage6_0 j).IsWhole
  nbuf6_0 : grid6.bufCount reads6_0 false = 2
  hreads6_0 : ∀ {F : FTy → Type} [FloatOps F] (pf : pre6.Contents (Elt F)) (i i' : grid6.Coords), (∀ a, reads6_0 a = true → i a = i' a) → cc6_transform_0 k6_off1_inb numel1_S1 pf i = cc6_transform_0 k6_off1_inb numel1_S1 pf i'
  hstage6_1 : ∀ j, (stage6_1 j).IsWhole
  nbuf6_1 : grid6.bufCount reads6_1 false = 2
  hreads6_1 : ∀ {F : FTy → Type} [FloatOps F] (pf : pre6.Contents (Elt F)) (i i' : grid6.Coords), (∀ a, reads6_1 a = true → i a = i' a) → cc6_transform_1 k6_off1_inb numel1_S1 pf i = cc6_transform_1 k6_off1_inb numel1_S1 pf i'
  hstage6_2 : ∀ j, (stage6_2 j).IsWhole
  nbuf6_2 : grid6.bufCount reads6_2 false = 2
  hreads6_2 : ∀ {F : FTy → Type} [FloatOps F] (pf : pre6.Contents (Elt F)) (i i' : grid6.Coords), (∀ a, reads6_2 a = true → i a = i' a) → cc6_transform_2 k6_off1_inb numel1_S1 pf i = cc6_transform_2 k6_off1_inb numel1_S1 pf i'
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1x1x1.size a ≤ S32768x1x1.size a
  hwx6_3 : ∀ i : grid6.Coords, EltTy.bits .f32 = 32 ∨ (Rect.block (s := S32768x1x1) S1x1x1.size (cc6_transform_3 i) (hinb6_3 i)).WholeWords (EltTy.packing .f32)
  hrank7 : 0 < grid7.rank
  k7_off1_inb : ∀ i : grid7.Coords, ∀ a, (k7_off1 i) a + S1.size a ≤ S32768.size a
  hstage7_0 : ∀ j, (stage7_0 j).IsWhole
  nbuf7_0 : grid7.bufCount reads7_0 false = 2
  hreads7_0 : ∀ {F : FTy → Type} [FloatOps F] (pf : pre7.Contents (Elt F)) (i i' : grid7.Coords), (∀ a, reads7_0 a = true → i a = i' a) → cc7_transform_0 k7_off1_inb numel1_S1 pf i = cc7_transform_0 k7_off1_inb numel1_S1 pf i'
  hstage7_1 : ∀ j, (stage7_1 j).IsWhole
  nbuf7_1 : grid7.bufCount reads7_1 false = 2
  hreads7_1 : ∀ {F : FTy → Type} [FloatOps F] (pf : pre7.Contents (Elt F)) (i i' : grid7.Coords), (∀ a, reads7_1 a = true → i a = i' a) → cc7_transform_1 k7_off1_inb numel1_S1 pf i = cc7_transform_1 k7_off1_inb numel1_S1 pf i'
  hstage7_2 : ∀ j, (stage7_2 j).IsWhole
  nbuf7_2 : grid7.bufCount reads7_2 false = 2
  hreads7_2 : ∀ {F : FTy → Type} [FloatOps F] (pf : pre7.Contents (Elt F)) (i i' : grid7.Coords), (∀ a, reads7_2 a = true → i a = i' a) → cc7_transform_2 k7_off1_inb numel1_S1 pf i = cc7_transform_2 k7_off1_inb numel1_S1 pf i'
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1x1x1.size a ≤ S32768x1x1.size a
  hwx7_3 : ∀ i : grid7.Coords, EltTy.bits .f32 = 32 ∨ (Rect.block (s := S32768x1x1) S1x1x1.size (cc7_transform_3 i) (hinb7_3 i)).WholeWords (EltTy.packing .f32)
  hrank8 : 0 < grid8.rank
  k8_off1_inb : ∀ i : grid8.Coords, ∀ a, (k8_off1 i) a + S1.size a ≤ S32768.size a
  hstage8_0 : ∀ j, (stage8_0 j).IsWhole
  nbuf8_0 : grid8.bufCount reads8_0 false = 2
  hreads8_0 : ∀ {F : FTy → Type} [FloatOps F] (pf : pre8.Contents (Elt F)) (i i' : grid8.Coords), (∀ a, reads8_0 a = true → i a = i' a) → cc8_transform_0 k8_off1_inb numel1_S1 pf i = cc8_transform_0 k8_off1_inb numel1_S1 pf i'
  hstage8_1 : ∀ j, (stage8_1 j).IsWhole
  nbuf8_1 : grid8.bufCount reads8_1 false = 2
  hreads8_1 : ∀ {F : FTy → Type} [FloatOps F] (pf : pre8.Contents (Elt F)) (i i' : grid8.Coords), (∀ a, reads8_1 a = true → i a = i' a) → cc8_transform_1 k8_off1_inb numel1_S1 pf i = cc8_transform_1 k8_off1_inb numel1_S1 pf i'
  hstage8_2 : ∀ j, (stage8_2 j).IsWhole
  nbuf8_2 : grid8.bufCount reads8_2 false = 2
  hreads8_2 : ∀ {F : FTy → Type} [FloatOps F] (pf : pre8.Contents (Elt F)) (i i' : grid8.Coords), (∀ a, reads8_2 a = true → i a = i' a) → cc8_transform_2 k8_off1_inb numel1_S1 pf i = cc8_transform_2 k8_off1_inb numel1_S1 pf i'
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1x1x1.size a ≤ S32768x1x1.size a
  hwx8_3 : ∀ i : grid8.Coords, EltTy.bits .f32 = 32 ∨ (Rect.block (s := S32768x1x1) S1x1x1.size (cc8_transform_3 i) (hinb8_3 i)).WholeWords (EltTy.packing .f32)

variable [Facts₀]

def gather_S50000x512_S262144x1_S262144x512_1_0_n_n_0_1_1512 : GatherDims S50000x512 S262144x1 S262144x512 where
  offsetDims := [1]
  collapsedSliceDims := [0]
  operandBatchingDims := []
  startIndicesBatchingDims := []
  startIndexMap := [0]
  indexVectorDim := 1
  sliceSizes := ![1, 512]
  wf := gather_S50000x512_S262144x1_S262144x512_1_0_n_n_0_1_1512_wf
def scatter_S16384x512_S262144x1_S262144x512_1_0_0_1 : ScatterDims S16384x512 S262144x1 S262144x512 where
  updateWindowDims := [1]
  insertedWindowDims := [0]
  scatterDimsToOperandDims := [0]
  indexVectorDim := 1
  wf := scatter_S16384x512_S262144x1_S262144x512_1_0_0_1_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_v13) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev spec1_0 : Pipeline.WinSpec sig grid1.rank :=
  Pipeline.WinSpec.ofSpec (Memref.whole main_v22) S1x1x512.size reads1_0 false false 2 stage1_0 sem1_0 nbuf1_0 hstage1_0

abbrev spec1_1 : Pipeline.WinSpec sig grid1.rank :=
  Pipeline.WinSpec.ofSpec (Memref.whole main_v23) S1x1x512.size reads1_1 false false 2 stage1_1 sem1_1 nbuf1_1 hstage1_1

abbrev spec1_2 : Pipeline.WinSpec sig grid1.rank :=
  Pipeline.WinSpec.ofSpec (Memref.whole main_v24) S1x1x1.size reads1_2 false false 2 stage1_2 sem1_2 nbuf1_2 hstage1_2

abbrev spec1_3 : Pipeline.WinSpec sig grid1.rank :=
  Pipeline.WinSpec.ofSpec (Memref.whole main_v25) S1x1x1.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x512.size a ≤ S16384x1x512.size a), EltTy.bits .f32 = 32 ∨ (Rect.block (s := S16384x1x512) S1x1x512.size (cc1_transform_0 k1_off1_inb numel1_S1 pf i) h).WholeWords (EltTy.packing .f32)) ∧
  (∀ i : grid1.Coords, ∃ h : (∀ a, (cc1_transform_1 k1_off1_inb numel1_S1 pf i a + 1) * S1x1x512.size a ≤ S50000x1x512.size a), EltTy.bits .f32 = 32 ∨ (Rect.block (s := S50000x1x512) S1x1x512.size (cc1_transform_1 k1_off1_inb numel1_S1 pf i) h).WholeWords (EltTy.packing .f32)) ∧
  (∀ i : grid1.Coords, ∃ h : (∀ a, (cc1_transform_2 k1_off1_inb numel1_S1 pf i a + 1) * S1x1x1.size a ≤ S50000x1x1.size a), EltTy.bits .f32 = 32 ∨ (Rect.block (s := S50000x1x1) S1x1x1.size (cc1_transform_2 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2 i).elim fun h _ => h a | 3 => hinb1_3 | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2 i).elim fun _ h => h | 3 => hwx1_3 | ⟨_ + 4, h⟩ => absurd h (Nat.not_lt.2 (Nat.le_add_left _ _))
abbrev spec2_0 : Pipeline.WinSpec sig grid2.rank :=
  Pipeline.WinSpec.ofSpec (Memref.whole main_v29) S1x1x512.size reads2_0 false false 2 stage2_0 sem2_0 nbuf2_0 hstage2_0

abbrev spec2_1 : Pipeline.WinSpec sig grid2.rank :=
  Pipeline.WinSpec.ofSpec (Memref.whole main_v30) S1x1x512.size reads2_1 false false 2 stage2_1 sem2_1 nbuf2_1 hstage2_1

abbrev spec2_2 : Pipeline.WinSpec sig grid2.rank :=
  Pipeline.WinSpec.ofSpec (Memref.whole main_v31) S1x1x1.size reads2_2 false false 2 stage2_2 sem2_2 nbuf2_2 hstage2_2

abbrev spec2_3 : Pipeline.WinSpec sig grid2.rank :=
  Pipeline.WinSpec.ofSpec (Memref.whole main_v32) S1x1x1.size reads2_3 true false 2 stage2_3 sem2_3 nbuf2_3 hstage2_3

abbrev spec2 : Fin 4 → Pipeline.WinSpec sig grid2.rank := fun | 0 => spec2_0 | 1 => spec2_1 | 2 => spec2_2 | 3 => spec2_3 | ⟨_ + 4, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | 3 => nbuf2_3 | ⟨_ + 4, h⟩ => absurd h (Nat.not_lt.2 (Nat.le_add_left _ _))
abbrev ix2 (pf : pre2.Contents (Elt F)) : (w : Fin 4) → grid2.Coords → Fin (spec2 w).shape.rank → Nat := fun | 0 => cc2_transform_0 k2_off1_inb numel1_S1 pf | 1 => cc2_transform_1 k2_off1_inb numel1_S1 pf | 2 => cc2_transform_2 k2_off1_inb numel1_S1 pf | 3 => cc2_transform_3 | ⟨_ + 4, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 pf | 2 => hreads2_2 pf | 3 => hreads2_3 | ⟨_ + 4, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x1x512.size a ≤ S16384x1x512.size a), EltTy.bits .f32 = 32 ∨ (Rect.block (s := S16384x1x512) S1x1x512.size (cc2_transform_0 k2_off1_inb numel1_S1 pf i) h).WholeWords (EltTy.packing .f32)) ∧
  (∀ i : grid2.Coords, ∃ h : (∀ a, (cc2_transform_1 k2_off1_inb numel1_S1 pf i a + 1) * S1x1x512.size a ≤ S50000x1x512.size a), EltTy.bits .f32 = 32 ∨ (Rect.block (s := S50000x1x512) S1x1x512.size (cc2_transform_1 k2_off1_inb numel1_S1 pf i) h).WholeWords (EltTy.packing .f32)) ∧
  (∀ i : grid2.Coords, ∃ h : (∀ a, (cc2_transform_2 k2_off1_inb numel1_S1 pf i a + 1) * S1x1x1.size a ≤ S50000x1x1.size a), EltTy.bits .f32 = 32 ∨ (Rect.block (s := S50000x1x1) S1x1x1.size (cc2_transform_2 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok.1 i).elim fun h _ => h a | 1 => fun i a => (hok.2.1 i).elim fun h _ => h a | 2 => fun i a => (hok.2.2 i).elim fun h _ => h a | 3 => hinb2_3 | ⟨_ + 4, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok.1 i).elim fun _ h => h | 1 => fun i => (hok.2.1 i).elim fun _ h => h | 2 => fun i => (hok.2.2 i).elim fun _ h => h | 3 => hwx2_3 | ⟨_ + 4, h⟩ => absurd h (Nat.not_lt.2 (Nat.le_add_left _ _))
abbrev spec3_0 : Pipeline.WinSpec sig grid3.rank :=
  Pipeline.WinSpec.ofSpec (Memref.whole main_v36) S1x1x512.size reads3_0 false false 2 stage3_0 sem3_0 nbuf3_0 hstage3_0

abbrev spec3_1 : Pipeline.WinSpec sig grid3.rank :=
  Pipeline.WinSpec.ofSpec (Memref.whole main_v37) S1x1x512.size reads3_1 false false 2 stage3_1 sem3_1 nbuf3_1 hstage3_1

abbrev spec3_2 : Pipeline.WinSpec sig grid3.rank :=
  Pipeline.WinSpec.ofSpec (Memref.whole main_v38) S1x1x1.size reads3_2 false false 2 stage3_2 sem3_2 nbuf3_2 hstage3_2

abbrev spec3_3 : Pipeline.WinSpec sig grid3.rank :=
  Pipeline.WinSpec.ofSpec (Memref.whole main_v39) S1x1x1.size reads3_3 true false 2 stage3_3 sem3_3 nbuf3_3 hstage3_3

abbrev spec3 : Fin 4 → Pipeline.WinSpec sig grid3.rank := fun | 0 => spec3_0 | 1 => spec3_1 | 2 => spec3_2 | 3 => spec3_3 | ⟨_ + 4, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | 3 => nbuf3_3 | ⟨_ + 4, h⟩ => absurd h (Nat.not_lt.2 (Nat.le_add_left _ _))
abbrev ix3 (pf : pre3.Contents (Elt F)) : (w : Fin 4) → grid3.Coords → Fin (spec3 w).shape.rank → Nat := fun | 0 => cc3_transform_0 k3_off1_inb numel1_S1 pf | 1 => cc3_transform_1 k3_off1_inb numel1_S1 pf | 2 => cc3_transform_2 k3_off1_inb numel1_S1 pf | 3 => cc3_transform_3 | ⟨_ + 4, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 pf | 2 => hreads3_2 pf | 3 => hreads3_3 | ⟨_ + 4, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x512.size a ≤ S16384x1x512.size a), EltTy.bits .f32 = 32 ∨ (Rect.block (s := S16384x1x512) S1x1x512.size (cc3_transform_0 k3_off1_inb numel1_S1 pf i) h).WholeWords (EltTy.packing .f32)) ∧
  (∀ i : grid3.Coords, ∃ h : (∀ a, (cc3_transform_1 k3_off1_inb numel1_S1 pf i a + 1) * S1x1x512.size a ≤ S50000x1x512.size a), EltTy.bits .f32 = 32 ∨ (Rect.block (s := S50000x1x512) S1x1x512.size (cc3_transform_1 k3_off1_inb numel1_S1 pf i) h).WholeWords (EltTy.packing .f32)) ∧
  (∀ i : grid3.Coords, ∃ h : (∀ a, (cc3_transform_2 k3_off1_inb numel1_S1 pf i a + 1) * S1x1x1.size a ≤ S50000x1x1.size a), EltTy.bits .f32 = 32 ∨ (Rect.block (s := S50000x1x1) S1x1x1.size (cc3_transform_2 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok.1 i).elim fun h _ => h a | 1 => fun i a => (hok.2.1 i).elim fun h _ => h a | 2 => fun i a => (hok.2.2 i).elim fun h _ => h a | 3 => hinb3_3 | ⟨_ + 4, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok.1 i).elim fun _ h => h | 1 => fun i => (hok.2.1 i).elim fun _ h => h | 2 => fun i => (hok.2.2 i).elim fun _ h => h | 3 => hwx3_3 | ⟨_ + 4, h⟩ => absurd h (Nat.not_lt.2 (Nat.le_add_left _ _))
abbrev spec4_0 : Pipeline.WinSpec sig grid4.rank :=
  Pipeline.WinSpec.ofSpec (Memref.whole main_v43) S1x1x512.size reads4_0 false false 2 stage4_0 sem4_0 nbuf4_0 hstage4_0

abbrev spec4_1 : Pipeline.WinSpec sig grid4.rank :=
  Pipeline.WinSpec.ofSpec (Memref.whole main_v44) S1x1x512.size reads4_1 false false 2 stage4_1 sem4_1 nbuf4_1 hstage4_1

abbrev spec4_2 : Pipeline.WinSpec sig grid4.rank :=
  Pipeline.WinSpec.ofSpec (Memref.whole main_v45) S1x1x1.size reads4_2 false false 2 stage4_2 sem4_2 nbuf4_2 hstage4_2

abbrev spec4_3 : Pipeline.WinSpec sig grid4.rank :=
  Pipeline.WinSpec.ofSpec (Memref.whole main_v46) S1x1x1.size reads4_3 true false 2 stage4_3 sem4_3 nbuf4_3 hstage4_3

abbrev spec4 : Fin 4 → Pipeline.WinSpec sig grid4.rank := fun | 0 => spec4_0 | 1 => spec4_1 | 2 => spec4_2 | 3 => spec4_3 | ⟨_ + 4, h⟩ => absurd h (Nat.not_lt.2 (Nat.le_add_left _ _))
theorem hcount4 : ∀ w, grid4.bufCount (spec4 w).reads (spec4 w).sync = (spec4 w).nbuf := fun | 0 => nbuf4_0 | 1 => nbuf4_1 | 2 => nbuf4_2 | 3 => nbuf4_3 | ⟨_ + 4, h⟩ => absurd h (Nat.not_lt.2 (Nat.le_add_left _ _))
abbrev ix4 (pf : pre4.Contents (Elt F)) : (w : Fin 4) → grid4.Coords → Fin (spec4 w).shape.rank → Nat := fun | 0 => cc4_transform_0 k4_off1_inb numel1_S1 pf | 1 => cc4_transform_1 k4_off1_inb numel1_S1 pf | 2 => cc4_transform_2 k4_off1_inb numel1_S1 pf | 3 => cc4_transform_3 | ⟨_ + 4, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 pf | 1 => hreads4_1 pf | 2 => hreads4_2 pf | 3 => hreads4_3 | ⟨_ + 4, h⟩ => absurd h (Nat.not_lt.2 (Nat.le_add_left _ _))
def ok4 (pf : pre4.Contents (Elt F)) : Prop :=
  (∀ i : grid4.Coords, ∃ h : (∀ a, (cc4_transform_0 k4_off1_inb numel1_S1 pf i a + 1) * S1x1x512.size a ≤ S16384x1x512.size a), EltTy.bits .f32 = 32 ∨ (Rect.block (s := S16384x1x512) S1x1x512.size (cc4_transform_0 k4_off1_inb numel1_S1 pf i) h).WholeWords (EltTy.packing .f32)) ∧
  (∀ i : grid4.Coords, ∃ h : (∀ a, (cc4_transform_1 k4_off1_inb numel1_S1 pf i a + 1) * S1x1x512.size a ≤ S50000x1x512.size a), EltTy.bits .f32 = 32 ∨ (Rect.block (s := S50000x1x512) S1x1x512.size (cc4_transform_1 k4_off1_inb numel1_S1 pf i) h).WholeWords (EltTy.packing .f32)) ∧
  (∀ i : grid4.Coords, ∃ h : (∀ a, (cc4_transform_2 k4_off1_inb numel1_S1 pf i a + 1) * S1x1x1.size a ≤ S50000x1x1.size a), EltTy.bits .f32 = 32 ∨ (Rect.block (s := S50000x1x1) S1x1x1.size (cc4_transform_2 k4_off1_inb numel1_S1 pf i) h).WholeWords (EltTy.packing .f32))
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun pf hok => fun | 0 => fun i a => (hok.1 i).elim fun h _ => h a | 1 => fun i a => (hok.2.1 i).elim fun h _ => h a | 2 => fun i a => (hok.2.2 i).elim fun h _ => h a | 3 => hinb4_3 | ⟨_ + 4, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun pf hok => fun | 0 => fun i => (hok.1 i).elim fun _ h => h | 1 => fun i => (hok.2.1 i).elim fun _ h => h | 2 => fun i => (hok.2.2 i).elim fun _ h => h | 3 => hwx4_3 | ⟨_ + 4, h⟩ => absurd h (Nat.not_lt.2 (Nat.le_add_left _ _))
abbrev spec5_0 : Pipeline.WinSpec sig grid5.rank :=
  Pipeline.WinSpec.ofSpec (Memref.whole main_v50) S1x1x512.size reads5_0 false false 2 stage5_0 sem5_0 nbuf5_0 hstage5_0

abbrev spec5_1 : Pipeline.WinSpec sig grid5.rank :=
  Pipeline.WinSpec.ofSpec (Memref.whole main_v51) S1x1x512.size reads5_1 false false 2 stage5_1 sem5_1 nbuf5_1 hstage5_1

abbrev spec5_2 : Pipeline.WinSpec sig grid5.rank :=
  Pipeline.WinSpec.ofSpec (Memref.whole main_v52) S1x1x1.size reads5_2 false false 2 stage5_2 sem5_2 nbuf5_2 hstage5_2

abbrev spec5_3 : Pipeline.WinSpec sig grid5.rank :=
  Pipeline.WinSpec.ofSpec (Memref.whole main_v53) S1x1x1.size reads5_3 true false 2 stage5_3 sem5_3 nbuf5_3 hstage5_3

abbrev spec5 : Fin 4 → Pipeline.WinSpec sig grid5.rank := fun | 0 => spec5_0 | 1 => spec5_1 | 2 => spec5_2 | 3 => spec5_3 | ⟨_ + 4, h⟩ => absurd h (Nat.not_lt.2 (Nat.le_add_left _ _))
theorem hcount5 : ∀ w, grid5.bufCount (spec5 w).reads (spec5 w).sync = (spec5 w).nbuf := fun | 0 => nbuf5_0 | 1 => nbuf5_1 | 2 => nbuf5_2 | 3 => nbuf5_3 | ⟨_ + 4, h⟩ => absurd h (Nat.not_lt.2 (Nat.le_add_left _ _))
abbrev ix5 (pf : pre5.Contents (Elt F)) : (w : Fin 4) → grid5.Coords → Fin (spec5 w).shape.rank → Nat := fun | 0 => cc5_transform_0 k5_off1_inb numel1_S1 pf | 1 => cc5_transform_1 k5_off1_inb numel1_S1 pf | 2 => cc5_transform_2 k5_off1_inb numel1_S1 pf | 3 => cc5_transform_3 | ⟨_ + 4, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 pf | 1 => hreads5_1 pf | 2 => hreads5_2 pf | 3 => hreads5_3 | ⟨_ + 4, h⟩ => absurd h (Nat.not_lt.2 (Nat.le_add_left _ _))
def ok5 (pf : pre5.Contents (Elt F)) : Prop :=
  (∀ i : grid5.Coords, ∃ h : (∀ a, (cc5_transform_0 k5_off1_inb numel1_S1 pf i a + 1) * S1x1x512.size a ≤ S16384x1x512.size a), EltTy.bits .f32 = 32 ∨ (Rect.block (s := S16384x1x512) S1x1x512.size (cc5_transform_0 k5_off1_inb numel1_S1 pf i) h).WholeWords (EltTy.packing .f32)) ∧
  (∀ i : grid5.Coords, ∃ h : (∀ a, (cc5_transform_1 k5_off1_inb numel1_S1 pf i a + 1) * S1x1x512.size a ≤ S50000x1x512.size a), EltTy.bits .f32 = 32 ∨ (Rect.block (s := S50000x1x512) S1x1x512.size (cc5_transform_1 k5_off1_inb numel1_S1 pf i) h).WholeWords (EltTy.packing .f32)) ∧
  (∀ i : grid5.Coords, ∃ h : (∀ a, (cc5_transform_2 k5_off1_inb numel1_S1 pf i a + 1) * S1x1x1.size a ≤ S50000x1x1.size a), EltTy.bits .f32 = 32 ∨ (Rect.block (s := S50000x1x1) S1x1x1.size (cc5_transform_2 k5_off1_inb numel1_S1 pf i) h).WholeWords (EltTy.packing .f32))
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun pf hok => fun | 0 => fun i a => (hok.1 i).elim fun h _ => h a | 1 => fun i a => (hok.2.1 i).elim fun h _ => h a | 2 => fun i a => (hok.2.2 i).elim fun h _ => h a | 3 => hinb5_3 | ⟨_ + 4, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun pf hok => fun | 0 => fun i => (hok.1 i).elim fun _ h => h | 1 => fun i => (hok.2.1 i).elim fun _ h => h | 2 => fun i => (hok.2.2 i).elim fun _ h => h | 3 => hwx5_3 | ⟨_ + 4, h⟩ => absurd h (Nat.not_lt.2 (Nat.le_add_left _ _))
abbrev spec6_0 : Pipeline.WinSpec sig grid6.rank :=
  Pipeline.WinSpec.ofSpec (Memref.whole main_v57) S1x1x512.size reads6_0 false false 2 stage6_0 sem6_0 nbuf6_0 hstage6_0

abbrev spec6_1 : Pipeline.WinSpec sig grid6.rank :=
  Pipeline.WinSpec.ofSpec (Memref.whole main_v58) S1x1x512.size reads6_1 false false 2 stage6_1 sem6_1 nbuf6_1 hstage6_1

abbrev spec6_2 : Pipeline.WinSpec sig grid6.rank :=
  Pipeline.WinSpec.ofSpec (Memref.whole main_v59) S1x1x1.size reads6_2 false false 2 stage6_2 sem6_2 nbuf6_2 hstage6_2

abbrev spec6_3 : Pipeline.WinSpec sig grid6.rank :=
  Pipeline.WinSpec.ofSpec (Memref.whole main_v60) S1x1x1.size reads6_3 true false 2 stage6_3 sem6_3 nbuf6_3 hstage6_3

abbrev spec6 : Fin 4 → Pipeline.WinSpec sig grid6.rank := fun | 0 => spec6_0 | 1 => spec6_1 | 2 => spec6_2 | 3 => spec6_3 | ⟨_ + 4, h⟩ => absurd h (Nat.not_lt.2 (Nat.le_add_left _ _))
theorem hcount6 : ∀ w, grid6.bufCount (spec6 w).reads (spec6 w).sync = (spec6 w).nbuf := fun | 0 => nbuf6_0 | 1 => nbuf6_1 | 2 => nbuf6_2 | 3 => nbuf6_3 | ⟨_ + 4, h⟩ => absurd h (Nat.not_lt.2 (Nat.le_add_left _ _))
abbrev ix6 (pf : pre6.Contents (Elt F)) : (w : Fin 4) → grid6.Coords → Fin (spec6 w).shape.rank → Nat := fun | 0 => cc6_transform_0 k6_off1_inb numel1_S1 pf | 1 => cc6_transform_1 k6_off1_inb numel1_S1 pf | 2 => cc6_transform_2 k6_off1_inb numel1_S1 pf | 3 => cc6_transform_3 | ⟨_ + 4, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 pf | 1 => hreads6_1 pf | 2 => hreads6_2 pf | 3 => hreads6_3 | ⟨_ + 4, h⟩ => absurd h (Nat.not_lt.2 (Nat.le_add_left _ _))
def ok6 (pf : pre6.Contents (Elt F)) : Prop :=
  (∀ i : grid6.Coords, ∃ h : (∀ a, (cc6_transform_0 k6_off1_inb numel1_S1 pf i a + 1) * S1x1x512.size a ≤ S16384x1x512.size a), EltTy.bits .f32 = 32 ∨ (Rect.block (s := S16384x1x512) S1x1x512.size (cc6_transform_0 k6_off1_inb numel1_S1 pf i) h).WholeWords (EltTy.packing .f32)) ∧
  (∀ i : grid6.Coords, ∃ h : (∀ a, (cc6_transform_1 k6_off1_inb numel1_S1 pf i a + 1) * S1x1x512.size a ≤ S50000x1x512.size a), EltTy.bits .f32 = 32 ∨ (Rect.block (s := S50000x1x512) S1x1x512.size (cc6_transform_1 k6_off1_inb numel1_S1 pf i) h).WholeWords (EltTy.packing .f32)) ∧
  (∀ i : grid6.Coords, ∃ h : (∀ a, (cc6_transform_2 k6_off1_inb numel1_S1 pf i a + 1) * S1x1x1.size a ≤ S50000x1x1.size a), EltTy.bits .f32 = 32 ∨ (Rect.block (s := S50000x1x1) S1x1x1.size (cc6_transform_2 k6_off1_inb numel1_S1 pf i) h).WholeWords (EltTy.packing .f32))
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun pf hok => fun | 0 => fun i a => (hok.1 i).elim fun h _ => h a | 1 => fun i a => (hok.2.1 i).elim fun h _ => h a | 2 => fun i a => (hok.2.2 i).elim fun h _ => h a | 3 => hinb6_3 | ⟨_ + 4, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun pf hok => fun | 0 => fun i => (hok.1 i).elim fun _ h => h | 1 => fun i => (hok.2.1 i).elim fun _ h => h | 2 => fun i => (hok.2.2 i).elim fun _ h => h | 3 => hwx6_3 | ⟨_ + 4, h⟩ => absurd h (Nat.not_lt.2 (Nat.le_add_left _ _))
abbrev spec7_0 : Pipeline.WinSpec sig grid7.rank :=
  Pipeline.WinSpec.ofSpec (Memref.whole main_v64) S1x1x512.size reads7_0 false false 2 stage7_0 sem7_0 nbuf7_0 hstage7_0

abbrev spec7_1 : Pipeline.WinSpec sig grid7.rank :=
  Pipeline.WinSpec.ofSpec (Memref.whole main_v65) S1x1x512.size reads7_1 false false 2 stage7_1 sem7_1 nbuf7_1 hstage7_1

abbrev spec7_2 : Pipeline.WinSpec sig grid7.rank :=
  Pipeline.WinSpec.ofSpec (Memref.whole main_v66) S1x1x1.size reads7_2 false false 2 stage7_2 sem7_2 nbuf7_2 hstage7_2

abbrev spec7_3 : Pipeline.WinSpec sig grid7.rank :=
  Pipeline.WinSpec.ofSpec (Memref.whole main_v67) S1x1x1.size reads7_3 true false 2 stage7_3 sem7_3 nbuf7_3 hstage7_3

abbrev spec7 : Fin 4 → Pipeline.WinSpec sig grid7.rank := fun | 0 => spec7_0 | 1 => spec7_1 | 2 => spec7_2 | 3 => spec7_3 | ⟨_ + 4, h⟩ => absurd h (Nat.not_lt.2 (Nat.le_add_left _ _))
theorem hcount7 : ∀ w, grid7.bufCount (spec7 w).reads (spec7 w).sync = (spec7 w).nbuf := fun | 0 => nbuf7_0 | 1 => nbuf7_1 | 2 => nbuf7_2 | 3 => nbuf7_3 | ⟨_ + 4, h⟩ => absurd h (Nat.not_lt.2 (Nat.le_add_left _ _))
abbrev ix7 (pf : pre7.Contents (Elt F)) : (w : Fin 4) → grid7.Coords → Fin (spec7 w).shape.rank → Nat := fun | 0 => cc7_transform_0 k7_off1_inb numel1_S1 pf | 1 => cc7_transform_1 k7_off1_inb numel1_S1 pf | 2 => cc7_transform_2 k7_off1_inb numel1_S1 pf | 3 => cc7_transform_3 | ⟨_ + 4, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 pf | 1 => hreads7_1 pf | 2 => hreads7_2 pf | 3 => hreads7_3 | ⟨_ + 4, h⟩ => absurd h (Nat.not_lt.2 (Nat.le_add_left _ _))
def ok7 (pf : pre7.Contents (Elt F)) : Prop :=
  (∀ i : grid7.Coords, ∃ h : (∀ a, (cc7_transform_0 k7_off1_inb numel1_S1 pf i a + 1) * S1x1x512.size a ≤ S16384x1x512.size a), EltTy.bits .f32 = 32 ∨ (Rect.block (s := S16384x1x512) S1x1x512.size (cc7_transform_0 k7_off1_inb numel1_S1 pf i) h).WholeWords (EltTy.packing .f32)) ∧
  (∀ i : grid7.Coords, ∃ h : (∀ a, (cc7_transform_1 k7_off1_inb numel1_S1 pf i a + 1) * S1x1x512.size a ≤ S50000x1x512.size a), EltTy.bits .f32 = 32 ∨ (Rect.block (s := S50000x1x512) S1x1x512.size (cc7_transform_1 k7_off1_inb numel1_S1 pf i) h).WholeWords (EltTy.packing .f32)) ∧
  (∀ i : grid7.Coords, ∃ h : (∀ a, (cc7_transform_2 k7_off1_inb numel1_S1 pf i a + 1) * S1x1x1.size a ≤ S50000x1x1.size a), EltTy.bits .f32 = 32 ∨ (Rect.block (s := S50000x1x1) S1x1x1.size (cc7_transform_2 k7_off1_inb numel1_S1 pf i) h).WholeWords (EltTy.packing .f32))
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun pf hok => fun | 0 => fun i a => (hok.1 i).elim fun h _ => h a | 1 => fun i a => (hok.2.1 i).elim fun h _ => h a | 2 => fun i a => (hok.2.2 i).elim fun h _ => h a | 3 => hinb7_3 | ⟨_ + 4, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun pf hok => fun | 0 => fun i => (hok.1 i).elim fun _ h => h | 1 => fun i => (hok.2.1 i).elim fun _ h => h | 2 => fun i => (hok.2.2 i).elim fun _ h => h | 3 => hwx7_3 | ⟨_ + 4, h⟩ => absurd h (Nat.not_lt.2 (Nat.le_add_left _ _))
abbrev spec8_0 : Pipeline.WinSpec sig grid8.rank :=
  Pipeline.WinSpec.ofSpec (Memref.whole main_v71) S1x1x512.size reads8_0 false false 2 stage8_0 sem8_0 nbuf8_0 hstage8_0

abbrev spec8_1 : Pipeline.WinSpec sig grid8.rank :=
  Pipeline.WinSpec.ofSpec (Memref.whole main_v72) S1x1x512.size reads8_1 false false 2 stage8_1 sem8_1 nbuf8_1 hstage8_1

abbrev spec8_2 : Pipeline.WinSpec sig grid8.rank :=
  Pipeline.WinSpec.ofSpec (Memref.whole main_v73) S1x1x1.size reads8_2 false false 2 stage8_2 sem8_2 nbuf8_2 hstage8_2

abbrev spec8_3 : Pipeline.WinSpec sig grid8.rank :=
  Pipeline.WinSpec.ofSpec (Memref.whole main_v74) S1x1x1.size reads8_3 true false 2 stage8_3 sem8_3 nbuf8_3 hstage8_3

abbrev spec8 : Fin 4 → Pipeline.WinSpec sig grid8.rank := fun | 0 => spec8_0 | 1 => spec8_1 | 2 => spec8_2 | 3 => spec8_3 | ⟨_ + 4, h⟩ => absurd h (Nat.not_lt.2 (Nat.le_add_left _ _))
theorem hcount8 : ∀ w, grid8.bufCount (spec8 w).reads (spec8 w).sync = (spec8 w).nbuf := fun | 0 => nbuf8_0 | 1 => nbuf8_1 | 2 => nbuf8_2 | 3 => nbuf8_3 | ⟨_ + 4, h⟩ => absurd h (Nat.not_lt.2 (Nat.le_add_left _ _))
abbrev ix8 (pf : pre8.Contents (Elt F)) : (w : Fin 4) → grid8.Coords → Fin (spec8 w).shape.rank → Nat := fun | 0 => cc8_transform_0 k8_off1_inb numel1_S1 pf | 1 => cc8_transform_1 k8_off1_inb numel1_S1 pf | 2 => cc8_transform_2 k8_off1_inb numel1_S1 pf | 3 => cc8_transform_3 | ⟨_ + 4, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 pf | 1 => hreads8_1 pf | 2 => hreads8_2 pf | 3 => hreads8_3 | ⟨_ + 4, h⟩ => absurd h (Nat.not_lt.2 (Nat.le_add_left _ _))
def ok8 (pf : pre8.Contents (Elt F)) : Prop :=
  (∀ i : grid8.Coords, ∃ h : (∀ a, (cc8_transform_0 k8_off1_inb numel1_S1 pf i a + 1) * S1x1x512.size a ≤ S16384x1x512.size a), EltTy.bits .f32 = 32 ∨ (Rect.block (s := S16384x1x512) S1x1x512.size (cc8_transform_0 k8_off1_inb numel1_S1 pf i) h).WholeWords (EltTy.packing .f32)) ∧
  (∀ i : grid8.Coords, ∃ h : (∀ a, (cc8_transform_1 k8_off1_inb numel1_S1 pf i a + 1) * S1x1x512.size a ≤ S50000x1x512.size a), EltTy.bits .f32 = 32 ∨ (Rect.block (s := S50000x1x512) S1x1x512.size (cc8_transform_1 k8_off1_inb numel1_S1 pf i) h).WholeWords (EltTy.packing .f32)) ∧
  (∀ i : grid8.Coords, ∃ h : (∀ a, (cc8_transform_2 k8_off1_inb numel1_S1 pf i a + 1) * S1x1x1.size a ≤ S50000x1x1.size a), EltTy.bits .f32 = 32 ∨ (Rect.block (s := S50000x1x1) S1x1x1.size (cc8_transform_2 k8_off1_inb numel1_S1 pf i) h).WholeWords (EltTy.packing .f32))
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun pf hok => fun | 0 => fun i a => (hok.1 i).elim fun h _ => h a | 1 => fun i a => (hok.2.1 i).elim fun h _ => h a | 2 => fun i a => (hok.2.2 i).elim fun h _ => h a | 3 => hinb8_3 | ⟨_ + 4, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun pf hok => fun | 0 => fun i => (hok.1 i).elim fun _ h => h | 1 => fun i => (hok.2.1 i).elim fun _ h => h | 2 => fun i => (hok.2.2 i).elim fun _ h => h | 3 => hwx8_3 | ⟨_ + 4, h⟩ => absurd h (Nat.not_lt.2 (Nat.le_add_left _ _))

class Facts : Prop extends Facts₀ where
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole
  harr8 : ∀ w, (spec8 w).arr.IsWhole

variable [Facts]
-- ==== ReferenceIdeal.lean ====
abbrev S262144 : Shape := ⟨1, ![262144]⟩
abbrev S512x50000 : Shape := ⟨2, ![512, 50000]⟩
abbrev S512 : Shape := ⟨1, ![512]⟩
abbrev S256x512 : Shape := ⟨2, ![256, 512]⟩
abbrev S256 : Shape := ⟨1, ![256]⟩
abbrev S512x256 : Shape := ⟨2, ![512, 256]⟩
abbrev S50000x512 : Shape := ⟨2, ![50000, 512]⟩
abbrev S50000 : Shape := ⟨1, ![50000]⟩
abbrev S_ : Shape := ⟨0, ![]⟩
abbrev S262144x1 : Shape := ⟨2, ![262144, 1]⟩
abbrev S262144x512 : Shape := ⟨2, ![262144, 512]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩

abbrev nBuf : Space → Nat
  | .hbm => 84
  | .vmem => 0
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S262144, .f32⟩
  | .hbm, ⟨3, _⟩ => ⟨S262144, .i32⟩
  | .hbm, ⟨4, _⟩ => ⟨S262144, .i32⟩
  | .hbm, ⟨5, _⟩ => ⟨S262144, .f32⟩
  | .hbm, ⟨6, _⟩ => ⟨S512x50000, .f32⟩
  | .hbm, ⟨7, _⟩ => ⟨S512, .f32⟩
  | .hbm, ⟨8, _⟩ => ⟨S256x512, .f32⟩
  | .hbm, ⟨9, _⟩ => ⟨S256, .f32⟩
  | .hbm, ⟨10, _⟩ => ⟨S512x256, .f32⟩
  | .hbm, ⟨11, _⟩ => ⟨S512, .f32⟩
  | .hbm, ⟨12, _⟩ => ⟨S50000x512, .f32⟩
  | .hbm, ⟨13, _⟩ => ⟨S50000, .f32⟩
  | .hbm, ⟨14, _⟩ => ⟨S50000x512, .f32⟩
  | .hbm, ⟨15, _⟩ => ⟨S_, .i32⟩
  | .hbm, ⟨16, _⟩ => ⟨S262144, .i32⟩
  | .hbm, ⟨17, _⟩ => ⟨S262144, .i1⟩
  | .hbm, ⟨18, _⟩ => ⟨S_, .i32⟩
  | .hbm, ⟨19, _⟩ => ⟨S262144, .i32⟩
  | .hbm, ⟨20, _⟩ => ⟨S262144, .i32⟩
  | .hbm, ⟨21, _⟩ => ⟨S262144, .i32⟩
  | .hbm, ⟨22, _⟩ => ⟨S262144x1, .i32⟩
  | .hbm, ⟨23, _⟩ => ⟨S262144x512, .f32⟩
  | .hbm, ⟨24, _⟩ => ⟨S262144x1, .f32⟩
  | .hbm, ⟨25, _⟩ => ⟨S262144x512, .f32⟩
  | .hbm, ⟨26, _⟩ => ⟨S262144x512, .f32⟩
  | .hbm, ⟨27, _⟩ => ⟨S_, .f32⟩
  | .hbm, ⟨28, _⟩ => ⟨S16384x512, .f32⟩
  | .hbm, ⟨29, _⟩ => ⟨S262144x1, .i32⟩
  | .hbm, ⟨30, _⟩ => ⟨S16384x512, .f32⟩
  | .hbm, ⟨31, _⟩ => ⟨S1x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S512x256, .f32⟩
  | .hbm, ⟨36, _⟩ => ⟨S16384x256, .f32⟩
  | .hbm, ⟨37, _⟩ => ⟨S1x256, .f32⟩
  | .hbm, ⟨38, _⟩ => ⟨S16384x256, .f32⟩
  | .hbm, ⟨39, _⟩ => ⟨S16384x256, .f32⟩
  | .hbm, ⟨40, _⟩ => ⟨S16384x256, .f32⟩
  | .hbm, ⟨41, _⟩ => ⟨S256x512, .f32⟩
  | .hbm, ⟨42, _⟩ => ⟨S16384x512, .f32⟩
  | .hbm, ⟨43, _⟩ => ⟨S1x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S_, .i32⟩
  | .hbm, ⟨48, _⟩ => ⟨S262144, .i32⟩
  | .hbm, ⟨49, _⟩ => ⟨S262144, .i1⟩
  | .hbm, ⟨50, _⟩ => ⟨S_, .i32⟩
  | .hbm, ⟨51, _⟩ => ⟨S262144, .i32⟩
  | .hbm, ⟨52, _⟩ => ⟨S262144, .i32⟩
  | .hbm, ⟨53, _⟩ => ⟨S262144, .i32⟩
  | .hbm, ⟨54, _⟩ => ⟨S262144x1, .i32⟩
  | .hbm, ⟨55, _⟩ => ⟨S262144x512, .f32⟩
  | .hbm, ⟨56, _⟩ => ⟨S_, .i32⟩
  | .hbm, ⟨57, _⟩ => ⟨S262144, .i32⟩
  | .hbm, ⟨58, _⟩ => ⟨S262144, .i1⟩
  | .hbm, ⟨59, _⟩ => ⟨S_, .i32⟩
  | .hbm, ⟨60, _⟩ => ⟨S262144, .i32⟩
  | .hbm, ⟨61, _⟩ => ⟨S262144, .i32⟩
  | .hbm, ⟨62, _⟩ => ⟨S262144, .i32⟩
  | .hbm, ⟨63, _⟩ => ⟨S262144x1, .i32⟩
  | .hbm, ⟨64, _⟩ => ⟨S262144x512, .f32⟩
  | .hbm, ⟨65, _⟩ => ⟨S262144x512, .f32⟩
  | .hbm, ⟨66, _⟩ => ⟨S_, .f32⟩
  | .hbm, ⟨67, _⟩ => ⟨S262144, .f32⟩
  | .hbm, ⟨68, _⟩ => ⟨S_, .i32⟩
  | .hbm, ⟨69, _⟩ => ⟨S262144, .i32⟩
  | .hbm, ⟨70, _⟩ => ⟨S262144, .i1⟩
  | .hbm, ⟨71, _⟩ => ⟨S_, .i32⟩
  | .hbm, ⟨72, _⟩ => ⟨S262144, .i32⟩
  | .hbm, ⟨73, _⟩ => ⟨S262144, .i32⟩
  | .hbm, ⟨74, _⟩ => ⟨S262144, .i32⟩
  | .hbm, ⟨75, _⟩ => ⟨S262144x1, .i32⟩
  | .hbm, ⟨76, _⟩ => ⟨S262144, .f32⟩
  | .hbm, ⟨77, _⟩ => ⟨S262144, .f32⟩
  | .hbm, ⟨78, _⟩ => ⟨S262144, .f32⟩
  | .hbm, ⟨79, _⟩ => ⟨S262144, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_1 : Ref sig .tc := ⟨.hbm, 47, rfl⟩
abbrev main_v30 : Ref sig .tc := ⟨.hbm, 48, rfl⟩
abbrev main_v31 : Ref sig .tc := ⟨.hbm, 49, rfl⟩
abbrev main_c_2 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_3 : Ref sig .tc := ⟨.hbm, 56, rfl⟩
abbrev main_v37 : Ref sig .tc := ⟨.hbm, 57, rfl⟩
abbrev main_v38 : Ref sig .tc := ⟨.hbm, 58, rfl⟩
abbrev main_c_4 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_c_6 : Ref sig .tc := ⟨.hbm, 68, rfl⟩
abbrev main_v46 : Ref sig .tc := ⟨.hbm, 69, rfl⟩
abbrev main_v47 : Ref sig .tc := ⟨.hbm, 70, rfl⟩
abbrev main_c_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_8 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩

abbrev nD : Nat := 1
abbrev τ : Topo := Topo.v7x

variable {F : FTy → Type} [FloatOps F]

class Facts₀ : Prop where
  transposes_S512x50000_S50000x512_1_0 : S512x50000.Transposes [1, 0] S50000x512
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x512_0_1 : S262144x1.BroadcastsInDim S262144x512 (![0, 1] : Fin 2 → Fin S262144x512.rank)
  bcast_S_S16384x512 : S_.BroadcastsInDim S16384x512 (![] : Fin 0 → Fin S16384x512.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  transposes_S256x512_S512x256_1_0 : S256x512.Transposes [1, 0] S512x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  transposes_S512x256_S256x512_1_0 : S512x256.Transposes [1, 0] S256x512
  reducesTo_S262144x512_S262144_d1 : S262144x512.ReducesTo [1] S262144
  h_S_ : 0 < S_.numel
  reducesTo_S262144_S_d0 : S262144.ReducesTo [0] S_
  gather_S50000x512_S262144x1_S262144x512_1_0_n_n_0_1_1512_wf : GatherDims.WF S50000x512 S262144x1 S262144x512 [1] [0] [] [0] [] 1 ![1, 512]
  scatter_S16384x512_S262144x1_S262144x512_1_0_0_1_wf : ScatterDims.WF S16384x512 S262144x1 S262144x512 [1] [0] [0] 1
  dot_S16384x512_S512x256_S16384x256_1_0_0_1_n_n_wf : DotDims.WF S16384x512 S512x256 S16384x256 [1] [0] [0] [1] [] []
  dot_S16384x256_S256x512_S16384x512_1_0_0_1_n_n_wf : DotDims.WF S16384x256 S256x512 S16384x512 [1] [0] [0] [1] [] []
  gather_S16384x512_S262144x1_S262144x512_1_0_n_n_0_1_1512_wf : GatherDims.WF S16384x512 S262144x1 S262144x512 [1] [0] [] [0] [] 1 ![1, 512]
  gather_S50000_S262144x1_S262144_n_0_n_n_0_1_1_wf : GatherDims.WF S50000 S262144x1 S262144 [] [0] [] [0] [] 1 ![1]

variable [Facts₀]

def gather_S50000x512_S262144x1_S262144x512_1_0_n_n_0_1_1512 : GatherDims S50000x512 S262144x1 S262144x512 where
  offsetDims := [1]
  collapsedSliceDims := [0]
  operandBatchingDims := []
  startIndicesBatchingDims := []
  startIndexMap := [0]
  indexVectorDim := 1
  sliceSizes := ![1, 512]
  wf := gather_S50000x512_S262144x1_S262144x512_1_0_n_n_0_1_1512_wf
def scatter_S16384x512_S262144x1_S262144x512_1_0_0_1 : ScatterDims S16384x512 S262144x1 S262144x512 where
  updateWindowDims := [1]
  insertedWindowDims := [0]
  scatterDimsToOperandDims := [0]
  indexVectorDim := 1
  wf := scatter_S16384x512_S262144x1_S262144x512_1_0_0_1_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x512_S16384x512_1_0_0_1_n_n : DotDims S16384x256 S256x512 S16384x512 where
  lhsContracting := [1]
  rhsContracting := [0]
  lhsNonContracting := [0]
  rhsNonContracting := [1]
  lhsBatch := []
  rhsBatch := []
  wf := dot_S16384x256_S256x512_S16384x512_1_0_0_1_n_n_wf
def gather_S16384x512_S262144x1_S262144x512_1_0_n_n_0_1_1512 : GatherDims S16384x512 S262144x1 S262144x512 where
  offsetDims := [1]
  collapsedSliceDims := [0]
  operandBatchingDims := []
  startIndicesBatchingDims := []
  startIndexMap := [0]
  indexVectorDim := 1
  sliceSizes := ![1, 512]
  wf := gather_S16384x512_S262144x1_S262144x512_1_0_n_n_0_1_1512_wf
def gather_S50000_S262144x1_S262144_n_0_n_n_0_1_1 : GatherDims S50000 S262144x1 S262144 where
  offsetDims := []
  collapsedSliceDims := [0]
  operandBatchingDims := []
  startIndicesBatchingDims := []
  startIndexMap := [0]
  indexVectorDim := 1
  sliceSizes := ![1]
  wf := gather_S50000_S262144x1_S262144_n_0_n_n_0_1_1_wf

class Facts : Prop extends Facts₀ where

variable [Facts]
-- ==== Proof.PreDecode.lean ====
import proofs.«421490_j32530082300068_2_alg».proof.Pre_finite_inputs
import Idealize.ShloMosaic.Lib.ReduceAll
import Idealize.ShloMosaic.Lib.StableHlo.Predicate

noncomputable section

namespace Cert.PreDecode

open Idealize.ShloMosaic Cert.Pre_finite_inputs

instance subsingleton_S_ : Subsingleton S_.Idx := ⟨fun a b => funext fun d => d.elim0⟩

def j0 : S_.Idx := fun d => d.elim0

theorem word_range (w : BitVec 32) (n : Nat) (hn : n < 2 ^ 31) (h0 : IntOp.cmpi .sge w (0#32) = 1#1)
    (hlt : IntOp.cmpi .slt w (BitVec.ofNat 32 n) = 1#1) : w.toNat < n ∧ 0 ≤ w.toInt := by
  rw [IntOp.cmpi_sge] at h0
  rw [IntOp.cmpi_slt, StableHlo.Predicate.toInt_ofNat_small n hn] at hlt
  have z : (0#32 : BitVec 32).toInt = 0 := by decide
  rw [z] at h0
  refine ⟨?_, h0⟩
  have h32 := w.isLt
  unfold BitVec.toInt at h0 hlt
  split at hlt <;> omega

variable [Facts]

theorem part3_decode {F : FTy → Type} [FloatOps F] (a3 a4 : IVec S262144 32) (v48 : IVec S_ 1) (v50 : IVec S262144 1)
    (e : fn_part3 (F := F) a3 a4 v48 v50 j0 = 1#1) :
    (∀ i, v50 i = 1#1 ∧ IntOp.cmpi .slt (a3 i) (16384#32) = 1#1) ∧
    (∀ i, IntOp.cmpi .sge (a4 i) (0#32) = 1#1 ∧ IntOp.cmpi .slt (a4 i) (50000#32) = 1#1) := by
  unfold fn_part3 at e
  simp only [andi] at e
  rw [IntOp.andi_eq_one, IntOp.andi_eq_one] at e
  obtain ⟨⟨-, e3⟩, e4⟩ := e
  constructor
  · intro i
    have := Host.reduce_andi_all _ _ _ _ _ e3 i
    simp only [andi, cmpi, broadcastInDim, constantI] at this
    rw [IntOp.andi_eq_one] at this
    exact this
  · intro i
    have := Host.reduce_andi_all _ _ _ _ _ e4 i
    simp only [andi, cmpi, broadcastInDim, constantI] at this
    rw [IntOp.andi_eq_one] at this
    exact this

theorem compares {F : FTy → Type} [FloatOps F]
    (a0 a1 : IVec S262144 32) (a2 : FVec F S262144 .f32) (a3 a4 : IVec S262144 32) (a5 : FVec F S262144 .f32)
    (a6 : FVec F S512x50000 .f32) (a7 : FVec F S512 .f32) (a8 : FVec F S256x512 .f32) (a9 : FVec F S256 .f32)
    (a10 : FVec F S512x256 .f32) (a11 : FVec F S512 .f32) (a12 : FVec F S50000x512 .f32) (a13 : FVec F S50000 .f32)
    (h : fn (F := F) a0 a1 a2 a3 a4 a5 a6 a7 a8 a9 a10 a11 a12 a13 = fun _ => 1#1) :
    (∀ i, IntOp.cmpi .sge (a3 i) (0#32) = 1#1 ∧ IntOp.cmpi .slt (a3 i) (16384#32) = 1#1) ∧
    (∀ i, IntOp.cmpi .sge (a4 i) (0#32) = 1#1 ∧ IntOp.cmpi .slt (a4 i) (50000#32) = 1#1) := by
  have e := congrFun h j0
  unfold fn fn_part1 fn_part2 at e
  exact part3_decode (F := F) _ _ _ _ e

theorem ranges {F : FTy → Type} [FloatOps F]
    (a0 a1 : IVec S262144 32) (a2 : FVec F S262144 .f32) (a3 a4 : IVec S262144 32) (a5 : FVec F S262144 .f32)
    (a6 : FVec F S512x50000 .f32) (a7 : FVec F S512 .f32) (a8 : FVec F S256x512 .f32) (a9 : FVec F S256 .f32)
    (a10 : FVec F S512x256 .f32) (a11 : FVec F S512 .f32) (a12 : FVec F S50000x512 .f32) (a13 : FVec F S50000 .f32)
    (h : fn (F := F) a0 a1 a2 a3 a4 a5 a6 a7 a8 a9 a10 a11 a12 a13 = fun _ => 1#1) :
    (∀ i, (a3 i).toNat < 16384) ∧ (∀ i, (a4 i).toNat < 50000) := by
  obtain ⟨h3, h4⟩ := compares a0 a1 a2 a3 a4 a5 a6 a7 a8 a9 a10 a11 a12 a13 h
  exact ⟨fun i => (word_range _ 16384 (by decide) (h3 i).1 (h3 i).2).1,
    fun i => (word_range _ 50000 (by decide) (h4 i).1 (h4 i).2).1⟩

theorem ranges_nonneg {F : FTy → Type} [FloatOps F]
    (a0 a1 : IVec S262144 32) (a2 : FVec F S262144 .f32) (a3 a4 : IVec S262144 32) (a5 : FVec F S262144 .f32)
    (a6 : FVec F S512x50000 .f32) (a7 : FVec F S512 .f32) (a8 : FVec F S256x512 .f32) (a9 : FVec F S256 .f32)
    (a10 : FVec F S512x256 .f32) (a11 : FVec F S512 .f32) (a12 : FVec F S50000x512 .f32) (a13 : FVec F S50000 .f32)
    (h : fn (F := F) a0 a1 a2 a3 a4 a5 a6 a7 a8 a9 a10 a11 a12 a13 = fun _ => 1#1) :
    (∀ i, 0 ≤ (a3 i).toInt) ∧ (∀ i, 0 ≤ (a4 i).toInt) := by
  obtain ⟨h3, h4⟩ := compares a0 a1 a2 a3 a4 a5 a6 a7 a8 a9 a10 a11 a12 a13 h
  exact ⟨fun i => (word_range _ 16384 (by decide) (h3 i).1 (h3 i).2).2,
    fun i => (word_range _ 50000 (by decide) (h4 i).1 (h4 i).2).2⟩

end Cert.PreDecode

end
-- ==== Proof.Spec.lean ====
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev S_ : Shape := ⟨0, ![]⟩
abbrev S256 : Shape := ⟨1, ![256]⟩
abbrev S512 : Shape := ⟨1, ![512]⟩
abbrev S50000 : Shape := ⟨1, ![50000]⟩
abbrev S262144 : Shape := ⟨1, ![262144]⟩
abbrev S256x512 : Shape := ⟨2, ![256, 512]⟩
abbrev S512x256 : Shape := ⟨2, ![512, 256]⟩
abbrev S512x50000 : Shape := ⟨2, ![512, 50000]⟩
abbrev S50000x512 : Shape := ⟨2, ![50000, 512]⟩
abbrev S16384x512 : Shape := ⟨2, ![16384, 512]⟩
abbrev S262144x1 : Shape := ⟨2, ![262144, 1]⟩
abbrev S262144x512 : Shape := ⟨2, ![262144, 512]⟩

def gatherRows : GatherDims S50000x512 S262144x1 S262144x512 where
  offsetDims := [1]
  collapsedSliceDims := [0]
  operandBatchingDims := []
  startIndicesBatchingDims := []
  startIndexMap := [0]
  indexVectorDim := 1
  sliceSizes := ![1, 512]
  wf := by decide

def scatterRows : ScatterDims S16384x512 S262144x1 S262144x512 where
  updateWindowDims := [1]
  insertedWindowDims := [0]
  scatterDimsToOperandDims := [0]
  indexVectorDim := 1
  wf := by decide

def wrapItem (item : IVec S262144 32) : IVec S262144 32 :=
  select (cmpi .slt item (broadcastInDim S262144 ![] (by decide) (constantI S_ 32 0#32)))
    (addi item (broadcastInDim S262144 ![] (by decide) (constantI S_ 32 50000#32))) item

def agg (user item : IVec S262144 32) (rating : FVec Ideal S262144 .f32)
    (Wenc : FVec Ideal S512x50000 .f32) : FVec Ideal S16384x512 .f32 :=
  Host.scatterAdd (F := Ideal) scatterRows
    (broadcastInDim S16384x512 ![] (by decide) (constant (F := Ideal) S_ .f32 0x00000000#32))
    (broadcastInDim S262144x1 ![0] (by decide) user)
    (mulf (F := Ideal)
      (Host.gather gatherRows (transpose S50000x512 [1, 0] Wenc (by decide))
        (broadcastInDim S262144x1 ![0] (by decide) (wrapItem item)))
      (broadcastInDim S262144x512 ![0, 1] (by decide)
        (broadcastInDim S262144x1 ![0] (by decide) rating)))

def dec (agg : FVec Ideal S16384x512 .f32) (benc : FVec Ideal S512 .f32)
    (W1 : FVec Ideal S256x512 .f32) (b1 : FVec Ideal S256 .f32)
    (W2 : FVec Ideal S512x256 .f32) (b2 : FVec Ideal S512 .f32) : FVec Ideal S16384x512 .f32 :=
  fun i =>
    Ideal.tanh
      ((∑ j : Fin 256,
          Ideal.tanh
            ((∑ k : Fin 512,
                Ideal.tanh (agg (ix2 (i 0) k) + benc (ix1 k)) * W1 (ix2 j k))
              + b1 (ix1 j))
          * W2 (ix2 (i 1) j))
        + b2 (ix1 (i 1)))

def U (w : BitVec 32) : Fin 16384 := ⟨w.toNat % 16384, Nat.mod_lt _ (by decide)⟩

def I (w : BitVec 32) : Fin 50000 := ⟨w.toNat % 50000, Nat.mod_lt _ (by decide)⟩

theorem U_val {w : BitVec 32} (h : w.toNat < 16384) : (U w).val = w.toNat := Nat.mod_eq_of_lt h
theorem I_val {w : BitVec 32} (h : w.toNat < 50000) : (I w).val = w.toNat := Nat.mod_eq_of_lt h

def pred (dec : FVec Ideal S16384x512 .f32) (Wdec : FVec Ideal S50000x512 .f32)
    (bdec : FVec Ideal S50000 .f32) (tu ti : IVec S262144 32) : FVec Ideal S262144 .f32 :=
  fun i =>
    (∑ k : Fin 512, dec (ix2 (U (tu i)) k) * Wdec (ix2 (I (ti i)) k)) + bdec (ix1 (I (ti i)))

def loss (pred tr : FVec Ideal S262144 .f32) : FVec Ideal S_ .f32 :=
  Host.divf (F := Ideal)
    (Host.reduceAdd (F := Ideal) (axes := [0]) (t := S_)
      (mulf (F := Ideal) (subf (F := Ideal) pred tr) (subf (F := Ideal) pred tr))
      (constant (F := Ideal) S_ .f32 0x00000000#32) (by decide) (by decide))
    (constant (F := Ideal) S_ .f32 0x48800000#32)

end Cert.Spec

end
-- ==== Proof.RefValue.lean ====
import proofs.«421490_j32530082300068_2_alg».proof.Proof.Spec
import proofs.«421490_j32530082300068_2_alg».proof.Proof.Gen.ReferenceIdeal.Run
import proofs.«421490_j32530082300068_2_alg».proof.Proof.Gen.ReferenceIdeal.Read
import Idealize.ShloMosaic.Lib.StableHlo.Predicate

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

abbrev rowsDims (N n C : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

abbrev rowIdx {n C : Nat} (y : (⟨2, ![n, C]⟩ : Shape).Idx) : (⟨2, ![n, 1]⟩ : Shape).Idx :=
  fun a => match a with | ⟨0, _⟩ => ⟨(y 0).val, idx2_lt0 y⟩ | ⟨1, _⟩ => ⟨0, Nat.one_pos⟩

theorem gather_rows_apply {α : Type} {N n C w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (y : (⟨2, ![n, C]⟩ : Shape).Idx) :
    Host.gather (rowsDims N n C wf) x idx y
      = x (ix2 ⟨min (idx (rowIdx y)).toInt.toNat (N - 1), by omega⟩ (⟨(y 1).val, idx2_lt1 y⟩ : Fin C)) := by
  unfold Host.gather
  congr 1
  funext a
  refine Fin.ext ?_
  match a with
  | ⟨0, _⟩ =>

    show (rowsDims N n C wf).start y idx 0 + (rowsDims N n C wf).batchCoord y 0 + (rowsDims N n C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N n C wf).startIndexMap from List.mem_singleton.mpr rfl)]
    have hsi : (rowsDims N n C wf).siIdx y ⟨List.idxOf (0 : Fin 2) (rowsDims N n C wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>

    show (rowsDims N n C wf).start y idx 1 + (rowsDims N n C wf).batchCoord y 1 + (rowsDims N n C wf).offCoord y 1 = (y 1).val
    rw [GatherDims.batchCoord_eq_zero _ _ _ List.not_mem_nil]
    unfold GatherDims.start
    have h10 : ¬ (1 : Fin 2) ∈ ([0] : List (Fin 2)) := by decide
    rw [dif_neg (show ¬ (1 : Fin 2) ∈ (rowsDims N n C wf).startIndexMap from h10)]
    simp only [Nat.zero_add, Nat.add_zero]
    unfold GatherDims.offCoord
    rw [dif_pos ((GatherDims.mem_sKept _ _).mpr ⟨h10, List.not_mem_nil⟩)]
    rfl

theorem wrap_eq (w c : BitVec 32) (h : w.toNat < 2 ^ 31) :
    Scalar.select (IntOp.cmpi .slt w 0#32) (IntOp.addi w c) w = w := by
  have h0 : w.slt 0#32 = false := by
    have := StableHlo.Predicate.toInt_eq_toNat_of_lt h
    simp only [BitVec.slt, this]
    simp
  unfold IntOp.cmpi
  simp only [h0]
  exact select_zero _ _

theorem clamp_eq (w : BitVec 32) (N : Nat) (h : w.toNat < N) (hN : N ≤ 2 ^ 31) :
    min w.toInt.toNat (N - 1) = w.toNat := by
  have := StableHlo.Predicate.toInt_eq_toNat_of_lt (a := w) (by omega)
  rw [this]; simp only [Int.toNat_natCast]; omega

def clampFin (N : Nat) (hN : 0 < N) {w : Nat} (v : BitVec w) : Fin N := ⟨min v.toInt.toNat (N - 1), by omega⟩

theorem clampFin_eq (N : Nat) (hN : 0 < N) (v : BitVec 32) (h : v.toNat < N) (hN' : N ≤ 2 ^ 31) (r : Fin N)
    (hr : r.val = v.toNat) : clampFin N hN v = r :=
  Fin.ext (by show min v.toInt.toNat (N - 1) = r.val; rw [clamp_eq v N h hN', hr])

abbrev takeDims1 (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

abbrev colIdx {n : Nat} (y : (⟨1, ![n]⟩ : Shape).Idx) : (⟨2, ![n, 1]⟩ : Shape).Idx :=
  fun a => match a with | ⟨0, _⟩ => ⟨(y 0).val, (y 0).isLt⟩ | ⟨1, _⟩ => ⟨0, Nat.one_pos⟩

theorem gather_take1_apply {α : Type} {N n w : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ w) (y : (⟨1, ![n]⟩ : Shape).Idx) :
    Host.gather (takeDims1 N n wf) x idx y = x (ix1 (clampFin N hN (idx (colIdx y)))) := by
  unfold Host.gather
  congr 1
  funext a
  obtain rfl : a = 0 := Subsingleton.elim _ _
  refine Fin.ext ?_
  show (takeDims1 N n wf).start y idx 0 + (takeDims1 N n wf).batchCoord y 0 + (takeDims1 N n wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeDims1 N n wf).startIndexMap from List.mem_singleton.mpr rfl)]
  have hsi : (takeDims1 N n wf).siIdx y ⟨List.idxOf (0 : Fin 1) (takeDims1 N n wf).startIndexMap,
      List.idxOf_lt_length_iff.2 (List.mem_singleton.mpr rfl)⟩ = colIdx y := by
    funext b; refine Fin.ext ?_
    match b with
    | ⟨0, _⟩ => rfl
    | ⟨1, _⟩ => rfl
  rw [hsi]
  rfl

theorem gather_rows_apply' {α : Type} {N n C w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (y : (⟨2, ![n, C]⟩ : Shape).Idx) :
    Host.gather (rowsDims N n C wf) x idx y
      = x (ix2 (clampFin N hN (idx (rowIdx y))) (⟨(y 1).val, idx2_lt1 y⟩ : Fin C)) :=
  gather_rows_apply hN wf x idx y

theorem gather36 (X : FVec Ideal S16384x512 .f32) (idx : IVec S262144x1 32) (y : S262144x512.Idx) :
    Host.gather gather_S16384x512_S262144x1_S262144x512_1_0_n_n_0_1_1512 X idx y
      = X (ix2 (clampFin 16384 (by decide) (idx (rowIdx y))) (⟨(y 1).val, idx2_lt1 y⟩ : Fin 512)) :=
  gather_rows_apply' (by decide) gather_S16384x512_S262144x1_S262144x512_1_0_n_n_0_1_1512_wf X idx y

theorem gather43 (X : FVec Ideal S50000x512 .f32) (idx : IVec S262144x1 32) (y : S262144x512.Idx) :
    Host.gather gather_S50000x512_S262144x1_S262144x512_1_0_n_n_0_1_1512 X idx y
      = X (ix2 (clampFin 50000 (by decide) (idx (rowIdx y))) (⟨(y 1).val, idx2_lt1 y⟩ : Fin 512)) :=
  gather_rows_apply' (by decide) gather_S50000x512_S262144x1_S262144x512_1_0_n_n_0_1_1512_wf X idx y

theorem gather52 (X : FVec Ideal S50000 .f32) (idx : IVec S262144x1 32) (y : S262144.Idx) :
    Host.gather gather_S50000_S262144x1_S262144_n_0_n_n_0_1_1 X idx y
      = X (ix1 (clampFin 50000 (by decide) (idx (colIdx y)))) :=
  gather_take1_apply (by decide) gather_S50000_S262144x1_S262144_n_0_n_n_0_1_1_wf X idx y

theorem tu_eq (a3 : IVec S262144 32) (hu : ∀ i, (a3 i).toNat < 16384) (i : S262144.Idx) :
    val_main_v34 (F := Ideal) a3 i = a3 i := by
  rw [val_main_v34_apply, val_main_v31_apply, val_main_v33_apply, val_main_v30_apply, val_main_c_1_apply]
  exact wrap_eq _ _ (by have := hu i; omega)

theorem ti_eq (a4 : IVec S262144 32) (hi : ∀ i, (a4 i).toNat < 50000) (i : S262144.Idx) :
    val_main_v41 (F := Ideal) a4 i = a4 i := by
  rw [val_main_v41_apply, val_main_v38_apply, val_main_v40_apply, val_main_v37_apply, val_main_c_3_apply]
  exact wrap_eq _ _ (by have := hi i; omega)

theorem ti'_eq (a4 : IVec S262144 32) (hi : ∀ i, (a4 i).toNat < 50000) (i : S262144.Idx) :
    val_main_v50 (F := Ideal) a4 i = a4 i := by
  rw [val_main_v50_apply, val_main_v47_apply, val_main_v49_apply, val_main_v46_apply, val_main_c_6_apply]
  exact wrap_eq _ _ (by have := hi i; omega)

theorem agg_eq (a0 a1 : IVec S262144 32) (a2 : FVec Ideal S262144 .f32) (a6 : FVec Ideal S512x50000 .f32) :
    val_main_v13 (F := Ideal) a0 a1 a2 a6 = Cert.Spec.agg a0 a1 a2 a6 := rfl

theorem e1 (i : S16384x512.Idx) (j : Fin 256) (k : Fin 512) :
    lidx_main_v19 (lidx_main_v25 i j) k = (ix2 (i 0) k : S16384x512.Idx) := by
  funext a; match a with | ⟨0, _⟩ => rfl | ⟨1, _⟩ => rfl
theorem e2 (i : S16384x512.Idx) (k : Fin 512) :
    idx_main_v14 (idx_main_v15 (ix2 (i 0) k : S16384x512.Idx)) = (ix1 k : S512.Idx) := by
  funext a; match a with | ⟨0, _⟩ => rfl
theorem e3 (i : S16384x512.Idx) (j : Fin 256) (k : Fin 512) :
    idx_main_v18 (ridx_main_v19 (lidx_main_v25 i j) k) = (ix2 j k : S256x512.Idx) := by
  funext a; match a with | ⟨0, _⟩ => rfl | ⟨1, _⟩ => rfl
theorem e4 (i : S16384x512.Idx) (j : Fin 256) :
    idx_main_v20 (idx_main_v21 (lidx_main_v25 i j)) = (ix1 j : S256.Idx) := by
  funext a; match a with | ⟨0, _⟩ => rfl
theorem e5 (i : S16384x512.Idx) (j : Fin 256) :
    idx_main_v24 (ridx_main_v25 i j) = (ix2 (i 1) j : S512x256.Idx) := by
  funext a; match a with | ⟨0, _⟩ => rfl | ⟨1, _⟩ => rfl
theorem e6 (i : S16384x512.Idx) :
    idx_main_v26 (idx_main_v27 i) = (ix1 (i 1) : S512.Idx) := by
  funext a; match a with | ⟨0, _⟩ => rfl

set_option maxRecDepth 8192 in
theorem dec_eq (a0 a1 : IVec S262144 32) (a2 : FVec Ideal S262144 .f32) (a6 : FVec Ideal S512x50000 .f32)
    (a7 : FVec Ideal S512 .f32) (a8 : FVec Ideal S256x512 .f32) (a9 : FVec Ideal S256 .f32)
    (a10 : FVec Ideal S512x256 .f32) (a11 : FVec Ideal S512 .f32) :
    val_main_v29 (F := Ideal) a0 a1 a2 a6 a7 a8 a9 a10 a11
      = Cert.Spec.dec (val_main_v13 (F := Ideal) a0 a1 a2 a6) a7 a8 a9 a10 a11 := by
  funext i
  simp only [val_main_v29_apply, val_main_v28_apply, val_main_v25_apply, val_main_v27_apply, val_main_v26_apply,
    val_main_v24_apply, val_main_v23_apply, val_main_v22_apply, val_main_v19_apply, val_main_v21_apply,
    val_main_v20_apply, val_main_v18_apply, val_main_v17_apply, val_main_v16_apply, val_main_v15_apply,
    val_main_v14_apply, Ideal.hostUnary_tanh_def, Ideal.addf_def, e1, e2, e3, e4, e5, e6, Cert.Spec.dec]

theorem e7 (i : S262144.Idx) (k : Fin 512) : idx_main_v35 (rowIdx (idx_main_v45 i k)) = i := by
  funext a; match a with | ⟨0, _⟩ => rfl
theorem e8 (i : S262144.Idx) (k : Fin 512) : idx_main_v42 (rowIdx (idx_main_v45 i k)) = i := by
  funext a; match a with | ⟨0, _⟩ => rfl
theorem e9 (i : S262144.Idx) : idx_main_v51 (colIdx i) = i := by
  funext a; match a with | ⟨0, _⟩ => rfl
theorem e10 (i : S262144.Idx) (k : Fin 512) :
    (⟨((idx_main_v45 i k) 1).val, idx2_lt1 (idx_main_v45 i k)⟩ : Fin 512) = k := rfl

theorem pred_eq (a0 a1 : IVec S262144 32) (a2 : FVec Ideal S262144 .f32) (a3 a4 : IVec S262144 32)
    (a6 : FVec Ideal S512x50000 .f32) (a7 : FVec Ideal S512 .f32) (a8 : FVec Ideal S256x512 .f32)
    (a9 : FVec Ideal S256 .f32) (a10 : FVec Ideal S512x256 .f32) (a11 : FVec Ideal S512 .f32)
    (a12 : FVec Ideal S50000x512 .f32) (a13 : FVec Ideal S50000 .f32)
    (hu : ∀ i, (a3 i).toNat < 16384) (hi : ∀ i, (a4 i).toNat < 50000) :
    val_main_v53 (F := Ideal) a0 a1 a2 a3 a4 a6 a7 a8 a9 a10 a11 a12 a13
      = Cert.Spec.pred (val_main_v29 (F := Ideal) a0 a1 a2 a6 a7 a8 a9 a10 a11) a12 a13 a3 a4 := by
  funext i
  have hU : clampFin 16384 (by decide) (a3 i) = Cert.Spec.U (a3 i) :=
    clampFin_eq _ _ _ (hu i) (by decide) _ (Cert.Spec.U_val (hu i))
  have hI : clampFin 50000 (by decide) (a4 i) = Cert.Spec.I (a4 i) :=
    clampFin_eq _ _ _ (hi i) (by decide) _ (Cert.Spec.I_val (hi i))
  have h52 : val_main_v52 (F := Ideal) a4 a13 i = a13 (ix1 (Cert.Spec.I (a4 i))) := by
    unfold val_main_v52
    rw [gather52, val_main_v51_apply, e9, ti'_eq a4 hi, hI]
  have h44 : ∀ k : Fin 512,
      val_main_v44 (F := Ideal) a0 a1 a2 a3 a4 a6 a7 a8 a9 a10 a11 a12 (idx_main_v45 i k)
        = val_main_v29 (F := Ideal) a0 a1 a2 a6 a7 a8 a9 a10 a11 (ix2 (Cert.Spec.U (a3 i)) k)
          * a12 (ix2 (Cert.Spec.I (a4 i)) k) := by
    intro k
    rw [val_main_v44_apply]
    unfold val_main_v36 val_main_v43
    rw [gather36, gather43, val_main_v35_apply, val_main_v42_apply, e7, e8, tu_eq a3 hu, ti_eq a4 hi, hU, hI, e10]
    rfl
  rw [val_main_v53_apply, val_main_v45_apply, val_main_cst_5_apply, h52]
  simp only [h44, Ideal.ofBits_def, Ideal.ofBits_zero_f32, zero_add, Ideal.addf_def]
  rfl

theorem loss_eq (a0 a1 : IVec S262144 32) (a2 : FVec Ideal S262144 .f32) (a3 a4 : IVec S262144 32)
    (a5 : FVec Ideal S262144 .f32) (a6 : FVec Ideal S512x50000 .f32) (a7 : FVec Ideal S512 .f32)
    (a8 : FVec Ideal S256x512 .f32) (a9 : FVec Ideal S256 .f32) (a10 : FVec Ideal S512x256 .f32)
    (a11 : FVec Ideal S512 .f32) (a12 : FVec Ideal S50000x512 .f32) (a13 : FVec Ideal S50000 .f32) :
    val_main_v57 (F := Ideal) a0 a1 a2 a3 a4 a5 a6 a7 a8 a9 a10 a11 a12 a13
      = Cert.Spec.loss (val_main_v53 (F := Ideal) a0 a1 a2 a3 a4 a6 a7 a8 a9 a10 a11 a12 a13) a5 := rfl

theorem pred_spec (a0 a1 : IVec S262144 32) (a2 : FVec Ideal S262144 .f32) (a3 a4 : IVec S262144 32)
    (a6 : FVec Ideal S512x50000 .f32) (a7 : FVec Ideal S512 .f32) (a8 : FVec Ideal S256x512 .f32)
    (a9 : FVec Ideal S256 .f32) (a10 : FVec Ideal S512x256 .f32) (a11 : FVec Ideal S512 .f32)
    (a12 : FVec Ideal S50000x512 .f32) (a13 : FVec Ideal S50000 .f32)
    (hu : ∀ i, (a3 i).toNat < 16384) (hi : ∀ i, (a4 i).toNat < 50000) :
    val_main_v53 (F := Ideal) a0 a1 a2 a3 a4 a6 a7 a8 a9 a10 a11 a12 a13
      = Cert.Spec.pred (Cert.Spec.dec (Cert.Spec.agg a0 a1 a2 a6) a7 a8 a9 a10 a11) a12 a13 a3 a4 := by
  rw [pred_eq a0 a1 a2 a3 a4 a6 a7 a8 a9 a10 a11 a12 a13 hu hi, dec_eq, agg_eq]

theorem loss_spec (a0 a1 : IVec S262144 32) (a2 : FVec Ideal S262144 .f32) (a3 a4 : IVec S262144 32)
    (a5 : FVec Ideal S262144 .f32) (a6 : FVec Ideal S512x50000 .f32) (a7 : FVec Ideal S512 .f32)
    (a8 : FVec Ideal S256x512 .f32) (a9 : FVec Ideal S256 .f32) (a10 : FVec Ideal S512x256 .f32)
    (a11 : FVec Ideal S512 .f32) (a12 : FVec Ideal S50000x512 .f32) (a13 : FVec Ideal S50000 .f32)
    (hu : ∀ i, (a3 i).toNat < 16384) (hi : ∀ i, (a4 i).toNat < 50000) :
    val_main_v57 (F := Ideal) a0 a1 a2 a3 a4 a5 a6 a7 a8 a9 a10 a11 a12 a13
      = Cert.Spec.loss
          (Cert.Spec.pred (Cert.Spec.dec (Cert.Spec.agg a0 a1 a2 a6) a7 a8 a9 a10 a11) a12 a13 a3 a4) a5 := by
  rw [loss_eq, pred_spec a0 a1 a2 a3 a4 a6 a7 a8 a9 a10 a11 a12 a13 hu hi]

set_option maxRecDepth 8192 in
set_option maxHeartbeats 4000000 in

theorem run_spec (m' : (ℓ : Loc nD τ sig) → Buf (Elt Ideal) ℓ) (ρ' : Dev nD → PrngReg)
    (hu : ∀ (c : Dev nD) (i : S262144.Idx), ((m' ((c.tc : Thread nD τ).loc main_arg3)) i).toNat < 16384)
    (hi : ∀ (c : Dev nD) (i : S262144.Idx), ((m' ((c.tc : Thread nD τ).loc main_arg4)) i).toNat < 50000) :
    θ_run (defs (F := Ideal)) (onTc (τ := τ) (main (F := Ideal))) ⟨m', fun _ => 0, ρ'⟩ (fun r => ∀ c : Dev nD,
      r.2.mem ((c.tc : Thread nD τ).loc main_v53)
        = Cert.Spec.pred (Cert.Spec.dec (Cert.Spec.agg (m' ((c.tc : Thread nD τ).loc main_arg0)) (m' ((c.tc : Thread nD τ).loc main_arg1)) (m' ((c.tc : Thread nD τ).loc main_arg2)) (m' ((c.tc : Thread nD τ).loc main_arg6))) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11))) (m' ((c.tc : Thread nD τ).loc main_arg12)) (m' ((c.tc : Thread nD τ).loc main_arg13)) (m' ((c.tc : Thread nD τ).loc main_arg3)) (m' ((c.tc : Thread nD τ).loc main_arg4))
      ∧ r.2.mem ((c.tc : Thread nD τ).loc main_v57)
        = Cert.Spec.loss (Cert.Spec.pred (Cert.Spec.dec (Cert.Spec.agg (m' ((c.tc : Thread nD τ).loc main_arg0)) (m' ((c.tc : Thread nD τ).loc main_arg1)) (m' ((c.tc : Thread nD τ).loc main_arg2)) (m' ((c.tc : Thread nD τ).loc main_arg6))) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11))) (m' ((c.tc : Thread nD τ).loc main_arg12)) (m' ((c.tc : Thread nD τ).loc main_arg13)) (m' ((c.tc : Thread nD τ).loc main_arg3)) (m' ((c.tc : Thread nD τ).loc main_arg4))) (m' ((c.tc : Thread nD τ).loc main_arg5))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)) :=
  (θ_run defs _ _).mono (fun _ h c =>
    ⟨(h c).1.trans ((val_main_v53_eq (F := Ideal) _ _ _ _ _ _ _ _ _ _ _ _ _).trans
        (pred_spec _ _ _ _ _ _ _ _ _ _ _ _ _ (hu c) (hi c))),
      (h c).2.1.trans ((val_main_v57_eq (F := Ideal) m' c).trans
        (loss_spec _ _ _ _ _ _ _ _ _ _ _ _ _ _ (hu c) (hi c))),
      (h c).2.2⟩)
    (Cert.ReferenceIdeal.Value.run (F := Ideal) m' ρ')

end Cert.ReferenceIdeal.RefValue

end
-- ==== Proof.K.Entry.lean ====
import proofs.«421490_j32530082300068_2_alg».proof.Proof.Gen.Kernel.Regions

noncomputable section

namespace Cert.Kernel.Hand

open Idealize.ShloMosaic Idealize.ShloMosaic.TcCoe Idealize.SL Idealize.SL.Sem
open Cert.Kernel Cert.Kernel.Gen

variable {F : FTy → Type} [FloatOps F]
variable (m : (ℓ : Loc nD τ sig) → Buf (Elt F) ℓ) (outs : Gen.Outs (F := F))

abbrev atRefs (W : Dev nD → Valuation τ sig (Elt F)) : (c : Dev nD) → (b : Ref sig .tc) → Buf (Elt F) ((c : Thread nD τ).loc b) :=
  fun c b => W c b

abbrev E0 := atRefs (Gen.V1 m)
abbrev E1 := atRefs (Gen.V3 m outs)
abbrev E2 := atRefs (Gen.V5 m outs)
abbrev E3 := atRefs (Gen.V7 m outs)
abbrev E4 := atRefs (Gen.V9 m outs)
abbrev E5 := atRefs (Gen.V11 m outs)
abbrev E6 := atRefs (Gen.V13 m outs)
abbrev E7 := atRefs (Gen.V15 m outs)
abbrev E8 := atRefs (Gen.V17 m outs)

end Cert.Kernel.Hand

end
-- ==== Proof.K.Mlp.lean ====
import proofs.«421490_j32530082300068_2_alg».proof.Proof.Gen.Kernel.Launch
import proofs.«421490_j32530082300068_2_alg».proof.Proof.Gen.Kernel.Skeleton
import proofs.«421490_j32530082300068_2_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end

abbrev rAct0 : Rect S1024x512 := Rect.unit (s := S1024x512) ![0, 0] S1024x512.size inb_S1024x512_S1024x512_0_0
abbrev rBias512_0 : Rect S1x512 := Rect.unit (s := S1x512) ![0, 0] S1x512.size inb_S1x512_S1x512_0_0
abbrev rW1_0 : Rect S512x256 := Rect.unit (s := S512x256) ![0, 0] S512x256.size inb_S512x256_S512x256_0_0
abbrev rBias256_0 : Rect S1x256 := Rect.unit (s := S1x256) ![0, 0] S1x256.size inb_S1x256_S1x256_0_0
abbrev rW2_0 : Rect S256x512 := Rect.unit (s := S256x512) ![0, 0] S256x512.size inb_S256x512_S256x512_0_0

def out0_6 (x0 : Vec F S1024x512 .f32) (x1 : Vec F S1x512 .f32) (x2 : Vec F S512x256 .f32) (x3 : Vec F S1x256 .f32) (x4 : Vec F S256x512 .f32) (x5 : Vec F S1x512 .f32) : Vec F S1024x512 .f32 :=
  View.canon [⟨rAct0, k0_pay1 (View.ld x0 rAct0) (View.ld x1 rBias512_0) (View.ld x2 rW1_0) (View.ld x3 rBias256_0) (View.ld x4 rW2_0) (View.ld x5 rBias512_0)⟩]

theorem cover0_6 (p0 : Vec F S1024x512 .f32) (y : S1024x512.Idx) :
    ∃ pc ∈ ([⟨rAct0, p0⟩] : List (View.Piece (Elt F) S1024x512 .f32)), y ∈ pc.1.set :=
  View.cover_of_tiled [⟨rAct0, p0⟩] S1024x512.size (by rfl) y

set_option maxHeartbeats 1000000 in

theorem sound_kernel0 (c : Dev nD) (E : Set ℕ) (i : grid0.Coords)
    (arg1 : Memref sig .tc .vmem S1024x512 .f32) (harg1 : arg1.IsWhole)
    (arg2 : Memref sig .tc .vmem S1x512 .f32) (harg2 : arg2.IsWhole)
    (arg3 : Memref sig .tc .vmem S512x256 .f32) (harg3 : arg3.IsWhole)
    (arg4 : Memref sig .tc .vmem S1x256 .f32) (harg4 : arg4.IsWhole)
    (arg5 : Memref sig .tc .vmem S256x512 .f32) (harg5 : arg5.IsWhole)
    (arg6 : Memref sig .tc .vmem S1x512 .f32) (harg6 : arg6.IsWhole)
    (arg7 : Memref sig .tc .vmem S1024x512 .f32) (harg7 : arg7.IsWhole)
    (x0 : Vec F S1024x512 .f32) (x1 : Vec F S1x512 .f32) (x2 : Vec F S512x256 .f32) (x3 : Vec F S1x256 .f32) (x4 : Vec F S256x512 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

section
variable (V : (c : Dev nD) → (b : Ref sig .tc) → Buf (Elt F) ((c : Thread nD τ).loc b))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.PredBody.lean ====
import proofs.«421490_j32530082300068_2_alg».proof.Proof.Gen.Kernel.Launch
import proofs.«421490_j32530082300068_2_alg».proof.Proof.Gen.Kernel.Skeleton
import proofs.«421490_j32530082300068_2_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev rRow : Rect S1x1x512 := Rect.unit (s := S1x1x512) ![0, 0, 0] S1x1x512.size inb_S1x1x512_S1x1x512_0_0_0
abbrev rOne : Rect S1x1x1 := Rect.unit (s := S1x1x1) ![0, 0, 0] S1x1x1.size inb_S1x1x1_S1x1x1_0_0_0

/-- The output block after the body: its one store, of the payload of the three loaded blocks. -/
def outBlock (x0 x1 : Vec F S1x1x512 .f32) (x2 : Vec F S1x1x1 .f32) : Vec F S1x1x1 .f32 :=
  View.canon [⟨rOne, k1_pay1 (View.ld x0 rRow) (View.ld x1 rRow) (View.ld x2 rOne)⟩]

theorem cover_out (p0 : Vec F S1x1x1 .f32) (y : S1x1x1.Idx) :
    ∃ pc ∈ ([⟨rOne, p0⟩] : List (View.Piece (Elt F) S1x1x1 .f32)), y ∈ pc.1.set :=
  View.cover_of_tiled [⟨rOne, p0⟩] S1x1x1.size (by rfl) y

/-- The body leaves its three inputs as read and the output at `outBlock` of them, whatever frame `Φ`, `O` rides along; every chunk runs this same body. -/
theorem sound_pred_framed (c : Dev nD) (E : Set ℕ) (i : grid1.Coords)
    (arg1 : Memref sig .tc .smem S32768 .i32) (harg1 : arg1.IsWhole) (arg2 : Memref sig .tc .smem S32768 .i32) (harg2 : arg2.IsWhole)
    (arg3 : Memref sig .tc .vmem S1x1x512 .f32) (harg3 : arg3.IsWhole) (arg4 : Memref sig .tc .vmem S1x1x512 .f32) (harg4 : arg4.IsWhole)
    (arg5 : Memref sig .tc .vmem S1x1x1 .f32) (harg5 : arg5.IsWhole) (arg6 : Memref sig .tc .vmem S1x1x1 .f32) (harg6 : arg6.IsWhole)
    (x0 x1 : Vec F S1x1x512 .f32) (x2 : Vec F S1x1x1 .f32) (Φ O : sProp 𝕄) {D0 D1 D2 D3 : Type}
    {b0 : D0 → Vec F S1x1x512 .f32} {b1 : D1 → Vec F S1x1x512 .f32} {b2 : D2 → Vec F S1x1x1 .f32} {b3 : D3 → Vec F S1x1x1 .f32}
    (h0 : ∀ d, b0 d = x0) (h1 : ∀ d, b1 d = x1) (h2 : ∀ d, b2 d = x2) :
    iprop(Φ ∗ O ∗ (∃ d, owns (c : Thread nD τ) arg3 fullShare (b0 d)) ∗ (∃ d, owns (c : Thread nD τ) arg4 fullShare (b1 d))
        ∗ (∃ d, owns (c : Thread nD τ) arg5 fullShare (b2 d)) ∗ (∃ d, owns (c : Thread nD τ) arg6 fullShare (b3 d)))
      ⊢ wp frame (wpE (defs₀ (F := F)) Variants.none c none) E (cc1__pred_kernel i arg1 harg1 arg2 harg2 arg3 harg3 arg4 harg4 arg5 harg5 arg6 harg6)
          (fun _ => iprop(Φ ∗ O ∗ owns (c : Thread nD τ) arg3 fullShare x0 ∗ owns (c : Thread nD τ) arg4 fullShare x1
            ∗ owns (c : Thread nD τ) arg5 fullShare x2 ∗ owns (c : Thread nD τ) arg6 fullShare (outBlock x0 x1 x2))) := by
  simp only [cc1__pred_kernel_eq_skeleton]; unfold cc1__pred_kernel_skel
  unfold owns
  iintro ⟨HΦ, Ho, ⟨%d0, %f0, %hf0, H0⟩, ⟨%d1, %f1, %hf1, H1⟩, ⟨%d2, %f2, %hf2, H2⟩, ⟨%d3, %f3, -, H3⟩⟩
  rw [h0] at hf0; rw [h1] at hf1; rw [h2] at hf2
  subst hf0 hf1 hf2
  sl_exec
  sl_step
  isplitl [HΦ]; · iexact HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.Kernel.Hand

end
-- ==== Proof.K.Pred1.lean ====
import proofs.«421490_j32530082300068_2_alg».proof.Proof.K.PredBody

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre1.Contents (Elt F))

abbrev adm1 (hO : ok1 (F := F) pf) : (pcfg1 (F := F)).Adm := ⟨pf, hO⟩
abbrev cfgM1 (hO : ok1 (F := F) pf) : Pipeline.Cfg sig Λ₀ := cfg1 (adm1 pf hO)

/-- The block of window `w` at grid point `t`, cut from the window's array as the region is entered. -/
def iblk1 (hO : ok1 (F := F) pf) (c : Dev nD) (w : Fin (cfgM1 pf hO).W) (t : Fin (cfgM1 pf hO).N) :
    (((cfgM1 pf hO).win w).xblock ((cfgM1 pf hO).grid.coords t)).Idx → Elt F ((cfgM1 pf hO).win w).elt :=
  (((cfgM1 pf hO).win w).blk t).view.read (Elt F) (V c (Pipeline.arrRef spec1 w))

theorem before1_0_of (hO : ok1 (F := F) pf) {c : Dev nD} (dat : Dat τ (Elt F) Unit ℕ (UR sig nD τ) ℕ (cfgM1 pf hO) c) (hA : dat.A 0 = V c (Pipeline.arrRef spec1 0))
    (hafter : ∀ t, dat.after 0 t = iblk1 V pf hO c 0 t) (t : Fin (cfgM1 pf hO).N) (d) : dat.before 0 t d = iblk1 V pf hO c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (hO : ok1 (F := F) pf) {c : Dev nD} (dat : Dat τ (Elt F) Unit ℕ (UR sig nD τ) ℕ (cfgM1 pf hO) c) (hA : dat.A 1 = V c (Pipeline.arrRef spec1 1))
    (hafter : ∀ t, dat.after 1 t = iblk1 V pf hO c 1 t) (t : Fin (cfgM1 pf hO).N) (d) : dat.before 1 t d = iblk1 V pf hO c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of (hO : ok1 (F := F) pf) {c : Dev nD} (dat : Dat τ (Elt F) Unit ℕ (UR sig nD τ) ℕ (cfgM1 pf hO) c) (hA : dat.A 2 = V c (Pipeline.arrRef spec1 2))
    (hafter : ∀ t, dat.after 2 t = iblk1 V pf hO c 2 t) (t : Fin (cfgM1 pf hO).N) (d) : dat.before 2 t d = iblk1 V pf hO c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Every chunk runs the first chunk's body, on its own tables and blocks. -/
abbrev bodyAt1 (hO : ok1 (F := F) pf) (t : Fin (cfgM1 pf hO).N) : Prog (TpuEff nD τ sig (Elt F) Λ₀ .tc) PUnit :=
  cc1__pred_kernel (grid1.coords t) (Memref.whole main_v20) (Memref.isWhole_whole _) (Memref.whole main_v21) (Memref.isWhole_whole _)
    (spec1_0.stage ((cfgM1 pf hO).slots t 0)) (hstage1_0 (((cfgM1 pf hO).slots t 0).cast nbuf1_0))
    (spec1_1.stage ((cfgM1 pf hO).slots t 1)) (hstage1_1 (((cfgM1 pf hO).slots t 1).cast nbuf1_1))
    (spec1_2.stage ((cfgM1 pf hO).slots t 2)) (hstage1_2 (((cfgM1 pf hO).slots t 2).cast nbuf1_2))
    (spec1_3.stage ((cfgM1 pf hO).slots t 3)) (hstage1_3 (((cfgM1 pf hO).slots t 3).cast nbuf1_3))

end

end Cert.Kernel.Hand

end
-- ==== Proof.K.Pred1Dat.lean ====
import proofs.«421490_j32530082300068_2_alg».proof.Proof.K.Pred1

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre1.Contents (Elt F))

abbrev tabs1 (c : Dev nD) : sProp 𝕄 :=
  Pipeline.prefHeld (Ix := Unit) (Name := ℕ) (U := UR sig nD τ) (Lvl := ℕ) pre1 c (fun _ => fullShare) pf

/-- The region's proof data: after point `t` an input window is at its block, the output window at the payload of the three blocks. -/
def dat1 (hO : ok1 (F := F) pf) (c : Dev nD) : Dat τ (Elt F) Unit ℕ (UR sig nD τ) ℕ (cfgM1 pf hO) c where
  A w := V c (Pipeline.arrRef spec1 w)
  after w t := match w with
    | ⟨0, _⟩ => iblk1 V pf hO c 0 t
    | ⟨1, _⟩ => iblk1 V pf hO c 1 t
    | ⟨2, _⟩ => iblk1 V pf hO c 2 t
    | ⟨3, _⟩ => outBlock (iblk1 V pf hO c 0 t) (iblk1 V pf hO c 1 t) (iblk1 V pf hO c 2 t)
  Φ _ := iprop(Pipeline.ΦA spec1 c ∗ tabs1 pf c)
  q _ := fullShare
  owed _ := 0

theorem A_eq1 (hO : ok1 (F := F) pf) (c : Dev nD) (w : Fin (cfgM1 pf hO).W) : (dat1 V pf hO c).A w = V c (Pipeline.arrRef spec1 w) := rfl

theorem after1_3 (hO : ok1 (F := F) pf) (c : Dev nD) (t : Fin (cfgM1 pf hO).N) :
    (dat1 V pf hO c).after 3 t = outBlock (iblk1 V pf hO c 0 t) (iblk1 V pf hO c 1 t) (iblk1 V pf hO c 2 t) := rfl

theorem body_obligation1 (hO : ok1 (F := F) pf) (c : Dev nD) : BodyObligation (dat1 (F := F) V pf hO c) (defs₀ (F := F)) Variants.none () Set.univ := fun t => by
  rw [bigSep_W1, bigSep_W1]
  show _ ⊢ wp frame _ Set.univ (bodyAt1 pf hO t) _
  exact sound_pred_framed c Set.univ _ _ _ _ _ _ _ _ _ _ _ _ _ (iblk1 V pf hO c 0 t) (iblk1 V pf hO c 1 t) (iblk1 V pf hO c 2 t) _ _
    (before1_0_of V pf hO _ rfl (fun _ => rfl) t) (before1_1_of V pf hO _ rfl (fun _ => rfl) t) (before1_2_of V pf hO _ rfl (fun _ => rfl) t)

end

end Cert.Kernel.Hand

end
-- ==== Proof.K.Pred2.lean ====
import proofs.«421490_j32530082300068_2_alg».proof.Proof.K.PredBody

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre2.Contents (Elt F))

abbrev adm2 (hO : ok2 (F := F) pf) : (pcfg2 (F := F)).Adm := ⟨pf, hO⟩
abbrev cfgM2 (hO : ok2 (F := F) pf) : Pipeline.Cfg sig Λ₀ := cfg2 (adm2 pf hO)

/-- The block of window `w` at grid point `t`, cut from the window's array as the region is entered. -/
def iblk2 (hO : ok2 (F := F) pf) (c : Dev nD) (w : Fin (cfgM2 pf hO).W) (t : Fin (cfgM2 pf hO).N) :
    (((cfgM2 pf hO).win w).xblock ((cfgM2 pf hO).grid.coords t)).Idx → Elt F ((cfgM2 pf hO).win w).elt :=
  (((cfgM2 pf hO).win w).blk t).view.read (Elt F) (V c (Pipeline.arrRef spec2 w))

theorem before2_0_of (hO : ok2 (F := F) pf) {c : Dev nD} (dat : Dat τ (Elt F) Unit ℕ (UR sig nD τ) ℕ (cfgM2 pf hO) c) (hA : dat.A 0 = V c (Pipeline.arrRef spec2 0))
    (hafter : ∀ t, dat.after 0 t = iblk2 V pf hO c 0 t) (t : Fin (cfgM2 pf hO).N) (d) : dat.before 0 t d = iblk2 V pf hO c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of (hO : ok2 (F := F) pf) {c : Dev nD} (dat : Dat τ (Elt F) Unit ℕ (UR sig nD τ) ℕ (cfgM2 pf hO) c) (hA : dat.A 1 = V c (Pipeline.arrRef spec2 1))
    (hafter : ∀ t, dat.after 1 t = iblk2 V pf hO c 1 t) (t : Fin (cfgM2 pf hO).N) (d) : dat.before 1 t d = iblk2 V pf hO c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of (hO : ok2 (F := F) pf) {c : Dev nD} (dat : Dat τ (Elt F) Unit ℕ (UR sig nD τ) ℕ (cfgM2 pf hO) c) (hA : dat.A 2 = V c (Pipeline.arrRef spec2 2))
    (hafter : ∀ t, dat.after 2 t = iblk2 V pf hO c 2 t) (t : Fin (cfgM2 pf hO).N) (d) : dat.before 2 t d = iblk2 V pf hO c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Every chunk runs the first chunk's body, on its own tables and blocks. -/
abbrev bodyAt2 (hO : ok2 (F := F) pf) (t : Fin (cfgM2 pf hO).N) : Prog (TpuEff nD τ sig (Elt F) Λ₀ .tc) PUnit :=
  cc1__pred_kernel (grid2.coords t) (Memref.whole main_v27) (Memref.isWhole_whole _) (Memref.whole main_v28) (Memref.isWhole_whole _)
    (spec2_0.stage ((cfgM2 pf hO).slots t 0)) (hstage2_0 (((cfgM2 pf hO).slots t 0).cast nbuf2_0))
    (spec2_1.stage ((cfgM2 pf hO).slots t 1)) (hstage2_1 (((cfgM2 pf hO).slots t 1).cast nbuf2_1))
    (spec2_2.stage ((cfgM2 pf hO).slots t 2)) (hstage2_2 (((cfgM2 pf hO).slots t 2).cast nbuf2_2))
    (spec2_3.stage ((cfgM2 pf hO).slots t 3)) (hstage2_3 (((cfgM2 pf hO).slots t 3).cast nbuf2_3))

end

end Cert.Kernel.Hand

end
-- ==== Proof.K.Pred2Dat.lean ====
import proofs.«421490_j32530082300068_2_alg».proof.Proof.K.Pred2

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre2.Contents (Elt F))

abbrev tabs2 (c : Dev nD) : sProp 𝕄 :=
  Pipeline.prefHeld (Ix := Unit) (Name := ℕ) (U := UR sig nD τ) (Lvl := ℕ) pre2 c (fun _ => fullShare) pf

/-- The region's proof data: after point `t` an input window is at its block, the output window at the payload of the three blocks. -/
def dat2 (hO : ok2 (F := F) pf) (c : Dev nD) : Dat τ (Elt F) Unit ℕ (UR sig nD τ) ℕ (cfgM2 pf hO) c where
  A w := V c (Pipeline.arrRef spec2 w)
  after w t := match w with
    | ⟨0, _⟩ => iblk2 V pf hO c 0 t
    | ⟨1, _⟩ => iblk2 V pf hO c 1 t
    | ⟨2, _⟩ => iblk2 V pf hO c 2 t
    | ⟨3, _⟩ => outBlock (iblk2 V pf hO c 0 t) (iblk2 V pf hO c 1 t) (iblk2 V pf hO c 2 t)
  Φ _ := iprop(Pipeline.ΦA spec2 c ∗ tabs2 pf c)
  q _ := fullShare
  owed _ := 0

theorem A_eq2 (hO : ok2 (F := F) pf) (c : Dev nD) (w : Fin (cfgM2 pf hO).W) : (dat2 V pf hO c).A w = V c (Pipeline.arrRef spec2 w) := rfl

theorem after2_3 (hO : ok2 (F := F) pf) (c : Dev nD) (t : Fin (cfgM2 pf hO).N) :
    (dat2 V pf hO c).after 3 t = outBlock (iblk2 V pf hO c 0 t) (iblk2 V pf hO c 1 t) (iblk2 V pf hO c 2 t) := rfl

theorem body_obligation2 (hO : ok2 (F := F) pf) (c : Dev nD) : BodyObligation (dat2 (F := F) V pf hO c) (defs₀ (F := F)) Variants.none () Set.univ := fun t => by
  rw [bigSep_W2, bigSep_W2]
  show _ ⊢ wp frame _ Set.univ (bodyAt2 pf hO t) _
  exact sound_pred_framed c Set.univ _ _ _ _ _ _ _ _ _ _ _ _ _ (iblk2 V pf hO c 0 t) (iblk2 V pf hO c 1 t) (iblk2 V pf hO c 2 t) _ _
    (before2_0_of V pf hO _ rfl (fun _ => rfl) t) (before2_1_of V pf hO _ rfl (fun _ => rfl) t) (before2_2_of V pf hO _ rfl (fun _ => rfl) t)

end

end Cert.Kernel.Hand

end
-- ==== Proof.K.Pred3.lean ====
import proofs.«421490_j32530082300068_2_alg».proof.Proof.K.PredBody

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre3.Contents (Elt F))

abbrev adm3 (hO : ok3 (F := F) pf) : (pcfg3 (F := F)).Adm := ⟨pf, hO⟩
abbrev cfgM3 (hO : ok3 (F := F) pf) : Pipeline.Cfg sig Λ₀ := cfg3 (adm3 pf hO)

/-- The block of window `w` at grid point `t`, cut from the window's array as the region is entered. -/
def iblk3 (hO : ok3 (F := F) pf) (c : Dev nD) (w : Fin (cfgM3 pf hO).W) (t : Fin (cfgM3 pf hO).N) :
    (((cfgM3 pf hO).win w).xblock ((cfgM3 pf hO).grid.coords t)).Idx → Elt F ((cfgM3 pf hO).win w).elt :=
  (((cfgM3 pf hO).win w).blk t).view.read (Elt F) (V c (Pipeline.arrRef spec3 w))

theorem before3_0_of (hO : ok3 (F := F) pf) {c : Dev nD} (dat : Dat τ (Elt F) Unit ℕ (UR sig nD τ) ℕ (cfgM3 pf hO) c) (hA : dat.A 0 = V c (Pipeline.arrRef spec3 0))
    (hafter : ∀ t, dat.after 0 t = iblk3 V pf hO c 0 t) (t : Fin (cfgM3 pf hO).N) (d) : dat.before 0 t d = iblk3 V pf hO c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of (hO : ok3 (F := F) pf) {c : Dev nD} (dat : Dat τ (Elt F) Unit ℕ (UR sig nD τ) ℕ (cfgM3 pf hO) c) (hA : dat.A 1 = V c (Pipeline.arrRef spec3 1))
    (hafter : ∀ t, dat.after 1 t = iblk3 V pf hO c 1 t) (t : Fin (cfgM3 pf hO).N) (d) : dat.before 1 t d = iblk3 V pf hO c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of (hO : ok3 (F := F) pf) {c : Dev nD} (dat : Dat τ (Elt F) Unit ℕ (UR sig nD τ) ℕ (cfgM3 pf hO) c) (hA : dat.A 2 = V c (Pipeline.arrRef spec3 2))
    (hafter : ∀ t, dat.after 2 t = iblk3 V pf hO c 2 t) (t : Fin (cfgM3 pf hO).N) (d) : dat.before 2 t d = iblk3 V pf hO c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Every chunk runs the first chunk's body, on its own tables and blocks. -/
abbrev bodyAt3 (hO : ok3 (F := F) pf) (t : Fin (cfgM3 pf hO).N) : Prog (TpuEff nD τ sig (Elt F) Λ₀ .tc) PUnit :=
  cc1__pred_kernel (grid3.coords t) (Memref.whole main_v34) (Memref.isWhole_whole _) (Memref.whole main_v35) (Memref.isWhole_whole _)
    (spec3_0.stage ((cfgM3 pf hO).slots t 0)) (hstage3_0 (((cfgM3 pf hO).slots t 0).cast nbuf3_0))
    (spec3_1.stage ((cfgM3 pf hO).slots t 1)) (hstage3_1 (((cfgM3 pf hO).slots t 1).cast nbuf3_1))
    (spec3_2.stage ((cfgM3 pf hO).slots t 2)) (hstage3_2 (((cfgM3 pf hO).slots t 2).cast nbuf3_2))
    (spec3_3.stage ((cfgM3 pf hO).slots t 3)) (hstage3_3 (((cfgM3 pf hO).slots t 3).cast nbuf3_3))

end

end Cert.Kernel.Hand

end
-- ==== Proof.K.Pred3Dat.lean ====
import proofs.«421490_j32530082300068_2_alg».proof.Proof.K.Pred3

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre3.Contents (Elt F))

abbrev tabs3 (c : Dev nD) : sProp 𝕄 :=
  Pipeline.prefHeld (Ix := Unit) (Name := ℕ) (U := UR sig nD τ) (Lvl := ℕ) pre3 c (fun _ => fullShare) pf

/-- The region's proof data: after point `t` an input window is at its block, the output window at the payload of the three blocks. -/
def dat3 (hO : ok3 (F := F) pf) (c : Dev nD) : Dat τ (Elt F) Unit ℕ (UR sig nD τ) ℕ (cfgM3 pf hO) c where
  A w := V c (Pipeline.arrRef spec3 w)
  after w t := match w with
    | ⟨0, _⟩ => iblk3 V pf hO c 0 t
    | ⟨1, _⟩ => iblk3 V pf hO c 1 t
    | ⟨2, _⟩ => iblk3 V pf hO c 2 t
    | ⟨3, _⟩ => outBlock (iblk3 V pf hO c 0 t) (iblk3 V pf hO c 1 t) (iblk3 V pf hO c 2 t)
  Φ _ := iprop(Pipeline.ΦA spec3 c ∗ tabs3 pf c)
  q _ := fullShare
  owed _ := 0

theorem A_eq3 (hO : ok3 (F := F) pf) (c : Dev nD) (w : Fin (cfgM3 pf hO).W) : (dat3 V pf hO c).A w = V c (Pipeline.arrRef spec3 w) := rfl

theorem after3_3 (hO : ok3 (F := F) pf) (c : Dev nD) (t : Fin (cfgM3 pf hO).N) :
    (dat3 V pf hO c).after 3 t = outBlock (iblk3 V pf hO c 0 t) (iblk3 V pf hO c 1 t) (iblk3 V pf hO c 2 t) := rfl

theorem body_obligation3 (hO : ok3 (F := F) pf) (c : Dev nD) : BodyObligation (dat3 (F := F) V pf hO c) (defs₀ (F := F)) Variants.none () Set.univ := fun t => by
  rw [bigSep_W3, bigSep_W3]
  show _ ⊢ wp frame _ Set.univ (bodyAt3 pf hO t) _
  exact sound_pred_framed c Set.univ _ _ _ _ _ _ _ _ _ _ _ _ _ (iblk3 V pf hO c 0 t) (iblk3 V pf hO c 1 t) (iblk3 V pf hO c 2 t) _ _
    (before3_0_of V pf hO _ rfl (fun _ => rfl) t) (before3_1_of V pf hO _ rfl (fun _ => rfl) t) (before3_2_of V pf hO _ rfl (fun _ => rfl) t)

end

end Cert.Kernel.Hand

end
-- ==== Proof.K.Pred4.lean ====
import proofs.«421490_j32530082300068_2_alg».proof.Proof.K.PredBody

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre4.Contents (Elt F))

abbrev adm4 (hO : ok4 (F := F) pf) : (pcfg4 (F := F)).Adm := ⟨pf, hO⟩
abbrev cfgM4 (hO : ok4 (F := F) pf) : Pipeline.Cfg sig Λ₀ := cfg4 (adm4 pf hO)

/-- The block of window `w` at grid point `t`, cut from the window's array as the region is entered. -/
def iblk4 (hO : ok4 (F := F) pf) (c : Dev nD) (w : Fin (cfgM4 pf hO).W) (t : Fin (cfgM4 pf hO).N) :
    (((cfgM4 pf hO).win w).xblock ((cfgM4 pf hO).grid.coords t)).Idx → Elt F ((cfgM4 pf hO).win w).elt :=
  (((cfgM4 pf hO).win w).blk t).view.read (Elt F) (V c (Pipeline.arrRef spec4 w))

theorem before4_0_of (hO : ok4 (F := F) pf) {c : Dev nD} (dat : Dat τ (Elt F) Unit ℕ (UR sig nD τ) ℕ (cfgM4 pf hO) c) (hA : dat.A 0 = V c (Pipeline.arrRef spec4 0))
    (hafter : ∀ t, dat.after 0 t = iblk4 V pf hO c 0 t) (t : Fin (cfgM4 pf hO).N) (d) : dat.before 0 t d = iblk4 V pf hO c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of (hO : ok4 (F := F) pf) {c : Dev nD} (dat : Dat τ (Elt F) Unit ℕ (UR sig nD τ) ℕ (cfgM4 pf hO) c) (hA : dat.A 1 = V c (Pipeline.arrRef spec4 1))
    (hafter : ∀ t, dat.after 1 t = iblk4 V pf hO c 1 t) (t : Fin (cfgM4 pf hO).N) (d) : dat.before 1 t d = iblk4 V pf hO c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of (hO : ok4 (F := F) pf) {c : Dev nD} (dat : Dat τ (Elt F) Unit ℕ (UR sig nD τ) ℕ (cfgM4 pf hO) c) (hA : dat.A 2 = V c (Pipeline.arrRef spec4 2))
    (hafter : ∀ t, dat.after 2 t = iblk4 V pf hO c 2 t) (t : Fin (cfgM4 pf hO).N) (d) : dat.before 2 t d = iblk4 V pf hO c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Every chunk runs the first chunk's body, on its own tables and blocks. -/
abbrev bodyAt4 (hO : ok4 (F := F) pf) (t : Fin (cfgM4 pf hO).N) : Prog (TpuEff nD τ sig (Elt F) Λ₀ .tc) PUnit :=
  cc1__pred_kernel (grid4.coords t) (Memref.whole main_v41) (Memref.isWhole_whole _) (Memref.whole main_v42) (Memref.isWhole_whole _)
    (spec4_0.stage ((cfgM4 pf hO).slots t 0)) (hstage4_0 (((cfgM4 pf hO).slots t 0).cast nbuf4_0))
    (spec4_1.stage ((cfgM4 pf hO).slots t 1)) (hstage4_1 (((cfgM4 pf hO).slots t 1).cast nbuf4_1))
    (spec4_2.stage ((cfgM4 pf hO).slots t 2)) (hstage4_2 (((cfgM4 pf hO).slots t 2).cast nbuf4_2))
    (spec4_3.stage ((cfgM4 pf hO).slots t 3)) (hstage4_3 (((cfgM4 pf hO).slots t 3).cast nbuf4_3))

end

end Cert.Kernel.Hand

end
-- ==== Proof.K.Pred4Dat.lean ====
import proofs.«421490_j32530082300068_2_alg».proof.Proof.K.Pred4

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre4.Contents (Elt F))

abbrev tabs4 (c : Dev nD) : sProp 𝕄 :=
  Pipeline.prefHeld (Ix := Unit) (Name := ℕ) (U := UR sig nD τ) (Lvl := ℕ) pre4 c (fun _ => fullShare) pf

/-- The region's proof data: after point `t` an input window is at its block, the output window at the payload of the three blocks. -/
def dat4 (hO : ok4 (F := F) pf) (c : Dev nD) : Dat τ (Elt F) Unit ℕ (UR sig nD τ) ℕ (cfgM4 pf hO) c where
  A w := V c (Pipeline.arrRef spec4 w)
  after w t := match w with
    | ⟨0, _⟩ => iblk4 V pf hO c 0 t
    | ⟨1, _⟩ => iblk4 V pf hO c 1 t
    | ⟨2, _⟩ => iblk4 V pf hO c 2 t
    | ⟨3, _⟩ => outBlock (iblk4 V pf hO c 0 t) (iblk4 V pf hO c 1 t) (iblk4 V pf hO c 2 t)
  Φ _ := iprop(Pipeline.ΦA spec4 c ∗ tabs4 pf c)
  q _ := fullShare
  owed _ := 0

theorem A_eq4 (hO : ok4 (F := F) pf) (c : Dev nD) (w : Fin (cfgM4 pf hO).W) : (dat4 V pf hO c).A w = V c (Pipeline.arrRef spec4 w) := rfl

theorem after4_3 (hO : ok4 (F := F) pf) (c : Dev nD) (t : Fin (cfgM4 pf hO).N) :
    (dat4 V pf hO c).after 3 t = outBlock (iblk4 V pf hO c 0 t) (iblk4 V pf hO c 1 t) (iblk4 V pf hO c 2 t) := rfl

theorem body_obligation4 (hO : ok4 (F := F) pf) (c : Dev nD) : BodyObligation (dat4 (F := F) V pf hO c) (defs₀ (F := F)) Variants.none () Set.univ := fun t => by
  rw [bigSep_W4, bigSep_W4]
  show _ ⊢ wp frame _ Set.univ (bodyAt4 pf hO t) _
  exact sound_pred_framed c Set.univ _ _ _ _ _ _ _ _ _ _ _ _ _ (iblk4 V pf hO c 0 t) (iblk4 V pf hO c 1 t) (iblk4 V pf hO c 2 t) _ _
    (before4_0_of V pf hO _ rfl (fun _ => rfl) t) (before4_1_of V pf hO _ rfl (fun _ => rfl) t) (before4_2_of V pf hO _ rfl (fun _ => rfl) t)

end

end Cert.Kernel.Hand

end
-- ==== Proof.K.Pred5.lean ====
import proofs.«421490_j32530082300068_2_alg».proof.Proof.K.PredBody

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre5.Contents (Elt F))

abbrev adm5 (hO : ok5 (F := F) pf) : (pcfg5 (F := F)).Adm := ⟨pf, hO⟩
abbrev cfgM5 (hO : ok5 (F := F) pf) : Pipeline.Cfg sig Λ₀ := cfg5 (adm5 pf hO)

/-- The block of window `w` at grid point `t`, cut from the window's array as the region is entered. -/
def iblk5 (hO : ok5 (F := F) pf) (c : Dev nD) (w : Fin (cfgM5 pf hO).W) (t : Fin (cfgM5 pf hO).N) :
    (((cfgM5 pf hO).win w).xblock ((cfgM5 pf hO).grid.coords t)).Idx → Elt F ((cfgM5 pf hO).win w).elt :=
  (((cfgM5 pf hO).win w).blk t).view.read (Elt F) (V c (Pipeline.arrRef spec5 w))

theorem before5_0_of (hO : ok5 (F := F) pf) {c : Dev nD} (dat : Dat τ (Elt F) Unit ℕ (UR sig nD τ) ℕ (cfgM5 pf hO) c) (hA : dat.A 0 = V c (Pipeline.arrRef spec5 0))
    (hafter : ∀ t, dat.after 0 t = iblk5 V pf hO c 0 t) (t : Fin (cfgM5 pf hO).N) (d) : dat.before 0 t d = iblk5 V pf hO c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of (hO : ok5 (F := F) pf) {c : Dev nD} (dat : Dat τ (Elt F) Unit ℕ (UR sig nD τ) ℕ (cfgM5 pf hO) c) (hA : dat.A 1 = V c (Pipeline.arrRef spec5 1))
    (hafter : ∀ t, dat.after 1 t = iblk5 V pf hO c 1 t) (t : Fin (cfgM5 pf hO).N) (d) : dat.before 1 t d = iblk5 V pf hO c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of (hO : ok5 (F := F) pf) {c : Dev nD} (dat : Dat τ (Elt F) Unit ℕ (UR sig nD τ) ℕ (cfgM5 pf hO) c) (hA : dat.A 2 = V c (Pipeline.arrRef spec5 2))
    (hafter : ∀ t, dat.after 2 t = iblk5 V pf hO c 2 t) (t : Fin (cfgM5 pf hO).N) (d) : dat.before 2 t d = iblk5 V pf hO c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Every chunk runs the first chunk's body, on its own tables and blocks. -/
abbrev bodyAt5 (hO : ok5 (F := F) pf) (t : Fin (cfgM5 pf hO).N) : Prog (TpuEff nD τ sig (Elt F) Λ₀ .tc) PUnit :=
  cc1__pred_kernel (grid5.coords t) (Memref.whole main_v48) (Memref.isWhole_whole _) (Memref.whole main_v49) (Memref.isWhole_whole _)
    (spec5_0.stage ((cfgM5 pf hO).slots t 0)) (hstage5_0 (((cfgM5 pf hO).slots t 0).cast nbuf5_0))
    (spec5_1.stage ((cfgM5 pf hO).slots t 1)) (hstage5_1 (((cfgM5 pf hO).slots t 1).cast nbuf5_1))
    (spec5_2.stage ((cfgM5 pf hO).slots t 2)) (hstage5_2 (((cfgM5 pf hO).slots t 2).cast nbuf5_2))
    (spec5_3.stage ((cfgM5 pf hO).slots t 3)) (hstage5_3 (((cfgM5 pf hO).slots t 3).cast nbuf5_3))

end

end Cert.Kernel.Hand

end
-- ==== Proof.K.Pred5Dat.lean ====
import proofs.«421490_j32530082300068_2_alg».proof.Proof.K.Pred5

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre5.Contents (Elt F))

abbrev tabs5 (c : Dev nD) : sProp 𝕄 :=
  Pipeline.prefHeld (Ix := Unit) (Name := ℕ) (U := UR sig nD τ) (Lvl := ℕ) pre5 c (fun _ => fullShare) pf

/-- The region's proof data: after point `t` an input window is at its block, the output window at the payload of the three blocks. -/
def dat5 (hO : ok5 (F := F) pf) (c : Dev nD) : Dat τ (Elt F) Unit ℕ (UR sig nD τ) ℕ (cfgM5 pf hO) c where
  A w := V c (Pipeline.arrRef spec5 w)
  after w t := match w with
    | ⟨0, _⟩ => iblk5 V pf hO c 0 t
    | ⟨1, _⟩ => iblk5 V pf hO c 1 t
    | ⟨2, _⟩ => iblk5 V pf hO c 2 t
    | ⟨3, _⟩ => outBlock (iblk5 V pf hO c 0 t) (iblk5 V pf hO c 1 t) (iblk5 V pf hO c 2 t)
  Φ _ := iprop(Pipeline.ΦA spec5 c ∗ tabs5 pf c)
  q _ := fullShare
  owed _ := 0

theorem A_eq5 (hO : ok5 (F := F) pf) (c : Dev nD) (w : Fin (cfgM5 pf hO).W) : (dat5 V pf hO c).A w = V c (Pipeline.arrRef spec5 w) := rfl

theorem after5_3 (hO : ok5 (F := F) pf) (c : Dev nD) (t : Fin (cfgM5 pf hO).N) :
    (dat5 V pf hO c).after 3 t = outBlock (iblk5 V pf hO c 0 t) (iblk5 V pf hO c 1 t) (iblk5 V pf hO c 2 t) := rfl

theorem body_obligation5 (hO : ok5 (F := F) pf) (c : Dev nD) : BodyObligation (dat5 (F := F) V pf hO c) (defs₀ (F := F)) Variants.none () Set.univ := fun t => by
  rw [bigSep_W5, bigSep_W5]
  show _ ⊢ wp frame _ Set.univ (bodyAt5 pf hO t) _
  exact sound_pred_framed c Set.univ _ _ _ _ _ _ _ _ _ _ _ _ _ (iblk5 V pf hO c 0 t) (iblk5 V pf hO c 1 t) (iblk5 V pf hO c 2 t) _ _
    (before5_0_of V pf hO _ rfl (fun _ => rfl) t) (before5_1_of V pf hO _ rfl (fun _ => rfl) t) (before5_2_of V pf hO _ rfl (fun _ => rfl) t)

end

end Cert.Kernel.Hand

end
-- ==== Proof.K.Pred6.lean ====
import proofs.«421490_j32530082300068_2_alg».proof.Proof.K.PredBody

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre6.Contents (Elt F))

abbrev adm6 (hO : ok6 (F := F) pf) : (pcfg6 (F := F)).Adm := ⟨pf, hO⟩
abbrev cfgM6 (hO : ok6 (F := F) pf) : Pipeline.Cfg sig Λ₀ := cfg6 (adm6 pf hO)

/-- The block of window `w` at grid point `t`, cut from the window's array as the region is entered. -/
def iblk6 (hO : ok6 (F := F) pf) (c : Dev nD) (w : Fin (cfgM6 pf hO).W) (t : Fin (cfgM6 pf hO).N) :
    (((cfgM6 pf hO).win w).xblock ((cfgM6 pf hO).grid.coords t)).Idx → Elt F ((cfgM6 pf hO).win w).elt :=
  (((cfgM6 pf hO).win w).blk t).view.read (Elt F) (V c (Pipeline.arrRef spec6 w))

theorem before6_0_of (hO : ok6 (F := F) pf) {c : Dev nD} (dat : Dat τ (Elt F) Unit ℕ (UR sig nD τ) ℕ (cfgM6 pf hO) c) (hA : dat.A 0 = V c (Pipeline.arrRef spec6 0))
    (hafter : ∀ t, dat.after 0 t = iblk6 V pf hO c 0 t) (t : Fin (cfgM6 pf hO).N) (d) : dat.before 0 t d = iblk6 V pf hO c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of (hO : ok6 (F := F) pf) {c : Dev nD} (dat : Dat τ (Elt F) Unit ℕ (UR sig nD τ) ℕ (cfgM6 pf hO) c) (hA : dat.A 1 = V c (Pipeline.arrRef spec6 1))
    (hafter : ∀ t, dat.after 1 t = iblk6 V pf hO c 1 t) (t : Fin (cfgM6 pf hO).N) (d) : dat.before 1 t d = iblk6 V pf hO c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of (hO : ok6 (F := F) pf) {c : Dev nD} (dat : Dat τ (Elt F) Unit ℕ (UR sig nD τ) ℕ (cfgM6 pf hO) c) (hA : dat.A 2 = V c (Pipeline.arrRef spec6 2))
    (hafter : ∀ t, dat.after 2 t = iblk6 V pf hO c 2 t) (t : Fin (cfgM6 pf hO).N) (d) : dat.before 2 t d = iblk6 V pf hO c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Every chunk runs the first chunk's body, on its own tables and blocks. -/
abbrev bodyAt6 (hO : ok6 (F := F) pf) (t : Fin (cfgM6 pf hO).N) : Prog (TpuEff nD τ sig (Elt F) Λ₀ .tc) PUnit :=
  cc1__pred_kernel (grid6.coords t) (Memref.whole main_v55) (Memref.isWhole_whole _) (Memref.whole main_v56) (Memref.isWhole_whole _)
    (spec6_0.stage ((cfgM6 pf hO).slots t 0)) (hstage6_0 (((cfgM6 pf hO).slots t 0).cast nbuf6_0))
    (spec6_1.stage ((cfgM6 pf hO).slots t 1)) (hstage6_1 (((cfgM6 pf hO).slots t 1).cast nbuf6_1))
    (spec6_2.stage ((cfgM6 pf hO).slots t 2)) (hstage6_2 (((cfgM6 pf hO).slots t 2).cast nbuf6_2))
    (spec6_3.stage ((cfgM6 pf hO).slots t 3)) (hstage6_3 (((cfgM6 pf hO).slots t 3).cast nbuf6_3))

end

end Cert.Kernel.Hand

end
-- ==== Proof.K.Pred6Dat.lean ====
import proofs.«421490_j32530082300068_2_alg».proof.Proof.K.Pred6

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre6.Contents (Elt F))

abbrev tabs6 (c : Dev nD) : sProp 𝕄 :=
  Pipeline.prefHeld (Ix := Unit) (Name := ℕ) (U := UR sig nD τ) (Lvl := ℕ) pre6 c (fun _ => fullShare) pf

/-- The region's proof data: after point `t` an input window is at its block, the output window at the payload of the three blocks. -/
def dat6 (hO : ok6 (F := F) pf) (c : Dev nD) : Dat τ (Elt F) Unit ℕ (UR sig nD τ) ℕ (cfgM6 pf hO) c where
  A w := V c (Pipeline.arrRef spec6 w)
  after w t := match w with
    | ⟨0, _⟩ => iblk6 V pf hO c 0 t
    | ⟨1, _⟩ => iblk6 V pf hO c 1 t
    | ⟨2, _⟩ => iblk6 V pf hO c 2 t
    | ⟨3, _⟩ => outBlock (iblk6 V pf hO c 0 t) (iblk6 V pf hO c 1 t) (iblk6 V pf hO c 2 t)
  Φ _ := iprop(Pipeline.ΦA spec6 c ∗ tabs6 pf c)
  q _ := fullShare
  owed _ := 0

theorem A_eq6 (hO : ok6 (F := F) pf) (c : Dev nD) (w : Fin (cfgM6 pf hO).W) : (dat6 V pf hO c).A w = V c (Pipeline.arrRef spec6 w) := rfl

theorem after6_3 (hO : ok6 (F := F) pf) (c : Dev nD) (t : Fin (cfgM6 pf hO).N) :
    (dat6 V pf hO c).after 3 t = outBlock (iblk6 V pf hO c 0 t) (iblk6 V pf hO c 1 t) (iblk6 V pf hO c 2 t) := rfl

theorem body_obligation6 (hO : ok6 (F := F) pf) (c : Dev nD) : BodyObligation (dat6 (F := F) V pf hO c) (defs₀ (F := F)) Variants.none () Set.univ := fun t => by
  rw [bigSep_W6, bigSep_W6]
  show _ ⊢ wp frame _ Set.univ (bodyAt6 pf hO t) _
  exact sound_pred_framed c Set.univ _ _ _ _ _ _ _ _ _ _ _ _ _ (iblk6 V pf hO c 0 t) (iblk6 V pf hO c 1 t) (iblk6 V pf hO c 2 t) _ _
    (before6_0_of V pf hO _ rfl (fun _ => rfl) t) (before6_1_of V pf hO _ rfl (fun _ => rfl) t) (before6_2_of V pf hO _ rfl (fun _ => rfl) t)

end

end Cert.Kernel.Hand

end
-- ==== Proof.K.Pred7.lean ====
import proofs.«421490_j32530082300068_2_alg».proof.Proof.K.PredBody

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre7.Contents (Elt F))

abbrev adm7 (hO : ok7 (F := F) pf) : (pcfg7 (F := F)).Adm := ⟨pf, hO⟩
abbrev cfgM7 (hO : ok7 (F := F) pf) : Pipeline.Cfg sig Λ₀ := cfg7 (adm7 pf hO)

/-- The block of window `w` at grid point `t`, cut from the window's array as the region is entered. -/
def iblk7 (hO : ok7 (F := F) pf) (c : Dev nD) (w : Fin (cfgM7 pf hO).W) (t : Fin (cfgM7 pf hO).N) :
    (((cfgM7 pf hO).win w).xblock ((cfgM7 pf hO).grid.coords t)).Idx → Elt F ((cfgM7 pf hO).win w).elt :=
  (((cfgM7 pf hO).win w).blk t).view.read (Elt F) (V c (Pipeline.arrRef spec7 w))

theorem before7_0_of (hO : ok7 (F := F) pf) {c : Dev nD} (dat : Dat τ (Elt F) Unit ℕ (UR sig nD τ) ℕ (cfgM7 pf hO) c) (hA : dat.A 0 = V c (Pipeline.arrRef spec7 0))
    (hafter : ∀ t, dat.after 0 t = iblk7 V pf hO c 0 t) (t : Fin (cfgM7 pf hO).N) (d) : dat.before 0 t d = iblk7 V pf hO c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of (hO : ok7 (F := F) pf) {c : Dev nD} (dat : Dat τ (Elt F) Unit ℕ (UR sig nD τ) ℕ (cfgM7 pf hO) c) (hA : dat.A 1 = V c (Pipeline.arrRef spec7 1))
    (hafter : ∀ t, dat.after 1 t = iblk7 V pf hO c 1 t) (t : Fin (cfgM7 pf hO).N) (d) : dat.before 1 t d = iblk7 V pf hO c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of (hO : ok7 (F := F) pf) {c : Dev nD} (dat : Dat τ (Elt F) Unit ℕ (UR sig nD τ) ℕ (cfgM7 pf hO) c) (hA : dat.A 2 = V c (Pipeline.arrRef spec7 2))
    (hafter : ∀ t, dat.after 2 t = iblk7 V pf hO c 2 t) (t : Fin (cfgM7 pf hO).N) (d) : dat.before 2 t d = iblk7 V pf hO c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Every chunk runs the first chunk's body, on its own tables and blocks. -/
abbrev bodyAt7 (hO : ok7 (F := F) pf) (t : Fin (cfgM7 pf hO).N) : Prog (TpuEff nD τ sig (Elt F) Λ₀ .tc) PUnit :=
  cc1__pred_kernel (grid7.coords t) (Memref.whole main_v62) (Memref.isWhole_whole _) (Memref.whole main_v63) (Memref.isWhole_whole _)
    (spec7_0.stage ((cfgM7 pf hO).slots t 0)) (hstage7_0 (((cfgM7 pf hO).slots t 0).cast nbuf7_0))
    (spec7_1.stage ((cfgM7 pf hO).slots t 1)) (hstage7_1 (((cfgM7 pf hO).slots t 1).cast nbuf7_1))
    (spec7_2.stage ((cfgM7 pf hO).slots t 2)) (hstage7_2 (((cfgM7 pf hO).slots t 2).cast nbuf7_2))
    (spec7_3.stage ((cfgM7 pf hO).slots t 3)) (hstage7_3 (((cfgM7 pf hO).slots t 3).cast nbuf7_3))

end

end Cert.Kernel.Hand

end
-- ==== Proof.K.Pred7Dat.lean ====
import proofs.«421490_j32530082300068_2_alg».proof.Proof.K.Pred7

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre7.Contents (Elt F))

abbrev tabs7 (c : Dev nD) : sProp 𝕄 :=
  Pipeline.prefHeld (Ix := Unit) (Name := ℕ) (U := UR sig nD τ) (Lvl := ℕ) pre7 c (fun _ => fullShare) pf

/-- The region's proof data: after point `t` an input window is at its block, the output window at the payload of the three blocks. -/
def dat7 (hO : ok7 (F := F) pf) (c : Dev nD) : Dat τ (Elt F) Unit ℕ (UR sig nD τ) ℕ (cfgM7 pf hO) c where
  A w := V c (Pipeline.arrRef spec7 w)
  after w t := match w with
    | ⟨0, _⟩ => iblk7 V pf hO c 0 t
    | ⟨1, _⟩ => iblk7 V pf hO c 1 t
    | ⟨2, _⟩ => iblk7 V pf hO c 2 t
    | ⟨3, _⟩ => outBlock (iblk7 V pf hO c 0 t) (iblk7 V pf hO c 1 t) (iblk7 V pf hO c 2 t)
  Φ _ := iprop(Pipeline.ΦA spec7 c ∗ tabs7 pf c)
  q _ := fullShare
  owed _ := 0

theorem A_eq7 (hO : ok7 (F := F) pf) (c : Dev nD) (w : Fin (cfgM7 pf hO).W) : (dat7 V pf hO c).A w = V c (Pipeline.arrRef spec7 w) := rfl

theorem after7_3 (hO : ok7 (F := F) pf) (c : Dev nD) (t : Fin (cfgM7 pf hO).N) :
    (dat7 V pf hO c).after 3 t = outBlock (iblk7 V pf hO c 0 t) (iblk7 V pf hO c 1 t) (iblk7 V pf hO c 2 t) := rfl

theorem body_obligation7 (hO : ok7 (F := F) pf) (c : Dev nD) : BodyObligation (dat7 (F := F) V pf hO c) (defs₀ (F := F)) Variants.none () Set.univ := fun t => by
  rw [bigSep_W7, bigSep_W7]
  show _ ⊢ wp frame _ Set.univ (bodyAt7 pf hO t) _
  exact sound_pred_framed c Set.univ _ _ _ _ _ _ _ _ _ _ _ _ _ (iblk7 V pf hO c 0 t) (iblk7 V pf hO c 1 t) (iblk7 V pf hO c 2 t) _ _
    (before7_0_of V pf hO _ rfl (fun _ => rfl) t) (before7_1_of V pf hO _ rfl (fun _ => rfl) t) (before7_2_of V pf hO _ rfl (fun _ => rfl) t)

end

end Cert.Kernel.Hand

end
-- ==== Proof.K.Pred8.lean ====
import proofs.«421490_j32530082300068_2_alg».proof.Proof.K.PredBody

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre8.Contents (Elt F))

abbrev adm8 (hO : ok8 (F := F) pf) : (pcfg8 (F := F)).Adm := ⟨pf, hO⟩
abbrev cfgM8 (hO : ok8 (F := F) pf) : Pipeline.Cfg sig Λ₀ := cfg8 (adm8 pf hO)

/-- The block of window `w` at grid point `t`, cut from the window's array as the region is entered. -/
def iblk8 (hO : ok8 (F := F) pf) (c : Dev nD) (w : Fin (cfgM8 pf hO).W) (t : Fin (cfgM8 pf hO).N) :
    (((cfgM8 pf hO).win w).xblock ((cfgM8 pf hO).grid.coords t)).Idx → Elt F ((cfgM8 pf hO).win w).elt :=
  (((cfgM8 pf hO).win w).blk t).view.read (Elt F) (V c (Pipeline.arrRef spec8 w))

theorem before8_0_of (hO : ok8 (F := F) pf) {c : Dev nD} (dat : Dat τ (Elt F) Unit ℕ (UR sig nD τ) ℕ (cfgM8 pf hO) c) (hA : dat.A 0 = V c (Pipeline.arrRef spec8 0))
    (hafter : ∀ t, dat.after 0 t = iblk8 V pf hO c 0 t) (t : Fin (cfgM8 pf hO).N) (d) : dat.before 0 t d = iblk8 V pf hO c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of (hO : ok8 (F := F) pf) {c : Dev nD} (dat : Dat τ (Elt F) Unit ℕ (UR sig nD τ) ℕ (cfgM8 pf hO) c) (hA : dat.A 1 = V c (Pipeline.arrRef spec8 1))
    (hafter : ∀ t, dat.after 1 t = iblk8 V pf hO c 1 t) (t : Fin (cfgM8 pf hO).N) (d) : dat.before 1 t d = iblk8 V pf hO c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of (hO : ok8 (F := F) pf) {c : Dev nD} (dat : Dat τ (Elt F) Unit ℕ (UR sig nD τ) ℕ (cfgM8 pf hO) c) (hA : dat.A 2 = V c (Pipeline.arrRef spec8 2))
    (hafter : ∀ t, dat.after 2 t = iblk8 V pf hO c 2 t) (t : Fin (cfgM8 pf hO).N) (d) : dat.before 2 t d = iblk8 V pf hO c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Every chunk runs the first chunk's body, on its own tables and blocks. -/
abbrev bodyAt8 (hO : ok8 (F := F) pf) (t : Fin (cfgM8 pf hO).N) : Prog (TpuEff nD τ sig (Elt F) Λ₀ .tc) PUnit :=
  cc1__pred_kernel (grid8.coords t) (Memref.whole main_v69) (Memref.isWhole_whole _) (Memref.whole main_v70) (Memref.isWhole_whole _)
    (spec8_0.stage ((cfgM8 pf hO).slots t 0)) (hstage8_0 (((cfgM8 pf hO).slots t 0).cast nbuf8_0))
    (spec8_1.stage ((cfgM8 pf hO).slots t 1)) (hstage8_1 (((cfgM8 pf hO).slots t 1).cast nbuf8_1))
    (spec8_2.stage ((cfgM8 pf hO).slots t 2)) (hstage8_2 (((cfgM8 pf hO).slots t 2).cast nbuf8_2))
    (spec8_3.stage ((cfgM8 pf hO).slots t 3)) (hstage8_3 (((cfgM8 pf hO).slots t 3).cast nbuf8_3))

end

end Cert.Kernel.Hand

end
-- ==== Proof.K.Pred8Dat.lean ====
import proofs.«421490_j32530082300068_2_alg».proof.Proof.K.Pred8

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre8.Contents (Elt F))

abbrev tabs8 (c : Dev nD) : sProp 𝕄 :=
  Pipeline.prefHeld (Ix := Unit) (Name := ℕ) (U := UR sig nD τ) (Lvl := ℕ) pre8 c (fun _ => fullShare) pf

/-- The region's proof data: after point `t` an input window is at its block, the output window at the payload of the three blocks. -/
def dat8 (hO : ok8 (F := F) pf) (c : Dev nD) : Dat τ (Elt F) Unit ℕ (UR sig nD τ) ℕ (cfgM8 pf hO) c where
  A w := V c (Pipeline.arrRef spec8 w)
  after w t := match w with
    | ⟨0, _⟩ => iblk8 V pf hO c 0 t
    | ⟨1, _⟩ => iblk8 V pf hO c 1 t
    | ⟨2, _⟩ => iblk8 V pf hO c 2 t
    | ⟨3, _⟩ => outBlock (iblk8 V pf hO c 0 t) (iblk8 V pf hO c 1 t) (iblk8 V pf hO c 2 t)
  Φ _ := iprop(Pipeline.ΦA spec8 c ∗ tabs8 pf c)
  q _ := fullShare
  owed _ := 0

theorem A_eq8 (hO : ok8 (F := F) pf) (c : Dev nD) (w : Fin (cfgM8 pf hO).W) : (dat8 V pf hO c).A w = V c (Pipeline.arrRef spec8 w) := rfl

theorem after8_3 (hO : ok8 (F := F) pf) (c : Dev nD) (t : Fin (cfgM8 pf hO).N) :
    (dat8 V pf hO c).after 3 t = outBlock (iblk8 V pf hO c 0 t) (iblk8 V pf hO c 1 t) (iblk8 V pf hO c 2 t) := rfl

theorem body_obligation8 (hO : ok8 (F := F) pf) (c : Dev nD) : BodyObligation (dat8 (F := F) V pf hO c) (defs₀ (F := F)) Variants.none () Set.univ := fun t => by
  rw [bigSep_W8, bigSep_W8]
  show _ ⊢ wp frame _ Set.univ (bodyAt8 pf hO t) _
  exact sound_pred_framed c Set.univ _ _ _ _ _ _ _ _ _ _ _ _ _ (iblk8 V pf hO c 0 t) (iblk8 V pf hO c 1 t) (iblk8 V pf hO c 2 t) _ _
    (before8_0_of V pf hO _ rfl (fun _ => rfl) t) (before8_1_of V pf hO _ rfl (fun _ => rfl) t) (before8_2_of V pf hO _ rfl (fun _ => rfl) t)

end

end Cert.Kernel.Hand

end
-- ==== Proof.K.Family.lean ====
import proofs.«421490_j32530082300068_2_alg».proof.Proof.K.Entry
import proofs.«421490_j32530082300068_2_alg».proof.Proof.K.Mlp
import proofs.«421490_j32530082300068_2_alg».proof.Proof.K.Pred1Dat
import proofs.«421490_j32530082300068_2_alg».proof.Proof.K.Pred2Dat
import proofs.«421490_j32530082300068_2_alg».proof.Proof.K.Pred3Dat
import proofs.«421490_j32530082300068_2_alg».proof.Proof.K.Pred4Dat
import proofs.«421490_j32530082300068_2_alg».proof.Proof.K.Pred5Dat
import proofs.«421490_j32530082300068_2_alg».proof.Proof.K.Pred6Dat
import proofs.«421490_j32530082300068_2_alg».proof.Proof.K.Pred7Dat
import proofs.«421490_j32530082300068_2_alg».proof.Proof.K.Pred8Dat

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

structure Tabs (F : FTy → Type) [FloatOps F] where
  pf1 : pre1.Contents (Elt F)
  ok1 : ok1 (F := F) pf1
  pf2 : pre2.Contents (Elt F)
  ok2 : ok2 (F := F) pf2
  pf3 : pre3.Contents (Elt F)
  ok3 : ok3 (F := F) pf3
  pf4 : pre4.Contents (Elt F)
  ok4 : ok4 (F := F) pf4
  pf5 : pre5.Contents (Elt F)
  ok5 : ok5 (F := F) pf5
  pf6 : pre6.Contents (Elt F)
  ok6 : ok6 (F := F) pf6
  pf7 : pre7.Contents (Elt F)
  ok7 : ok7 (F := F) pf7
  pf8 : pre8.Contents (Elt F)
  ok8 : ok8 (F := F) pf8

variable (m : (ℓ : Loc nD τ sig) → Buf (Elt F) ℓ) (T : Tabs F)

structure Sol where
  outs : Gen.Outs (F := F)
  h0 : ∀ c : Dev nD, outs 2 main_v19 c = (dat0 (E0 m) c).arrAt 6 cfg0.N
  h1 : ∀ c : Dev nD, outs 4 main_v25 c = (dat1 (E1 m outs) T.pf1 T.ok1 c).arrAt 3 (cfgM1 T.pf1 T.ok1).N
  h2 : ∀ c : Dev nD, outs 6 main_v32 c = (dat2 (E2 m outs) T.pf2 T.ok2 c).arrAt 3 (cfgM2 T.pf2 T.ok2).N
  h3 : ∀ c : Dev nD, outs 8 main_v39 c = (dat3 (E3 m outs) T.pf3 T.ok3 c).arrAt 3 (cfgM3 T.pf3 T.ok3).N
  h4 : ∀ c : Dev nD, outs 10 main_v46 c = (dat4 (E4 m outs) T.pf4 T.ok4 c).arrAt 3 (cfgM4 T.pf4 T.ok4).N
  h5 : ∀ c : Dev nD, outs 12 main_v53 c = (dat5 (E5 m outs) T.pf5 T.ok5 c).arrAt 3 (cfgM5 T.pf5 T.ok5).N
  h6 : ∀ c : Dev nD, outs 14 main_v60 c = (dat6 (E6 m outs) T.pf6 T.ok6 c).arrAt 3 (cfgM6 T.pf6 T.ok6).N
  h7 : ∀ c : Dev nD, outs 16 main_v67 c = (dat7 (E7 m outs) T.pf7 T.ok7 c).arrAt 3 (cfgM7 T.pf7 T.ok7).N
  h8 : ∀ c : Dev nD, outs 18 main_v74 c = (dat8 (E8 m outs) T.pf8 T.ok8 c).arrAt 3 (cfgM8 T.pf8 T.ok8).N

variable {m T}

def adm (T : Tabs F) : (p : Fin 9) → (pcfgs (F := F) p).Adm
  | ⟨0, _⟩ => cfg0.toPCfg_adm
  | ⟨1, _⟩ => adm1 T.pf1 T.ok1
  | ⟨2, _⟩ => adm2 T.pf2 T.ok2
  | ⟨3, _⟩ => adm3 T.pf3 T.ok3
  | ⟨4, _⟩ => adm4 T.pf4 T.ok4
  | ⟨5, _⟩ => adm5 T.pf5 T.ok5
  | ⟨6, _⟩ => adm6 T.pf6 T.ok6
  | ⟨7, _⟩ => adm7 T.pf7 T.ok7
  | ⟨8, _⟩ => adm8 T.pf8 T.ok8

def pdats (S : Sol m T) : (p : Fin 9) → (c : Dev nD) → Dat τ (Elt F) Unit ℕ (UR sig nD τ) ℕ (Pipeline.pin (pcfgs (F := F)) (adm T) p) c
  | ⟨0, _⟩ => fun c => dat0 (E0 m) c
  | ⟨1, _⟩ => fun c => dat1 (E1 m S.outs) T.pf1 T.ok1 c
  | ⟨2, _⟩ => fun c => dat2 (E2 m S.outs) T.pf2 T.ok2 c
  | ⟨3, _⟩ => fun c => dat3 (E3 m S.outs) T.pf3 T.ok3 c
  | ⟨4, _⟩ => fun c => dat4 (E4 m S.outs) T.pf4 T.ok4 c
  | ⟨5, _⟩ => fun c => dat5 (E5 m S.outs) T.pf5 T.ok5 c
  | ⟨6, _⟩ => fun c => dat6 (E6 m S.outs) T.pf6 T.ok6 c
  | ⟨7, _⟩ => fun c => dat7 (E7 m S.outs) T.pf7 T.ok7 c
  | ⟨8, _⟩ => fun c => dat8 (E8 m S.outs) T.pf8 T.ok8 c

abbrev 𝒱₀ : Variants := Variants.none

abbrev L : GSem nD τ sig → Finset Unit := fun _ => ∅
abbrev lv : GSem nD τ sig → Unit → ℕ := fun _ _ => 0

abbrev Rst (c : Dev nD) : sProp 𝕄 := iprop((∃ r, prngReg c r) ∗ ∃ W, owes (c : Thread nD τ) (0 : CellTallies nD τ sig Unit) W)

end Cert.Kernel.Hand

end
-- ==== Proof.K.Reg0.lean ====
import proofs.«421490_j32530082300068_2_alg».proof.Proof.K.Family

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable {m : (ℓ : Loc nD τ sig) → Buf (Elt F) ℓ} {T : Tabs F} (S : Sol m T)

theorem hF0_0 (c : Dev nD) : (dat0 (E0 m) c).arrAt 0 cfg0.N = atRefs (Gen.V2 m S.outs) c main_v13 :=
  (((dat0 (E0 m) c).arrAt_in 0 rfl _).trans (A_eq0 (E0 m) c 0)).trans (Gen.V2_of m S.outs c main_v13 (by decide)).symm
theorem hF0_1 (c : Dev nD) : (dat0 (E0 m) c).arrAt 1 cfg0.N = atRefs (Gen.V2 m S.outs) c main_v16 :=
  (((dat0 (E0 m) c).arrAt_in 1 rfl _).trans (A_eq0 (E0 m) c 1)).trans (Gen.V2_of m S.outs c main_v16 (by decide)).symm
theorem hF0_2 (c : Dev nD) : (dat0 (E0 m) c).arrAt 2 cfg0.N = atRefs (Gen.V2 m S.outs) c main_v14 :=
  (((dat0 (E0 m) c).arrAt_in 2 rfl _).trans (A_eq0 (E0 m) c 2)).trans (Gen.V2_of m S.outs c main_v14 (by decide)).symm
theorem hF0_3 (c : Dev nD) : (dat0 (E0 m) c).arrAt 3 cfg0.N = atRefs (Gen.V2 m S.outs) c main_v17 :=
  (((dat0 (E0 m) c).arrAt_in 3 rfl _).trans (A_eq0 (E0 m) c 3)).trans (Gen.V2_of m S.outs c main_v17 (by decide)).symm
theorem hF0_4 (c : Dev nD) : (dat0 (E0 m) c).arrAt 4 cfg0.N = atRefs (Gen.V2 m S.outs) c main_v15 :=
  (((dat0 (E0 m) c).arrAt_in 4 rfl _).trans (A_eq0 (E0 m) c 4)).trans (Gen.V2_of m S.outs c main_v15 (by decide)).symm
theorem hF0_5 (c : Dev nD) : (dat0 (E0 m) c).arrAt 5 cfg0.N = atRefs (Gen.V2 m S.outs) c main_v18 :=
  (((dat0 (E0 m) c).arrAt_in 5 rfl _).trans (A_eq0 (E0 m) c 5)).trans (Gen.V2_of m S.outs c main_v18 (by decide)).symm
theorem hF0_6 (c : Dev nD) : (dat0 (E0 m) c).arrAt 6 cfg0.N = atRefs (Gen.V2 m S.outs) c main_v19 :=
  (S.h0 c).symm.trans (by
    show S.outs 2 main_v19 c = Gen.V2 m S.outs c main_v19
    simp only [Gen.V2, Function.update_self])

theorem hF0 (c : Dev nD) (w : Fin cfg0.W) :
    (dat0 (E0 m) c).arrAt w cfg0.N = atRefs (Gen.V2 m S.outs) c (Pipeline.arrRef spec0 w) :=
  match w with
  | ⟨0, _⟩ => hF0_0 S c
  | ⟨1, _⟩ => hF0_1 S c
  | ⟨2, _⟩ => hF0_2 S c
  | ⟨3, _⟩ => hF0_3 S c
  | ⟨4, _⟩ => hF0_4 S c
  | ⟨5, _⟩ => hF0_5 S c
  | ⟨6, _⟩ => hF0_6 S c

theorem hrest0 (c : Dev nD) : ∀ b, b ∉ Finset.univ.image (Pipeline.arrRef spec0) →
    atRefs (Gen.V2 m S.outs) c b = E0 m c b := fun b hb =>
  Gen.V2_of m S.outs c b (fun h => hb (by
    have : b = main_v19 := List.mem_singleton.mp h
    subst this
    exact Finset.mem_image.mpr ⟨6, Finset.mem_univ _, rfl⟩))

set_option backward.isDefEq.respectTransparency.types false in
def reg0 : Pipeline.RegionSeg (pcfgs (F := F)) (adm T) (pdats S) () (defs₀ (F := F)) 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V1 m c) ∗ Rst c)
  post c := iprop(StableHlo.held (c : Thread nD τ) (Pipeline.ucRefs τ sig) (Gen.V2 m S.outs c) ∗ Rst c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) (adm T) (pdats S) (launch0 (F := F)).win (launch0 (F := F)).arr_whole c
      ((pdats S 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats S 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats S 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm T) (Ix := Unit) (Name := ℕ) (U := UR sig nD τ) (Lvl := ℕ)
      (launch0 (F := F)).win (launch0 (F := F)).arr_whole c (pdats S) ((pdats S 0 c).share_full fun _ => rfl)
      (E0 m c) (atRefs (Gen.V2 m S.outs) c) ((pdats S 0 c).arrAt · cfg0.N) (hF0 S c) (hrest0 S c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end

end Cert.Kernel.Hand

end
-- ==== Proof.LibRegion.lean ====
import Idealize.ShloMosaic.Lib.Pipeline.Frame
import Idealize.ShloMosaic.Lib.Pipeline.Regions
import Idealize.ShloMosaic.Lib.Pipeline.RegionsLoop
import Idealize.ShloMosaic.Lib.Tactic

noncomputable section

namespace Idealize.ShloMosaic.Pipeline

open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {U : Type} [URA U]
variable {Λ₀ : SL.Sem.Labels} {P : Type}

local notation "𝕄" => MT nD τ sig Unit Val ℕ U ℕ

abbrev atTc (V : Dev nD → Valuation τ sig Val) (c : Dev nD) (b : Ref sig .tc) : Buf Val ((c.tc : Thread nD τ).loc b) := V c b

variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

/-- A region with tables as a segment of the run: entered at contents `V`, left at `V'`, which is the arrays' final contents on the region's arrays and `V` elsewhere. -/
def RegionSeg.ofHeld {p : P} (lf : PLaunchFacts (nD := nD) (τ := τ) pcs p)
    (hbody : ∀ c, BodyObligationLoose (pdats p c) defs₀ 𝒱₀ () Set.univ)
    (V V' : Dev nD → Valuation τ sig Val)
    (hq : ∀ c w, (pdats p c).q w = fullShare) (howed : ∀ c t, (pdats p c).owed t = 0)
    (hrec : ∀ c, (pdats p c).recorded 0 = Set.univ)
    (hΦ : ∀ c t, (pdats p c).Φ t = iprop(ΦA (pin pcs a p).spec c ∗ prefHeld (pcs p).pre c (fun _ => fullShare) (a p).1))
    (hA : ∀ c w, (pdats p c).A w = atTc V c (arrRef (pin pcs a p).spec w))
    (hpf : ∀ c k, atTc V c ((pcs p).pre.ref k) = (a p).1 k)
    (hF : ∀ c w, (pdats p c).arrAt w (pin pcs a p).N = atTc V' c (arrRef (pin pcs a p).spec w))
    (hrest : ∀ c b, b ∉ Finset.univ.image (arrRef (pin pcs a p).spec) → atTc V' c b = atTc V c b) :
    RegionSeg pcs a pdats () defs₀ 𝒱₀ L lv p where
  win := lf.win.to₀
  block_pos := lf.block_pos
  stage_whole := lf.stage_whole
  K := PEmpty
  osem k := k.elim
  ho := OwnSemFacts.none _
  hbody := hbody
  hwaits := hwaits_of_owed_zero pcs a pdats () L lv p howed
  pre c := iprop(StableHlo.held (c : Thread nD τ) (ucRefs τ sig) (V c) ∗ (∃ r, prngReg c r) ∗ ∃ W, owes (c : Thread nD τ) (0 : CellTallies nD τ sig Unit) W)
  post c := iprop(StableHlo.held (c : Thread nD τ) (ucRefs τ sig) (V' c) ∗ (∃ r, prngReg c r) ∗ ∃ W, owes (c : Thread nD τ) (0 : CellTallies nD τ sig Unit) W)
  X c := iprop(∃ r, prngReg c r)
  Y c := iprop((∃ r, prngReg c r) ∗ prefHeld (pcs p).pre c (fun _ => fullShare) (a p).1)
  Z c := unscopedRestP (Ix := Unit) (Name := ℕ) (U := U) (Lvl := ℕ) (pcs p).pre (pin pcs a p).spec c (atTc V c)
  hentry c := by
    rw [ownSems0_none]
    have hsplit := arrays_of_unscopedBufs pcs a pdats lf.win lf.arr_whole c ((pdats p c).share_full (hq c)) (atTc V c) (hA c)
    rw [unscopedBufs_held c (V c), unscopedRest_split lf.pre c (atTc V c)] at hsplit
    simp only [hpf c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Dat.owesAt owesWithin
      rw [howed c 0]
      icases HO with ⟨%W, HO⟩; iexists W; isplitr
      · ipureintro; exact fun _ _ => Or.inl (by rw [hrec c]; trivial)
      iexact HO
    isplitl [Hp]; · iexact Hp
    iexact Hrest
  hin c := by
    rw [hΦ c 0]; unfold ΦA
    iintro ⟨Hp, Ht, Hr⟩
    isplitl [Hp Hr]
    · isplitl [Hr]; · iexact Hr
      iexact Hp
    iexact Ht
  hout c := by
    rw [ownSems0_none, hΦ c (Fin.last _)]; unfold ΦA
    iintro ⟨⟨Hr, Hp⟩, Ht⟩
    isplitl [Hp Ht]
    · isplitl [Hp]; · iexact Hp
      iexact Ht
    isplitr; · iempintro
    iexact Hr
  hexit c := by
    have hjoin := unscopedBufs_of_arrays pcs a lf.win lf.arr_whole c pdats ((pdats p c).share_full (hq c))
      (atTc V c) (atTc V' c) ((pdats p c).arrAt · (pin pcs a p).N) (hF c) (hrest c)
    rw [unscopedBufs_held c (V' c), unscopedRest_split lf.pre c (atTc V c)] at hjoin
    simp only [hpf c] at hjoin
    iintro ⟨Ha, HO, ⟨HY, Ht⟩, Hrest⟩
    imodintro
    isplitl [Ha Hrest Ht]
    · iapply hjoin
      isplitl [Ha]; · iexact Ha
      isplitl [Ht]; · iexact Ht
      iexact Hrest
    isplitl [HY]; · iexact HY
    unfold Dat.owesAt owesWithin
    rw [howed c (Fin.last _)]
    icases HO with ⟨%W, -, HO⟩; iexists W; iexact HO

end Idealize.ShloMosaic.Pipeline

end
-- ==== Proof.K.Reg1.lean ====
import proofs.«421490_j32530082300068_2_alg».proof.Proof.K.Family
import proofs.«421490_j32530082300068_2_alg».proof.Proof.LibRegion

noncomputable section

namespace Cert.Kernel.Hand

open Idealize.ShloMosaic Idealize.ShloMosaic.TcCoe
open Cert.Kernel Cert.Kernel.Gen

variable {F : FTy → Type} [FloatOps F]
variable {m : (ℓ : Loc nD τ sig) → Buf (Elt F) ℓ} {T : Tabs F} (S : Sol m T)

/-- At the region's end an input array is as it was found and the output array is the one `outs` names. -/
theorem hF1 (c : Dev nD) (w : Fin (cfgM1 T.pf1 T.ok1).W) :
    (dat1 (E1 m S.outs) T.pf1 T.ok1 c).arrAt w (cfgM1 T.pf1 T.ok1).N = atRefs (Gen.V4 m S.outs) c (Pipeline.arrRef spec1 w) := by
  match w with
  | ⟨0, _⟩ => exact (((dat1 (E1 m S.outs) T.pf1 T.ok1 c).arrAt_in 0 rfl _).trans (A_eq1 (E1 m S.outs) T.pf1 T.ok1 c 0)).trans (Gen.V4_of m S.outs c main_v22 (by decide)).symm
  | ⟨1, _⟩ => exact (((dat1 (E1 m S.outs) T.pf1 T.ok1 c).arrAt_in 1 rfl _).trans (A_eq1 (E1 m S.outs) T.pf1 T.ok1 c 1)).trans (Gen.V4_of m S.outs c main_v23 (by decide)).symm
  | ⟨2, _⟩ => exact (((dat1 (E1 m S.outs) T.pf1 T.ok1 c).arrAt_in 2 rfl _).trans (A_eq1 (E1 m S.outs) T.pf1 T.ok1 c 2)).trans (Gen.V4_of m S.outs c main_v24 (by decide)).symm
  | ⟨3, _⟩ => exact (S.h1 c).symm.trans (by
      show S.outs 4 main_v25 c = Gen.V4 m S.outs c main_v25
      simp only [Gen.V4, Function.update_self])

theorem hrest1 (c : Dev nD) : ∀ b, b ∉ Finset.univ.image (Pipeline.arrRef spec1) →
    atRefs (Gen.V4 m S.outs) c b = E1 m S.outs c b := fun b hb =>
  Gen.V4_of m S.outs c b fun h => hb (by
    obtain rfl := List.mem_singleton.mp h
    exact Finset.mem_image.mpr ⟨3, Finset.mem_univ _, rfl⟩)

def reg1 (hpf : ∀ (c : Dev nD) (j : Fin 2), E1 m S.outs c (pre1.ref j) = T.pf1 j) :
    Pipeline.RegionSeg (pcfgs (F := F)) (adm T) (pdats S) () (defs₀ (F := F)) 𝒱₀ L lv 1 :=
  Pipeline.RegionSeg.ofHeld _ _ _ _ _ L lv (launch1 (F := F)) (fun c => (body_obligation1 (E1 m S.outs) T.pf1 T.ok1 c).loose)
    (Gen.V3 m S.outs) (Gen.V4 m S.outs) (fun _ _ => rfl) (fun _ _ => rfl) (fun _ => rfl) (fun _ _ => rfl) (fun _ _ => rfl) hpf (hF1 S) (hrest1 S)

end Cert.Kernel.Hand

end
-- ==== Proof.K.Reg2.lean ====
import proofs.«421490_j32530082300068_2_alg».proof.Proof.K.Family
import proofs.«421490_j32530082300068_2_alg».proof.Proof.LibRegion

noncomputable section

namespace Cert.Kernel.Hand

open Idealize.ShloMosaic Idealize.ShloMosaic.TcCoe
open Cert.Kernel Cert.Kernel.Gen

variable {F : FTy → Type} [FloatOps F]
variable {m : (ℓ : Loc nD τ sig) → Buf (Elt F) ℓ} {T : Tabs F} (S : Sol m T)

/-- At the region's end an input array is as it was found and the output array is the one `outs` names. -/
theorem hF2 (c : Dev nD) (w : Fin (cfgM2 T.pf2 T.ok2).W) :
    (dat2 (E2 m S.outs) T.pf2 T.ok2 c).arrAt w (cfgM2 T.pf2 T.ok2).N = atRefs (Gen.V6 m S.outs) c (Pipeline.arrRef spec2 w) := by
  match w with
  | ⟨0, _⟩ => exact (((dat2 (E2 m S.outs) T.pf2 T.ok2 c).arrAt_in 0 rfl _).trans (A_eq2 (E2 m S.outs) T.pf2 T.ok2 c 0)).trans (Gen.V6_of m S.outs c main_v29 (by decide)).symm
  | ⟨1, _⟩ => exact (((dat2 (E2 m S.outs) T.pf2 T.ok2 c).arrAt_in 1 rfl _).trans (A_eq2 (E2 m S.outs) T.pf2 T.ok2 c 1)).trans (Gen.V6_of m S.outs c main_v30 (by decide)).symm
  | ⟨2, _⟩ => exact (((dat2 (E2 m S.outs) T.pf2 T.ok2 c).arrAt_in 2 rfl _).trans (A_eq2 (E2 m S.outs) T.pf2 T.ok2 c 2)).trans (Gen.V6_of m S.outs c main_v31 (by decide)).symm
  | ⟨3, _⟩ => exact (S.h2 c).symm.trans (by
      show S.outs 6 main_v32 c = Gen.V6 m S.outs c main_v32
      simp only [Gen.V6, Function.update_self])

theorem hrest2 (c : Dev nD) : ∀ b, b ∉ Finset.univ.image (Pipeline.arrRef spec2) →
    atRefs (Gen.V6 m S.outs) c b = E2 m S.outs c b := fun b hb =>
  Gen.V6_of m S.outs c b fun h => hb (by
    obtain rfl := List.mem_singleton.mp h
    exact Finset.mem_image.mpr ⟨3, Finset.mem_univ _, rfl⟩)

def reg2 (hpf : ∀ (c : Dev nD) (j : Fin 2), E2 m S.outs c (pre2.ref j) = T.pf2 j) :
    Pipeline.RegionSeg (pcfgs (F := F)) (adm T) (pdats S) () (defs₀ (F := F)) 𝒱₀ L lv 2 :=
  Pipeline.RegionSeg.ofHeld _ _ _ _ _ L lv (launch2 (F := F)) (fun c => (body_obligation2 (E2 m S.outs) T.pf2 T.ok2 c).loose)
    (Gen.V5 m S.outs) (Gen.V6 m S.outs) (fun _ _ => rfl) (fun _ _ => rfl) (fun _ => rfl) (fun _ _ => rfl) (fun _ _ => rfl) hpf (hF2 S) (hrest2 S)

end Cert.Kernel.Hand

end
-- ==== Proof.K.Reg3.lean ====
import proofs.«421490_j32530082300068_2_alg».proof.Proof.K.Family
import proofs.«421490_j32530082300068_2_alg».proof.Proof.LibRegion

noncomputable section

namespace Cert.Kernel.Hand

open Idealize.ShloMosaic Idealize.ShloMosaic.TcCoe
open Cert.Kernel Cert.Kernel.Gen

variable {F : FTy → Type} [FloatOps F]
variable {m : (ℓ : Loc nD τ sig) → Buf (Elt F) ℓ} {T : Tabs F} (S : Sol m T)

/-- At the region's end an input array is as it was found and the output array is the one `outs` names. -/
theorem hF3 (c : Dev nD) (w : Fin (cfgM3 T.pf3 T.ok3).W) :
    (dat3 (E3 m S.outs) T.pf3 T.ok3 c).arrAt w (cfgM3 T.pf3 T.ok3).N = atRefs (Gen.V8 m S.outs) c (Pipeline.arrRef spec3 w) := by
  match w with
  | ⟨0, _⟩ => exact (((dat3 (E3 m S.outs) T.pf3 T.ok3 c).arrAt_in 0 rfl _).trans (A_eq3 (E3 m S.outs) T.pf3 T.ok3 c 0)).trans (Gen.V8_of m S.outs c main_v36 (by decide)).symm
  | ⟨1, _⟩ => exact (((dat3 (E3 m S.outs) T.pf3 T.ok3 c).arrAt_in 1 rfl _).trans (A_eq3 (E3 m S.outs) T.pf3 T.ok3 c 1)).trans (Gen.V8_of m S.outs c main_v37 (by decide)).symm
  | ⟨2, _⟩ => exact (((dat3 (E3 m S.outs) T.pf3 T.ok3 c).arrAt_in 2 rfl _).trans (A_eq3 (E3 m S.outs) T.pf3 T.ok3 c 2)).trans (Gen.V8_of m S.outs c main_v38 (by decide)).symm
  | ⟨3, _⟩ => exact (S.h3 c).symm.trans (by
      show S.outs 8 main_v39 c = Gen.V8 m S.outs c main_v39
      simp only [Gen.V8, Function.update_self])

theorem hrest3 (c : Dev nD) : ∀ b, b ∉ Finset.univ.image (Pipeline.arrRef spec3) →
    atRefs (Gen.V8 m S.outs) c b = E3 m S.outs c b := fun b hb =>
  Gen.V8_of m S.outs c b fun h => hb (by
    obtain rfl := List.mem_singleton.mp h
    exact Finset.mem_image.mpr ⟨3, Finset.mem_univ _, rfl⟩)

def reg3 (hpf : ∀ (c : Dev nD) (j : Fin 2), E3 m S.outs c (pre3.ref j) = T.pf3 j) :
    Pipeline.RegionSeg (pcfgs (F := F)) (adm T) (pdats S) () (defs₀ (F := F)) 𝒱₀ L lv 3 :=
  Pipeline.RegionSeg.ofHeld _ _ _ _ _ L lv (launch3 (F := F)) (fun c => (body_obligation3 (E3 m S.outs) T.pf3 T.ok3 c).loose)
    (Gen.V7 m S.outs) (Gen.V8 m S.outs) (fun _ _ => rfl) (fun _ _ => rfl) (fun _ => rfl) (fun _ _ => rfl) (fun _ _ => rfl) hpf (hF3 S) (hrest3 S)

end Cert.Kernel.Hand

end
-- ==== Proof.K.Reg4.lean ====
import proofs.«421490_j32530082300068_2_alg».proof.Proof.K.Family
import proofs.«421490_j32530082300068_2_alg».proof.Proof.LibRegion

noncomputable section

namespace Cert.Kernel.Hand

open Idealize.ShloMosaic Idealize.ShloMosaic.TcCoe
open Cert.Kernel Cert.Kernel.Gen

variable {F : FTy → Type} [FloatOps F]
variable {m : (ℓ : Loc nD τ sig) → Buf (Elt F) ℓ} {T : Tabs F} (S : Sol m T)

/-- At the region's end an input array is as it was found and the output array is the one `outs` names. -/
theorem hF4 (c : Dev nD) (w : Fin (cfgM4 T.pf4 T.ok4).W) :
    (dat4 (E4 m S.outs) T.pf4 T.ok4 c).arrAt w (cfgM4 T.pf4 T.ok4).N = atRefs (Gen.V10 m S.outs) c (Pipeline.arrRef spec4 w) := by
  match w with
  | ⟨0, _⟩ => exact (((dat4 (E4 m S.outs) T.pf4 T.ok4 c).arrAt_in 0 rfl _).trans (A_eq4 (E4 m S.outs) T.pf4 T.ok4 c 0)).trans (Gen.V10_of m S.outs c main_v43 (by decide)).symm
  | ⟨1, _⟩ => exact (((dat4 (E4 m S.outs) T.pf4 T.ok4 c).arrAt_in 1 rfl _).trans (A_eq4 (E4 m S.outs) T.pf4 T.ok4 c 1)).trans (Gen.V10_of m S.outs c main_v44 (by decide)).symm
  | ⟨2, _⟩ => exact (((dat4 (E4 m S.outs) T.pf4 T.ok4 c).arrAt_in 2 rfl _).trans (A_eq4 (E4 m S.outs) T.pf4 T.ok4 c 2)).trans (Gen.V10_of m S.outs c main_v45 (by decide)).symm
  | ⟨3, _⟩ => exact (S.h4 c).symm.trans (by
      show S.outs 10 main_v46 c = Gen.V10 m S.outs c main_v46
      simp only [Gen.V10, Function.update_self])

theorem hrest4 (c : Dev nD) : ∀ b, b ∉ Finset.univ.image (Pipeline.arrRef spec4) →
    atRefs (Gen.V10 m S.outs) c b = E4 m S.outs c b := fun b hb =>
  Gen.V10_of m S.outs c b fun h => hb (by
    obtain rfl := List.mem_singleton.mp h
    exact Finset.mem_image.mpr ⟨3, Finset.mem_univ _, rfl⟩)

def reg4 (hpf : ∀ (c : Dev nD) (j : Fin 2), E4 m S.outs c (pre4.ref j) = T.pf4 j) :
    Pipeline.RegionSeg (pcfgs (F := F)) (adm T) (pdats S) () (defs₀ (F := F)) 𝒱₀ L lv 4 :=
  Pipeline.RegionSeg.ofHeld _ _ _ _ _ L lv (launch4 (F := F)) (fun c => (body_obligation4 (E4 m S.outs) T.pf4 T.ok4 c).loose)
    (Gen.V9 m S.outs) (Gen.V10 m S.outs) (fun _ _ => rfl) (fun _ _ => rfl) (fun _ => rfl) (fun _ _ => rfl) (fun _ _ => rfl) hpf (hF4 S) (hrest4 S)

end Cert.Kernel.Hand

end
-- ==== Proof.K.Reg5.lean ====
import proofs.«421490_j32530082300068_2_alg».proof.Proof.K.Family
import proofs.«421490_j32530082300068_2_alg».proof.Proof.LibRegion

noncomputable section

namespace Cert.Kernel.Hand

open Idealize.ShloMosaic Idealize.ShloMosaic.TcCoe
open Cert.Kernel Cert.Kernel.Gen

variable {F : FTy → Type} [FloatOps F]
variable {m : (ℓ : Loc nD τ sig) → Buf (Elt F) ℓ} {T : Tabs F} (S : Sol m T)

/-- At the region's end an input array is as it was found and the output array is the one `outs` names. -/
theorem hF5 (c : Dev nD) (w : Fin (cfgM5 T.pf5 T.ok5).W) :
    (dat5 (E5 m S.outs) T.pf5 T.ok5 c).arrAt w (cfgM5 T.pf5 T.ok5).N = atRefs (Gen.V12 m S.outs) c (Pipeline.arrRef spec5 w) := by
  match w with
  | ⟨0, _⟩ => exact (((dat5 (E5 m S.outs) T.pf5 T.ok5 c).arrAt_in 0 rfl _).trans (A_eq5 (E5 m S.outs) T.pf5 T.ok5 c 0)).trans (Gen.V12_of m S.outs c main_v50 (by decide)).symm
  | ⟨1, _⟩ => exact (((dat5 (E5 m S.outs) T.pf5 T.ok5 c).arrAt_in 1 rfl _).trans (A_eq5 (E5 m S.outs) T.pf5 T.ok5 c 1)).trans (Gen.V12_of m S.outs c main_v51 (by decide)).symm
  | ⟨2, _⟩ => exact (((dat5 (E5 m S.outs) T.pf5 T.ok5 c).arrAt_in 2 rfl _).trans (A_eq5 (E5 m S.outs) T.pf5 T.ok5 c 2)).trans (Gen.V12_of m S.outs c main_v52 (by decide)).symm
  | ⟨3, _⟩ => exact (S.h5 c).symm.trans (by
      show S.outs 12 main_v53 c = Gen.V12 m S.outs c main_v53
      simp only [Gen.V12, Function.update_self])

theorem hrest5 (c : Dev nD) : ∀ b, b ∉ Finset.univ.image (Pipeline.arrRef spec5) →
    atRefs (Gen.V12 m S.outs) c b = E5 m S.outs c b := fun b hb =>
  Gen.V12_of m S.outs c b fun h => hb (by
    obtain rfl := List.mem_singleton.mp h
    exact Finset.mem_image.mpr ⟨3, Finset.mem_univ _, rfl⟩)

def reg5 (hpf : ∀ (c : Dev nD) (j : Fin 2), E5 m S.outs c (pre5.ref j) = T.pf5 j) :
    Pipeline.RegionSeg (pcfgs (F := F)) (adm T) (pdats S) () (defs₀ (F := F)) 𝒱₀ L lv 5 :=
  Pipeline.RegionSeg.ofHeld _ _ _ _ _ L lv (launch5 (F := F)) (fun c => (body_obligation5 (E5 m S.outs) T.pf5 T.ok5 c).loose)
    (Gen.V11 m S.outs) (Gen.V12 m S.outs) (fun _ _ => rfl) (fun _ _ => rfl) (fun _ => rfl) (fun _ _ => rfl) (fun _ _ => rfl) hpf (hF5 S) (hrest5 S)

end Cert.Kernel.Hand

end
-- ==== Proof.K.Reg6.lean ====
import proofs.«421490_j32530082300068_2_alg».proof.Proof.K.Family
import proofs.«421490_j32530082300068_2_alg».proof.Proof.LibRegion

noncomputable section

namespace Cert.Kernel.Hand

open Idealize.ShloMosaic Idealize.ShloMosaic.TcCoe
open Cert.Kernel Cert.Kernel.Gen

variable {F : FTy → Type} [FloatOps F]
variable {m : (ℓ : Loc nD τ sig) → Buf (Elt F) ℓ} {T : Tabs F} (S : Sol m T)

/-- At the region's end an input array is as it was found and the output array is the one `outs` names. -/
theorem hF6 (c : Dev nD) (w : Fin (cfgM6 T.pf6 T.ok6).W) :
    (dat6 (E6 m S.outs) T.pf6 T.ok6 c).arrAt w (cfgM6 T.pf6 T.ok6).N = atRefs (Gen.V14 m S.outs) c (Pipeline.arrRef spec6 w) := by
  match w with
  | ⟨0, _⟩ => exact (((dat6 (E6 m S.outs) T.pf6 T.ok6 c).arrAt_in 0 rfl _).trans (A_eq6 (E6 m S.outs) T.pf6 T.ok6 c 0)).trans (Gen.V14_of m S.outs c main_v57 (by decide)).symm
  | ⟨1, _⟩ => exact (((dat6 (E6 m S.outs) T.pf6 T.ok6 c).arrAt_in 1 rfl _).trans (A_eq6 (E6 m S.outs) T.pf6 T.ok6 c 1)).trans (Gen.V14_of m S.outs c main_v58 (by decide)).symm
  | ⟨2, _⟩ => exact (((dat6 (E6 m S.outs) T.pf6 T.ok6 c).arrAt_in 2 rfl _).trans (A_eq6 (E6 m S.outs) T.pf6 T.ok6 c 2)).trans (Gen.V14_of m S.outs c main_v59 (by decide)).symm
  | ⟨3, _⟩ => exact (S.h6 c).symm.trans (by
      show S.outs 14 main_v60 c = Gen.V14 m S.outs c main_v60
      simp only [Gen.V14, Function.update_self])

theorem hrest6 (c : Dev nD) : ∀ b, b ∉ Finset.univ.image (Pipeline.arrRef spec6) →
    atRefs (Gen.V14 m S.outs) c b = E6 m S.outs c b := fun b hb =>
  Gen.V14_of m S.outs c b fun h => hb (by
    obtain rfl := List.mem_singleton.mp h
    exact Finset.mem_image.mpr ⟨3, Finset.mem_univ _, rfl⟩)

def reg6 (hpf : ∀ (c : Dev nD) (j : Fin 2), E6 m S.outs c (pre6.ref j) = T.pf6 j) :
    Pipeline.RegionSeg (pcfgs (F := F)) (adm T) (pdats S) () (defs₀ (F := F)) 𝒱₀ L lv 6 :=
  Pipeline.RegionSeg.ofHeld _ _ _ _ _ L lv (launch6 (F := F)) (fun c => (body_obligation6 (E6 m S.outs) T.pf6 T.ok6 c).loose)
    (Gen.V13 m S.outs) (Gen.V14 m S.outs) (fun _ _ => rfl) (fun _ _ => rfl) (fun _ => rfl) (fun _ _ => rfl) (fun _ _ => rfl) hpf (hF6 S) (hrest6 S)

end Cert.Kernel.Hand

end
-- ==== Proof.K.Reg7.lean ====
import proofs.«421490_j32530082300068_2_alg».proof.Proof.K.Family
import proofs.«421490_j32530082300068_2_alg».proof.Proof.LibRegion

noncomputable section

namespace Cert.Kernel.Hand

open Idealize.ShloMosaic Idealize.ShloMosaic.TcCoe
open Cert.Kernel Cert.Kernel.Gen

variable {F : FTy → Type} [FloatOps F]
variable {m : (ℓ : Loc nD τ sig) → Buf (Elt F) ℓ} {T : Tabs F} (S : Sol m T)

/-- At the region's end an input array is as it was found and the output array is the one `outs` names. -/
theorem hF7 (c : Dev nD) (w : Fin (cfgM7 T.pf7 T.ok7).W) :
    (dat7 (E7 m S.outs) T.pf7 T.ok7 c).arrAt w (cfgM7 T.pf7 T.ok7).N = atRefs (Gen.V16 m S.outs) c (Pipeline.arrRef spec7 w) := by
  match w with
  | ⟨0, _⟩ => exact (((dat7 (E7 m S.outs) T.pf7 T.ok7 c).arrAt_in 0 rfl _).trans (A_eq7 (E7 m S.outs) T.pf7 T.ok7 c 0)).trans (Gen.V16_of m S.outs c main_v64 (by decide)).symm
  | ⟨1, _⟩ => exact (((dat7 (E7 m S.outs) T.pf7 T.ok7 c).arrAt_in 1 rfl _).trans (A_eq7 (E7 m S.outs) T.pf7 T.ok7 c 1)).trans (Gen.V16_of m S.outs c main_v65 (by decide)).symm
  | ⟨2, _⟩ => exact (((dat7 (E7 m S.outs) T.pf7 T.ok7 c).arrAt_in 2 rfl _).trans (A_eq7 (E7 m S.outs) T.pf7 T.ok7 c 2)).trans (Gen.V16_of m S.outs c main_v66 (by decide)).symm
  | ⟨3, _⟩ => exact (S.h7 c).symm.trans (by
      show S.outs 16 main_v67 c = Gen.V16 m S.outs c main_v67
      simp only [Gen.V16, Function.update_self])

theorem hrest7 (c : Dev nD) : ∀ b, b ∉ Finset.univ.image (Pipeline.arrRef spec7) →
    atRefs (Gen.V16 m S.outs) c b = E7 m S.outs c b := fun b hb =>
  Gen.V16_of m S.outs c b fun h => hb (by
    obtain rfl := List.mem_singleton.mp h
    exact Finset.mem_image.mpr ⟨3, Finset.mem_univ _, rfl⟩)

def reg7 (hpf : ∀ (c : Dev nD) (j : Fin 2), E7 m S.outs c (pre7.ref j) = T.pf7 j) :
    Pipeline.RegionSeg (pcfgs (F := F)) (adm T) (pdats S) () (defs₀ (F := F)) 𝒱₀ L lv 7 :=
  Pipeline.RegionSeg.ofHeld _ _ _ _ _ L lv (launch7 (F := F)) (fun c => (body_obligation7 (E7 m S.outs) T.pf7 T.ok7 c).loose)
    (Gen.V15 m S.outs) (Gen.V16 m S.outs) (fun _ _ => rfl) (fun _ _ => rfl) (fun _ => rfl) (fun _ _ => rfl) (fun _ _ => rfl) hpf (hF7 S) (hrest7 S)

end Cert.Kernel.Hand

end
-- ==== Proof.K.Reg8.lean ====
import proofs.«421490_j32530082300068_2_alg».proof.Proof.K.Family
import proofs.«421490_j32530082300068_2_alg».proof.Proof.LibRegion

noncomputable section

namespace Cert.Kernel.Hand

open Idealize.ShloMosaic Idealize.ShloMosaic.TcCoe
open Cert.Kernel Cert.Kernel.Gen

variable {F : FTy → Type} [FloatOps F]
variable {m : (ℓ : Loc nD τ sig) → Buf (Elt F) ℓ} {T : Tabs F} (S : Sol m T)

/-- At the region's end an input array is as it was found and the output array is the one `outs` names. -/
theorem hF8 (c : Dev nD) (w : Fin (cfgM8 T.pf8 T.ok8).W) :
    (dat8 (E8 m S.outs) T.pf8 T.ok8 c).arrAt w (cfgM8 T.pf8 T.ok8).N = atRefs (Gen.V18 m S.outs) c (Pipeline.arrRef spec8 w) := by
  match w with
  | ⟨0, _⟩ => exact (((dat8 (E8 m S.outs) T.pf8 T.ok8 c).arrAt_in 0 rfl _).trans (A_eq8 (E8 m S.outs) T.pf8 T.ok8 c 0)).trans (Gen.V18_of m S.outs c main_v71 (by decide)).symm
  | ⟨1, _⟩ => exact (((dat8 (E8 m S.outs) T.pf8 T.ok8 c).arrAt_in 1 rfl _).trans (A_eq8 (E8 m S.outs) T.pf8 T.ok8 c 1)).trans (Gen.V18_of m S.outs c main_v72 (by decide)).symm
  | ⟨2, _⟩ => exact (((dat8 (E8 m S.outs) T.pf8 T.ok8 c).arrAt_in 2 rfl _).trans (A_eq8 (E8 m S.outs) T.pf8 T.ok8 c 2)).trans (Gen.V18_of m S.outs c main_v73 (by decide)).symm
  | ⟨3, _⟩ => exact (S.h8 c).symm.trans (by
      show S.outs 18 main_v74 c = Gen.V18 m S.outs c main_v74
      simp only [Gen.V18, Function.update_self])

theorem hrest8 (c : Dev nD) : ∀ b, b ∉ Finset.univ.image (Pipeline.arrRef spec8) →
    atRefs (Gen.V18 m S.outs) c b = E8 m S.outs c b := fun b hb =>
  Gen.V18_of m S.outs c b fun h => hb (by
    obtain rfl := List.mem_singleton.mp h
    exact Finset.mem_image.mpr ⟨3, Finset.mem_univ _, rfl⟩)

def reg8 (hpf : ∀ (c : Dev nD) (j : Fin 2), E8 m S.outs c (pre8.ref j) = T.pf8 j) :
    Pipeline.RegionSeg (pcfgs (F := F)) (adm T) (pdats S) () (defs₀ (F := F)) 𝒱₀ L lv 8 :=
  Pipeline.RegionSeg.ofHeld _ _ _ _ _ L lv (launch8 (F := F)) (fun c => (body_obligation8 (E8 m S.outs) T.pf8 T.ok8 c).loose)
    (Gen.V17 m S.outs) (Gen.V18 m S.outs) (fun _ _ => rfl) (fun _ _ => rfl) (fun _ => rfl) (fun _ _ => rfl) (fun _ _ => rfl) hpf (hF8 S) (hrest8 S)

end Cert.Kernel.Hand

end
-- ==== Proof.K.Run.lean ====
import proofs.«421490_j32530082300068_2_alg».proof.Proof.K.Reg0
import proofs.«421490_j32530082300068_2_alg».proof.Proof.K.Reg1
import proofs.«421490_j32530082300068_2_alg».proof.Proof.K.Reg2
import proofs.«421490_j32530082300068_2_alg».proof.Proof.K.Reg3
import proofs.«421490_j32530082300068_2_alg».proof.Proof.K.Reg4
import proofs.«421490_j32530082300068_2_alg».proof.Proof.K.Reg5
import proofs.«421490_j32530082300068_2_alg».proof.Proof.K.Reg6
import proofs.«421490_j32530082300068_2_alg».proof.Proof.K.Reg7
import proofs.«421490_j32530082300068_2_alg».proof.Proof.K.Reg8

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

section
variable {m : (ℓ : Loc nD τ sig) → Buf (Elt F) ℓ} {T : Tabs F} (S : Sol m T) (ρ : Dev nD → PrngReg)

structure TabsAt : Prop where
  e1 : ∀ (c : Dev nD) (j : Fin 2), E1 m S.outs c (pre1.ref j) = T.pf1 j
  e2 : ∀ (c : Dev nD) (j : Fin 2), E2 m S.outs c (pre2.ref j) = T.pf2 j
  e3 : ∀ (c : Dev nD) (j : Fin 2), E3 m S.outs c (pre3.ref j) = T.pf3 j
  e4 : ∀ (c : Dev nD) (j : Fin 2), E4 m S.outs c (pre4.ref j) = T.pf4 j
  e5 : ∀ (c : Dev nD) (j : Fin 2), E5 m S.outs c (pre5.ref j) = T.pf5 j
  e6 : ∀ (c : Dev nD) (j : Fin 2), E6 m S.outs c (pre6.ref j) = T.pf6 j
  e7 : ∀ (c : Dev nD) (j : Fin 2), E7 m S.outs c (pre7.ref j) = T.pf7 j
  e8 : ∀ (c : Dev nD) (j : Fin 2), E8 m S.outs c (pre8.ref j) = T.pf8 j

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem last_link (c : Dev nD) :
    iprop(StableHlo.held (c : Thread nD τ) (Pipeline.ucRefs τ sig) (Gen.V19 m S.outs c) ∗ Rst c)
      ⊢ (iprop((StableHlo.held (c : Thread nD τ) (Pipeline.ucRefs τ sig) (Gen.V19 m S.outs c) ∗ ∃ r, prngReg c r)
          ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

set_option backward.isDefEq.respectTransparency.types false in
theorem run_all (hT : TabsAt S) :
    θ_run defs (onTc (τ := τ) (main (F := F))) ⟨m, fun _ => 0, ρ⟩
      (fun r => ∀ c : Dev nD, ∀ b ∈ Pipeline.ucRefs τ sig, r.2.mem (((c : Thread nD τ)).1, b) = Gen.V19 m S.outs c b) := by
  refine Pipeline.θ_run_regions_kit_dev (pcfgs (F := F)) (adm T) (pdats S) () (cellOf_inj (adm T)) emb₁ defs₀ 𝒱₀ L lv m ρ main
    (Gen.segs m S.outs 𝒱₀ L lv (fun _ c => Rst c) () (adm T) (pdats S) (reg0 S) (reg1 S hT.e1) (reg2 S hT.e2) (reg3 S hT.e3) (reg4 S hT.e4) (reg5 S hT.e5) (reg6 S hT.e6) (reg7 S hT.e7) (reg8 S hT.e8))
    (fun c Q => by
      rewrite [main_chain c, Seg.run_eq_chain,
        show (Gen.segs m S.outs 𝒱₀ L lv (fun _ c => Rst c) () (adm T) (pdats S) (reg0 S) (reg1 S hT.e1) (reg2 S hT.e2) (reg3 S hT.e3) (reg4 S hT.e4) (reg5 S hT.e5) (reg6 S hT.e6) (reg7 S hT.e7) (reg8 S hT.e8) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells (Pipeline.pin (pcfgs (F := F)) (adm T)) (cellOf_inj (adm T))) (Pipeline.launchToks (Pipeline.pin (pcfgs (F := F)) (adm T)) (cellOf_inj (adm T))))
    (hu₀ := by
      iintro Hu; imodintro
      isplitl [Hu]
      · iapply (show (ownU (initOf (Pipeline.cells (Pipeline.pin (pcfgs (F := F)) (adm T)) (cellOf_inj (adm T))) (Pipeline.launchToks (Pipeline.pin (pcfgs (F := F)) (adm T)) (cellOf_inj (adm T)))) : sProp 𝕄)
            ⊢ BI.own (emb₁ (initOf (Pipeline.cells (Pipeline.pin (pcfgs (F := F)) (adm T)) (cellOf_inj (adm T))) (Pipeline.launchToks (Pipeline.pin (pcfgs (F := F)) (adm T)) (cellOf_inj (adm T))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c))
    (Tₙ := fun c => iprop(StableHlo.held (c : Thread nD τ) (Pipeline.ucRefs τ sig) (Gen.V19 m S.outs c) ∗ ∃ r, prngReg c r))
    (hch := fun c => ⟨.rfl, .rfl, .rfl, .rfl, .rfl, .rfl, .rfl, .rfl, .rfl, .rfl, .rfl, .rfl, .rfl, .rfl, .rfl, .rfl, .rfl, .rfl, .rfl, last_link S c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V19 m S.outs c b)
    (hfin := fun c s' => by
      iintro ⟨⟨Hh, -⟩, HSI⟩
      unfold StableHlo.held
      imodintro
      iapply (pointsTo_read_all (Pipeline.ucRefs τ sig) (fun b => (((c : Thread nD τ)).1, b)) (Gen.V19 m S.outs c) s')
      isplitl [Hh] <;> iassumption)
    (hQ := fun s h => h)

end

end Cert.Kernel.Hand

end
-- ==== Proof.K.SolExists.lean ====
import proofs.«421490_j32530082300068_2_alg».proof.Proof.K.Family

noncomputable section

namespace Cert.Kernel.Hand

open Idealize.ShloMosaic Idealize.ShloMosaic.TcCoe Idealize.SL Idealize.SL.Sem
open Idealize.ShloMosaic.Pipeline (Dat Cfg)
open Cert.Kernel Cert.Kernel.Gen

variable {F : FTy → Type} [FloatOps F]

def put (o : Gen.Outs (F := F)) (J : ℕ) (r : Ref sig .tc)
    (v : (c : Dev nD) → Buf (Elt F) ((c : Thread nD τ).loc r)) : Gen.Outs (F := F) :=
  Function.update o J (Function.update (o J) r v)

theorem put_same (o : Gen.Outs (F := F)) (J : ℕ) (r : Ref sig .tc)
    (v : (c : Dev nD) → Buf (Elt F) ((c : Thread nD τ).loc r)) : put o J r v J r = v := by
  unfold put
  rw [Function.update_self, Function.update_self]

theorem put_of_ne (o : Gen.Outs (F := F)) (J : ℕ) (r : Ref sig .tc)
    (v : (c : Dev nD) → Buf (Elt F) ((c : Thread nD τ).loc r)) {J' : ℕ} (h : J' ≠ J) : put o J r v J' = o J' := by
  unfold put
  rw [Function.update_of_ne h]

section Congr
variable (m : (ℓ : Loc nD τ sig) → Buf (Elt F) ℓ) {o o' : Gen.Outs (F := F)}

theorem V3_congr (h2 : o 2 = o' 2) (c : Dev nD) : Gen.V3 m o c = Gen.V3 m o' c := by
  unfold Gen.V3 Gen.V2
  rw [h2]

theorem V5_congr (h2 : o 2 = o' 2) (h4 : o 4 = o' 4) (c : Dev nD) : Gen.V5 m o c = Gen.V5 m o' c := by
  have e := V3_congr m h2 c
  unfold Gen.V5 Gen.V4
  rw [e, h4]

theorem V7_congr (h2 : o 2 = o' 2) (h4 : o 4 = o' 4) (h6 : o 6 = o' 6) (c : Dev nD) : Gen.V7 m o c = Gen.V7 m o' c := by
  have e := V5_congr m h2 h4 c
  unfold Gen.V7 Gen.V6
  rw [e, h6]

theorem V9_congr (h2 : o 2 = o' 2) (h4 : o 4 = o' 4) (h6 : o 6 = o' 6) (h8 : o 8 = o' 8) (c : Dev nD) : Gen.V9 m o c = Gen.V9 m o' c := by
  have e := V7_congr m h2 h4 h6 c
  unfold Gen.V9 Gen.V8
  rw [e, h8]

theorem V11_congr (h2 : o 2 = o' 2) (h4 : o 4 = o' 4) (h6 : o 6 = o' 6) (h8 : o 8 = o' 8) (h10 : o 10 = o' 10) (c : Dev nD) : Gen.V11 m o c = Gen.V11 m o' c := by
  have e := V9_congr m h2 h4 h6 h8 c
  unfold Gen.V11 Gen.V10
  rw [e, h10]

theorem V13_congr (h2 : o 2 = o' 2) (h4 : o 4 = o' 4) (h6 : o 6 = o' 6) (h8 : o 8 = o' 8) (h10 : o 10 = o' 10) (h12 : o 12 = o' 12) (c : Dev nD) : Gen.V13 m o c = Gen.V13 m o' c := by
  have e := V11_congr m h2 h4 h6 h8 h10 c
  unfold Gen.V13 Gen.V12
  rw [e, h12]

theorem V15_congr (h2 : o 2 = o' 2) (h4 : o 4 = o' 4) (h6 : o 6 = o' 6) (h8 : o 8 = o' 8) (h10 : o 10 = o' 10) (h12 : o 12 = o' 12) (h14 : o 14 = o' 14) (c : Dev nD) : Gen.V15 m o c = Gen.V15 m o' c := by
  have e := V13_congr m h2 h4 h6 h8 h10 h12 c
  unfold Gen.V15 Gen.V14
  rw [e, h14]

theorem V17_congr (h2 : o 2 = o' 2) (h4 : o 4 = o' 4) (h6 : o 6 = o' 6) (h8 : o 8 = o' 8) (h10 : o 10 = o' 10) (h12 : o 12 = o' 12) (h14 : o 14 = o' 14) (h16 : o 16 = o' 16) (c : Dev nD) : Gen.V17 m o c = Gen.V17 m o' c := by
  have e := V15_congr m h2 h4 h6 h8 h10 h12 h14 c
  unfold Gen.V17 Gen.V16
  rw [e, h16]

theorem E1_congr (h2 : o 2 = o' 2) : E1 m o = E1 m o' := by
  funext c b
  exact congrFun (V3_congr m h2 c) _

theorem E2_congr (h2 : o 2 = o' 2) (h4 : o 4 = o' 4) : E2 m o = E2 m o' := by
  funext c b
  exact congrFun (V5_congr m h2 h4 c) _

theorem E3_congr (h2 : o 2 = o' 2) (h4 : o 4 = o' 4) (h6 : o 6 = o' 6) : E3 m o = E3 m o' := by
  funext c b
  exact congrFun (V7_congr m h2 h4 h6 c) _

theorem E4_congr (h2 : o 2 = o' 2) (h4 : o 4 = o' 4) (h6 : o 6 = o' 6) (h8 : o 8 = o' 8) : E4 m o = E4 m o' := by
  funext c b
  exact congrFun (V9_congr m h2 h4 h6 h8 c) _

theorem E5_congr (h2 : o 2 = o' 2) (h4 : o 4 = o' 4) (h6 : o 6 = o' 6) (h8 : o 8 = o' 8) (h10 : o 10 = o' 10) : E5 m o = E5 m o' := by
  funext c b
  exact congrFun (V11_congr m h2 h4 h6 h8 h10 c) _

theorem E6_congr (h2 : o 2 = o' 2) (h4 : o 4 = o' 4) (h6 : o 6 = o' 6) (h8 : o 8 = o' 8) (h10 : o 10 = o' 10) (h12 : o 12 = o' 12) : E6 m o = E6 m o' := by
  funext c b
  exact congrFun (V13_congr m h2 h4 h6 h8 h10 h12 c) _

theorem E7_congr (h2 : o 2 = o' 2) (h4 : o 4 = o' 4) (h6 : o 6 = o' 6) (h8 : o 8 = o' 8) (h10 : o 10 = o' 10) (h12 : o 12 = o' 12) (h14 : o 14 = o' 14) : E7 m o = E7 m o' := by
  funext c b
  exact congrFun (V15_congr m h2 h4 h6 h8 h10 h12 h14 c) _

theorem E8_congr (h2 : o 2 = o' 2) (h4 : o 4 = o' 4) (h6 : o 6 = o' 6) (h8 : o 8 = o' 8) (h10 : o 10 = o' 10) (h12 : o 12 = o' 12) (h14 : o 14 = o' 14) (h16 : o 16 = o' 16) : E8 m o = E8 m o' := by
  funext c b
  exact congrFun (V17_congr m h2 h4 h6 h8 h10 h12 h14 h16 c) _

end Congr

section Build
variable (m : (ℓ : Loc nD τ sig) → Buf (Elt F) ℓ) (T : Tabs F)

def dflt : Gen.Outs (F := F) := fun _ r c => m ((c : Thread nD τ).loc r)

def o1 : Gen.Outs (F := F) :=
  put (dflt m) 2 main_v19 (fun c => (dat0 (E0 m) c).arrAt 6 cfg0.N)

def o2 : Gen.Outs (F := F) :=
  put (o1 m) 4 main_v25 (fun c => (dat1 (E1 m (o1 m)) T.pf1 T.ok1 c).arrAt 3 (cfgM1 T.pf1 T.ok1).N)

def o3 : Gen.Outs (F := F) :=
  put (o2 m T) 6 main_v32 (fun c => (dat2 (E2 m (o2 m T)) T.pf2 T.ok2 c).arrAt 3 (cfgM2 T.pf2 T.ok2).N)

def o4 : Gen.Outs (F := F) :=
  put (o3 m T) 8 main_v39 (fun c => (dat3 (E3 m (o3 m T)) T.pf3 T.ok3 c).arrAt 3 (cfgM3 T.pf3 T.ok3).N)

def o5 : Gen.Outs (F := F) :=
  put (o4 m T) 10 main_v46 (fun c => (dat4 (E4 m (o4 m T)) T.pf4 T.ok4 c).arrAt 3 (cfgM4 T.pf4 T.ok4).N)

def o6 : Gen.Outs (F := F) :=
  put (o5 m T) 12 main_v53 (fun c => (dat5 (E5 m (o5 m T)) T.pf5 T.ok5 c).arrAt 3 (cfgM5 T.pf5 T.ok5).N)

def o7 : Gen.Outs (F := F) :=
  put (o6 m T) 14 main_v60 (fun c => (dat6 (E6 m (o6 m T)) T.pf6 T.ok6 c).arrAt 3 (cfgM6 T.pf6 T.ok6).N)

def o8 : Gen.Outs (F := F) :=
  put (o7 m T) 16 main_v67 (fun c => (dat7 (E7 m (o7 m T)) T.pf7 T.ok7 c).arrAt 3 (cfgM7 T.pf7 T.ok7).N)

def o9 : Gen.Outs (F := F) :=
  put (o8 m T) 18 main_v74 (fun c => (dat8 (E8 m (o8 m T)) T.pf8 T.ok8 c).arrAt 3 (cfgM8 T.pf8 T.ok8).N)

theorem o9_o8 {J : ℕ} (h : J ≤ 16) : o9 m T J = o8 m T J := by
  rw [o9]
  exact put_of_ne _ _ _ _ (by omega)

theorem o9_o7 {J : ℕ} (h : J ≤ 14) : o9 m T J = o7 m T J := by
  rw [o9_o8 m T (by omega : J ≤ 16), o8]
  exact put_of_ne _ _ _ _ (by omega)

theorem o9_o6 {J : ℕ} (h : J ≤ 12) : o9 m T J = o6 m T J := by
  rw [o9_o7 m T (by omega : J ≤ 14), o7]
  exact put_of_ne _ _ _ _ (by omega)

theorem o9_o5 {J : ℕ} (h : J ≤ 10) : o9 m T J = o5 m T J := by
  rw [o9_o6 m T (by omega : J ≤ 12), o6]
  exact put_of_ne _ _ _ _ (by omega)

theorem o9_o4 {J : ℕ} (h : J ≤ 8) : o9 m T J = o4 m T J := by
  rw [o9_o5 m T (by omega : J ≤ 10), o5]
  exact put_of_ne _ _ _ _ (by omega)

theorem o9_o3 {J : ℕ} (h : J ≤ 6) : o9 m T J = o3 m T J := by
  rw [o9_o4 m T (by omega : J ≤ 8), o4]
  exact put_of_ne _ _ _ _ (by omega)

theorem o9_o2 {J : ℕ} (h : J ≤ 4) : o9 m T J = o2 m T J := by
  rw [o9_o3 m T (by omega : J ≤ 6), o3]
  exact put_of_ne _ _ _ _ (by omega)

theorem o9_o1 {J : ℕ} (h : J ≤ 2) : o9 m T J = o1 m J := by
  rw [o9_o2 m T (by omega : J ≤ 4), o2]
  exact put_of_ne _ _ _ _ (by omega)

theorem eq0 (c : Dev nD) : o9 m T 2 main_v19 c = (dat0 (E0 m) c).arrAt 6 cfg0.N := by
  rw [o9_o1 m T (by omega : 2 ≤ 2)]
  exact congrFun (put_same (dflt m) 2 main_v19 _) c

theorem eq1 (c : Dev nD) : o9 m T 4 main_v25 c = (dat1 (E1 m (o9 m T)) T.pf1 T.ok1 c).arrAt 3 (cfgM1 T.pf1 T.ok1).N := by
  rw [E1_congr m (o9_o1 m T (by omega : 2 ≤ 2))]
  rw [o9_o2 m T (by omega : 4 ≤ 4)]
  exact congrFun (put_same (o1 m) 4 main_v25 _) c

theorem eq2 (c : Dev nD) : o9 m T 6 main_v32 c = (dat2 (E2 m (o9 m T)) T.pf2 T.ok2 c).arrAt 3 (cfgM2 T.pf2 T.ok2).N := by
  rw [E2_congr m (o9_o2 m T (by omega : 2 ≤ 4)) (o9_o2 m T (by omega : 4 ≤ 4))]
  rw [o9_o3 m T (by omega : 6 ≤ 6)]
  exact congrFun (put_same (o2 m T) 6 main_v32 _) c

theorem eq3 (c : Dev nD) : o9 m T 8 main_v39 c = (dat3 (E3 m (o9 m T)) T.pf3 T.ok3 c).arrAt 3 (cfgM3 T.pf3 T.ok3).N := by
  rw [E3_congr m (o9_o3 m T (by omega : 2 ≤ 6)) (o9_o3 m T (by omega : 4 ≤ 6)) (o9_o3 m T (by omega : 6 ≤ 6))]
  rw [o9_o4 m T (by omega : 8 ≤ 8)]
  exact congrFun (put_same (o3 m T) 8 main_v39 _) c

theorem eq4 (c : Dev nD) : o9 m T 10 main_v46 c = (dat4 (E4 m (o9 m T)) T.pf4 T.ok4 c).arrAt 3 (cfgM4 T.pf4 T.ok4).N := by
  rw [E4_congr m (o9_o4 m T (by omega : 2 ≤ 8)) (o9_o4 m T (by omega : 4 ≤ 8)) (o9_o4 m T (by omega : 6 ≤ 8)) (o9_o4 m T (by omega : 8 ≤ 8))]
  rw [o9_o5 m T (by omega : 10 ≤ 10)]
  exact congrFun (put_same (o4 m T) 10 main_v46 _) c

theorem eq5 (c : Dev nD) : o9 m T 12 main_v53 c = (dat5 (E5 m (o9 m T)) T.pf5 T.ok5 c).arrAt 3 (cfgM5 T.pf5 T.ok5).N := by
  rw [E5_congr m (o9_o5 m T (by omega : 2 ≤ 10)) (o9_o5 m T (by omega : 4 ≤ 10)) (o9_o5 m T (by omega : 6 ≤ 10)) (o9_o5 m T (by omega : 8 ≤ 10)) (o9_o5 m T (by omega : 10 ≤ 10))]
  rw [o9_o6 m T (by omega : 12 ≤ 12)]
  exact congrFun (put_same (o5 m T) 12 main_v53 _) c

theorem eq6 (c : Dev nD) : o9 m T 14 main_v60 c = (dat6 (E6 m (o9 m T)) T.pf6 T.ok6 c).arrAt 3 (cfgM6 T.pf6 T.ok6).N := by
  rw [E6_congr m (o9_o6 m T (by omega : 2 ≤ 12)) (o9_o6 m T (by omega : 4 ≤ 12)) (o9_o6 m T (by omega : 6 ≤ 12)) (o9_o6 m T (by omega : 8 ≤ 12)) (o9_o6 m T (by omega : 10 ≤ 12)) (o9_o6 m T (by omega : 12 ≤ 12))]
  rw [o9_o7 m T (by omega : 14 ≤ 14)]
  exact congrFun (put_same (o6 m T) 14 main_v60 _) c

theorem eq7 (c : Dev nD) : o9 m T 16 main_v67 c = (dat7 (E7 m (o9 m T)) T.pf7 T.ok7 c).arrAt 3 (cfgM7 T.pf7 T.ok7).N := by
  rw [E7_congr m (o9_o7 m T (by omega : 2 ≤ 14)) (o9_o7 m T (by omega : 4 ≤ 14)) (o9_o7 m T (by omega : 6 ≤ 14)) (o9_o7 m T (by omega : 8 ≤ 14)) (o9_o7 m T (by omega : 10 ≤ 14)) (o9_o7 m T (by omega : 12 ≤ 14)) (o9_o7 m T (by omega : 14 ≤ 14))]
  rw [o9_o8 m T (by omega : 16 ≤ 16)]
  exact congrFun (put_same (o7 m T) 16 main_v67 _) c

theorem eq8 (c : Dev nD) : o9 m T 18 main_v74 c = (dat8 (E8 m (o9 m T)) T.pf8 T.ok8 c).arrAt 3 (cfgM8 T.pf8 T.ok8).N := by
  rw [E8_congr m (o9_o8 m T (by omega : 2 ≤ 16)) (o9_o8 m T (by omega : 4 ≤ 16)) (o9_o8 m T (by omega : 6 ≤ 16)) (o9_o8 m T (by omega : 8 ≤ 16)) (o9_o8 m T (by omega : 10 ≤ 16)) (o9_o8 m T (by omega : 12 ≤ 16)) (o9_o8 m T (by omega : 14 ≤ 16)) (o9_o8 m T (by omega : 16 ≤ 16))]
  exact congrFun (put_same (o8 m T) 18 main_v74 _) c

end Build

theorem Sol.exists (m : (ℓ : Loc nD τ sig) → Buf (Elt F) ℓ) (T : Tabs F) : Nonempty (Sol m T) :=
  ⟨{ outs := o9 m T
     h0 := eq0 m T
     h1 := eq1 m T
     h2 := eq2 m T
     h3 := eq3 m T
     h4 := eq4 m T
     h5 := eq5 m T
     h6 := eq6 m T
     h7 := eq7 m T
     h8 := eq8 m T }⟩

end Cert.Kernel.Hand

end
-- ==== Proof.K.Tables.lean ====
import proofs.«421490_j32530082300068_2_alg».proof.Proof.K.Entry
import Idealize.ShloMosaic.Lib.StableHlo.Run
import Idealize.ShloMosaic.Lib.Pipeline.Value
import Idealize.ShloMosaic.Lib.ValueIdx

noncomputable section

namespace Cert.Kernel.Hand

open Idealize.ShloMosaic Idealize.ShloMosaic.TcCoe Idealize.SL Idealize.SL.Sem
open Cert.Kernel Cert.Kernel.Gen

variable {F : FTy → Type} [FloatOps F]
variable (m : (ℓ : Loc nD τ sig) → Buf (Elt F) ℓ)

def outs0 : Gen.Outs (F := F) := fun _ r c => m ((c : Thread nD τ).loc r)

theorem lt_32768 (x : S32768.Idx) : (x 0).val < 32768 := (x 0).isLt

/-- A cut of 32768 consecutive positions read at `x` is the operand at `off + x`. -/
theorem slice_at (off : Nat) (h : S262144.Slices ![off] S32768) (v : S262144.Idx → BitVec 32) (x : S32768.Idx) (hb : off + (x 0).val < 262144) :
    extractStridedSlice S32768 ![off] v h x = v (ValueIdx.ix1 ⟨off + (x 0).val, hb⟩) :=
  extractStridedSlice_apply ![off] v h x _ (fun a => match a with | ⟨0, _⟩ => rfl)

theorem blk_inb_user (w : Nat) (hw : w < 16384) : ∀ a, ((![w, 0, 0] : Fin 3 → Nat) a + 1) * S1x1x512.size a ≤ S16384x1x512.size a
  | ⟨0, _⟩ => by show (w + 1) * 1 ≤ 16384; omega
  | ⟨1, _⟩ => by show (0 + 1) * 1 ≤ 1; omega
  | ⟨2, _⟩ => by show (0 + 1) * 512 ≤ 512; omega
theorem blk_inb_item (w : Nat) (hw : w < 50000) : ∀ a, ((![w, 0, 0] : Fin 3 → Nat) a + 1) * S1x1x512.size a ≤ S50000x1x512.size a
  | ⟨0, _⟩ => by show (w + 1) * 1 ≤ 50000; omega
  | ⟨1, _⟩ => by show (0 + 1) * 1 ≤ 1; omega
  | ⟨2, _⟩ => by show (0 + 1) * 512 ≤ 512; omega
theorem blk_inb_bias (w : Nat) (hw : w < 50000) : ∀ a, ((![w, 0, 0] : Fin 3 → Nat) a + 1) * S1x1x1.size a ≤ S50000x1x1.size a
  | ⟨0, _⟩ => by show (w + 1) * 1 ≤ 50000; omega
  | ⟨1, _⟩ => by show (0 + 1) * 1 ≤ 1; omega
  | ⟨2, _⟩ => by show (0 + 1) * 1 ≤ 1; omega

theorem arg3_V2 (outs : Gen.Outs (F := F)) (c : Dev nD) : Gen.V2 m outs c main_arg3 = m ((c : Thread nD τ).loc main_arg3) :=
  (V2_of m outs c main_arg3 (by decide)).trans (V1_of m c main_arg3 (by decide))
theorem arg4_V2 (outs : Gen.Outs (F := F)) (c : Dev nD) : Gen.V2 m outs c main_arg4 = m ((c : Thread nD τ).loc main_arg4) :=
  (V2_of m outs c main_arg4 (by decide)).trans (V1_of m c main_arg4 (by decide))

def pf1 : pre1.Contents (Elt F) := fun j => E1 m (outs0 m) (0 : Dev nD) (pre1.ref j)

theorem E1_user (outs : Gen.Outs (F := F)) (c : Dev nD) :
    (E1 m outs c main_v20 : S32768.Idx → BitVec 32) = extractStridedSlice S32768 ![0] (m ((c : Thread nD τ).loc main_arg3) : S262144.Idx → BitVec 32) slices_S262144_S32768_0 := by
  dsimp only [E1, atRefs, Gen.V3, Gen.hostOps1]
  after_results
  rw [arg3_V2]

theorem E1_item (outs : Gen.Outs (F := F)) (c : Dev nD) :
    (E1 m outs c main_v21 : S32768.Idx → BitVec 32) = extractStridedSlice S32768 ![0] (m ((c : Thread nD τ).loc main_arg4) : S262144.Idx → BitVec 32) slices_S262144_S32768_0 := by
  dsimp only [E1, atRefs, Gen.V3, Gen.hostOps1]
  after_results
  rw [arg4_V2]

theorem arg3_V4 (outs : Gen.Outs (F := F)) (c : Dev nD) : Gen.V4 m outs c main_arg3 = m ((c : Thread nD τ).loc main_arg3) :=
  (V4_of m outs c main_arg3 (by decide)).trans ((V3_of m outs c main_arg3 (by decide)).trans (arg3_V2 m outs c))
theorem arg4_V4 (outs : Gen.Outs (F := F)) (c : Dev nD) : Gen.V4 m outs c main_arg4 = m ((c : Thread nD τ).loc main_arg4) :=
  (V4_of m outs c main_arg4 (by decide)).trans ((V3_of m outs c main_arg4 (by decide)).trans (arg4_V2 m outs c))

theorem pf1_entry (outs : Gen.Outs (F := F)) (c : Dev nD) (j : Fin 2) : E1 m outs c (pre1.ref j) = pf1 m j := by
  obtain rfl : c = 0 := Subsingleton.elim _ _
  match j with
  | 0 => exact (E1_user m outs 0).trans (E1_user m (outs0 m) 0).symm
  | 1 => exact (E1_item m outs 0).trans (E1_item m (outs0 m) 0).symm

theorem pf1_user (x : S32768.Idx) :
    (pf1 m 0 x : BitVec 32) = (m (((0 : Dev nD) : Thread nD τ).loc main_arg3) : S262144.Idx → BitVec 32) (ValueIdx.ix1 ⟨0 + (x 0).val, by have := lt_32768 x; omega⟩) :=
  (congrFun (E1_user m (outs0 m) 0) x).trans (slice_at 0 _ _ x _)
theorem pf1_item (x : S32768.Idx) :
    (pf1 m 1 x : BitVec 32) = (m (((0 : Dev nD) : Thread nD τ).loc main_arg4) : S262144.Idx → BitVec 32) (ValueIdx.ix1 ⟨0 + (x 0).val, by have := lt_32768 x; omega⟩) :=
  (congrFun (E1_item m (outs0 m) 0) x).trans (slice_at 0 _ _ x _)

theorem tix1 (i : grid1.Coords) (h1 : 0 < S1.numel) :
    (Rect.unit (s := S32768) (k1_off1 i) S1.size (k1_off1_inb i)).emb (Shape.Idx.first h1) = ValueIdx.ix1 ⟨(i 0).val, (i 0).isLt⟩ := by
  funext a
  match a with
  | ⟨0, _⟩ =>
    apply Fin.ext
    show k1_off1 i 0 + 1 * 0 = (i 0).val
    rw [k1_off1_eq]; rfl

theorem cc1_t0 (pf : pre1.Contents (Elt F)) (i : grid1.Coords) :
    cc1_transform_0 k1_off1_inb numel1_S1 pf i = ![(pf 0 (ValueIdx.ix1 ⟨(i 0).val, (i 0).isLt⟩) : BitVec 32).toNat, 0, 0] := by
  unfold cc1_transform_0
  exact congrArg (fun x => ![(pf 0 x : BitVec 32).toNat, 0, 0]) (tix1 i (numel1_S1.symm ▸ Nat.one_pos))

theorem cc1_t1 (pf : pre1.Contents (Elt F)) (i : grid1.Coords) :
    cc1_transform_1 k1_off1_inb numel1_S1 pf i = ![(pf 1 (ValueIdx.ix1 ⟨(i 0).val, (i 0).isLt⟩) : BitVec 32).toNat, 0, 0] := by
  unfold cc1_transform_1
  exact congrArg (fun x => ![(pf 1 x : BitVec 32).toNat, 0, 0]) (tix1 i (numel1_S1.symm ▸ Nat.one_pos))
theorem cc1_t2 (pf : pre1.Contents (Elt F)) (i : grid1.Coords) :
    cc1_transform_2 k1_off1_inb numel1_S1 pf i = ![(pf 1 (ValueIdx.ix1 ⟨(i 0).val, (i 0).isLt⟩) : BitVec 32).toNat, 0, 0] := by
  unfold cc1_transform_2
  exact congrArg (fun x => ![(pf 1 x : BitVec 32).toNat, 0, 0]) (tix1 i (numel1_S1.symm ▸ Nat.one_pos))

/-- With user words below 16384 and item words below 50000 every table-indexed block lies inside its array. -/
theorem ok1_of_tables (pf : pre1.Contents (Elt F)) (hu : ∀ x, (pf 0 x : BitVec 32).toNat < 16384) (hi : ∀ x, (pf 1 x : BitVec 32).toNat < 50000) :
    ok1 pf := by
  refine ⟨fun i => ⟨?_, .inl rfl⟩, fun i => ⟨?_, .inl rfl⟩, fun i => ⟨?_, .inl rfl⟩⟩
  · rw [cc1_t0]; exact blk_inb_user _ (hu _)
  · rw [cc1_t1]; exact blk_inb_item _ (hi _)
  · rw [cc1_t2]; exact blk_inb_bias _ (hi _)

theorem ok1_of_ranges (hu : ∀ i, ((m (((0 : Dev nD) : Thread nD τ).loc main_arg3) : S262144.Idx → BitVec 32) i).toNat < 16384)
    (hi : ∀ i, ((m (((0 : Dev nD) : Thread nD τ).loc main_arg4) : S262144.Idx → BitVec 32) i).toNat < 50000) : ok1 (F := F) (pf1 m) :=
  ok1_of_tables (pf1 m) (fun x => (congrArg BitVec.toNat (pf1_user m x)).trans_lt (hu _))
    (fun x => (congrArg BitVec.toNat (pf1_item m x)).trans_lt (hi _))

def pf2 : pre2.Contents (Elt F) := fun j => E2 m (outs0 m) (0 : Dev nD) (pre2.ref j)

theorem E2_user (outs : Gen.Outs (F := F)) (c : Dev nD) :
    (E2 m outs c main_v27 : S32768.Idx → BitVec 32) = extractStridedSlice S32768 ![32768] (m ((c : Thread nD τ).loc main_arg3) : S262144.Idx → BitVec 32) slices_S262144_S32768_32768 := by
  dsimp only [E2, atRefs, Gen.V5, Gen.hostOps2]
  after_results
  rw [arg3_V4]

theorem E2_item (outs : Gen.Outs (F := F)) (c : Dev nD) :
    (E2 m outs c main_v28 : S32768.Idx → BitVec 32) = extractStridedSlice S32768 ![32768] (m ((c : Thread nD τ).loc main_arg4) : S262144.Idx → BitVec 32) slices_S262144_S32768_32768 := by
  dsimp only [E2, atRefs, Gen.V5, Gen.hostOps2]
  after_results
  rw [arg4_V4]

theorem arg3_V6 (outs : Gen.Outs (F := F)) (c : Dev nD) : Gen.V6 m outs c main_arg3 = m ((c : Thread nD τ).loc main_arg3) :=
  (V6_of m outs c main_arg3 (by decide)).trans ((V5_of m outs c main_arg3 (by decide)).trans (arg3_V4 m outs c))
theorem arg4_V6 (outs : Gen.Outs (F := F)) (c : Dev nD) : Gen.V6 m outs c main_arg4 = m ((c : Thread nD τ).loc main_arg4) :=
  (V6_of m outs c main_arg4 (by decide)).trans ((V5_of m outs c main_arg4 (by decide)).trans (arg4_V4 m outs c))

theorem pf2_entry (outs : Gen.Outs (F := F)) (c : Dev nD) (j : Fin 2) : E2 m outs c (pre2.ref j) = pf2 m j := by
  obtain rfl : c = 0 := Subsingleton.elim _ _
  match j with
  | 0 => exact (E2_user m outs 0).trans (E2_user m (outs0 m) 0).symm
  | 1 => exact (E2_item m outs 0).trans (E2_item m (outs0 m) 0).symm

theorem pf2_user (x : S32768.Idx) :
    (pf2 m 0 x : BitVec 32) = (m (((0 : Dev nD) : Thread nD τ).loc main_arg3) : S262144.Idx → BitVec 32) (ValueIdx.ix1 ⟨32768 + (x 0).val, by have := lt_32768 x; omega⟩) :=
  (congrFun (E2_user m (outs0 m) 0) x).trans (slice_at 32768 _ _ x _)
theorem pf2_item (x : S32768.Idx) :
    (pf2 m 1 x : BitVec 32) = (m (((0 : Dev nD) : Thread nD τ).loc main_arg4) : S262144.Idx → BitVec 32) (ValueIdx.ix1 ⟨32768 + (x 0).val, by have := lt_32768 x; omega⟩) :=
  (congrFun (E2_item m (outs0 m) 0) x).trans (slice_at 32768 _ _ x _)

theorem tix2 (i : grid2.Coords) (h1 : 0 < S1.numel) :
    (Rect.unit (s := S32768) (k2_off1 i) S1.size (k2_off1_inb i)).emb (Shape.Idx.first h1) = ValueIdx.ix1 ⟨(i 0).val, (i 0).isLt⟩ :=
  tix1 i h1

theorem cc2_t0 (pf : pre2.Contents (Elt F)) (i : grid2.Coords) :
    cc2_transform_0 k2_off1_inb numel1_S1 pf i = ![(pf 0 (ValueIdx.ix1 ⟨(i 0).val, (i 0).isLt⟩) : BitVec 32).toNat, 0, 0] := by
  unfold cc2_transform_0
  exact congrArg (fun x => ![(pf 0 x : BitVec 32).toNat, 0, 0]) (tix2 i (numel1_S1.symm ▸ Nat.one_pos))

theorem cc2_t1 (pf : pre2.Contents (Elt F)) (i : grid2.Coords) :
    cc2_transform_1 k2_off1_inb numel1_S1 pf i = ![(pf 1 (ValueIdx.ix1 ⟨(i 0).val, (i 0).isLt⟩) : BitVec 32).toNat, 0, 0] := by
  unfold cc2_transform_1
  exact congrArg (fun x => ![(pf 1 x : BitVec 32).toNat, 0, 0]) (tix2 i (numel1_S1.symm ▸ Nat.one_pos))
theorem cc2_t2 (pf : pre2.Contents (Elt F)) (i : grid2.Coords) :
    cc2_transform_2 k2_off1_inb numel1_S1 pf i = ![(pf 1 (ValueIdx.ix1 ⟨(i 0).val, (i 0).isLt⟩) : BitVec 32).toNat, 0, 0] := by
  unfold cc2_transform_2
  exact congrArg (fun x => ![(pf 1 x : BitVec 32).toNat, 0, 0]) (tix2 i (numel1_S1.symm ▸ Nat.one_pos))

theorem ok2_of_tables (pf : pre2.Contents (Elt F)) (hu : ∀ x, (pf 0 x : BitVec 32).toNat < 16384) (hi : ∀ x, (pf 1 x : BitVec 32).toNat < 50000) :
    ok2 pf := by
  refine ⟨fun i => ⟨?_, .inl rfl⟩, fun i => ⟨?_, .inl rfl⟩, fun i => ⟨?_, .inl rfl⟩⟩
  · rw [cc2_t0]; exact blk_inb_user _ (hu _)
  · rw [cc2_t1]; exact blk_inb_item _ (hi _)
  · rw [cc2_t2]; exact blk_inb_bias _ (hi _)

theorem ok2_of_ranges (hu : ∀ i, ((m (((0 : Dev nD) : Thread nD τ).loc main_arg3) : S262144.Idx → BitVec 32) i).toNat < 16384)
    (hi : ∀ i, ((m (((0 : Dev nD) : Thread nD τ).loc main_arg4) : S262144.Idx → BitVec 32) i).toNat < 50000) : ok2 (F := F) (pf2 m) :=
  ok2_of_tables (pf2 m) (fun x => (congrArg BitVec.toNat (pf2_user m x)).trans_lt (hu _))
    (fun x => (congrArg BitVec.toNat (pf2_item m x)).trans_lt (hi _))

def pf3 : pre3.Contents (Elt F) := fun j => E3 m (outs0 m) (0 : Dev nD) (pre3.ref j)

theorem E3_user (outs : Gen.Outs (F := F)) (c : Dev nD) :
    (E3 m outs c main_v34 : S32768.Idx → BitVec 32) = extractStridedSlice S32768 ![65536] (m ((c : Thread nD τ).loc main_arg3) : S262144.Idx → BitVec 32) slices_S262144_S32768_65536 := by
  dsimp only [E3, atRefs, Gen.V7, Gen.hostOps3]
  after_results
  rw [arg3_V6]

theorem E3_item (outs : Gen.Outs (F := F)) (c : Dev nD) :
    (E3 m outs c main_v35 : S32768.Idx → BitVec 32) = extractStridedSlice S32768 ![65536] (m ((c : Thread nD τ).loc main_arg4) : S262144.Idx → BitVec 32) slices_S262144_S32768_65536 := by
  dsimp only [E3, atRefs, Gen.V7, Gen.hostOps3]
  after_results
  rw [arg4_V6]

theorem arg3_V8 (outs : Gen.Outs (F := F)) (c : Dev nD) : Gen.V8 m outs c main_arg3 = m ((c : Thread nD τ).loc main_arg3) :=
  (V8_of m outs c main_arg3 (by decide)).trans ((V7_of m outs c main_arg3 (by decide)).trans (arg3_V6 m outs c))
theorem arg4_V8 (outs : Gen.Outs (F := F)) (c : Dev nD) : Gen.V8 m outs c main_arg4 = m ((c : Thread nD τ).loc main_arg4) :=
  (V8_of m outs c main_arg4 (by decide)).trans ((V7_of m outs c main_arg4 (by decide)).trans (arg4_V6 m outs c))

theorem pf3_entry (outs : Gen.Outs (F := F)) (c : Dev nD) (j : Fin 2) : E3 m outs c (pre3.ref j) = pf3 m j := by
  obtain rfl : c = 0 := Subsingleton.elim _ _
  match j with
  | 0 => exact (E3_user m outs 0).trans (E3_user m (outs0 m) 0).symm
  | 1 => exact (E3_item m outs 0).trans (E3_item m (outs0 m) 0).symm

theorem pf3_user (x : S32768.Idx) :
    (pf3 m 0 x : BitVec 32) = (m (((0 : Dev nD) : Thread nD τ).loc main_arg3) : S262144.Idx → BitVec 32) (ValueIdx.ix1 ⟨65536 + (x 0).val, by have := lt_32768 x; omega⟩) :=
  (congrFun (E3_user m (outs0 m) 0) x).trans (slice_at 65536 _ _ x _)
theorem pf3_item (x : S32768.Idx) :
    (pf3 m 1 x : BitVec 32) = (m (((0 : Dev nD) : Thread nD τ).loc main_arg4) : S262144.Idx → BitVec 32) (ValueIdx.ix1 ⟨65536 + (x 0).val, by have := lt_32768 x; omega⟩) :=
  (congrFun (E3_item m (outs0 m) 0) x).trans (slice_at 65536 _ _ x _)

theorem tix3 (i : grid3.Coords) (h1 : 0 < S1.numel) :
    (Rect.unit (s := S32768) (k3_off1 i) S1.size (k3_off1_inb i)).emb (Shape.Idx.first h1) = ValueIdx.ix1 ⟨(i 0).val, (i 0).isLt⟩ :=
  tix1 i h1

theorem cc3_t0 (pf : pre3.Contents (Elt F)) (i : grid3.Coords) :
    cc3_transform_0 k3_off1_inb numel1_S1 pf i = ![(pf 0 (ValueIdx.ix1 ⟨(i 0).val, (i 0).isLt⟩) : BitVec 32).toNat, 0, 0] := by
  unfold cc3_transform_0
  exact congrArg (fun x => ![(pf 0 x : BitVec 32).toNat, 0, 0]) (tix3 i (numel1_S1.symm ▸ Nat.one_pos))

theorem cc3_t1 (pf : pre3.Contents (Elt F)) (i : grid3.Coords) :
    cc3_transform_1 k3_off1_inb numel1_S1 pf i = ![(pf 1 (ValueIdx.ix1 ⟨(i 0).val, (i 0).isLt⟩) : BitVec 32).toNat, 0, 0] := by
  unfold cc3_transform_1
  exact congrArg (fun x => ![(pf 1 x : BitVec 32).toNat, 0, 0]) (tix3 i (numel1_S1.symm ▸ Nat.one_pos))
theorem cc3_t2 (pf : pre3.Contents (Elt F)) (i : grid3.Coords) :
    cc3_transform_2 k3_off1_inb numel1_S1 pf i = ![(pf 1 (ValueIdx.ix1 ⟨(i 0).val, (i 0).isLt⟩) : BitVec 32).toNat, 0, 0] := by
  unfold cc3_transform_2
  exact congrArg (fun x => ![(pf 1 x : BitVec 32).toNat, 0, 0]) (tix3 i (numel1_S1.symm ▸ Nat.one_pos))

theorem ok3_of_tables (pf : pre3.Contents (Elt F)) (hu : ∀ x, (pf 0 x : BitVec 32).toNat < 16384) (hi : ∀ x, (pf 1 x : BitVec 32).toNat < 50000) :
    ok3 pf := by
  refine ⟨fun i => ⟨?_, .inl rfl⟩, fun i => ⟨?_, .inl rfl⟩, fun i => ⟨?_, .inl rfl⟩⟩
  · rw [cc3_t0]; exact blk_inb_user _ (hu _)
  · rw [cc3_t1]; exact blk_inb_item _ (hi _)
  · rw [cc3_t2]; exact blk_inb_bias _ (hi _)

theorem ok3_of_ranges (hu : ∀ i, ((m (((0 : Dev nD) : Thread nD τ).loc main_arg3) : S262144.Idx → BitVec 32) i).toNat < 16384)
    (hi : ∀ i, ((m (((0 : Dev nD) : Thread nD τ).loc main_arg4) : S262144.Idx → BitVec 32) i).toNat < 50000) : ok3 (F := F) (pf3 m) :=
  ok3_of_tables (pf3 m) (fun x => (congrArg BitVec.toNat (pf3_user m x)).trans_lt (hu _))
    (fun x => (congrArg BitVec.toNat (pf3_item m x)).trans_lt (hi _))

def pf4 : pre4.Contents (Elt F) := fun j => E4 m (outs0 m) (0 : Dev nD) (pre4.ref j)

theorem E4_user (outs : Gen.Outs (F := F)) (c : Dev nD) :
    (E4 m outs c main_v41 : S32768.Idx → BitVec 32) = extractStridedSlice S32768 ![98304] (m ((c : Thread nD τ).loc main_arg3) : S262144.Idx → BitVec 32) slices_S262144_S32768_98304 := by
  dsimp only [E4, atRefs, Gen.V9, Gen.hostOps4]
  after_results
  rw [arg3_V8]

theorem E4_item (outs : Gen.Outs (F := F)) (c : Dev nD) :
    (E4 m outs c main_v42 : S32768.Idx → BitVec 32) = extractStridedSlice S32768 ![98304] (m ((c : Thread nD τ).loc main_arg4) : S262144.Idx → BitVec 32) slices_S262144_S32768_98304 := by
  dsimp only [E4, atRefs, Gen.V9, Gen.hostOps4]
  after_results
  rw [arg4_V8]

theorem arg3_V10 (outs : Gen.Outs (F := F)) (c : Dev nD) : Gen.V10 m outs c main_arg3 = m ((c : Thread nD τ).loc main_arg3) :=
  (V10_of m outs c main_arg3 (by decide)).trans ((V9_of m outs c main_arg3 (by decide)).trans (arg3_V8 m outs c))
theorem arg4_V10 (outs : Gen.Outs (F := F)) (c : Dev nD) : Gen.V10 m outs c main_arg4 = m ((c : Thread nD τ).loc main_arg4) :=
  (V10_of m outs c main_arg4 (by decide)).trans ((V9_of m outs c main_arg4 (by decide)).trans (arg4_V8 m outs c))

theorem pf4_entry (outs : Gen.Outs (F := F)) (c : Dev nD) (j : Fin 2) : E4 m outs c (pre4.ref j) = pf4 m j := by
  obtain rfl : c = 0 := Subsingleton.elim _ _
  match j with
  | 0 => exact (E4_user m outs 0).trans (E4_user m (outs0 m) 0).symm
  | 1 => exact (E4_item m outs 0).trans (E4_item m (outs0 m) 0).symm

theorem pf4_user (x : S32768.Idx) :
    (pf4 m 0 x : BitVec 32) = (m (((0 : Dev nD) : Thread nD τ).loc main_arg3) : S262144.Idx → BitVec 32) (ValueIdx.ix1 ⟨98304 + (x 0).val, by have := lt_32768 x; omega⟩) :=
  (congrFun (E4_user m (outs0 m) 0) x).trans (slice_at 98304 _ _ x _)
theorem pf4_item (x : S32768.Idx) :
    (pf4 m 1 x : BitVec 32) = (m (((0 : Dev nD) : Thread nD τ).loc main_arg4) : S262144.Idx → BitVec 32) (ValueIdx.ix1 ⟨98304 + (x 0).val, by have := lt_32768 x; omega⟩) :=
  (congrFun (E4_item m (outs0 m) 0) x).trans (slice_at 98304 _ _ x _)

theorem tix4 (i : grid4.Coords) (h1 : 0 < S1.numel) :
    (Rect.unit (s := S32768) (k4_off1 i) S1.size (k4_off1_inb i)).emb (Shape.Idx.first h1) = ValueIdx.ix1 ⟨(i 0).val, (i 0).isLt⟩ :=
  tix1 i h1

theorem cc4_t0 (pf : pre4.Contents (Elt F)) (i : grid4.Coords) :
    cc4_transform_0 k4_off1_inb numel1_S1 pf i = ![(pf 0 (ValueIdx.ix1 ⟨(i 0).val, (i 0).isLt⟩) : BitVec 32).toNat, 0, 0] := by
  unfold cc4_transform_0
  exact congrArg (fun x => ![(pf 0 x : BitVec 32).toNat, 0, 0]) (tix4 i (numel1_S1.symm ▸ Nat.one_pos))

theorem cc4_t1 (pf : pre4.Contents (Elt F)) (i : grid4.Coords) :
    cc4_transform_1 k4_off1_inb numel1_S1 pf i = ![(pf 1 (ValueIdx.ix1 ⟨(i 0).val, (i 0).isLt⟩) : BitVec 32).toNat, 0, 0] := by
  unfold cc4_transform_1
  exact congrArg (fun x => ![(pf 1 x : BitVec 32).toNat, 0, 0]) (tix4 i (numel1_S1.symm ▸ Nat.one_pos))
theorem cc4_t2 (pf : pre4.Contents (Elt F)) (i : grid4.Coords) :
    cc4_transform_2 k4_off1_inb numel1_S1 pf i = ![(pf 1 (ValueIdx.ix1 ⟨(i 0).val, (i 0).isLt⟩) : BitVec 32).toNat, 0, 0] := by
  unfold cc4_transform_2
  exact congrArg (fun x => ![(pf 1 x : BitVec 32).toNat, 0, 0]) (tix4 i (numel1_S1.symm ▸ Nat.one_pos))

theorem ok4_of_tables (pf : pre4.Contents (Elt F)) (hu : ∀ x, (pf 0 x : BitVec 32).toNat < 16384) (hi : ∀ x, (pf 1 x : BitVec 32).toNat < 50000) :
    ok4 pf := by
  refine ⟨fun i => ⟨?_, .inl rfl⟩, fun i => ⟨?_, .inl rfl⟩, fun i => ⟨?_, .inl rfl⟩⟩
  · rw [cc4_t0]; exact blk_inb_user _ (hu _)
  · rw [cc4_t1]; exact blk_inb_item _ (hi _)
  · rw [cc4_t2]; exact blk_inb_bias _ (hi _)

theorem ok4_of_ranges (hu : ∀ i, ((m (((0 : Dev nD) : Thread nD τ).loc main_arg3) : S262144.Idx → BitVec 32) i).toNat < 16384)
    (hi : ∀ i, ((m (((0 : Dev nD) : Thread nD τ).loc main_arg4) : S262144.Idx → BitVec 32) i).toNat < 50000) : ok4 (F := F) (pf4 m) :=
  ok4_of_tables (pf4 m) (fun x => (congrArg BitVec.toNat (pf4_user m x)).trans_lt (hu _))
    (fun x => (congrArg BitVec.toNat (pf4_item m x)).trans_lt (hi _))

def pf5 : pre5.Contents (Elt F) := fun j => E5 m (outs0 m) (0 : Dev nD) (pre5.ref j)

theorem E5_user (outs : Gen.Outs (F := F)) (c : Dev nD) :
    (E5 m outs c main_v48 : S32768.Idx → BitVec 32) = extractStridedSlice S32768 ![131072] (m ((c : Thread nD τ).loc main_arg3) : S262144.Idx → BitVec 32) slices_S262144_S32768_131072 := by
  dsimp only [E5, atRefs, Gen.V11, Gen.hostOps5]
  after_results
  rw [arg3_V10]

theorem E5_item (outs : Gen.Outs (F := F)) (c : Dev nD) :
    (E5 m outs c main_v49 : S32768.Idx → BitVec 32) = extractStridedSlice S32768 ![131072] (m ((c : Thread nD τ).loc main_arg4) : S262144.Idx → BitVec 32) slices_S262144_S32768_131072 := by
  dsimp only [E5, atRefs, Gen.V11, Gen.hostOps5]
  after_results
  rw [arg4_V10]

theorem arg3_V12 (outs : Gen.Outs (F := F)) (c : Dev nD) : Gen.V12 m outs c main_arg3 = m ((c : Thread nD τ).loc main_arg3) :=
  (V12_of m outs c main_arg3 (by decide)).trans ((V11_of m outs c main_arg3 (by decide)).trans (arg3_V10 m outs c))
theorem arg4_V12 (outs : Gen.Outs (F := F)) (c : Dev nD) : Gen.V12 m outs c main_arg4 = m ((c : Thread nD τ).loc main_arg4) :=
  (V12_of m outs c main_arg4 (by decide)).trans ((V11_of m outs c main_arg4 (by decide)).trans (arg4_V10 m outs c))

theorem pf5_entry (outs : Gen.Outs (F := F)) (c : Dev nD) (j : Fin 2) : E5 m outs c (pre5.ref j) = pf5 m j := by
  obtain rfl : c = 0 := Subsingleton.elim _ _
  match j with
  | 0 => exact (E5_user m outs 0).trans (E5_user m (outs0 m) 0).symm
  | 1 => exact (E5_item m outs 0).trans (E5_item m (outs0 m) 0).symm

theorem pf5_user (x : S32768.Idx) :
    (pf5 m 0 x : BitVec 32) = (m (((0 : Dev nD) : Thread nD τ).loc main_arg3) : S262144.Idx → BitVec 32) (ValueIdx.ix1 ⟨131072 + (x 0).val, by have := lt_32768 x; omega⟩) :=
  (congrFun (E5_user m (outs0 m) 0) x).trans (slice_at 131072 _ _ x _)
theorem pf5_item (x : S32768.Idx) :
    (pf5 m 1 x : BitVec 32) = (m (((0 : Dev nD) : Thread nD τ).loc main_arg4) : S262144.Idx → BitVec 32) (ValueIdx.ix1 ⟨131072 + (x 0).val, by have := lt_32768 x; omega⟩) :=
  (congrFun (E5_item m (outs0 m) 0) x).trans (slice_at 131072 _ _ x _)

theorem tix5 (i : grid5.Coords) (h1 : 0 < S1.numel) :
    (Rect.unit (s := S32768) (k5_off1 i) S1.size (k5_off1_inb i)).emb (Shape.Idx.first h1) = ValueIdx.ix1 ⟨(i 0).val, (i 0).isLt⟩ :=
  tix1 i h1

theorem cc5_t0 (pf : pre5.Contents (Elt F)) (i : grid5.Coords) :
    cc5_transform_0 k5_off1_inb numel1_S1 pf i = ![(pf 0 (ValueIdx.ix1 ⟨(i 0).val, (i 0).isLt⟩) : BitVec 32).toNat, 0, 0] := by
  unfold cc5_transform_0
  exact congrArg (fun x => ![(pf 0 x : BitVec 32).toNat, 0, 0]) (tix5 i (numel1_S1.symm ▸ Nat.one_pos))

theorem cc5_t1 (pf : pre5.Contents (Elt F)) (i : grid5.Coords) :
    cc5_transform_1 k5_off1_inb numel1_S1 pf i = ![(pf 1 (ValueIdx.ix1 ⟨(i 0).val, (i 0).isLt⟩) : BitVec 32).toNat, 0, 0] := by
  unfold cc5_transform_1
  exact congrArg (fun x => ![(pf 1 x : BitVec 32).toNat, 0, 0]) (tix5 i (numel1_S1.symm ▸ Nat.one_pos))
theorem cc5_t2 (pf : pre5.Contents (Elt F)) (i : grid5.Coords) :
    cc5_transform_2 k5_off1_inb numel1_S1 pf i = ![(pf 1 (ValueIdx.ix1 ⟨(i 0).val, (i 0).isLt⟩) : BitVec 32).toNat, 0, 0] := by
  unfold cc5_transform_2
  exact congrArg (fun x => ![(pf 1 x : BitVec 32).toNat, 0, 0]) (tix5 i (numel1_S1.symm ▸ Nat.one_pos))

theorem ok5_of_tables (pf : pre5.Contents (Elt F)) (hu : ∀ x, (pf 0 x : BitVec 32).toNat < 16384) (hi : ∀ x, (pf 1 x : BitVec 32).toNat < 50000) :
    ok5 pf := by
  refine ⟨fun i => ⟨?_, .inl rfl⟩, fun i => ⟨?_, .inl rfl⟩, fun i => ⟨?_, .inl rfl⟩⟩
  · rw [cc5_t0]; exact blk_inb_user _ (hu _)
  · rw [cc5_t1]; exact blk_inb_item _ (hi _)
  · rw [cc5_t2]; exact blk_inb_bias _ (hi _)

theorem ok5_of_ranges (hu : ∀ i, ((m (((0 : Dev nD) : Thread nD τ).loc main_arg3) : S262144.Idx → BitVec 32) i).toNat < 16384)
    (hi : ∀ i, ((m (((0 : Dev nD) : Thread nD τ).loc main_arg4) : S262144.Idx → BitVec 32) i).toNat < 50000) : ok5 (F := F) (pf5 m) :=
  ok5_of_tables (pf5 m) (fun x => (congrArg BitVec.toNat (pf5_user m x)).trans_lt (hu _))
    (fun x => (congrArg BitVec.toNat (pf5_item m x)).trans_lt (hi _))

def pf6 : pre6.Contents (Elt F) := fun j => E6 m (outs0 m) (0 : Dev nD) (pre6.ref j)

theorem E6_user (outs : Gen.Outs (F := F)) (c : Dev nD) :
    (E6 m outs c main_v55 : S32768.Idx → BitVec 32) = extractStridedSlice S32768 ![163840] (m ((c : Thread nD τ).loc main_arg3) : S262144.Idx → BitVec 32) slices_S262144_S32768_163840 := by
  dsimp only [E6, atRefs, Gen.V13, Gen.hostOps6]
  after_results
  rw [arg3_V12]

theorem E6_item (outs : Gen.Outs (F := F)) (c : Dev nD) :
    (E6 m outs c main_v56 : S32768.Idx → BitVec 32) = extractStridedSlice S32768 ![163840] (m ((c : Thread nD τ).loc main_arg4) : S262144.Idx → BitVec 32) slices_S262144_S32768_163840 := by
  dsimp only [E6, atRefs, Gen.V13, Gen.hostOps6]
  after_results
  rw [arg4_V12]

theorem arg3_V14 (outs : Gen.Outs (F := F)) (c : Dev nD) : Gen.V14 m outs c main_arg3 = m ((c : Thread nD τ).loc main_arg3) :=
  (V14_of m outs c main_arg3 (by decide)).trans ((V13_of m outs c main_arg3 (by decide)).trans (arg3_V12 m outs c))
theorem arg4_V14 (outs : Gen.Outs (F := F)) (c : Dev nD) : Gen.V14 m outs c main_arg4 = m ((c : Thread nD τ).loc main_arg4) :=
  (V14_of m outs c main_arg4 (by decide)).trans ((V13_of m outs c main_arg4 (by decide)).trans (arg4_V12 m outs c))

theorem pf6_entry (outs : Gen.Outs (F := F)) (c : Dev nD) (j : Fin 2) : E6 m outs c (pre6.ref j) = pf6 m j := by
  obtain rfl : c = 0 := Subsingleton.elim _ _
  match j with
  | 0 => exact (E6_user m outs 0).trans (E6_user m (outs0 m) 0).symm
  | 1 => exact (E6_item m outs 0).trans (E6_item m (outs0 m) 0).symm

theorem pf6_user (x : S32768.Idx) :
    (pf6 m 0 x : BitVec 32) = (m (((0 : Dev nD) : Thread nD τ).loc main_arg3) : S262144.Idx → BitVec 32) (ValueIdx.ix1 ⟨163840 + (x 0).val, by have := lt_32768 x; omega⟩) :=
  (congrFun (E6_user m (outs0 m) 0) x).trans (slice_at 163840 _ _ x _)
theorem pf6_item (x : S32768.Idx) :
    (pf6 m 1 x : BitVec 32) = (m (((0 : Dev nD) : Thread nD τ).loc main_arg4) : S262144.Idx → BitVec 32) (ValueIdx.ix1 ⟨163840 + (x 0).val, by have := lt_32768 x; omega⟩) :=
  (congrFun (E6_item m (outs0 m) 0) x).trans (slice_at 163840 _ _ x _)

theorem tix6 (i : grid6.Coords) (h1 : 0 < S1.numel) :
    (Rect.unit (s := S32768) (k6_off1 i) S1.size (k6_off1_inb i)).emb (Shape.Idx.first h1) = ValueIdx.ix1 ⟨(i 0).val, (i 0).isLt⟩ :=
  tix1 i h1

theorem cc6_t0 (pf : pre6.Contents (Elt F)) (i : grid6.Coords) :
    cc6_transform_0 k6_off1_inb numel1_S1 pf i = ![(pf 0 (ValueIdx.ix1 ⟨(i 0).val, (i 0).isLt⟩) : BitVec 32).toNat, 0, 0] := by
  unfold cc6_transform_0
  exact congrArg (fun x => ![(pf 0 x : BitVec 32).toNat, 0, 0]) (tix6 i (numel1_S1.symm ▸ Nat.one_pos))

theorem cc6_t1 (pf : pre6.Contents (Elt F)) (i : grid6.Coords) :
    cc6_transform_1 k6_off1_inb numel1_S1 pf i = ![(pf 1 (ValueIdx.ix1 ⟨(i 0).val, (i 0).isLt⟩) : BitVec 32).toNat, 0, 0] := by
  unfold cc6_transform_1
  exact congrArg (fun x => ![(pf 1 x : BitVec 32).toNat, 0, 0]) (tix6 i (numel1_S1.symm ▸ Nat.one_pos))
theorem cc6_t2 (pf : pre6.Contents (Elt F)) (i : grid6.Coords) :
    cc6_transform_2 k6_off1_inb numel1_S1 pf i = ![(pf 1 (ValueIdx.ix1 ⟨(i 0).val, (i 0).isLt⟩) : BitVec 32).toNat, 0, 0] := by
  unfold cc6_transform_2
  exact congrArg (fun x => ![(pf 1 x : BitVec 32).toNat, 0, 0]) (tix6 i (numel1_S1.symm ▸ Nat.one_pos))

theorem ok6_of_tables (pf : pre6.Contents (Elt F)) (hu : ∀ x, (pf 0 x : BitVec 32).toNat < 16384) (hi : ∀ x, (pf 1 x : BitVec 32).toNat < 50000) :
    ok6 pf := by
  refine ⟨fun i => ⟨?_, .inl rfl⟩, fun i => ⟨?_, .inl rfl⟩, fun i => ⟨?_, .inl rfl⟩⟩
  · rw [cc6_t0]; exact blk_inb_user _ (hu _)
  · rw [cc6_t1]; exact blk_inb_item _ (hi _)
  · rw [cc6_t2]; exact blk_inb_bias _ (hi _)

theorem ok6_of_ranges (hu : ∀ i, ((m (((0 : Dev nD) : Thread nD τ).loc main_arg3) : S262144.Idx → BitVec 32) i).toNat < 16384)
    (hi : ∀ i, ((m (((0 : Dev nD) : Thread nD τ).loc main_arg4) : S262144.Idx → BitVec 32) i).toNat < 50000) : ok6 (F := F) (pf6 m) :=
  ok6_of_tables (pf6 m) (fun x => (congrArg BitVec.toNat (pf6_user m x)).trans_lt (hu _))
    (fun x => (congrArg BitVec.toNat (pf6_item m x)).trans_lt (hi _))

def pf7 : pre7.Contents (Elt F) := fun j => E7 m (outs0 m) (0 : Dev nD) (pre7.ref j)

theorem E7_user (outs : Gen.Outs (F := F)) (c : Dev nD) :
    (E7 m outs c main_v62 : S32768.Idx → BitVec 32) = extractStridedSlice S32768 ![196608] (m ((c : Thread nD τ).loc main_arg3) : S262144.Idx → BitVec 32) slices_S262144_S32768_196608 := by
  dsimp only [E7, atRefs, Gen.V15, Gen.hostOps7]
  after_results
  rw [arg3_V14]

theorem E7_item (outs : Gen.Outs (F := F)) (c : Dev nD) :
    (E7 m outs c main_v63 : S32768.Idx → BitVec 32) = extractStridedSlice S32768 ![196608] (m ((c : Thread nD τ).loc main_arg4) : S262144.Idx → BitVec 32) slices_S262144_S32768_196608 := by
  dsimp only [E7, atRefs, Gen.V15, Gen.hostOps7]
  after_results
  rw [arg4_V14]

theorem arg3_V16 (outs : Gen.Outs (F := F)) (c : Dev nD) : Gen.V16 m outs c main_arg3 = m ((c : Thread nD τ).loc main_arg3) :=
  (V16_of m outs c main_arg3 (by decide)).trans ((V15_of m outs c main_arg3 (by decide)).trans (arg3_V14 m outs c))
theorem arg4_V16 (outs : Gen.Outs (F := F)) (c : Dev nD) : Gen.V16 m outs c main_arg4 = m ((c : Thread nD τ).loc main_arg4) :=
  (V16_of m outs c main_arg4 (by decide)).trans ((V15_of m outs c main_arg4 (by decide)).trans (arg4_V14 m outs c))

theorem pf7_entry (outs : Gen.Outs (F := F)) (c : Dev nD) (j : Fin 2) : E7 m outs c (pre7.ref j) = pf7 m j := by
  obtain rfl : c = 0 := Subsingleton.elim _ _
  match j with
  | 0 => exact (E7_user m outs 0).trans (E7_user m (outs0 m) 0).symm
  | 1 => exact (E7_item m outs 0).trans (E7_item m (outs0 m) 0).symm

theorem pf7_user (x : S32768.Idx) :
    (pf7 m 0 x : BitVec 32) = (m (((0 : Dev nD) : Thread nD τ).loc main_arg3) : S262144.Idx → BitVec 32) (ValueIdx.ix1 ⟨196608 + (x 0).val, by have := lt_32768 x; omega⟩) :=
  (congrFun (E7_user m (outs0 m) 0) x).trans (slice_at 196608 _ _ x _)
theorem pf7_item (x : S32768.Idx) :
    (pf7 m 1 x : BitVec 32) = (m (((0 : Dev nD) : Thread nD τ).loc main_arg4) : S262144.Idx → BitVec 32) (ValueIdx.ix1 ⟨196608 + (x 0).val, by have := lt_32768 x; omega⟩) :=
  (congrFun (E7_item m (outs0 m) 0) x).trans (slice_at 196608 _ _ x _)

theorem tix7 (i : grid7.Coords) (h1 : 0 < S1.numel) :
    (Rect.unit (s := S32768) (k7_off1 i) S1.size (k7_off1_inb i)).emb (Shape.Idx.first h1) = ValueIdx.ix1 ⟨(i 0).val, (i 0).isLt⟩ :=
  tix1 i h1

theorem cc7_t0 (pf : pre7.Contents (Elt F)) (i : grid7.Coords) :
    cc7_transform_0 k7_off1_inb numel1_S1 pf i = ![(pf 0 (ValueIdx.ix1 ⟨(i 0).val, (i 0).isLt⟩) : BitVec 32).toNat, 0, 0] := by
  unfold cc7_transform_0
  exact congrArg (fun x => ![(pf 0 x : BitVec 32).toNat, 0, 0]) (tix7 i (numel1_S1.symm ▸ Nat.one_pos))

theorem cc7_t1 (pf : pre7.Contents (Elt F)) (i : grid7.Coords) :
    cc7_transform_1 k7_off1_inb numel1_S1 pf i = ![(pf 1 (ValueIdx.ix1 ⟨(i 0).val, (i 0).isLt⟩) : BitVec 32).toNat, 0, 0] := by
  unfold cc7_transform_1
  exact congrArg (fun x => ![(pf 1 x : BitVec 32).toNat, 0, 0]) (tix7 i (numel1_S1.symm ▸ Nat.one_pos))
theorem cc7_t2 (pf : pre7.Contents (Elt F)) (i : grid7.Coords) :
    cc7_transform_2 k7_off1_inb numel1_S1 pf i = ![(pf 1 (ValueIdx.ix1 ⟨(i 0).val, (i 0).isLt⟩) : BitVec 32).toNat, 0, 0] := by
  unfold cc7_transform_2
  exact congrArg (fun x => ![(pf 1 x : BitVec 32).toNat, 0, 0]) (tix7 i (numel1_S1.symm ▸ Nat.one_pos))

theorem ok7_of_tables (pf : pre7.Contents (Elt F)) (hu : ∀ x, (pf 0 x : BitVec 32).toNat < 16384) (hi : ∀ x, (pf 1 x : BitVec 32).toNat < 50000) :
    ok7 pf := by
  refine ⟨fun i => ⟨?_, .inl rfl⟩, fun i => ⟨?_, .inl rfl⟩, fun i => ⟨?_, .inl rfl⟩⟩
  · rw [cc7_t0]; exact blk_inb_user _ (hu _)
  · rw [cc7_t1]; exact blk_inb_item _ (hi _)
  · rw [cc7_t2]; exact blk_inb_bias _ (hi _)

theorem ok7_of_ranges (hu : ∀ i, ((m (((0 : Dev nD) : Thread nD τ).loc main_arg3) : S262144.Idx → BitVec 32) i).toNat < 16384)
    (hi : ∀ i, ((m (((0 : Dev nD) : Thread nD τ).loc main_arg4) : S262144.Idx → BitVec 32) i).toNat < 50000) : ok7 (F := F) (pf7 m) :=
  ok7_of_tables (pf7 m) (fun x => (congrArg BitVec.toNat (pf7_user m x)).trans_lt (hu _))
    (fun x => (congrArg BitVec.toNat (pf7_item m x)).trans_lt (hi _))

def pf8 : pre8.Contents (Elt F) := fun j => E8 m (outs0 m) (0 : Dev nD) (pre8.ref j)

theorem E8_user (outs : Gen.Outs (F := F)) (c : Dev nD) :
    (E8 m outs c main_v69 : S32768.Idx → BitVec 32) = extractStridedSlice S32768 ![229376] (m ((c : Thread nD τ).loc main_arg3) : S262144.Idx → BitVec 32) slices_S262144_S32768_229376 := by
  dsimp only [E8, atRefs, Gen.V17, Gen.hostOps8]
  after_results
  rw [arg3_V16]

theorem E8_item (outs : Gen.Outs (F := F)) (c : Dev nD) :
    (E8 m outs c main_v70 : S32768.Idx → BitVec 32) = extractStridedSlice S32768 ![229376] (m ((c : Thread nD τ).loc main_arg4) : S262144.Idx → BitVec 32) slices_S262144_S32768_229376 := by
  dsimp only [E8, atRefs, Gen.V17, Gen.hostOps8]
  after_results
  rw [arg4_V16]

theorem pf8_entry (outs : Gen.Outs (F := F)) (c : Dev nD) (j : Fin 2) : E8 m outs c (pre8.ref j) = pf8 m j := by
  obtain rfl : c = 0 := Subsingleton.elim _ _
  match j with
  | 0 => exact (E8_user m outs 0).trans (E8_user m (outs0 m) 0).symm
  | 1 => exact (E8_item m outs 0).trans (E8_item m (outs0 m) 0).symm

theorem pf8_user (x : S32768.Idx) :
    (pf8 m 0 x : BitVec 32) = (m (((0 : Dev nD) : Thread nD τ).loc main_arg3) : S262144.Idx → BitVec 32) (ValueIdx.ix1 ⟨229376 + (x 0).val, by have := lt_32768 x; omega⟩) :=
  (congrFun (E8_user m (outs0 m) 0) x).trans (slice_at 229376 _ _ x _)
theorem pf8_item (x : S32768.Idx) :
    (pf8 m 1 x : BitVec 32) = (m (((0 : Dev nD) : Thread nD τ).loc main_arg4) : S262144.Idx → BitVec 32) (ValueIdx.ix1 ⟨229376 + (x 0).val, by have := lt_32768 x; omega⟩) :=
  (congrFun (E8_item m (outs0 m) 0) x).trans (slice_at 229376 _ _ x _)

theorem tix8 (i : grid8.Coords) (h1 : 0 < S1.numel) :
    (Rect.unit (s := S32768) (k8_off1 i) S1.size (k8_off1_inb i)).emb (Shape.Idx.first h1) = ValueIdx.ix1 ⟨(i 0).val, (i 0).isLt⟩ :=
  tix1 i h1

theorem cc8_t0 (pf : pre8.Contents (Elt F)) (i : grid8.Coords) :
    cc8_transform_0 k8_off1_inb numel1_S1 pf i = ![(pf 0 (ValueIdx.ix1 ⟨(i 0).val, (i 0).isLt⟩) : BitVec 32).toNat, 0, 0] := by
  unfold cc8_transform_0
  exact congrArg (fun x => ![(pf 0 x : BitVec 32).toNat, 0, 0]) (tix8 i (numel1_S1.symm ▸ Nat.one_pos))

theorem cc8_t1 (pf : pre8.Contents (Elt F)) (i : grid8.Coords) :
    cc8_transform_1 k8_off1_inb numel1_S1 pf i = ![(pf 1 (ValueIdx.ix1 ⟨(i 0).val, (i 0).isLt⟩) : BitVec 32).toNat, 0, 0] := by
  unfold cc8_transform_1
  exact congrArg (fun x => ![(pf 1 x : BitVec 32).toNat, 0, 0]) (tix8 i (numel1_S1.symm ▸ Nat.one_pos))
theorem cc8_t2 (pf : pre8.Contents (Elt F)) (i : grid8.Coords) :
    cc8_transform_2 k8_off1_inb numel1_S1 pf i = ![(pf 1 (ValueIdx.ix1 ⟨(i 0).val, (i 0).isLt⟩) : BitVec 32).toNat, 0, 0] := by
  unfold cc8_transform_2
  exact congrArg (fun x => ![(pf 1 x : BitVec 32).toNat, 0, 0]) (tix8 i (numel1_S1.symm ▸ Nat.one_pos))

theorem ok8_of_tables (pf : pre8.Contents (Elt F)) (hu : ∀ x, (pf 0 x : BitVec 32).toNat < 16384) (hi : ∀ x, (pf 1 x : BitVec 32).toNat < 50000) :
    ok8 pf := by
  refine ⟨fun i => ⟨?_, .inl rfl⟩, fun i => ⟨?_, .inl rfl⟩, fun i => ⟨?_, .inl rfl⟩⟩
  · rw [cc8_t0]; exact blk_inb_user _ (hu _)
  · rw [cc8_t1]; exact blk_inb_item _ (hi _)
  · rw [cc8_t2]; exact blk_inb_bias _ (hi _)

theorem ok8_of_ranges (hu : ∀ i, ((m (((0 : Dev nD) : Thread nD τ).loc main_arg3) : S262144.Idx → BitVec 32) i).toNat < 16384)
    (hi : ∀ i, ((m (((0 : Dev nD) : Thread nD τ).loc main_arg4) : S262144.Idx → BitVec 32) i).toNat < 50000) : ok8 (F := F) (pf8 m) :=
  ok8_of_tables (pf8 m) (fun x => (congrArg BitVec.toNat (pf8_user m x)).trans_lt (hu _))
    (fun x => (congrArg BitVec.toNat (pf8_item m x)).trans_lt (hi _))

end Cert.Kernel.Hand

end
-- ==== Proof.K.Frame.lean ====
import proofs.«421490_j32530082300068_2_alg».proof.Proof.K.Run
import proofs.«421490_j32530082300068_2_alg».proof.Proof.K.SolExists
import proofs.«421490_j32530082300068_2_alg».proof.Proof.K.Tables

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (m : (ℓ : Loc nD τ sig) → Buf (Elt F) ℓ) (ρ : Dev nD → PrngReg)

abbrev RangeU : Prop := ∀ i, ((m (((0 : Dev nD) : Thread nD τ).loc main_arg3) : S262144.Idx → BitVec 32) i).toNat < 16384
abbrev RangeI : Prop := ∀ i, ((m (((0 : Dev nD) : Thread nD τ).loc main_arg4) : S262144.Idx → BitVec 32) i).toNat < 50000

def tabsOf (hu : RangeU m) (hi : RangeI m) : Tabs F where
  pf1 := pf1 m
  ok1 := ok1_of_ranges m hu hi
  pf2 := pf2 m
  ok2 := ok2_of_ranges m hu hi
  pf3 := pf3 m
  ok3 := ok3_of_ranges m hu hi
  pf4 := pf4 m
  ok4 := ok4_of_ranges m hu hi
  pf5 := pf5 m
  ok5 := ok5_of_ranges m hu hi
  pf6 := pf6 m
  ok6 := ok6_of_ranges m hu hi
  pf7 := pf7 m
  ok7 := ok7_of_ranges m hu hi
  pf8 := pf8 m
  ok8 := ok8_of_ranges m hu hi

theorem tabsAt (hu : RangeU m) (hi : RangeI m) (S : Sol m (tabsOf m hu hi)) : TabsAt S where
  e1 := pf1_entry m S.outs
  e2 := pf2_entry m S.outs
  e3 := pf3_entry m S.outs
  e4 := pf4_entry m S.outs
  e5 := pf5_entry m S.outs
  e6 := pf6_entry m S.outs
  e7 := pf7_entry m S.outs
  e8 := pf8_entry m S.outs

theorem frame (hu : RangeU m) (hi : RangeI m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  obtain ⟨S⟩ := Sol.exists m (tabsOf m hu hi)
  exact (θ_run defs _ _).mono (fun r h c =>
    ⟨(h c _ (mem_uc main_arg0 (by decide))).trans (Gen.V19_main_arg0 m S.outs c),
     (h c _ (mem_uc main_arg1 (by decide))).trans (Gen.V19_main_arg1 m S.outs c),
     (h c _ (mem_uc main_arg2 (by decide))).trans (Gen.V19_main_arg2 m S.outs c),
     (h c _ (mem_uc main_arg3 (by decide))).trans (Gen.V19_main_arg3 m S.outs c),
     (h c _ (mem_uc main_arg4 (by decide))).trans (Gen.V19_main_arg4 m S.outs c),
     (h c _ (mem_uc main_arg5 (by decide))).trans (Gen.V19_main_arg5 m S.outs c),
     (h c _ (mem_uc main_arg6 (by decide))).trans (Gen.V19_main_arg6 m S.outs c),
     (h c _ (mem_uc main_arg7 (by decide))).trans (Gen.V19_main_arg7 m S.outs c),
     (h c _ (mem_uc main_arg8 (by decide))).trans (Gen.V19_main_arg8 m S.outs c),
     (h c _ (mem_uc main_arg9 (by decide))).trans (Gen.V19_main_arg9 m S.outs c),
     (h c _ (mem_uc main_arg10 (by decide))).trans (Gen.V19_main_arg10 m S.outs c),
     (h c _ (mem_uc main_arg11 (by decide))).trans (Gen.V19_main_arg11 m S.outs c),
     (h c _ (mem_uc main_arg12 (by decide))).trans (Gen.V19_main_arg12 m S.outs c),
     (h c _ (mem_uc main_arg13 (by decide))).trans (Gen.V19_main_arg13 m S.outs c)⟩)
    (run_all S ρ (tabsAt m hu hi S))

end

end Cert.Kernel.Hand

end
-- ==== Proof.KI.Entry.lean ====
import proofs.«421490_j32530082300068_2_alg».proof.Proof.Gen.KernelIdeal.Regions

noncomputable section

namespace Cert.KernelIdeal.Hand

open Idealize.ShloMosaic Idealize.ShloMosaic.TcCoe Idealize.SL Idealize.SL.Sem
open Cert.KernelIdeal Cert.KernelIdeal.Gen

variable {F : FTy → Type} [FloatOps F]
variable (m : (ℓ : Loc nD τ sig) → Buf (Elt F) ℓ) (outs : Gen.Outs (F := F))

abbrev atRefs (W : Dev nD → Valuation τ sig (Elt F)) : (c : Dev nD) → (b : Ref sig .tc) → Buf (Elt F) ((c : Thread nD τ).loc b) :=
  fun c b => W c b

abbrev E0 := atRefs (Gen.V1 m)
abbrev E1 := atRefs (Gen.V3 m outs)
abbrev E2 := atRefs (Gen.V5 m outs)
abbrev E3 := atRefs (Gen.V7 m outs)
abbrev E4 := atRefs (Gen.V9 m outs)
abbrev E5 := atRefs (Gen.V11 m outs)
abbrev E6 := atRefs (Gen.V13 m outs)
abbrev E7 := atRefs (Gen.V15 m outs)
abbrev E8 := atRefs (Gen.V17 m outs)

end Cert.KernelIdeal.Hand

end
-- ==== Proof.KI.Mlp.lean ====
import proofs.«421490_j32530082300068_2_alg».proof.Proof.Gen.KernelIdeal.Launch
import proofs.«421490_j32530082300068_2_alg».proof.Proof.Gen.KernelIdeal.Skeleton
import proofs.«421490_j32530082300068_2_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end

abbrev rAct0 : Rect S1024x512 := Rect.unit (s := S1024x512) ![0, 0] S1024x512.size inb_S1024x512_S1024x512_0_0
abbrev rBias512_0 : Rect S1x512 := Rect.unit (s := S1x512) ![0, 0] S1x512.size inb_S1x512_S1x512_0_0
abbrev rW1_0 : Rect S512x256 := Rect.unit (s := S512x256) ![0, 0] S512x256.size inb_S512x256_S512x256_0_0
abbrev rBias256_0 : Rect S1x256 := Rect.unit (s := S1x256) ![0, 0] S1x256.size inb_S1x256_S1x256_0_0
abbrev rW2_0 : Rect S256x512 := Rect.unit (s := S256x512) ![0, 0] S256x512.size inb_S256x512_S256x512_0_0

def out0_6 (x0 : Vec F S1024x512 .f32) (x1 : Vec F S1x512 .f32) (x2 : Vec F S512x256 .f32) (x3 : Vec F S1x256 .f32) (x4 : Vec F S256x512 .f32) (x5 : Vec F S1x512 .f32) : Vec F S1024x512 .f32 :=
  View.canon [⟨rAct0, k0_pay1 (View.ld x0 rAct0) (View.ld x1 rBias512_0) (View.ld x2 rW1_0) (View.ld x3 rBias256_0) (View.ld x4 rW2_0) (View.ld x5 rBias512_0)⟩]

theorem cover0_6 (p0 : Vec F S1024x512 .f32) (y : S1024x512.Idx) :
    ∃ pc ∈ ([⟨rAct0, p0⟩] : List (View.Piece (Elt F) S1024x512 .f32)), y ∈ pc.1.set :=
  View.cover_of_tiled [⟨rAct0, p0⟩] S1024x512.size (by rfl) y

set_option maxHeartbeats 1000000 in

theorem sound_kernel0 (c : Dev nD) (E : Set ℕ) (i : grid0.Coords)
    (arg1 : Memref sig .tc .vmem S1024x512 .f32) (harg1 : arg1.IsWhole)
    (arg2 : Memref sig .tc .vmem S1x512 .f32) (harg2 : arg2.IsWhole)
    (arg3 : Memref sig .tc .vmem S512x256 .f32) (harg3 : arg3.IsWhole)
    (arg4 : Memref sig .tc .vmem S1x256 .f32) (harg4 : arg4.IsWhole)
    (arg5 : Memref sig .tc .vmem S256x512 .f32) (harg5 : arg5.IsWhole)
    (arg6 : Memref sig .tc .vmem S1x512 .f32) (harg6 : arg6.IsWhole)
    (arg7 : Memref sig .tc .vmem S1024x512 .f32) (harg7 : arg7.IsWhole)
    (x0 : Vec F S1024x512 .f32) (x1 : Vec F S1x512 .f32) (x2 : Vec F S512x256 .f32) (x3 : Vec F S1x256 .f32) (x4 : Vec F S256x512 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

section
variable (V : (c : Dev nD) → (b : Ref sig .tc) → Buf (Elt F) ((c : Thread nD τ).loc b))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.PredBody.lean ====
import proofs.«421490_j32530082300068_2_alg».proof.Proof.Gen.KernelIdeal.Launch
import proofs.«421490_j32530082300068_2_alg».proof.Proof.Gen.KernelIdeal.Skeleton
import proofs.«421490_j32530082300068_2_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev rRow : Rect S1x1x512 := Rect.unit (s := S1x1x512) ![0, 0, 0] S1x1x512.size inb_S1x1x512_S1x1x512_0_0_0
abbrev rOne : Rect S1x1x1 := Rect.unit (s := S1x1x1) ![0, 0, 0] S1x1x1.size inb_S1x1x1_S1x1x1_0_0_0

/-- The output block after the body: its one store, of the payload of the three loaded blocks. -/
def outBlock (x0 x1 : Vec F S1x1x512 .f32) (x2 : Vec F S1x1x1 .f32) : Vec F S1x1x1 .f32 :=
  View.canon [⟨rOne, k1_pay1 (View.ld x0 rRow) (View.ld x1 rRow) (View.ld x2 rOne)⟩]

theorem cover_out (p0 : Vec F S1x1x1 .f32) (y : S1x1x1.Idx) :
    ∃ pc ∈ ([⟨rOne, p0⟩] : List (View.Piece (Elt F) S1x1x1 .f32)), y ∈ pc.1.set :=
  View.cover_of_tiled [⟨rOne, p0⟩] S1x1x1.size (by rfl) y

/-- The body leaves its three inputs as read and the output at `outBlock` of them, whatever frame `Φ`, `O` rides along; every chunk runs this same body. -/
theorem sound_pred_framed (c : Dev nD) (E : Set ℕ) (i : grid1.Coords)
    (arg1 : Memref sig .tc .smem S32768 .i32) (harg1 : arg1.IsWhole) (arg2 : Memref sig .tc .smem S32768 .i32) (harg2 : arg2.IsWhole)
    (arg3 : Memref sig .tc .vmem S1x1x512 .f32) (harg3 : arg3.IsWhole) (arg4 : Memref sig .tc .vmem S1x1x512 .f32) (harg4 : arg4.IsWhole)
    (arg5 : Memref sig .tc .vmem S1x1x1 .f32) (harg5 : arg5.IsWhole) (arg6 : Memref sig .tc .vmem S1x1x1 .f32) (harg6 : arg6.IsWhole)
    (x0 x1 : Vec F S1x1x512 .f32) (x2 : Vec F S1x1x1 .f32) (Φ O : sProp 𝕄) {D0 D1 D2 D3 : Type}
    {b0 : D0 → Vec F S1x1x512 .f32} {b1 : D1 → Vec F S1x1x512 .f32} {b2 : D2 → Vec F S1x1x1 .f32} {b3 : D3 → Vec F S1x1x1 .f32}
    (h0 : ∀ d, b0 d = x0) (h1 : ∀ d, b1 d = x1) (h2 : ∀ d, b2 d = x2) :
    iprop(Φ ∗ O ∗ (∃ d, owns (c : Thread nD τ) arg3 fullShare (b0 d)) ∗ (∃ d, owns (c : Thread nD τ) arg4 fullShare (b1 d))
        ∗ (∃ d, owns (c : Thread nD τ) arg5 fullShare (b2 d)) ∗ (∃ d, owns (c : Thread nD τ) arg6 fullShare (b3 d)))
      ⊢ wp frame (wpE (defs₀ (F := F)) Variants.none c none) E (cc1__pred_kernel i arg1 harg1 arg2 harg2 arg3 harg3 arg4 harg4 arg5 harg5 arg6 harg6)
          (fun _ => iprop(Φ ∗ O ∗ owns (c : Thread nD τ) arg3 fullShare x0 ∗ owns (c : Thread nD τ) arg4 fullShare x1
            ∗ owns (c : Thread nD τ) arg5 fullShare x2 ∗ owns (c : Thread nD τ) arg6 fullShare (outBlock x0 x1 x2))) := by
  simp only [cc1__pred_kernel_eq_skeleton]; unfold cc1__pred_kernel_skel
  unfold owns
  iintro ⟨HΦ, Ho, ⟨%d0, %f0, %hf0, H0⟩, ⟨%d1, %f1, %hf1, H1⟩, ⟨%d2, %f2, %hf2, H2⟩, ⟨%d3, %f3, -, H3⟩⟩
  rw [h0] at hf0; rw [h1] at hf1; rw [h2] at hf2
  subst hf0 hf1 hf2
  sl_exec
  sl_step
  isplitl [HΦ]; · iexact HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.KernelIdeal.Hand

end
-- ==== Proof.KI.Pred1.lean ====
import proofs.«421490_j32530082300068_2_alg».proof.Proof.KI.PredBody

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre1.Contents (Elt F))

abbrev adm1 (hO : ok1 (F := F) pf) : (pcfg1 (F := F)).Adm := ⟨pf, hO⟩
abbrev cfgM1 (hO : ok1 (F := F) pf) : Pipeline.Cfg sig Λ₀ := cfg1 (adm1 pf hO)

/-- The block of window `w` at grid point `t`, cut from the window's array as the region is entered. -/
def iblk1 (hO : ok1 (F := F) pf) (c : Dev nD) (w : Fin (cfgM1 pf hO).W) (t : Fin (cfgM1 pf hO).N) :
    (((cfgM1 pf hO).win w).xblock ((cfgM1 pf hO).grid.coords t)).Idx → Elt F ((cfgM1 pf hO).win w).elt :=
  (((cfgM1 pf hO).win w).blk t).view.read (Elt F) (V c (Pipeline.arrRef spec1 w))

theorem before1_0_of (hO : ok1 (F := F) pf) {c : Dev nD} (dat : Dat τ (Elt F) Unit ℕ (UR sig nD τ) ℕ (cfgM1 pf hO) c) (hA : dat.A 0 = V c (Pipeline.arrRef spec1 0))
    (hafter : ∀ t, dat.after 0 t = iblk1 V pf hO c 0 t) (t : Fin (cfgM1 pf hO).N) (d) : dat.before 0 t d = iblk1 V pf hO c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (hO : ok1 (F := F) pf) {c : Dev nD} (dat : Dat τ (Elt F) Unit ℕ (UR sig nD τ) ℕ (cfgM1 pf hO) c) (hA : dat.A 1 = V c (Pipeline.arrRef spec1 1))
    (hafter : ∀ t, dat.after 1 t = iblk1 V pf hO c 1 t) (t : Fin (cfgM1 pf hO).N) (d) : dat.before 1 t d = iblk1 V pf hO c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of (hO : ok1 (F := F) pf) {c : Dev nD} (dat : Dat τ (Elt F) Unit ℕ (UR sig nD τ) ℕ (cfgM1 pf hO) c) (hA : dat.A 2 = V c (Pipeline.arrRef spec1 2))
    (hafter : ∀ t, dat.after 2 t = iblk1 V pf hO c 2 t) (t : Fin (cfgM1 pf hO).N) (d) : dat.before 2 t d = iblk1 V pf hO c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Every chunk runs the first chunk's body, on its own tables and blocks. -/
abbrev bodyAt1 (hO : ok1 (F := F) pf) (t : Fin (cfgM1 pf hO).N) : Prog (TpuEff nD τ sig (Elt F) Λ₀ .tc) PUnit :=
  cc1__pred_kernel (grid1.coords t) (Memref.whole main_v20) (Memref.isWhole_whole _) (Memref.whole main_v21) (Memref.isWhole_whole _)
    (spec1_0.stage ((cfgM1 pf hO).slots t 0)) (hstage1_0 (((cfgM1 pf hO).slots t 0).cast nbuf1_0))
    (spec1_1.stage ((cfgM1 pf hO).slots t 1)) (hstage1_1 (((cfgM1 pf hO).slots t 1).cast nbuf1_1))
    (spec1_2.stage ((cfgM1 pf hO).slots t 2)) (hstage1_2 (((cfgM1 pf hO).slots t 2).cast nbuf1_2))
    (spec1_3.stage ((cfgM1 pf hO).slots t 3)) (hstage1_3 (((cfgM1 pf hO).slots t 3).cast nbuf1_3))

end

end Cert.KernelIdeal.Hand

end
-- ==== Proof.KI.Pred1Dat.lean ====
import proofs.«421490_j32530082300068_2_alg».proof.Proof.KI.Pred1

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre1.Contents (Elt F))

abbrev tabs1 (c : Dev nD) : sProp 𝕄 :=
  Pipeline.prefHeld (Ix := Unit) (Name := ℕ) (U := UR sig nD τ) (Lvl := ℕ) pre1 c (fun _ => fullShare) pf

/-- The region's proof data: after point `t` an input window is at its block, the output window at the payload of the three blocks. -/
def dat1 (hO : ok1 (F := F) pf) (c : Dev nD) : Dat τ (Elt F) Unit ℕ (UR sig nD τ) ℕ (cfgM1 pf hO) c where
  A w := V c (Pipeline.arrRef spec1 w)
  after w t := match w with
    | ⟨0, _⟩ => iblk1 V pf hO c 0 t
    | ⟨1, _⟩ => iblk1 V pf hO c 1 t
    | ⟨2, _⟩ => iblk1 V pf hO c 2 t
    | ⟨3, _⟩ => outBlock (iblk1 V pf hO c 0 t) (iblk1 V pf hO c 1 t) (iblk1 V pf hO c 2 t)
  Φ _ := iprop(Pipeline.ΦA spec1 c ∗ tabs1 pf c)
  q _ := fullShare
  owed _ := 0

theorem A_eq1 (hO : ok1 (F := F) pf) (c : Dev nD) (w : Fin (cfgM1 pf hO).W) : (dat1 V pf hO c).A w = V c (Pipeline.arrRef spec1 w) := rfl

theorem after1_3 (hO : ok1 (F := F) pf) (c : Dev nD) (t : Fin (cfgM1 pf hO).N) :
    (dat1 V pf hO c).after 3 t = outBlock (iblk1 V pf hO c 0 t) (iblk1 V pf hO c 1 t) (iblk1 V pf hO c 2 t) := rfl

theorem body_obligation1 (hO : ok1 (F := F) pf) (c : Dev nD) : BodyObligation (dat1 (F := F) V pf hO c) (defs₀ (F := F)) Variants.none () Set.univ := fun t => by
  rw [bigSep_W1, bigSep_W1]
  show _ ⊢ wp frame _ Set.univ (bodyAt1 pf hO t) _
  exact sound_pred_framed c Set.univ _ _ _ _ _ _ _ _ _ _ _ _ _ (iblk1 V pf hO c 0 t) (iblk1 V pf hO c 1 t) (iblk1 V pf hO c 2 t) _ _
    (before1_0_of V pf hO _ rfl (fun _ => rfl) t) (before1_1_of V pf hO _ rfl (fun _ => rfl) t) (before1_2_of V pf hO _ rfl (fun _ => rfl) t)

end

end Cert.KernelIdeal.Hand

end
-- ==== Proof.KI.Pred2.lean ====
import proofs.«421490_j32530082300068_2_alg».proof.Proof.KI.PredBody

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre2.Contents (Elt F))

abbrev adm2 (hO : ok2 (F := F) pf) : (pcfg2 (F := F)).Adm := ⟨pf, hO⟩
abbrev cfgM2 (hO : ok2 (F := F) pf) : Pipeline.Cfg sig Λ₀ := cfg2 (adm2 pf hO)

/-- The block of window `w` at grid point `t`, cut from the window's array as the region is entered. -/
def iblk2 (hO : ok2 (F := F) pf) (c : Dev nD) (w : Fin (cfgM2 pf hO).W) (t : Fin (cfgM2 pf hO).N) :
    (((cfgM2 pf hO).win w).xblock ((cfgM2 pf hO).grid.coords t)).Idx → Elt F ((cfgM2 pf hO).win w).elt :=
  (((cfgM2 pf hO).win w).blk t).view.read (Elt F) (V c (Pipeline.arrRef spec2 w))

theorem before2_0_of (hO : ok2 (F := F) pf) {c : Dev nD} (dat : Dat τ (Elt F) Unit ℕ (UR sig nD τ) ℕ (cfgM2 pf hO) c) (hA : dat.A 0 = V c (Pipeline.arrRef spec2 0))
    (hafter : ∀ t, dat.after 0 t = iblk2 V pf hO c 0 t) (t : Fin (cfgM2 pf hO).N) (d) : dat.before 0 t d = iblk2 V pf hO c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of (hO : ok2 (F := F) pf) {c : Dev nD} (dat : Dat τ (Elt F) Unit ℕ (UR sig nD τ) ℕ (cfgM2 pf hO) c) (hA : dat.A 1 = V c (Pipeline.arrRef spec2 1))
    (hafter : ∀ t, dat.after 1 t = iblk2 V pf hO c 1 t) (t : Fin (cfgM2 pf hO).N) (d) : dat.before 1 t d = iblk2 V pf hO c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of (hO : ok2 (F := F) pf) {c : Dev nD} (dat : Dat τ (Elt F) Unit ℕ (UR sig nD τ) ℕ (cfgM2 pf hO) c) (hA : dat.A 2 = V c (Pipeline.arrRef spec2 2))
    (hafter : ∀ t, dat.after 2 t = iblk2 V pf hO c 2 t) (t : Fin (cfgM2 pf hO).N) (d) : dat.before 2 t d = iblk2 V pf hO c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Every chunk runs the first chunk's body, on its own tables and blocks. -/
abbrev bodyAt2 (hO : ok2 (F := F) pf) (t : Fin (cfgM2 pf hO).N) : Prog (TpuEff nD τ sig (Elt F) Λ₀ .tc) PUnit :=
  cc1__pred_kernel (grid2.coords t) (Memref.whole main_v27) (Memref.isWhole_whole _) (Memref.whole main_v28) (Memref.isWhole_whole _)
    (spec2_0.stage ((cfgM2 pf hO).slots t 0)) (hstage2_0 (((cfgM2 pf hO).slots t 0).cast nbuf2_0))
    (spec2_1.stage ((cfgM2 pf hO).slots t 1)) (hstage2_1 (((cfgM2 pf hO).slots t 1).cast nbuf2_1))
    (spec2_2.stage ((cfgM2 pf hO).slots t 2)) (hstage2_2 (((cfgM2 pf hO).slots t 2).cast nbuf2_2))
    (spec2_3.stage ((cfgM2 pf hO).slots t 3)) (hstage2_3 (((cfgM2 pf hO).slots t 3).cast nbuf2_3))

end

end Cert.KernelIdeal.Hand

end
-- ==== Proof.KI.Pred2Dat.lean ====
import proofs.«421490_j32530082300068_2_alg».proof.Proof.KI.Pred2

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre2.Contents (Elt F))

abbrev tabs2 (c : Dev nD) : sProp 𝕄 :=
  Pipeline.prefHeld (Ix := Unit) (Name := ℕ) (U := UR sig nD τ) (Lvl := ℕ) pre2 c (fun _ => fullShare) pf

/-- The region's proof data: after point `t` an input window is at its block, the output window at the payload of the three blocks. -/
def dat2 (hO : ok2 (F := F) pf) (c : Dev nD) : Dat τ (Elt F) Unit ℕ (UR sig nD τ) ℕ (cfgM2 pf hO) c where
  A w := V c (Pipeline.arrRef spec2 w)
  after w t := match w with
    | ⟨0, _⟩ => iblk2 V pf hO c 0 t
    | ⟨1, _⟩ => iblk2 V pf hO c 1 t
    | ⟨2, _⟩ => iblk2 V pf hO c 2 t
    | ⟨3, _⟩ => outBlock (iblk2 V pf hO c 0 t) (iblk2 V pf hO c 1 t) (iblk2 V pf hO c 2 t)
  Φ _ := iprop(Pipeline.ΦA spec2 c ∗ tabs2 pf c)
  q _ := fullShare
  owed _ := 0

theorem A_eq2 (hO : ok2 (F := F) pf) (c : Dev nD) (w : Fin (cfgM2 pf hO).W) : (dat2 V pf hO c).A w = V c (Pipeline.arrRef spec2 w) := rfl

theorem after2_3 (hO : ok2 (F := F) pf) (c : Dev nD) (t : Fin (cfgM2 pf hO).N) :
    (dat2 V pf hO c).after 3 t = outBlock (iblk2 V pf hO c 0 t) (iblk2 V pf hO c 1 t) (iblk2 V pf hO c 2 t) := rfl

theorem body_obligation2 (hO : ok2 (F := F) pf) (c : Dev nD) : BodyObligation (dat2 (F := F) V pf hO c) (defs₀ (F := F)) Variants.none () Set.univ := fun t => by
  rw [bigSep_W2, bigSep_W2]
  show _ ⊢ wp frame _ Set.univ (bodyAt2 pf hO t) _
  exact sound_pred_framed c Set.univ _ _ _ _ _ _ _ _ _ _ _ _ _ (iblk2 V pf hO c 0 t) (iblk2 V pf hO c 1 t) (iblk2 V pf hO c 2 t) _ _
    (before2_0_of V pf hO _ rfl (fun _ => rfl) t) (before2_1_of V pf hO _ rfl (fun _ => rfl) t) (before2_2_of V pf hO _ rfl (fun _ => rfl) t)

end

end Cert.KernelIdeal.Hand

end
-- ==== Proof.KI.Pred3.lean ====
import proofs.«421490_j32530082300068_2_alg».proof.Proof.KI.PredBody

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre3.Contents (Elt F))

abbrev adm3 (hO : ok3 (F := F) pf) : (pcfg3 (F := F)).Adm := ⟨pf, hO⟩
abbrev cfgM3 (hO : ok3 (F := F) pf) : Pipeline.Cfg sig Λ₀ := cfg3 (adm3 pf hO)

/-- The block of window `w` at grid point `t`, cut from the window's array as the region is entered. -/
def iblk3 (hO : ok3 (F := F) pf) (c : Dev nD) (w : Fin (cfgM3 pf hO).W) (t : Fin (cfgM3 pf hO).N) :
    (((cfgM3 pf hO).win w).xblock ((cfgM3 pf hO).grid.coords t)).Idx → Elt F ((cfgM3 pf hO).win w).elt :=
  (((cfgM3 pf hO).win w).blk t).view.read (Elt F) (V c (Pipeline.arrRef spec3 w))

theorem before3_0_of (hO : ok3 (F := F) pf) {c : Dev nD} (dat : Dat τ (Elt F) Unit ℕ (UR sig nD τ) ℕ (cfgM3 pf hO) c) (hA : dat.A 0 = V c (Pipeline.arrRef spec3 0))
    (hafter : ∀ t, dat.after 0 t = iblk3 V pf hO c 0 t) (t : Fin (cfgM3 pf hO).N) (d) : dat.before 0 t d = iblk3 V pf hO c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of (hO : ok3 (F := F) pf) {c : Dev nD} (dat : Dat τ (Elt F) Unit ℕ (UR sig nD τ) ℕ (cfgM3 pf hO) c) (hA : dat.A 1 = V c (Pipeline.arrRef spec3 1))
    (hafter : ∀ t, dat.after 1 t = iblk3 V pf hO c 1 t) (t : Fin (cfgM3 pf hO).N) (d) : dat.before 1 t d = iblk3 V pf hO c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of (hO : ok3 (F := F) pf) {c : Dev nD} (dat : Dat τ (Elt F) Unit ℕ (UR sig nD τ) ℕ (cfgM3 pf hO) c) (hA : dat.A 2 = V c (Pipeline.arrRef spec3 2))
    (hafter : ∀ t, dat.after 2 t = iblk3 V pf hO c 2 t) (t : Fin (cfgM3 pf hO).N) (d) : dat.before 2 t d = iblk3 V pf hO c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Every chunk runs the first chunk's body, on its own tables and blocks. -/
abbrev bodyAt3 (hO : ok3 (F := F) pf) (t : Fin (cfgM3 pf hO).N) : Prog (TpuEff nD τ sig (Elt F) Λ₀ .tc) PUnit :=
  cc1__pred_kernel (grid3.coords t) (Memref.whole main_v34) (Memref.isWhole_whole _) (Memref.whole main_v35) (Memref.isWhole_whole _)
    (spec3_0.stage ((cfgM3 pf hO).slots t 0)) (hstage3_0 (((cfgM3 pf hO).slots t 0).cast nbuf3_0))
    (spec3_1.stage ((cfgM3 pf hO).slots t 1)) (hstage3_1 (((cfgM3 pf hO).slots t 1).cast nbuf3_1))
    (spec3_2.stage ((cfgM3 pf hO).slots t 2)) (hstage3_2 (((cfgM3 pf hO).slots t 2).cast nbuf3_2))
    (spec3_3.stage ((cfgM3 pf hO).slots t 3)) (hstage3_3 (((cfgM3 pf hO).slots t 3).cast nbuf3_3))

end

end Cert.KernelIdeal.Hand

end
-- ==== Proof.KI.Pred3Dat.lean ====
import proofs.«421490_j32530082300068_2_alg».proof.Proof.KI.Pred3

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre3.Contents (Elt F))

abbrev tabs3 (c : Dev nD) : sProp 𝕄 :=
  Pipeline.prefHeld (Ix := Unit) (Name := ℕ) (U := UR sig nD τ) (Lvl := ℕ) pre3 c (fun _ => fullShare) pf

/-- The region's proof data: after point `t` an input window is at its block, the output window at the payload of the three blocks. -/
def dat3 (hO : ok3 (F := F) pf) (c : Dev nD) : Dat τ (Elt F) Unit ℕ (UR sig nD τ) ℕ (cfgM3 pf hO) c where
  A w := V c (Pipeline.arrRef spec3 w)
  after w t := match w with
    | ⟨0, _⟩ => iblk3 V pf hO c 0 t
    | ⟨1, _⟩ => iblk3 V pf hO c 1 t
    | ⟨2, _⟩ => iblk3 V pf hO c 2 t
    | ⟨3, _⟩ => outBlock (iblk3 V pf hO c 0 t) (iblk3 V pf hO c 1 t) (iblk3 V pf hO c 2 t)
  Φ _ := iprop(Pipeline.ΦA spec3 c ∗ tabs3 pf c)
  q _ := fullShare
  owed _ := 0

theorem A_eq3 (hO : ok3 (F := F) pf) (c : Dev nD) (w : Fin (cfgM3 pf hO).W) : (dat3 V pf hO c).A w = V c (Pipeline.arrRef spec3 w) := rfl

theorem after3_3 (hO : ok3 (F := F) pf) (c : Dev nD) (t : Fin (cfgM3 pf hO).N) :
    (dat3 V pf hO c).after 3 t = outBlock (iblk3 V pf hO c 0 t) (iblk3 V pf hO c 1 t) (iblk3 V pf hO c 2 t) := rfl

theorem body_obligation3 (hO : ok3 (F := F) pf) (c : Dev nD) : BodyObligation (dat3 (F := F) V pf hO c) (defs₀ (F := F)) Variants.none () Set.univ := fun t => by
  rw [bigSep_W3, bigSep_W3]
  show _ ⊢ wp frame _ Set.univ (bodyAt3 pf hO t) _
  exact sound_pred_framed c Set.univ _ _ _ _ _ _ _ _ _ _ _ _ _ (iblk3 V pf hO c 0 t) (iblk3 V pf hO c 1 t) (iblk3 V pf hO c 2 t) _ _
    (before3_0_of V pf hO _ rfl (fun _ => rfl) t) (before3_1_of V pf hO _ rfl (fun _ => rfl) t) (before3_2_of V pf hO _ rfl (fun _ => rfl) t)

end

end Cert.KernelIdeal.Hand

end
-- ==== Proof.KI.Pred4.lean ====
import proofs.«421490_j32530082300068_2_alg».proof.Proof.KI.PredBody

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre4.Contents (Elt F))

abbrev adm4 (hO : ok4 (F := F) pf) : (pcfg4 (F := F)).Adm := ⟨pf, hO⟩
abbrev cfgM4 (hO : ok4 (F := F) pf) : Pipeline.Cfg sig Λ₀ := cfg4 (adm4 pf hO)

/-- The block of window `w` at grid point `t`, cut from the window's array as the region is entered. -/
def iblk4 (hO : ok4 (F := F) pf) (c : Dev nD) (w : Fin (cfgM4 pf hO).W) (t : Fin (cfgM4 pf hO).N) :
    (((cfgM4 pf hO).win w).xblock ((cfgM4 pf hO).grid.coords t)).Idx → Elt F ((cfgM4 pf hO).win w).elt :=
  (((cfgM4 pf hO).win w).blk t).view.read (Elt F) (V c (Pipeline.arrRef spec4 w))

theorem before4_0_of (hO : ok4 (F := F) pf) {c : Dev nD} (dat : Dat τ (Elt F) Unit ℕ (UR sig nD τ) ℕ (cfgM4 pf hO) c) (hA : dat.A 0 = V c (Pipeline.arrRef spec4 0))
    (hafter : ∀ t, dat.after 0 t = iblk4 V pf hO c 0 t) (t : Fin (cfgM4 pf hO).N) (d) : dat.before 0 t d = iblk4 V pf hO c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of (hO : ok4 (F := F) pf) {c : Dev nD} (dat : Dat τ (Elt F) Unit ℕ (UR sig nD τ) ℕ (cfgM4 pf hO) c) (hA : dat.A 1 = V c (Pipeline.arrRef spec4 1))
    (hafter : ∀ t, dat.after 1 t = iblk4 V pf hO c 1 t) (t : Fin (cfgM4 pf hO).N) (d) : dat.before 1 t d = iblk4 V pf hO c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of (hO : ok4 (F := F) pf) {c : Dev nD} (dat : Dat τ (Elt F) Unit ℕ (UR sig nD τ) ℕ (cfgM4 pf hO) c) (hA : dat.A 2 = V c (Pipeline.arrRef spec4 2))
    (hafter : ∀ t, dat.after 2 t = iblk4 V pf hO c 2 t) (t : Fin (cfgM4 pf hO).N) (d) : dat.before 2 t d = iblk4 V pf hO c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Every chunk runs the first chunk's body, on its own tables and blocks. -/
abbrev bodyAt4 (hO : ok4 (F := F) pf) (t : Fin (cfgM4 pf hO).N) : Prog (TpuEff nD τ sig (Elt F) Λ₀ .tc) PUnit :=
  cc1__pred_kernel (grid4.coords t) (Memref.whole main_v41) (Memref.isWhole_whole _) (Memref.whole main_v42) (Memref.isWhole_whole _)
    (spec4_0.stage ((cfgM4 pf hO).slots t 0)) (hstage4_0 (((cfgM4 pf hO).slots t 0).cast nbuf4_0))
    (spec4_1.stage ((cfgM4 pf hO).slots t 1)) (hstage4_1 (((cfgM4 pf hO).slots t 1).cast nbuf4_1))
    (spec4_2.stage ((cfgM4 pf hO).slots t 2)) (hstage4_2 (((cfgM4 pf hO).slots t 2).cast nbuf4_2))
    (spec4_3.stage ((cfgM4 pf hO).slots t 3)) (hstage4_3 (((cfgM4 pf hO).slots t 3).cast nbuf4_3))

end

end Cert.KernelIdeal.Hand

end
-- ==== Proof.KI.Pred4Dat.lean ====
import proofs.«421490_j32530082300068_2_alg».proof.Proof.KI.Pred4

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre4.Contents (Elt F))

abbrev tabs4 (c : Dev nD) : sProp 𝕄 :=
  Pipeline.prefHeld (Ix := Unit) (Name := ℕ) (U := UR sig nD τ) (Lvl := ℕ) pre4 c (fun _ => fullShare) pf

/-- The region's proof data: after point `t` an input window is at its block, the output window at the payload of the three blocks. -/
def dat4 (hO : ok4 (F := F) pf) (c : Dev nD) : Dat τ (Elt F) Unit ℕ (UR sig nD τ) ℕ (cfgM4 pf hO) c where
  A w := V c (Pipeline.arrRef spec4 w)
  after w t := match w with
    | ⟨0, _⟩ => iblk4 V pf hO c 0 t
    | ⟨1, _⟩ => iblk4 V pf hO c 1 t
    | ⟨2, _⟩ => iblk4 V pf hO c 2 t
    | ⟨3, _⟩ => outBlock (iblk4 V pf hO c 0 t) (iblk4 V pf hO c 1 t) (iblk4 V pf hO c 2 t)
  Φ _ := iprop(Pipeline.ΦA spec4 c ∗ tabs4 pf c)
  q _ := fullShare
  owed _ := 0

theorem A_eq4 (hO : ok4 (F := F) pf) (c : Dev nD) (w : Fin (cfgM4 pf hO).W) : (dat4 V pf hO c).A w = V c (Pipeline.arrRef spec4 w) := rfl

theorem after4_3 (hO : ok4 (F := F) pf) (c : Dev nD) (t : Fin (cfgM4 pf hO).N) :
    (dat4 V pf hO c).after 3 t = outBlock (iblk4 V pf hO c 0 t) (iblk4 V pf hO c 1 t) (iblk4 V pf hO c 2 t) := rfl

theorem body_obligation4 (hO : ok4 (F := F) pf) (c : Dev nD) : BodyObligation (dat4 (F := F) V pf hO c) (defs₀ (F := F)) Variants.none () Set.univ := fun t => by
  rw [bigSep_W4, bigSep_W4]
  show _ ⊢ wp frame _ Set.univ (bodyAt4 pf hO t) _
  exact sound_pred_framed c Set.univ _ _ _ _ _ _ _ _ _ _ _ _ _ (iblk4 V pf hO c 0 t) (iblk4 V pf hO c 1 t) (iblk4 V pf hO c 2 t) _ _
    (before4_0_of V pf hO _ rfl (fun _ => rfl) t) (before4_1_of V pf hO _ rfl (fun _ => rfl) t) (before4_2_of V pf hO _ rfl (fun _ => rfl) t)

end

end Cert.KernelIdeal.Hand

end
-- ==== Proof.KI.Pred5.lean ====
import proofs.«421490_j32530082300068_2_alg».proof.Proof.KI.PredBody

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre5.Contents (Elt F))

abbrev adm5 (hO : ok5 (F := F) pf) : (pcfg5 (F := F)).Adm := ⟨pf, hO⟩
abbrev cfgM5 (hO : ok5 (F := F) pf) : Pipeline.Cfg sig Λ₀ := cfg5 (adm5 pf hO)

/-- The block of window `w` at grid point `t`, cut from the window's array as the region is entered. -/
def iblk5 (hO : ok5 (F := F) pf) (c : Dev nD) (w : Fin (cfgM5 pf hO).W) (t : Fin (cfgM5 pf hO).N) :
    (((cfgM5 pf hO).win w).xblock ((cfgM5 pf hO).grid.coords t)).Idx → Elt F ((cfgM5 pf hO).win w).elt :=
  (((cfgM5 pf hO).win w).blk t).view.read (Elt F) (V c (Pipeline.arrRef spec5 w))

theorem before5_0_of (hO : ok5 (F := F) pf) {c : Dev nD} (dat : Dat τ (Elt F) Unit ℕ (UR sig nD τ) ℕ (cfgM5 pf hO) c) (hA : dat.A 0 = V c (Pipeline.arrRef spec5 0))
    (hafter : ∀ t, dat.after 0 t = iblk5 V pf hO c 0 t) (t : Fin (cfgM5 pf hO).N) (d) : dat.before 0 t d = iblk5 V pf hO c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of (hO : ok5 (F := F) pf) {c : Dev nD} (dat : Dat τ (Elt F) Unit ℕ (UR sig nD τ) ℕ (cfgM5 pf hO) c) (hA : dat.A 1 = V c (Pipeline.arrRef spec5 1))
    (hafter : ∀ t, dat.after 1 t = iblk5 V pf hO c 1 t) (t : Fin (cfgM5 pf hO).N) (d) : dat.before 1 t d = iblk5 V pf hO c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of (hO : ok5 (F := F) pf) {c : Dev nD} (dat : Dat τ (Elt F) Unit ℕ (UR sig nD τ) ℕ (cfgM5 pf hO) c) (hA : dat.A 2 = V c (Pipeline.arrRef spec5 2))
    (hafter : ∀ t, dat.after 2 t = iblk5 V pf hO c 2 t) (t : Fin (cfgM5 pf hO).N) (d) : dat.before 2 t d = iblk5 V pf hO c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Every chunk runs the first chunk's body, on its own tables and blocks. -/
abbrev bodyAt5 (hO : ok5 (F := F) pf) (t : Fin (cfgM5 pf hO).N) : Prog (TpuEff nD τ sig (Elt F) Λ₀ .tc) PUnit :=
  cc1__pred_kernel (grid5.coords t) (Memref.whole main_v48) (Memref.isWhole_whole _) (Memref.whole main_v49) (Memref.isWhole_whole _)
    (spec5_0.stage ((cfgM5 pf hO).slots t 0)) (hstage5_0 (((cfgM5 pf hO).slots t 0).cast nbuf5_0))
    (spec5_1.stage ((cfgM5 pf hO).slots t 1)) (hstage5_1 (((cfgM5 pf hO).slots t 1).cast nbuf5_1))
    (spec5_2.stage ((cfgM5 pf hO).slots t 2)) (hstage5_2 (((cfgM5 pf hO).slots t 2).cast nbuf5_2))
    (spec5_3.stage ((cfgM5 pf hO).slots t 3)) (hstage5_3 (((cfgM5 pf hO).slots t 3).cast nbuf5_3))

end

end Cert.KernelIdeal.Hand

end
-- ==== Proof.KI.Pred5Dat.lean ====
import proofs.«421490_j32530082300068_2_alg».proof.Proof.KI.Pred5

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre5.Contents (Elt F))

abbrev tabs5 (c : Dev nD) : sProp 𝕄 :=
  Pipeline.prefHeld (Ix := Unit) (Name := ℕ) (U := UR sig nD τ) (Lvl := ℕ) pre5 c (fun _ => fullShare) pf

/-- The region's proof data: after point `t` an input window is at its block, the output window at the payload of the three blocks. -/
def dat5 (hO : ok5 (F := F) pf) (c : Dev nD) : Dat τ (Elt F) Unit ℕ (UR sig nD τ) ℕ (cfgM5 pf hO) c where
  A w := V c (Pipeline.arrRef spec5 w)
  after w t := match w with
    | ⟨0, _⟩ => iblk5 V pf hO c 0 t
    | ⟨1, _⟩ => iblk5 V pf hO c 1 t
    | ⟨2, _⟩ => iblk5 V pf hO c 2 t
    | ⟨3, _⟩ => outBlock (iblk5 V pf hO c 0 t) (iblk5 V pf hO c 1 t) (iblk5 V pf hO c 2 t)
  Φ _ := iprop(Pipeline.ΦA spec5 c ∗ tabs5 pf c)
  q _ := fullShare
  owed _ := 0

theorem A_eq5 (hO : ok5 (F := F) pf) (c : Dev nD) (w : Fin (cfgM5 pf hO).W) : (dat5 V pf hO c).A w = V c (Pipeline.arrRef spec5 w) := rfl

theorem after5_3 (hO : ok5 (F := F) pf) (c : Dev nD) (t : Fin (cfgM5 pf hO).N) :
    (dat5 V pf hO c).after 3 t = outBlock (iblk5 V pf hO c 0 t) (iblk5 V pf hO c 1 t) (iblk5 V pf hO c 2 t) := rfl

theorem body_obligation5 (hO : ok5 (F := F) pf) (c : Dev nD) : BodyObligation (dat5 (F := F) V pf hO c) (defs₀ (F := F)) Variants.none () Set.univ := fun t => by
  rw [bigSep_W5, bigSep_W5]
  show _ ⊢ wp frame _ Set.univ (bodyAt5 pf hO t) _
  exact sound_pred_framed c Set.univ _ _ _ _ _ _ _ _ _ _ _ _ _ (iblk5 V pf hO c 0 t) (iblk5 V pf hO c 1 t) (iblk5 V pf hO c 2 t) _ _
    (before5_0_of V pf hO _ rfl (fun _ => rfl) t) (before5_1_of V pf hO _ rfl (fun _ => rfl) t) (before5_2_of V pf hO _ rfl (fun _ => rfl) t)

end

end Cert.KernelIdeal.Hand

end
-- ==== Proof.KI.Pred6.lean ====
import proofs.«421490_j32530082300068_2_alg».proof.Proof.KI.PredBody

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre6.Contents (Elt F))

abbrev adm6 (hO : ok6 (F := F) pf) : (pcfg6 (F := F)).Adm := ⟨pf, hO⟩
abbrev cfgM6 (hO : ok6 (F := F) pf) : Pipeline.Cfg sig Λ₀ := cfg6 (adm6 pf hO)

/-- The block of window `w` at grid point `t`, cut from the window's array as the region is entered. -/
def iblk6 (hO : ok6 (F := F) pf) (c : Dev nD) (w : Fin (cfgM6 pf hO).W) (t : Fin (cfgM6 pf hO).N) :
    (((cfgM6 pf hO).win w).xblock ((cfgM6 pf hO).grid.coords t)).Idx → Elt F ((cfgM6 pf hO).win w).elt :=
  (((cfgM6 pf hO).win w).blk t).view.read (Elt F) (V c (Pipeline.arrRef spec6 w))

theorem before6_0_of (hO : ok6 (F := F) pf) {c : Dev nD} (dat : Dat τ (Elt F) Unit ℕ (UR sig nD τ) ℕ (cfgM6 pf hO) c) (hA : dat.A 0 = V c (Pipeline.arrRef spec6 0))
    (hafter : ∀ t, dat.after 0 t = iblk6 V pf hO c 0 t) (t : Fin (cfgM6 pf hO).N) (d) : dat.before 0 t d = iblk6 V pf hO c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of (hO : ok6 (F := F) pf) {c : Dev nD} (dat : Dat τ (Elt F) Unit ℕ (UR sig nD τ) ℕ (cfgM6 pf hO) c) (hA : dat.A 1 = V c (Pipeline.arrRef spec6 1))
    (hafter : ∀ t, dat.after 1 t = iblk6 V pf hO c 1 t) (t : Fin (cfgM6 pf hO).N) (d) : dat.before 1 t d = iblk6 V pf hO c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of (hO : ok6 (F := F) pf) {c : Dev nD} (dat : Dat τ (Elt F) Unit ℕ (UR sig nD τ) ℕ (cfgM6 pf hO) c) (hA : dat.A 2 = V c (Pipeline.arrRef spec6 2))
    (hafter : ∀ t, dat.after 2 t = iblk6 V pf hO c 2 t) (t : Fin (cfgM6 pf hO).N) (d) : dat.before 2 t d = iblk6 V pf hO c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Every chunk runs the first chunk's body, on its own tables and blocks. -/
abbrev bodyAt6 (hO : ok6 (F := F) pf) (t : Fin (cfgM6 pf hO).N) : Prog (TpuEff nD τ sig (Elt F) Λ₀ .tc) PUnit :=
  cc1__pred_kernel (grid6.coords t) (Memref.whole main_v55) (Memref.isWhole_whole _) (Memref.whole main_v56) (Memref.isWhole_whole _)
    (spec6_0.stage ((cfgM6 pf hO).slots t 0)) (hstage6_0 (((cfgM6 pf hO).slots t 0).cast nbuf6_0))
    (spec6_1.stage ((cfgM6 pf hO).slots t 1)) (hstage6_1 (((cfgM6 pf hO).slots t 1).cast nbuf6_1))
    (spec6_2.stage ((cfgM6 pf hO).slots t 2)) (hstage6_2 (((cfgM6 pf hO).slots t 2).cast nbuf6_2))
    (spec6_3.stage ((cfgM6 pf hO).slots t 3)) (hstage6_3 (((cfgM6 pf hO).slots t 3).cast nbuf6_3))

end

end Cert.KernelIdeal.Hand

end
-- ==== Proof.KI.Pred6Dat.lean ====
import proofs.«421490_j32530082300068_2_alg».proof.Proof.KI.Pred6

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre6.Contents (Elt F))

abbrev tabs6 (c : Dev nD) : sProp 𝕄 :=
  Pipeline.prefHeld (Ix := Unit) (Name := ℕ) (U := UR sig nD τ) (Lvl := ℕ) pre6 c (fun _ => fullShare) pf

/-- The region's proof data: after point `t` an input window is at its block, the output window at the payload of the three blocks. -/
def dat6 (hO : ok6 (F := F) pf) (c : Dev nD) : Dat τ (Elt F) Unit ℕ (UR sig nD τ) ℕ (cfgM6 pf hO) c where
  A w := V c (Pipeline.arrRef spec6 w)
  after w t := match w with
    | ⟨0, _⟩ => iblk6 V pf hO c 0 t
    | ⟨1, _⟩ => iblk6 V pf hO c 1 t
    | ⟨2, _⟩ => iblk6 V pf hO c 2 t
    | ⟨3, _⟩ => outBlock (iblk6 V pf hO c 0 t) (iblk6 V pf hO c 1 t) (iblk6 V pf hO c 2 t)
  Φ _ := iprop(Pipeline.ΦA spec6 c ∗ tabs6 pf c)
  q _ := fullShare
  owed _ := 0

theorem A_eq6 (hO : ok6 (F := F) pf) (c : Dev nD) (w : Fin (cfgM6 pf hO).W) : (dat6 V pf hO c).A w = V c (Pipeline.arrRef spec6 w) := rfl

theorem after6_3 (hO : ok6 (F := F) pf) (c : Dev nD) (t : Fin (cfgM6 pf hO).N) :
    (dat6 V pf hO c).after 3 t = outBlock (iblk6 V pf hO c 0 t) (iblk6 V pf hO c 1 t) (iblk6 V pf hO c 2 t) := rfl

theorem body_obligation6 (hO : ok6 (F := F) pf) (c : Dev nD) : BodyObligation (dat6 (F := F) V pf hO c) (defs₀ (F := F)) Variants.none () Set.univ := fun t => by
  rw [bigSep_W6, bigSep_W6]
  show _ ⊢ wp frame _ Set.univ (bodyAt6 pf hO t) _
  exact sound_pred_framed c Set.univ _ _ _ _ _ _ _ _ _ _ _ _ _ (iblk6 V pf hO c 0 t) (iblk6 V pf hO c 1 t) (iblk6 V pf hO c 2 t) _ _
    (before6_0_of V pf hO _ rfl (fun _ => rfl) t) (before6_1_of V pf hO _ rfl (fun _ => rfl) t) (before6_2_of V pf hO _ rfl (fun _ => rfl) t)

end

end Cert.KernelIdeal.Hand

end
-- ==== Proof.KI.Pred7.lean ====
import proofs.«421490_j32530082300068_2_alg».proof.Proof.KI.PredBody

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre7.Contents (Elt F))

abbrev adm7 (hO : ok7 (F := F) pf) : (pcfg7 (F := F)).Adm := ⟨pf, hO⟩
abbrev cfgM7 (hO : ok7 (F := F) pf) : Pipeline.Cfg sig Λ₀ := cfg7 (adm7 pf hO)

/-- The block of window `w` at grid point `t`, cut from the window's array as the region is entered. -/
def iblk7 (hO : ok7 (F := F) pf) (c : Dev nD) (w : Fin (cfgM7 pf hO).W) (t : Fin (cfgM7 pf hO).N) :
    (((cfgM7 pf hO).win w).xblock ((cfgM7 pf hO).grid.coords t)).Idx → Elt F ((cfgM7 pf hO).win w).elt :=
  (((cfgM7 pf hO).win w).blk t).view.read (Elt F) (V c (Pipeline.arrRef spec7 w))

theorem before7_0_of (hO : ok7 (F := F) pf) {c : Dev nD} (dat : Dat τ (Elt F) Unit ℕ (UR sig nD τ) ℕ (cfgM7 pf hO) c) (hA : dat.A 0 = V c (Pipeline.arrRef spec7 0))
    (hafter : ∀ t, dat.after 0 t = iblk7 V pf hO c 0 t) (t : Fin (cfgM7 pf hO).N) (d) : dat.before 0 t d = iblk7 V pf hO c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of (hO : ok7 (F := F) pf) {c : Dev nD} (dat : Dat τ (Elt F) Unit ℕ (UR sig nD τ) ℕ (cfgM7 pf hO) c) (hA : dat.A 1 = V c (Pipeline.arrRef spec7 1))
    (hafter : ∀ t, dat.after 1 t = iblk7 V pf hO c 1 t) (t : Fin (cfgM7 pf hO).N) (d) : dat.before 1 t d = iblk7 V pf hO c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of (hO : ok7 (F := F) pf) {c : Dev nD} (dat : Dat τ (Elt F) Unit ℕ (UR sig nD τ) ℕ (cfgM7 pf hO) c) (hA : dat.A 2 = V c (Pipeline.arrRef spec7 2))
    (hafter : ∀ t, dat.after 2 t = iblk7 V pf hO c 2 t) (t : Fin (cfgM7 pf hO).N) (d) : dat.before 2 t d = iblk7 V pf hO c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Every chunk runs the first chunk's body, on its own tables and blocks. -/
abbrev bodyAt7 (hO : ok7 (F := F) pf) (t : Fin (cfgM7 pf hO).N) : Prog (TpuEff nD τ sig (Elt F) Λ₀ .tc) PUnit :=
  cc1__pred_kernel (grid7.coords t) (Memref.whole main_v62) (Memref.isWhole_whole _) (Memref.whole main_v63) (Memref.isWhole_whole _)
    (spec7_0.stage ((cfgM7 pf hO).slots t 0)) (hstage7_0 (((cfgM7 pf hO).slots t 0).cast nbuf7_0))
    (spec7_1.stage ((cfgM7 pf hO).slots t 1)) (hstage7_1 (((cfgM7 pf hO).slots t 1).cast nbuf7_1))
    (spec7_2.stage ((cfgM7 pf hO).slots t 2)) (hstage7_2 (((cfgM7 pf hO).slots t 2).cast nbuf7_2))
    (spec7_3.stage ((cfgM7 pf hO).slots t 3)) (hstage7_3 (((cfgM7 pf hO).slots t 3).cast nbuf7_3))

end

end Cert.KernelIdeal.Hand

end
-- ==== Proof.KI.Pred7Dat.lean ====
import proofs.«421490_j32530082300068_2_alg».proof.Proof.KI.Pred7

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre7.Contents (Elt F))

abbrev tabs7 (c : Dev nD) : sProp 𝕄 :=
  Pipeline.prefHeld (Ix := Unit) (Name := ℕ) (U := UR sig nD τ) (Lvl := ℕ) pre7 c (fun _ => fullShare) pf

/-- The region's proof data: after point `t` an input window is at its block, the output window at the payload of the three blocks. -/
def dat7 (hO : ok7 (F := F) pf) (c : Dev nD) : Dat τ (Elt F) Unit ℕ (UR sig nD τ) ℕ (cfgM7 pf hO) c where
  A w := V c (Pipeline.arrRef spec7 w)
  after w t := match w with
    | ⟨0, _⟩ => iblk7 V pf hO c 0 t
    | ⟨1, _⟩ => iblk7 V pf hO c 1 t
    | ⟨2, _⟩ => iblk7 V pf hO c 2 t
    | ⟨3, _⟩ => outBlock (iblk7 V pf hO c 0 t) (iblk7 V pf hO c 1 t) (iblk7 V pf hO c 2 t)
  Φ _ := iprop(Pipeline.ΦA spec7 c ∗ tabs7 pf c)
  q _ := fullShare
  owed _ := 0

theorem A_eq7 (hO : ok7 (F := F) pf) (c : Dev nD) (w : Fin (cfgM7 pf hO).W) : (dat7 V pf hO c).A w = V c (Pipeline.arrRef spec7 w) := rfl

theorem after7_3 (hO : ok7 (F := F) pf) (c : Dev nD) (t : Fin (cfgM7 pf hO).N) :
    (dat7 V pf hO c).after 3 t = outBlock (iblk7 V pf hO c 0 t) (iblk7 V pf hO c 1 t) (iblk7 V pf hO c 2 t) := rfl

theorem body_obligation7 (hO : ok7 (F := F) pf) (c : Dev nD) : BodyObligation (dat7 (F := F) V pf hO c) (defs₀ (F := F)) Variants.none () Set.univ := fun t => by
  rw [bigSep_W7, bigSep_W7]
  show _ ⊢ wp frame _ Set.univ (bodyAt7 pf hO t) _
  exact sound_pred_framed c Set.univ _ _ _ _ _ _ _ _ _ _ _ _ _ (iblk7 V pf hO c 0 t) (iblk7 V pf hO c 1 t) (iblk7 V pf hO c 2 t) _ _
    (before7_0_of V pf hO _ rfl (fun _ => rfl) t) (before7_1_of V pf hO _ rfl (fun _ => rfl) t) (before7_2_of V pf hO _ rfl (fun _ => rfl) t)

end

end Cert.KernelIdeal.Hand

end
-- ==== Proof.KI.Pred8.lean ====
import proofs.«421490_j32530082300068_2_alg».proof.Proof.KI.PredBody

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre8.Contents (Elt F))

abbrev adm8 (hO : ok8 (F := F) pf) : (pcfg8 (F := F)).Adm := ⟨pf, hO⟩
abbrev cfgM8 (hO : ok8 (F := F) pf) : Pipeline.Cfg sig Λ₀ := cfg8 (adm8 pf hO)

/-- The block of window `w` at grid point `t`, cut from the window's array as the region is entered. -/
def iblk8 (hO : ok8 (F := F) pf) (c : Dev nD) (w : Fin (cfgM8 pf hO).W) (t : Fin (cfgM8 pf hO).N) :
    (((cfgM8 pf hO).win w).xblock ((cfgM8 pf hO).grid.coords t)).Idx → Elt F ((cfgM8 pf hO).win w).elt :=
  (((cfgM8 pf hO).win w).blk t).view.read (Elt F) (V c (Pipeline.arrRef spec8 w))

theorem before8_0_of (hO : ok8 (F := F) pf) {c : Dev nD} (dat : Dat τ (Elt F) Unit ℕ (UR sig nD τ) ℕ (cfgM8 pf hO) c) (hA : dat.A 0 = V c (Pipeline.arrRef spec8 0))
    (hafter : ∀ t, dat.after 0 t = iblk8 V pf hO c 0 t) (t : Fin (cfgM8 pf hO).N) (d) : dat.before 0 t d = iblk8 V pf hO c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of (hO : ok8 (F := F) pf) {c : Dev nD} (dat : Dat τ (Elt F) Unit ℕ (UR sig nD τ) ℕ (cfgM8 pf hO) c) (hA : dat.A 1 = V c (Pipeline.arrRef spec8 1))
    (hafter : ∀ t, dat.after 1 t = iblk8 V pf hO c 1 t) (t : Fin (cfgM8 pf hO).N) (d) : dat.before 1 t d = iblk8 V pf hO c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of (hO : ok8 (F := F) pf) {c : Dev nD} (dat : Dat τ (Elt F) Unit ℕ (UR sig nD τ) ℕ (cfgM8 pf hO) c) (hA : dat.A 2 = V c (Pipeline.arrRef spec8 2))
    (hafter : ∀ t, dat.after 2 t = iblk8 V pf hO c 2 t) (t : Fin (cfgM8 pf hO).N) (d) : dat.before 2 t d = iblk8 V pf hO c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Every chunk runs the first chunk's body, on its own tables and blocks. -/
abbrev bodyAt8 (hO : ok8 (F := F) pf) (t : Fin (cfgM8 pf hO).N) : Prog (TpuEff nD τ sig (Elt F) Λ₀ .tc) PUnit :=
  cc1__pred_kernel (grid8.coords t) (Memref.whole main_v69) (Memref.isWhole_whole _) (Memref.whole main_v70) (Memref.isWhole_whole _)
    (spec8_0.stage ((cfgM8 pf hO).slots t 0)) (hstage8_0 (((cfgM8 pf hO).slots t 0).cast nbuf8_0))
    (spec8_1.stage ((cfgM8 pf hO).slots t 1)) (hstage8_1 (((cfgM8 pf hO).slots t 1).cast nbuf8_1))
    (spec8_2.stage ((cfgM8 pf hO).slots t 2)) (hstage8_2 (((cfgM8 pf hO).slots t 2).cast nbuf8_2))
    (spec8_3.stage ((cfgM8 pf hO).slots t 3)) (hstage8_3 (((cfgM8 pf hO).slots t 3).cast nbuf8_3))

end

end Cert.KernelIdeal.Hand

end
-- ==== Proof.KI.Pred8Dat.lean ====
import proofs.«421490_j32530082300068_2_alg».proof.Proof.KI.Pred8

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b)) (pf : pre8.Contents (Elt F))

abbrev tabs8 (c : Dev nD) : sProp 𝕄 :=
  Pipeline.prefHeld (Ix := Unit) (Name := ℕ) (U := UR sig nD τ) (Lvl := ℕ) pre8 c (fun _ => fullShare) pf

/-- The region's proof data: after point `t` an input window is at its block, the output window at the payload of the three blocks. -/
def dat8 (hO : ok8 (F := F) pf) (c : Dev nD) : Dat τ (Elt F) Unit ℕ (UR sig nD τ) ℕ (cfgM8 pf hO) c where
  A w := V c (Pipeline.arrRef spec8 w)
  after w t := match w with
    | ⟨0, _⟩ => iblk8 V pf hO c 0 t
    | ⟨1, _⟩ => iblk8 V pf hO c 1 t
    | ⟨2, _⟩ => iblk8 V pf hO c 2 t
    | ⟨3, _⟩ => outBlock (iblk8 V pf hO c 0 t) (iblk8 V pf hO c 1 t) (iblk8 V pf hO c 2 t)
  Φ _ := iprop(Pipeline.ΦA spec8 c ∗ tabs8 pf c)
  q _ := fullShare
  owed _ := 0

theorem A_eq8 (hO : ok8 (F := F) pf) (c : Dev nD) (w : Fin (cfgM8 pf hO).W) : (dat8 V pf hO c).A w = V c (Pipeline.arrRef spec8 w) := rfl

theorem after8_3 (hO : ok8 (F := F) pf) (c : Dev nD) (t : Fin (cfgM8 pf hO).N) :
    (dat8 V pf hO c).after 3 t = outBlock (iblk8 V pf hO c 0 t) (iblk8 V pf hO c 1 t) (iblk8 V pf hO c 2 t) := rfl

theorem body_obligation8 (hO : ok8 (F := F) pf) (c : Dev nD) : BodyObligation (dat8 (F := F) V pf hO c) (defs₀ (F := F)) Variants.none () Set.univ := fun t => by
  rw [bigSep_W8, bigSep_W8]
  show _ ⊢ wp frame _ Set.univ (bodyAt8 pf hO t) _
  exact sound_pred_framed c Set.univ _ _ _ _ _ _ _ _ _ _ _ _ _ (iblk8 V pf hO c 0 t) (iblk8 V pf hO c 1 t) (iblk8 V pf hO c 2 t) _ _
    (before8_0_of V pf hO _ rfl (fun _ => rfl) t) (before8_1_of V pf hO _ rfl (fun _ => rfl) t) (before8_2_of V pf hO _ rfl (fun _ => rfl) t)

end

end Cert.KernelIdeal.Hand

end
-- ==== Proof.KI.Family.lean ====
import proofs.«421490_j32530082300068_2_alg».proof.Proof.KI.Entry
import proofs.«421490_j32530082300068_2_alg».proof.Proof.KI.Mlp
import proofs.«421490_j32530082300068_2_alg».proof.Proof.KI.Pred1Dat
import proofs.«421490_j32530082300068_2_alg».proof.Proof.KI.Pred2Dat
import proofs.«421490_j32530082300068_2_alg».proof.Proof.KI.Pred3Dat
import proofs.«421490_j32530082300068_2_alg».proof.Proof.KI.Pred4Dat
import proofs.«421490_j32530082300068_2_alg».proof.Proof.KI.Pred5Dat
import proofs.«421490_j32530082300068_2_alg».proof.Proof.KI.Pred6Dat
import proofs.«421490_j32530082300068_2_alg».proof.Proof.KI.Pred7Dat
import proofs.«421490_j32530082300068_2_alg».proof.Proof.KI.Pred8Dat

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

structure Tabs (F : FTy → Type) [FloatOps F] where
  pf1 : pre1.Contents (Elt F)
  ok1 : ok1 (F := F) pf1
  pf2 : pre2.Contents (Elt F)
  ok2 : ok2 (F := F) pf2
  pf3 : pre3.Contents (Elt F)
  ok3 : ok3 (F := F) pf3
  pf4 : pre4.Contents (Elt F)
  ok4 : ok4 (F := F) pf4
  pf5 : pre5.Contents (Elt F)
  ok5 : ok5 (F := F) pf5
  pf6 : pre6.Contents (Elt F)
  ok6 : ok6 (F := F) pf6
  pf7 : pre7.Contents (Elt F)
  ok7 : ok7 (F := F) pf7
  pf8 : pre8.Contents (Elt F)
  ok8 : ok8 (F := F) pf8

variable (m : (ℓ : Loc nD τ sig) → Buf (Elt F) ℓ) (T : Tabs F)

structure Sol where
  outs : Gen.Outs (F := F)
  h0 : ∀ c : Dev nD, outs 2 main_v19 c = (dat0 (E0 m) c).arrAt 6 cfg0.N
  h1 : ∀ c : Dev nD, outs 4 main_v25 c = (dat1 (E1 m outs) T.pf1 T.ok1 c).arrAt 3 (cfgM1 T.pf1 T.ok1).N
  h2 : ∀ c : Dev nD, outs 6 main_v32 c = (dat2 (E2 m outs) T.pf2 T.ok2 c).arrAt 3 (cfgM2 T.pf2 T.ok2).N
  h3 : ∀ c : Dev nD, outs 8 main_v39 c = (dat3 (E3 m outs) T.pf3 T.ok3 c).arrAt 3 (cfgM3 T.pf3 T.ok3).N
  h4 : ∀ c : Dev nD, outs 10 main_v46 c = (dat4 (E4 m outs) T.pf4 T.ok4 c).arrAt 3 (cfgM4 T.pf4 T.ok4).N
  h5 : ∀ c : Dev nD, outs 12 main_v53 c = (dat5 (E5 m outs) T.pf5 T.ok5 c).arrAt 3 (cfgM5 T.pf5 T.ok5).N
  h6 : ∀ c : Dev nD, outs 14 main_v60 c = (dat6 (E6 m outs) T.pf6 T.ok6 c).arrAt 3 (cfgM6 T.pf6 T.ok6).N
  h7 : ∀ c : Dev nD, outs 16 main_v67 c = (dat7 (E7 m outs) T.pf7 T.ok7 c).arrAt 3 (cfgM7 T.pf7 T.ok7).N
  h8 : ∀ c : Dev nD, outs 18 main_v74 c = (dat8 (E8 m outs) T.pf8 T.ok8 c).arrAt 3 (cfgM8 T.pf8 T.ok8).N

variable {m T}

def adm (T : Tabs F) : (p : Fin 9) → (pcfgs (F := F) p).Adm
  | ⟨0, _⟩ => cfg0.toPCfg_adm
  | ⟨1, _⟩ => adm1 T.pf1 T.ok1
  | ⟨2, _⟩ => adm2 T.pf2 T.ok2
  | ⟨3, _⟩ => adm3 T.pf3 T.ok3
  | ⟨4, _⟩ => adm4 T.pf4 T.ok4
  | ⟨5, _⟩ => adm5 T.pf5 T.ok5
  | ⟨6, _⟩ => adm6 T.pf6 T.ok6
  | ⟨7, _⟩ => adm7 T.pf7 T.ok7
  | ⟨8, _⟩ => adm8 T.pf8 T.ok8

def pdats (S : Sol m T) : (p : Fin 9) → (c : Dev nD) → Dat τ (Elt F) Unit ℕ (UR sig nD τ) ℕ (Pipeline.pin (pcfgs (F := F)) (adm T) p) c
  | ⟨0, _⟩ => fun c => dat0 (E0 m) c
  | ⟨1, _⟩ => fun c => dat1 (E1 m S.outs) T.pf1 T.ok1 c
  | ⟨2, _⟩ => fun c => dat2 (E2 m S.outs) T.pf2 T.ok2 c
  | ⟨3, _⟩ => fun c => dat3 (E3 m S.outs) T.pf3 T.ok3 c
  | ⟨4, _⟩ => fun c => dat4 (E4 m S.outs) T.pf4 T.ok4 c
  | ⟨5, _⟩ => fun c => dat5 (E5 m S.outs) T.pf5 T.ok5 c
  | ⟨6, _⟩ => fun c => dat6 (E6 m S.outs) T.pf6 T.ok6 c
  | ⟨7, _⟩ => fun c => dat7 (E7 m S.outs) T.pf7 T.ok7 c
  | ⟨8, _⟩ => fun c => dat8 (E8 m S.outs) T.pf8 T.ok8 c

abbrev 𝒱₀ : Variants := Variants.none

abbrev L : GSem nD τ sig → Finset Unit := fun _ => ∅
abbrev lv : GSem nD τ sig → Unit → ℕ := fun _ _ => 0

abbrev Rst (c : Dev nD) : sProp 𝕄 := iprop((∃ r, prngReg c r) ∗ ∃ W, owes (c : Thread nD τ) (0 : CellTallies nD τ sig Unit) W)

end Cert.KernelIdeal.Hand

end
-- ==== Proof.KI.Reg0.lean ====
import proofs.«421490_j32530082300068_2_alg».proof.Proof.KI.Family

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable {m : (ℓ : Loc nD τ sig) → Buf (Elt F) ℓ} {T : Tabs F} (S : Sol m T)

theorem hF0_0 (c : Dev nD) : (dat0 (E0 m) c).arrAt 0 cfg0.N = atRefs (Gen.V2 m S.outs) c main_v13 :=
  (((dat0 (E0 m) c).arrAt_in 0 rfl _).trans (A_eq0 (E0 m) c 0)).trans (Gen.V2_of m S.outs c main_v13 (by decide)).symm
theorem hF0_1 (c : Dev nD) : (dat0 (E0 m) c).arrAt 1 cfg0.N = atRefs (Gen.V2 m S.outs) c main_v16 :=
  (((dat0 (E0 m) c).arrAt_in 1 rfl _).trans (A_eq0 (E0 m) c 1)).trans (Gen.V2_of m S.outs c main_v16 (by decide)).symm
theorem hF0_2 (c : Dev nD) : (dat0 (E0 m) c).arrAt 2 cfg0.N = atRefs (Gen.V2 m S.outs) c main_v14 :=
  (((dat0 (E0 m) c).arrAt_in 2 rfl _).trans (A_eq0 (E0 m) c 2)).trans (Gen.V2_of m S.outs c main_v14 (by decide)).symm
theorem hF0_3 (c : Dev nD) : (dat0 (E0 m) c).arrAt 3 cfg0.N = atRefs (Gen.V2 m S.outs) c main_v17 :=
  (((dat0 (E0 m) c).arrAt_in 3 rfl _).trans (A_eq0 (E0 m) c 3)).trans (Gen.V2_of m S.outs c main_v17 (by decide)).symm
theorem hF0_4 (c : Dev nD) : (dat0 (E0 m) c).arrAt 4 cfg0.N = atRefs (Gen.V2 m S.outs) c main_v15 :=
  (((dat0 (E0 m) c).arrAt_in 4 rfl _).trans (A_eq0 (E0 m) c 4)).trans (Gen.V2_of m S.outs c main_v15 (by decide)).symm
theorem hF0_5 (c : Dev nD) : (dat0 (E0 m) c).arrAt 5 cfg0.N = atRefs (Gen.V2 m S.outs) c main_v18 :=
  (((dat0 (E0 m) c).arrAt_in 5 rfl _).trans (A_eq0 (E0 m) c 5)).trans (Gen.V2_of m S.outs c main_v18 (by decide)).symm
theorem hF0_6 (c : Dev nD) : (dat0 (E0 m) c).arrAt 6 cfg0.N = atRefs (Gen.V2 m S.outs) c main_v19 :=
  (S.h0 c).symm.trans (by
    show S.outs 2 main_v19 c = Gen.V2 m S.outs c main_v19
    simp only [Gen.V2, Function.update_self])

theorem hF0 (c : Dev nD) (w : Fin cfg0.W) :
    (dat0 (E0 m) c).arrAt w cfg0.N = atRefs (Gen.V2 m S.outs) c (Pipeline.arrRef spec0 w) :=
  match w with
  | ⟨0, _⟩ => hF0_0 S c
  | ⟨1, _⟩ => hF0_1 S c
  | ⟨2, _⟩ => hF0_2 S c
  | ⟨3, _⟩ => hF0_3 S c
  | ⟨4, _⟩ => hF0_4 S c
  | ⟨5, _⟩ => hF0_5 S c
  | ⟨6, _⟩ => hF0_6 S c

theorem hrest0 (c : Dev nD) : ∀ b, b ∉ Finset.univ.image (Pipeline.arrRef spec0) →
    atRefs (Gen.V2 m S.outs) c b = E0 m c b := fun b hb =>
  Gen.V2_of m S.outs c b (fun h => hb (by
    have : b = main_v19 := List.mem_singleton.mp h
    subst this
    exact Finset.mem_image.mpr ⟨6, Finset.mem_univ _, rfl⟩))

set_option backward.isDefEq.respectTransparency.types false in
def reg0 : Pipeline.RegionSeg (pcfgs (F := F)) (adm T) (pdats S) () (defs₀ (F := F)) 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V1 m c) ∗ Rst c)
  post c := iprop(StableHlo.held (c : Thread nD τ) (Pipeline.ucRefs τ sig) (Gen.V2 m S.outs c) ∗ Rst c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) (adm T) (pdats S) (launch0 (F := F)).win (launch0 (F := F)).arr_whole c
      ((pdats S 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats S 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats S 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm T) (Ix := Unit) (Name := ℕ) (U := UR sig nD τ) (Lvl := ℕ)
      (launch0 (F := F)).win (launch0 (F := F)).arr_whole c (pdats S) ((pdats S 0 c).share_full fun _ => rfl)
      (E0 m c) (atRefs (Gen.V2 m S.outs) c) ((pdats S 0 c).arrAt · cfg0.N) (hF0 S c) (hrest0 S c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end

end Cert.KernelIdeal.Hand

end
-- ==== Proof.KI.Reg1.lean ====
import proofs.«421490_j32530082300068_2_alg».proof.Proof.KI.Family
import proofs.«421490_j32530082300068_2_alg».proof.Proof.LibRegion

noncomputable section

namespace Cert.KernelIdeal.Hand

open Idealize.ShloMosaic Idealize.ShloMosaic.TcCoe
open Cert.KernelIdeal Cert.KernelIdeal.Gen

variable {F : FTy → Type} [FloatOps F]
variable {m : (ℓ : Loc nD τ sig) → Buf (Elt F) ℓ} {T : Tabs F} (S : Sol m T)

/-- At the region's end an input array is as it was found and the output array is the one `outs` names. -/
theorem hF1 (c : Dev nD) (w : Fin (cfgM1 T.pf1 T.ok1).W) :
    (dat1 (E1 m S.outs) T.pf1 T.ok1 c).arrAt w (cfgM1 T.pf1 T.ok1).N = atRefs (Gen.V4 m S.outs) c (Pipeline.arrRef spec1 w) := by
  match w with
  | ⟨0, _⟩ => exact (((dat1 (E1 m S.outs) T.pf1 T.ok1 c).arrAt_in 0 rfl _).trans (A_eq1 (E1 m S.outs) T.pf1 T.ok1 c 0)).trans (Gen.V4_of m S.outs c main_v22 (by decide)).symm
  | ⟨1, _⟩ => exact (((dat1 (E1 m S.outs) T.pf1 T.ok1 c).arrAt_in 1 rfl _).trans (A_eq1 (E1 m S.outs) T.pf1 T.ok1 c 1)).trans (Gen.V4_of m S.outs c main_v23 (by decide)).symm
  | ⟨2, _⟩ => exact (((dat1 (E1 m S.outs) T.pf1 T.ok1 c).arrAt_in 2 rfl _).trans (A_eq1 (E1 m S.outs) T.pf1 T.ok1 c 2)).trans (Gen.V4_of m S.outs c main_v24 (by decide)).symm
  | ⟨3, _⟩ => exact (S.h1 c).symm.trans (by
      show S.outs 4 main_v25 c = Gen.V4 m S.outs c main_v25
      simp only [Gen.V4, Function.update_self])

theorem hrest1 (c : Dev nD) : ∀ b, b ∉ Finset.univ.image (Pipeline.arrRef spec1) →
    atRefs (Gen.V4 m S.outs) c b = E1 m S.outs c b := fun b hb =>
  Gen.V4_of m S.outs c b fun h => hb (by
    obtain rfl := List.mem_singleton.mp h
    exact Finset.mem_image.mpr ⟨3, Finset.mem_univ _, rfl⟩)

def reg1 (hpf : ∀ (c : Dev nD) (j : Fin 2), E1 m S.outs c (pre1.ref j) = T.pf1 j) :
    Pipeline.RegionSeg (pcfgs (F := F)) (adm T) (pdats S) () (defs₀ (F := F)) 𝒱₀ L lv 1 :=
  Pipeline.RegionSeg.ofHeld _ _ _ _ _ L lv (launch1 (F := F)) (fun c => (body_obligation1 (E1 m S.outs) T.pf1 T.ok1 c).loose)
    (Gen.V3 m S.outs) (Gen.V4 m S.outs) (fun _ _ => rfl) (fun _ _ => rfl) (fun _ => rfl) (fun _ _ => rfl) (fun _ _ => rfl) hpf (hF1 S) (hrest1 S)

end Cert.KernelIdeal.Hand

end
-- ==== Proof.KI.Reg2.lean ====
import proofs.«421490_j32530082300068_2_alg».proof.Proof.KI.Family
import proofs.«421490_j32530082300068_2_alg».proof.Proof.LibRegion

noncomputable section

namespace Cert.KernelIdeal.Hand

open Idealize.ShloMosaic Idealize.ShloMosaic.TcCoe
open Cert.KernelIdeal Cert.KernelIdeal.Gen

variable {F : FTy → Type} [FloatOps F]
variable {m : (ℓ : Loc nD τ sig) → Buf (Elt F) ℓ} {T : Tabs F} (S : Sol m T)

/-- At the region's end an input array is as it was found and the output array is the one `outs` names. -/
theorem hF2 (c : Dev nD) (w : Fin (cfgM2 T.pf2 T.ok2).W) :
    (dat2 (E2 m S.outs) T.pf2 T.ok2 c).arrAt w (cfgM2 T.pf2 T.ok2).N = atRefs (Gen.V6 m S.outs) c (Pipeline.arrRef spec2 w) := by
  match w with
  | ⟨0, _⟩ => exact (((dat2 (E2 m S.outs) T.pf2 T.ok2 c).arrAt_in 0 rfl _).trans (A_eq2 (E2 m S.outs) T.pf2 T.ok2 c 0)).trans (Gen.V6_of m S.outs c main_v29 (by decide)).symm
  | ⟨1, _⟩ => exact (((dat2 (E2 m S.outs) T.pf2 T.ok2 c).arrAt_in 1 rfl _).trans (A_eq2 (E2 m S.outs) T.pf2 T.ok2 c 1)).trans (Gen.V6_of m S.outs c main_v30 (by decide)).symm
  | ⟨2, _⟩ => exact (((dat2 (E2 m S.outs) T.pf2 T.ok2 c).arrAt_in 2 rfl _).trans (A_eq2 (E2 m S.outs) T.pf2 T.ok2 c 2)).trans (Gen.V6_of m S.outs c main_v31 (by decide)).symm
  | ⟨3, _⟩ => exact (S.h2 c).symm.trans (by
      show S.outs 6 main_v32 c = Gen.V6 m S.outs c main_v32
      simp only [Gen.V6, Function.update_self])

theorem hrest2 (c : Dev nD) : ∀ b, b ∉ Finset.univ.image (Pipeline.arrRef spec2) →
    atRefs (Gen.V6 m S.outs) c b = E2 m S.outs c b := fun b hb =>
  Gen.V6_of m S.outs c b fun h => hb (by
    obtain rfl := List.mem_singleton.mp h
    exact Finset.mem_image.mpr ⟨3, Finset.mem_univ _, rfl⟩)

def reg2 (hpf : ∀ (c : Dev nD) (j : Fin 2), E2 m S.outs c (pre2.ref j) = T.pf2 j) :
    Pipeline.RegionSeg (pcfgs (F := F)) (adm T) (pdats S) () (defs₀ (F := F)) 𝒱₀ L lv 2 :=
  Pipeline.RegionSeg.ofHeld _ _ _ _ _ L lv (launch2 (F := F)) (fun c => (body_obligation2 (E2 m S.outs) T.pf2 T.ok2 c).loose)
    (Gen.V5 m S.outs) (Gen.V6 m S.outs) (fun _ _ => rfl) (fun _ _ => rfl) (fun _ => rfl) (fun _ _ => rfl) (fun _ _ => rfl) hpf (hF2 S) (hrest2 S)

end Cert.KernelIdeal.Hand

end
-- ==== Proof.KI.Reg3.lean ====
import proofs.«421490_j32530082300068_2_alg».proof.Proof.KI.Family
import proofs.«421490_j32530082300068_2_alg».proof.Proof.LibRegion

noncomputable section

namespace Cert.KernelIdeal.Hand

open Idealize.ShloMosaic Idealize.ShloMosaic.TcCoe
open Cert.KernelIdeal Cert.KernelIdeal.Gen

variable {F : FTy → Type} [FloatOps F]
variable {m : (ℓ : Loc nD τ sig) → Buf (Elt F) ℓ} {T : Tabs F} (S : Sol m T)

/-- At the region's end an input array is as it was found and the output array is the one `outs` names. -/
theorem hF3 (c : Dev nD) (w : Fin (cfgM3 T.pf3 T.ok3).W) :
    (dat3 (E3 m S.outs) T.pf3 T.ok3 c).arrAt w (cfgM3 T.pf3 T.ok3).N = atRefs (Gen.V8 m S.outs) c (Pipeline.arrRef spec3 w) := by
  match w with
  | ⟨0, _⟩ => exact (((dat3 (E3 m S.outs) T.pf3 T.ok3 c).arrAt_in 0 rfl _).trans (A_eq3 (E3 m S.outs) T.pf3 T.ok3 c 0)).trans (Gen.V8_of m S.outs c main_v36 (by decide)).symm
  | ⟨1, _⟩ => exact (((dat3 (E3 m S.outs) T.pf3 T.ok3 c).arrAt_in 1 rfl _).trans (A_eq3 (E3 m S.outs) T.pf3 T.ok3 c 1)).trans (Gen.V8_of m S.outs c main_v37 (by decide)).symm
  | ⟨2, _⟩ => exact (((dat3 (E3 m S.outs) T.pf3 T.ok3 c).arrAt_in 2 rfl _).trans (A_eq3 (E3 m S.outs) T.pf3 T.ok3 c 2)).trans (Gen.V8_of m S.outs c main_v38 (by decide)).symm
  | ⟨3, _⟩ => exact (S.h3 c).symm.trans (by
      show S.outs 8 main_v39 c = Gen.V8 m S.outs c main_v39
      simp only [Gen.V8, Function.update_self])

theorem hrest3 (c : Dev nD) : ∀ b, b ∉ Finset.univ.image (Pipeline.arrRef spec3) →
    atRefs (Gen.V8 m S.outs) c b = E3 m S.outs c b := fun b hb =>
  Gen.V8_of m S.outs c b fun h => hb (by
    obtain rfl := List.mem_singleton.mp h
    exact Finset.mem_image.mpr ⟨3, Finset.mem_univ _, rfl⟩)

def reg3 (hpf : ∀ (c : Dev nD) (j : Fin 2), E3 m S.outs c (pre3.ref j) = T.pf3 j) :
    Pipeline.RegionSeg (pcfgs (F := F)) (adm T) (pdats S) () (defs₀ (F := F)) 𝒱₀ L lv 3 :=
  Pipeline.RegionSeg.ofHeld _ _ _ _ _ L lv (launch3 (F := F)) (fun c => (body_obligation3 (E3 m S.outs) T.pf3 T.ok3 c).loose)
    (Gen.V7 m S.outs) (Gen.V8 m S.outs) (fun _ _ => rfl) (fun _ _ => rfl) (fun _ => rfl) (fun _ _ => rfl) (fun _ _ => rfl) hpf (hF3 S) (hrest3 S)

end Cert.KernelIdeal.Hand

end
-- ==== Proof.KI.Reg4.lean ====
import proofs.«421490_j32530082300068_2_alg».proof.Proof.KI.Family
import proofs.«421490_j32530082300068_2_alg».proof.Proof.LibRegion

noncomputable section

namespace Cert.KernelIdeal.Hand

open Idealize.ShloMosaic Idealize.ShloMosaic.TcCoe
open Cert.KernelIdeal Cert.KernelIdeal.Gen

variable {F : FTy → Type} [FloatOps F]
variable {m : (ℓ : Loc nD τ sig) → Buf (Elt F) ℓ} {T : Tabs F} (S : Sol m T)

/-- At the region's end an input array is as it was found and the output array is the one `outs` names. -/
theorem hF4 (c : Dev nD) (w : Fin (cfgM4 T.pf4 T.ok4).W) :
    (dat4 (E4 m S.outs) T.pf4 T.ok4 c).arrAt w (cfgM4 T.pf4 T.ok4).N = atRefs (Gen.V10 m S.outs) c (Pipeline.arrRef spec4 w) := by
  match w with
  | ⟨0, _⟩ => exact (((dat4 (E4 m S.outs) T.pf4 T.ok4 c).arrAt_in 0 rfl _).trans (A_eq4 (E4 m S.outs) T.pf4 T.ok4 c 0)).trans (Gen.V10_of m S.outs c main_v43 (by decide)).symm
  | ⟨1, _⟩ => exact (((dat4 (E4 m S.outs) T.pf4 T.ok4 c).arrAt_in 1 rfl _).trans (A_eq4 (E4 m S.outs) T.pf4 T.ok4 c 1)).trans (Gen.V10_of m S.outs c main_v44 (by decide)).symm
  | ⟨2, _⟩ => exact (((dat4 (E4 m S.outs) T.pf4 T.ok4 c).arrAt_in 2 rfl _).trans (A_eq4 (E4 m S.outs) T.pf4 T.ok4 c 2)).trans (Gen.V10_of m S.outs c main_v45 (by decide)).symm
  | ⟨3, _⟩ => exact (S.h4 c).symm.trans (by
      show S.outs 10 main_v46 c = Gen.V10 m S.outs c main_v46
      simp only [Gen.V10, Function.update_self])

theorem hrest4 (c : Dev nD) : ∀ b, b ∉ Finset.univ.image (Pipeline.arrRef spec4) →
    atRefs (Gen.V10 m S.outs) c b = E4 m S.outs c b := fun b hb =>
  Gen.V10_of m S.outs c b fun h => hb (by
    obtain rfl := List.mem_singleton.mp h
    exact Finset.mem_image.mpr ⟨3, Finset.mem_univ _, rfl⟩)

def reg4 (hpf : ∀ (c : Dev nD) (j : Fin 2), E4 m S.outs c (pre4.ref j) = T.pf4 j) :
    Pipeline.RegionSeg (pcfgs (F := F)) (adm T) (pdats S) () (defs₀ (F := F)) 𝒱₀ L lv 4 :=
  Pipeline.RegionSeg.ofHeld _ _ _ _ _ L lv (launch4 (F := F)) (fun c => (body_obligation4 (E4 m S.outs) T.pf4 T.ok4 c).loose)
    (Gen.V9 m S.outs) (Gen.V10 m S.outs) (fun _ _ => rfl) (fun _ _ => rfl) (fun _ => rfl) (fun _ _ => rfl) (fun _ _ => rfl) hpf (hF4 S) (hrest4 S)

end Cert.KernelIdeal.Hand

end
-- ==== Proof.KI.Reg5.lean ====
import proofs.«421490_j32530082300068_2_alg».proof.Proof.KI.Family
import proofs.«421490_j32530082300068_2_alg».proof.Proof.LibRegion

noncomputable section

namespace Cert.KernelIdeal.Hand

open Idealize.ShloMosaic Idealize.ShloMosaic.TcCoe
open Cert.KernelIdeal Cert.KernelIdeal.Gen

variable {F : FTy → Type} [FloatOps F]
variable {m : (ℓ : Loc nD τ sig) → Buf (Elt F) ℓ} {T : Tabs F} (S : Sol m T)

/-- At the region's end an input array is as it was found and the output array is the one `outs` names. -/
theorem hF5 (c : Dev nD) (w : Fin (cfgM5 T.pf5 T.ok5).W) :
    (dat5 (E5 m S.outs) T.pf5 T.ok5 c).arrAt w (cfgM5 T.pf5 T.ok5).N = atRefs (Gen.V12 m S.outs) c (Pipeline.arrRef spec5 w) := by
  match w with
  | ⟨0, _⟩ => exact (((dat5 (E5 m S.outs) T.pf5 T.ok5 c).arrAt_in 0 rfl _).trans (A_eq5 (E5 m S.outs) T.pf5 T.ok5 c 0)).trans (Gen.V12_of m S.outs c main_v50 (by decide)).symm
  | ⟨1, _⟩ => exact (((dat5 (E5 m S.outs) T.pf5 T.ok5 c).arrAt_in 1 rfl _).trans (A_eq5 (E5 m S.outs) T.pf5 T.ok5 c 1)).trans (Gen.V12_of m S.outs c main_v51 (by decide)).symm
  | ⟨2, _⟩ => exact (((dat5 (E5 m S.outs) T.pf5 T.ok5 c).arrAt_in 2 rfl _).trans (A_eq5 (E5 m S.outs) T.pf5 T.ok5 c 2)).trans (Gen.V12_of m S.outs c main_v52 (by decide)).symm
  | ⟨3, _⟩ => exact (S.h5 c).symm.trans (by
      show S.outs 12 main_v53 c = Gen.V12 m S.outs c main_v53
      simp only [Gen.V12, Function.update_self])

theorem hrest5 (c : Dev nD) : ∀ b, b ∉ Finset.univ.image (Pipeline.arrRef spec5) →
    atRefs (Gen.V12 m S.outs) c b = E5 m S.outs c b := fun b hb =>
  Gen.V12_of m S.outs c b fun h => hb (by
    obtain rfl := List.mem_singleton.mp h
    exact Finset.mem_image.mpr ⟨3, Finset.mem_univ _, rfl⟩)

def reg5 (hpf : ∀ (c : Dev nD) (j : Fin 2), E5 m S.outs c (pre5.ref j) = T.pf5 j) :
    Pipeline.RegionSeg (pcfgs (F := F)) (adm T) (pdats S) () (defs₀ (F := F)) 𝒱₀ L lv 5 :=
  Pipeline.RegionSeg.ofHeld _ _ _ _ _ L lv (launch5 (F := F)) (fun c => (body_obligation5 (E5 m S.outs) T.pf5 T.ok5 c).loose)
    (Gen.V11 m S.outs) (Gen.V12 m S.outs) (fun _ _ => rfl) (fun _ _ => rfl) (fun _ => rfl) (fun _ _ => rfl) (fun _ _ => rfl) hpf (hF5 S) (hrest5 S)

end Cert.KernelIdeal.Hand

end
-- ==== Proof.KI.Reg6.lean ====
import proofs.«421490_j32530082300068_2_alg».proof.Proof.KI.Family
import proofs.«421490_j32530082300068_2_alg».proof.Proof.LibRegion

noncomputable section

namespace Cert.KernelIdeal.Hand

open Idealize.ShloMosaic Idealize.ShloMosaic.TcCoe
open Cert.KernelIdeal Cert.KernelIdeal.Gen

variable {F : FTy → Type} [FloatOps F]
variable {m : (ℓ : Loc nD τ sig) → Buf (Elt F) ℓ} {T : Tabs F} (S : Sol m T)

/-- At the region's end an input array is as it was found and the output array is the one `outs` names. -/
theorem hF6 (c : Dev nD) (w : Fin (cfgM6 T.pf6 T.ok6).W) :
    (dat6 (E6 m S.outs) T.pf6 T.ok6 c).arrAt w (cfgM6 T.pf6 T.ok6).N = atRefs (Gen.V14 m S.outs) c (Pipeline.arrRef spec6 w) := by
  match w with
  | ⟨0, _⟩ => exact (((dat6 (E6 m S.outs) T.pf6 T.ok6 c).arrAt_in 0 rfl _).trans (A_eq6 (E6 m S.outs) T.pf6 T.ok6 c 0)).trans (Gen.V14_of m S.outs c main_v57 (by decide)).symm
  | ⟨1, _⟩ => exact (((dat6 (E6 m S.outs) T.pf6 T.ok6 c).arrAt_in 1 rfl _).trans (A_eq6 (E6 m S.outs) T.pf6 T.ok6 c 1)).trans (Gen.V14_of m S.outs c main_v58 (by decide)).symm
  | ⟨2, _⟩ => exact (((dat6 (E6 m S.outs) T.pf6 T.ok6 c).arrAt_in 2 rfl _).trans (A_eq6 (E6 m S.outs) T.pf6 T.ok6 c 2)).trans (Gen.V14_of m S.outs c main_v59 (by decide)).symm
  | ⟨3, _⟩ => exact (S.h6 c).symm.trans (by
      show S.outs 14 main_v60 c = Gen.V14 m S.outs c main_v60
      simp only [Gen.V14, Function.update_self])

theorem hrest6 (c : Dev nD) : ∀ b, b ∉ Finset.univ.image (Pipeline.arrRef spec6) →
    atRefs (Gen.V14 m S.outs) c b = E6 m S.outs c b := fun b hb =>
  Gen.V14_of m S.outs c b fun h => hb (by
    obtain rfl := List.mem_singleton.mp h
    exact Finset.mem_image.mpr ⟨3, Finset.mem_univ _, rfl⟩)

def reg6 (hpf : ∀ (c : Dev nD) (j : Fin 2), E6 m S.outs c (pre6.ref j) = T.pf6 j) :
    Pipeline.RegionSeg (pcfgs (F := F)) (adm T) (pdats S) () (defs₀ (F := F)) 𝒱₀ L lv 6 :=
  Pipeline.RegionSeg.ofHeld _ _ _ _ _ L lv (launch6 (F := F)) (fun c => (body_obligation6 (E6 m S.outs) T.pf6 T.ok6 c).loose)
    (Gen.V13 m S.outs) (Gen.V14 m S.outs) (fun _ _ => rfl) (fun _ _ => rfl) (fun _ => rfl) (fun _ _ => rfl) (fun _ _ => rfl) hpf (hF6 S) (hrest6 S)

end Cert.KernelIdeal.Hand

end
-- ==== Proof.KI.Reg7.lean ====
import proofs.«421490_j32530082300068_2_alg».proof.Proof.KI.Family
import proofs.«421490_j32530082300068_2_alg».proof.Proof.LibRegion

noncomputable section

namespace Cert.KernelIdeal.Hand

open Idealize.ShloMosaic Idealize.ShloMosaic.TcCoe
open Cert.KernelIdeal Cert.KernelIdeal.Gen

variable {F : FTy → Type} [FloatOps F]
variable {m : (ℓ : Loc nD τ sig) → Buf (Elt F) ℓ} {T : Tabs F} (S : Sol m T)

/-- At the region's end an input array is as it was found and the output array is the one `outs` names. -/
theorem hF7 (c : Dev nD) (w : Fin (cfgM7 T.pf7 T.ok7).W) :
    (dat7 (E7 m S.outs) T.pf7 T.ok7 c).arrAt w (cfgM7 T.pf7 T.ok7).N = atRefs (Gen.V16 m S.outs) c (Pipeline.arrRef spec7 w) := by
  match w with
  | ⟨0, _⟩ => exact (((dat7 (E7 m S.outs) T.pf7 T.ok7 c).arrAt_in 0 rfl _).trans (A_eq7 (E7 m S.outs) T.pf7 T.ok7 c 0)).trans (Gen.V16_of m S.outs c main_v64 (by decide)).symm
  | ⟨1, _⟩ => exact (((dat7 (E7 m S.outs) T.pf7 T.ok7 c).arrAt_in 1 rfl _).trans (A_eq7 (E7 m S.outs) T.pf7 T.ok7 c 1)).trans (Gen.V16_of m S.outs c main_v65 (by decide)).symm
  | ⟨2, _⟩ => exact (((dat7 (E7 m S.outs) T.pf7 T.ok7 c).arrAt_in 2 rfl _).trans (A_eq7 (E7 m S.outs) T.pf7 T.ok7 c 2)).trans (Gen.V16_of m S.outs c main_v66 (by decide)).symm
  | ⟨3, _⟩ => exact (S.h7 c).symm.trans (by
      show S.outs 16 main_v67 c = Gen.V16 m S.outs c main_v67
      simp only [Gen.V16, Function.update_self])

theorem hrest7 (c : Dev nD) : ∀ b, b ∉ Finset.univ.image (Pipeline.arrRef spec7) →
    atRefs (Gen.V16 m S.outs) c b = E7 m S.outs c b := fun b hb =>
  Gen.V16_of m S.outs c b fun h => hb (by
    obtain rfl := List.mem_singleton.mp h
    exact Finset.mem_image.mpr ⟨3, Finset.mem_univ _, rfl⟩)

def reg7 (hpf : ∀ (c : Dev nD) (j : Fin 2), E7 m S.outs c (pre7.ref j) = T.pf7 j) :
    Pipeline.RegionSeg (pcfgs (F := F)) (adm T) (pdats S) () (defs₀ (F := F)) 𝒱₀ L lv 7 :=
  Pipeline.RegionSeg.ofHeld _ _ _ _ _ L lv (launch7 (F := F)) (fun c => (body_obligation7 (E7 m S.outs) T.pf7 T.ok7 c).loose)
    (Gen.V15 m S.outs) (Gen.V16 m S.outs) (fun _ _ => rfl) (fun _ _ => rfl) (fun _ => rfl) (fun _ _ => rfl) (fun _ _ => rfl) hpf (hF7 S) (hrest7 S)

end Cert.KernelIdeal.Hand

end
-- ==== Proof.KI.Reg8.lean ====
import proofs.«421490_j32530082300068_2_alg».proof.Proof.KI.Family
import proofs.«421490_j32530082300068_2_alg».proof.Proof.LibRegion

noncomputable section

namespace Cert.KernelIdeal.Hand

open Idealize.ShloMosaic Idealize.ShloMosaic.TcCoe
open Cert.KernelIdeal Cert.KernelIdeal.Gen

variable {F : FTy → Type} [FloatOps F]
variable {m : (ℓ : Loc nD τ sig) → Buf (Elt F) ℓ} {T : Tabs F} (S : Sol m T)

/-- At the region's end an input array is as it was found and the output array is the one `outs` names. -/
theorem hF8 (c : Dev nD) (w : Fin (cfgM8 T.pf8 T.ok8).W) :
    (dat8 (E8 m S.outs) T.pf8 T.ok8 c).arrAt w (cfgM8 T.pf8 T.ok8).N = atRefs (Gen.V18 m S.outs) c (Pipeline.arrRef spec8 w) := by
  match w with
  | ⟨0, _⟩ => exact (((dat8 (E8 m S.outs) T.pf8 T.ok8 c).arrAt_in 0 rfl _).trans (A_eq8 (E8 m S.outs) T.pf8 T.ok8 c 0)).trans (Gen.V18_of m S.outs c main_v71 (by decide)).symm
  | ⟨1, _⟩ => exact (((dat8 (E8 m S.outs) T.pf8 T.ok8 c).arrAt_in 1 rfl _).trans (A_eq8 (E8 m S.outs) T.pf8 T.ok8 c 1)).trans (Gen.V18_of m S.outs c main_v72 (by decide)).symm
  | ⟨2, _⟩ => exact (((dat8 (E8 m S.outs) T.pf8 T.ok8 c).arrAt_in 2 rfl _).trans (A_eq8 (E8 m S.outs) T.pf8 T.ok8 c 2)).trans (Gen.V18_of m S.outs c main_v73 (by decide)).symm
  | ⟨3, _⟩ => exact (S.h8 c).symm.trans (by
      show S.outs 18 main_v74 c = Gen.V18 m S.outs c main_v74
      simp only [Gen.V18, Function.update_self])

theorem hrest8 (c : Dev nD) : ∀ b, b ∉ Finset.univ.image (Pipeline.arrRef spec8) →
    atRefs (Gen.V18 m S.outs) c b = E8 m S.outs c b := fun b hb =>
  Gen.V18_of m S.outs c b fun h => hb (by
    obtain rfl := List.mem_singleton.mp h
    exact Finset.mem_image.mpr ⟨3, Finset.mem_univ _, rfl⟩)

def reg8 (hpf : ∀ (c : Dev nD) (j : Fin 2), E8 m S.outs c (pre8.ref j) = T.pf8 j) :
    Pipeline.RegionSeg (pcfgs (F := F)) (adm T) (pdats S) () (defs₀ (F := F)) 𝒱₀ L lv 8 :=
  Pipeline.RegionSeg.ofHeld _ _ _ _ _ L lv (launch8 (F := F)) (fun c => (body_obligation8 (E8 m S.outs) T.pf8 T.ok8 c).loose)
    (Gen.V17 m S.outs) (Gen.V18 m S.outs) (fun _ _ => rfl) (fun _ _ => rfl) (fun _ => rfl) (fun _ _ => rfl) (fun _ _ => rfl) hpf (hF8 S) (hrest8 S)

end Cert.KernelIdeal.Hand

end
-- ==== Proof.KI.Run.lean ====
import proofs.«421490_j32530082300068_2_alg».proof.Proof.KI.Reg0
import proofs.«421490_j32530082300068_2_alg».proof.Proof.KI.Reg1
import proofs.«421490_j32530082300068_2_alg».proof.Proof.KI.Reg2
import proofs.«421490_j32530082300068_2_alg».proof.Proof.KI.Reg3
import proofs.«421490_j32530082300068_2_alg».proof.Proof.KI.Reg4
import proofs.«421490_j32530082300068_2_alg».proof.Proof.KI.Reg5
import proofs.«421490_j32530082300068_2_alg».proof.Proof.KI.Reg6
import proofs.«421490_j32530082300068_2_alg».proof.Proof.KI.Reg7
import proofs.«421490_j32530082300068_2_alg».proof.Proof.KI.Reg8

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

section
variable {m : (ℓ : Loc nD τ sig) → Buf (Elt F) ℓ} {T : Tabs F} (S : Sol m T) (ρ : Dev nD → PrngReg)

structure TabsAt : Prop where
  e1 : ∀ (c : Dev nD) (j : Fin 2), E1 m S.outs c (pre1.ref j) = T.pf1 j
  e2 : ∀ (c : Dev nD) (j : Fin 2), E2 m S.outs c (pre2.ref j) = T.pf2 j
  e3 : ∀ (c : Dev nD) (j : Fin 2), E3 m S.outs c (pre3.ref j) = T.pf3 j
  e4 : ∀ (c : Dev nD) (j : Fin 2), E4 m S.outs c (pre4.ref j) = T.pf4 j
  e5 : ∀ (c : Dev nD) (j : Fin 2), E5 m S.outs c (pre5.ref j) = T.pf5 j
  e6 : ∀ (c : Dev nD) (j : Fin 2), E6 m S.outs c (pre6.ref j) = T.pf6 j
  e7 : ∀ (c : Dev nD) (j : Fin 2), E7 m S.outs c (pre7.ref j) = T.pf7 j
  e8 : ∀ (c : Dev nD) (j : Fin 2), E8 m S.outs c (pre8.ref j) = T.pf8 j

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem last_link (c : Dev nD) :
    iprop(StableHlo.held (c : Thread nD τ) (Pipeline.ucRefs τ sig) (Gen.V19 m S.outs c) ∗ Rst c)
      ⊢ (iprop((StableHlo.held (c : Thread nD τ) (Pipeline.ucRefs τ sig) (Gen.V19 m S.outs c) ∗ ∃ r, prngReg c r)
          ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

set_option backward.isDefEq.respectTransparency.types false in
theorem run_all (hT : TabsAt S) :
    θ_run defs (onTc (τ := τ) (main (F := F))) ⟨m, fun _ => 0, ρ⟩
      (fun r => ∀ c : Dev nD, ∀ b ∈ Pipeline.ucRefs τ sig, r.2.mem (((c : Thread nD τ)).1, b) = Gen.V19 m S.outs c b) := by
  refine Pipeline.θ_run_regions_kit_dev (pcfgs (F := F)) (adm T) (pdats S) () (cellOf_inj (adm T)) emb₁ defs₀ 𝒱₀ L lv m ρ main
    (Gen.segs m S.outs 𝒱₀ L lv (fun _ c => Rst c) () (adm T) (pdats S) (reg0 S) (reg1 S hT.e1) (reg2 S hT.e2) (reg3 S hT.e3) (reg4 S hT.e4) (reg5 S hT.e5) (reg6 S hT.e6) (reg7 S hT.e7) (reg8 S hT.e8))
    (fun c Q => by
      rewrite [main_chain c, Seg.run_eq_chain,
        show (Gen.segs m S.outs 𝒱₀ L lv (fun _ c => Rst c) () (adm T) (pdats S) (reg0 S) (reg1 S hT.e1) (reg2 S hT.e2) (reg3 S hT.e3) (reg4 S hT.e4) (reg5 S hT.e5) (reg6 S hT.e6) (reg7 S hT.e7) (reg8 S hT.e8) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells (Pipeline.pin (pcfgs (F := F)) (adm T)) (cellOf_inj (adm T))) (Pipeline.launchToks (Pipeline.pin (pcfgs (F := F)) (adm T)) (cellOf_inj (adm T))))
    (hu₀ := by
      iintro Hu; imodintro
      isplitl [Hu]
      · iapply (show (ownU (initOf (Pipeline.cells (Pipeline.pin (pcfgs (F := F)) (adm T)) (cellOf_inj (adm T))) (Pipeline.launchToks (Pipeline.pin (pcfgs (F := F)) (adm T)) (cellOf_inj (adm T)))) : sProp 𝕄)
            ⊢ BI.own (emb₁ (initOf (Pipeline.cells (Pipeline.pin (pcfgs (F := F)) (adm T)) (cellOf_inj (adm T))) (Pipeline.launchToks (Pipeline.pin (pcfgs (F := F)) (adm T)) (cellOf_inj (adm T))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c))
    (Tₙ := fun c => iprop(StableHlo.held (c : Thread nD τ) (Pipeline.ucRefs τ sig) (Gen.V19 m S.outs c) ∗ ∃ r, prngReg c r))
    (hch := fun c => ⟨.rfl, .rfl, .rfl, .rfl, .rfl, .rfl, .rfl, .rfl, .rfl, .rfl, .rfl, .rfl, .rfl, .rfl, .rfl, .rfl, .rfl, .rfl, .rfl, last_link S c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V19 m S.outs c b)
    (hfin := fun c s' => by
      iintro ⟨⟨Hh, -⟩, HSI⟩
      unfold StableHlo.held
      imodintro
      iapply (pointsTo_read_all (Pipeline.ucRefs τ sig) (fun b => (((c : Thread nD τ)).1, b)) (Gen.V19 m S.outs c) s')
      isplitl [Hh] <;> iassumption)
    (hQ := fun s h => h)

end

end Cert.KernelIdeal.Hand

end
-- ==== Proof.KI.SolExists.lean ====
import proofs.«421490_j32530082300068_2_alg».proof.Proof.KI.Family

noncomputable section

namespace Cert.KernelIdeal.Hand

open Idealize.ShloMosaic Idealize.ShloMosaic.TcCoe Idealize.SL Idealize.SL.Sem
open Idealize.ShloMosaic.Pipeline (Dat Cfg)
open Cert.KernelIdeal Cert.KernelIdeal.Gen

variable {F : FTy → Type} [FloatOps F]

def put (o : Gen.Outs (F := F)) (J : ℕ) (r : Ref sig .tc)
    (v : (c : Dev nD) → Buf (Elt F) ((c : Thread nD τ).loc r)) : Gen.Outs (F := F) :=
  Function.update o J (Function.update (o J) r v)

theorem put_same (o : Gen.Outs (F := F)) (J : ℕ) (r : Ref sig .tc)
    (v : (c : Dev nD) → Buf (Elt F) ((c : Thread nD τ).loc r)) : put o J r v J r = v := by
  unfold put
  rw [Function.update_self, Function.update_self]

theorem put_of_ne (o : Gen.Outs (F := F)) (J : ℕ) (r : Ref sig .tc)
    (v : (c : Dev nD) → Buf (Elt F) ((c : Thread nD τ).loc r)) {J' : ℕ} (h : J' ≠ J) : put o J r v J' = o J' := by
  unfold put
  rw [Function.update_of_ne h]

section Congr
variable (m : (ℓ : Loc nD τ sig) → Buf (Elt F) ℓ) {o o' : Gen.Outs (F := F)}

theorem V3_congr (h2 : o 2 = o' 2) (c : Dev nD) : Gen.V3 m o c = Gen.V3 m o' c := by
  unfold Gen.V3 Gen.V2
  rw [h2]

theorem V5_congr (h2 : o 2 = o' 2) (h4 : o 4 = o' 4) (c : Dev nD) : Gen.V5 m o c = Gen.V5 m o' c := by
  have e := V3_congr m h2 c
  unfold Gen.V5 Gen.V4
  rw [e, h4]

theorem V7_congr (h2 : o 2 = o' 2) (h4 : o 4 = o' 4) (h6 : o 6 = o' 6) (c : Dev nD) : Gen.V7 m o c = Gen.V7 m o' c := by
  have e := V5_congr m h2 h4 c
  unfold Gen.V7 Gen.V6
  rw [e, h6]

theorem V9_congr (h2 : o 2 = o' 2) (h4 : o 4 = o' 4) (h6 : o 6 = o' 6) (h8 : o 8 = o' 8) (c : Dev nD) : Gen.V9 m o c = Gen.V9 m o' c := by
  have e := V7_congr m h2 h4 h6 c
  unfold Gen.V9 Gen.V8
  rw [e, h8]

theorem V11_congr (h2 : o 2 = o' 2) (h4 : o 4 = o' 4) (h6 : o 6 = o' 6) (h8 : o 8 = o' 8) (h10 : o 10 = o' 10) (c : Dev nD) : Gen.V11 m o c = Gen.V11 m o' c := by
  have e := V9_congr m h2 h4 h6 h8 c
  unfold Gen.V11 Gen.V10
  rw [e, h10]

theorem V13_congr (h2 : o 2 = o' 2) (h4 : o 4 = o' 4) (h6 : o 6 = o' 6) (h8 : o 8 = o' 8) (h10 : o 10 = o' 10) (h12 : o 12 = o' 12) (c : Dev nD) : Gen.V13 m o c = Gen.V13 m o' c := by
  have e := V11_congr m h2 h4 h6 h8 h10 c
  unfold Gen.V13 Gen.V12
  rw [e, h12]

theorem V15_congr (h2 : o 2 = o' 2) (h4 : o 4 = o' 4) (h6 : o 6 = o' 6) (h8 : o 8 = o' 8) (h10 : o 10 = o' 10) (h12 : o 12 = o' 12) (h14 : o 14 = o' 14) (c : Dev nD) : Gen.V15 m o c = Gen.V15 m o' c := by
  have e := V13_congr m h2 h4 h6 h8 h10 h12 c
  unfold Gen.V15 Gen.V14
  rw [e, h14]

theorem V17_congr (h2 : o 2 = o' 2) (h4 : o 4 = o' 4) (h6 : o 6 = o' 6) (h8 : o 8 = o' 8) (h10 : o 10 = o' 10) (h12 : o 12 = o' 12) (h14 : o 14 = o' 14) (h16 : o 16 = o' 16) (c : Dev nD) : Gen.V17 m o c = Gen.V17 m o' c := by
  have e := V15_congr m h2 h4 h6 h8 h10 h12 h14 c
  unfold Gen.V17 Gen.V16
  rw [e, h16]

theorem E1_congr (h2 : o 2 = o' 2) : E1 m o = E1 m o' := by
  funext c b
  exact congrFun (V3_congr m h2 c) _

theorem E2_congr (h2 : o 2 = o' 2) (h4 : o 4 = o' 4) : E2 m o = E2 m o' := by
  funext c b
  exact congrFun (V5_congr m h2 h4 c) _

theorem E3_congr (h2 : o 2 = o' 2) (h4 : o 4 = o' 4) (h6 : o 6 = o' 6) : E3 m o = E3 m o' := by
  funext c b
  exact congrFun (V7_congr m h2 h4 h6 c) _

theorem E4_congr (h2 : o 2 = o' 2) (h4 : o 4 = o' 4) (h6 : o 6 = o' 6) (h8 : o 8 = o' 8) : E4 m o = E4 m o' := by
  funext c b
  exact congrFun (V9_congr m h2 h4 h6 h8 c) _

theorem E5_congr (h2 : o 2 = o' 2) (h4 : o 4 = o' 4) (h6 : o 6 = o' 6) (h8 : o 8 = o' 8) (h10 : o 10 = o' 10) : E5 m o = E5 m o' := by
  funext c b
  exact congrFun (V11_congr m h2 h4 h6 h8 h10 c) _

theorem E6_congr (h2 : o 2 = o' 2) (h4 : o 4 = o' 4) (h6 : o 6 = o' 6) (h8 : o 8 = o' 8) (h10 : o 10 = o' 10) (h12 : o 12 = o' 12) : E6 m o = E6 m o' := by
  funext c b
  exact congrFun (V13_congr m h2 h4 h6 h8 h10 h12 c) _

theorem E7_congr (h2 : o 2 = o' 2) (h4 : o 4 = o' 4) (h6 : o 6 = o' 6) (h8 : o 8 = o' 8) (h10 : o 10 = o' 10) (h12 : o 12 = o' 12) (h14 : o 14 = o' 14) : E7 m o = E7 m o' := by
  funext c b
  exact congrFun (V15_congr m h2 h4 h6 h8 h10 h12 h14 c) _

theorem E8_congr (h2 : o 2 = o' 2) (h4 : o 4 = o' 4) (h6 : o 6 = o' 6) (h8 : o 8 = o' 8) (h10 : o 10 = o' 10) (h12 : o 12 = o' 12) (h14 : o 14 = o' 14) (h16 : o 16 = o' 16) : E8 m o = E8 m o' := by
  funext c b
  exact congrFun (V17_congr m h2 h4 h6 h8 h10 h12 h14 h16 c) _

end Congr

section Build
variable (m : (ℓ : Loc nD τ sig) → Buf (Elt F) ℓ) (T : Tabs F)

def dflt : Gen.Outs (F := F) := fun _ r c => m ((c : Thread nD τ).loc r)

def o1 : Gen.Outs (F := F) :=
  put (dflt m) 2 main_v19 (fun c => (dat0 (E0 m) c).arrAt 6 cfg0.N)

def o2 : Gen.Outs (F := F) :=
  put (o1 m) 4 main_v25 (fun c => (dat1 (E1 m (o1 m)) T.pf1 T.ok1 c).arrAt 3 (cfgM1 T.pf1 T.ok1).N)

def o3 : Gen.Outs (F := F) :=
  put (o2 m T) 6 main_v32 (fun c => (dat2 (E2 m (o2 m T)) T.pf2 T.ok2 c).arrAt 3 (cfgM2 T.pf2 T.ok2).N)

def o4 : Gen.Outs (F := F) :=
  put (o3 m T) 8 main_v39 (fun c => (dat3 (E3 m (o3 m T)) T.pf3 T.ok3 c).arrAt 3 (cfgM3 T.pf3 T.ok3).N)

def o5 : Gen.Outs (F := F) :=
  put (o4 m T) 10 main_v46 (fun c => (dat4 (E4 m (o4 m T)) T.pf4 T.ok4 c).arrAt 3 (cfgM4 T.pf4 T.ok4).N)

def o6 : Gen.Outs (F := F) :=
  put (o5 m T) 12 main_v53 (fun c => (dat5 (E5 m (o5 m T)) T.pf5 T.ok5 c).arrAt 3 (cfgM5 T.pf5 T.ok5).N)

def o7 : Gen.Outs (F := F) :=
  put (o6 m T) 14 main_v60 (fun c => (dat6 (E6 m (o6 m T)) T.pf6 T.ok6 c).arrAt 3 (cfgM6 T.pf6 T.ok6).N)

def o8 : Gen.Outs (F := F) :=
  put (o7 m T) 16 main_v67 (fun c => (dat7 (E7 m (o7 m T)) T.pf7 T.ok7 c).arrAt 3 (cfgM7 T.pf7 T.ok7).N)

def o9 : Gen.Outs (F := F) :=
  put (o8 m T) 18 main_v74 (fun c => (dat8 (E8 m (o8 m T)) T.pf8 T.ok8 c).arrAt 3 (cfgM8 T.pf8 T.ok8).N)

theorem o9_o8 {J : ℕ} (h : J ≤ 16) : o9 m T J = o8 m T J := by
  rw [o9]
  exact put_of_ne _ _ _ _ (by omega)

theorem o9_o7 {J : ℕ} (h : J ≤ 14) : o9 m T J = o7 m T J := by
  rw [o9_o8 m T (by omega : J ≤ 16), o8]
  exact put_of_ne _ _ _ _ (by omega)

theorem o9_o6 {J : ℕ} (h : J ≤ 12) : o9 m T J = o6 m T J := by
  rw [o9_o7 m T (by omega : J ≤ 14), o7]
  exact put_of_ne _ _ _ _ (by omega)

theorem o9_o5 {J : ℕ} (h : J ≤ 10) : o9 m T J = o5 m T J := by
  rw [o9_o6 m T (by omega : J ≤ 12), o6]
  exact put_of_ne _ _ _ _ (by omega)

theorem o9_o4 {J : ℕ} (h : J ≤ 8) : o9 m T J = o4 m T J := by
  rw [o9_o5 m T (by omega : J ≤ 10), o5]
  exact put_of_ne _ _ _ _ (by omega)

theorem o9_o3 {J : ℕ} (h : J ≤ 6) : o9 m T J = o3 m T J := by
  rw [o9_o4 m T (by omega : J ≤ 8), o4]
  exact put_of_ne _ _ _ _ (by omega)

theorem o9_o2 {J : ℕ} (h : J ≤ 4) : o9 m T J = o2 m T J := by
  rw [o9_o3 m T (by omega : J ≤ 6), o3]
  exact put_of_ne _ _ _ _ (by omega)

theorem o9_o1 {J : ℕ} (h : J ≤ 2) : o9 m T J = o1 m J := by
  rw [o9_o2 m T (by omega : J ≤ 4), o2]
  exact put_of_ne _ _ _ _ (by omega)

theorem eq0 (c : Dev nD) : o9 m T 2 main_v19 c = (dat0 (E0 m) c).arrAt 6 cfg0.N := by
  rw [o9_o1 m T (by omega : 2 ≤ 2)]
  exact congrFun (put_same (dflt m) 2 main_v19 _) c

theorem eq1 (c : Dev nD) : o9 m T 4 main_v25 c = (dat1 (E1 m (o9 m T)) T.pf1 T.ok1 c).arrAt 3 (cfgM1 T.pf1 T.ok1).N := by
  rw [E1_congr m (o9_o1 m T (by omega : 2 ≤ 2))]
  rw [o9_o2 m T (by omega : 4 ≤ 4)]
  exact congrFun (put_same (o1 m) 4 main_v25 _) c

theorem eq2 (c : Dev nD) : o9 m T 6 main_v32 c = (dat2 (E2 m (o9 m T)) T.pf2 T.ok2 c).arrAt 3 (cfgM2 T.pf2 T.ok2).N := by
  rw [E2_congr m (o9_o2 m T (by omega : 2 ≤ 4)) (o9_o2 m T (by omega : 4 ≤ 4))]
  rw [o9_o3 m T (by omega : 6 ≤ 6)]
  exact congrFun (put_same (o2 m T) 6 main_v32 _) c

theorem eq3 (c : Dev nD) : o9 m T 8 main_v39 c = (dat3 (E3 m (o9 m T)) T.pf3 T.ok3 c).arrAt 3 (cfgM3 T.pf3 T.ok3).N := by
  rw [E3_congr m (o9_o3 m T (by omega : 2 ≤ 6)) (o9_o3 m T (by omega : 4 ≤ 6)) (o9_o3 m T (by omega : 6 ≤ 6))]
  rw [o9_o4 m T (by omega : 8 ≤ 8)]
  exact congrFun (put_same (o3 m T) 8 main_v39 _) c

theorem eq4 (c : Dev nD) : o9 m T 10 main_v46 c = (dat4 (E4 m (o9 m T)) T.pf4 T.ok4 c).arrAt 3 (cfgM4 T.pf4 T.ok4).N := by
  rw [E4_congr m (o9_o4 m T (by omega : 2 ≤ 8)) (o9_o4 m T (by omega : 4 ≤ 8)) (o9_o4 m T (by omega : 6 ≤ 8)) (o9_o4 m T (by omega : 8 ≤ 8))]
  rw [o9_o5 m T (by omega : 10 ≤ 10)]
  exact congrFun (put_same (o4 m T) 10 main_v46 _) c

theorem eq5 (c : Dev nD) : o9 m T 12 main_v53 c = (dat5 (E5 m (o9 m T)) T.pf5 T.ok5 c).arrAt 3 (cfgM5 T.pf5 T.ok5).N := by
  rw [E5_congr m (o9_o5 m T (by omega : 2 ≤ 10)) (o9_o5 m T (by omega : 4 ≤ 10)) (o9_o5 m T (by omega : 6 ≤ 10)) (o9_o5 m T (by omega : 8 ≤ 10)) (o9_o5 m T (by omega : 10 ≤ 10))]
  rw [o9_o6 m T (by omega : 12 ≤ 12)]
  exact congrFun (put_same (o5 m T) 12 main_v53 _) c

theorem eq6 (c : Dev nD) : o9 m T 14 main_v60 c = (dat6 (E6 m (o9 m T)) T.pf6 T.ok6 c).arrAt 3 (cfgM6 T.pf6 T.ok6).N := by
  rw [E6_congr m (o9_o6 m T (by omega : 2 ≤ 12)) (o9_o6 m T (by omega : 4 ≤ 12)) (o9_o6 m T (by omega : 6 ≤ 12)) (o9_o6 m T (by omega : 8 ≤ 12)) (o9_o6 m T (by omega : 10 ≤ 12)) (o9_o6 m T (by omega : 12 ≤ 12))]
  rw [o9_o7 m T (by omega : 14 ≤ 14)]
  exact congrFun (put_same (o6 m T) 14 main_v60 _) c

theorem eq7 (c : Dev nD) : o9 m T 16 main_v67 c = (dat7 (E7 m (o9 m T)) T.pf7 T.ok7 c).arrAt 3 (cfgM7 T.pf7 T.ok7).N := by
  rw [E7_congr m (o9_o7 m T (by omega : 2 ≤ 14)) (o9_o7 m T (by omega : 4 ≤ 14)) (o9_o7 m T (by omega : 6 ≤ 14)) (o9_o7 m T (by omega : 8 ≤ 14)) (o9_o7 m T (by omega : 10 ≤ 14)) (o9_o7 m T (by omega : 12 ≤ 14)) (o9_o7 m T (by omega : 14 ≤ 14))]
  rw [o9_o8 m T (by omega : 16 ≤ 16)]
  exact congrFun (put_same (o7 m T) 16 main_v67 _) c

theorem eq8 (c : Dev nD) : o9 m T 18 main_v74 c = (dat8 (E8 m (o9 m T)) T.pf8 T.ok8 c).arrAt 3 (cfgM8 T.pf8 T.ok8).N := by
  rw [E8_congr m (o9_o8 m T (by omega : 2 ≤ 16)) (o9_o8 m T (by omega : 4 ≤ 16)) (o9_o8 m T (by omega : 6 ≤ 16)) (o9_o8 m T (by omega : 8 ≤ 16)) (o9_o8 m T (by omega : 10 ≤ 16)) (o9_o8 m T (by omega : 12 ≤ 16)) (o9_o8 m T (by omega : 14 ≤ 16)) (o9_o8 m T (by omega : 16 ≤ 16))]
  exact congrFun (put_same (o8 m T) 18 main_v74 _) c

end Build

theorem Sol.exists (m : (ℓ : Loc nD τ sig) → Buf (Elt F) ℓ) (T : Tabs F) : Nonempty (Sol m T) :=
  ⟨{ outs := o9 m T
     h0 := eq0 m T
     h1 := eq1 m T
     h2 := eq2 m T
     h3 := eq3 m T
     h4 := eq4 m T
     h5 := eq5 m T
     h6 := eq6 m T
     h7 := eq7 m T
     h8 := eq8 m T }⟩

end Cert.KernelIdeal.Hand

end
-- ==== Proof.KI.Tables.lean ====
import proofs.«421490_j32530082300068_2_alg».proof.Proof.KI.Entry
import Idealize.ShloMosaic.Lib.StableHlo.Run
import Idealize.ShloMosaic.Lib.Pipeline.Value
import Idealize.ShloMosaic.Lib.ValueIdx

noncomputable section

namespace Cert.KernelIdeal.Hand

open Idealize.ShloMosaic Idealize.ShloMosaic.TcCoe Idealize.SL Idealize.SL.Sem
open Cert.KernelIdeal Cert.KernelIdeal.Gen

variable {F : FTy → Type} [FloatOps F]
variable (m : (ℓ : Loc nD τ sig) → Buf (Elt F) ℓ)

def outs0 : Gen.Outs (F := F) := fun _ r c => m ((c : Thread nD τ).loc r)

theorem lt_32768 (x : S32768.Idx) : (x 0).val < 32768 := (x 0).isLt

/-- A cut of 32768 consecutive positions read at `x` is the operand at `off + x`. -/
theorem slice_at (off : Nat) (h : S262144.Slices ![off] S32768) (v : S262144.Idx → BitVec 32) (x : S32768.Idx) (hb : off + (x 0).val < 262144) :
    extractStridedSlice S32768 ![off] v h x = v (ValueIdx.ix1 ⟨off + (x 0).val, hb⟩) :=
  extractStridedSlice_apply ![off] v h x _ (fun a => match a with | ⟨0, _⟩ => rfl)

theorem blk_inb_user (w : Nat) (hw : w < 16384) : ∀ a, ((![w, 0, 0] : Fin 3 → Nat) a + 1) * S1x1x512.size a ≤ S16384x1x512.size a
  | ⟨0, _⟩ => by show (w + 1) * 1 ≤ 16384; omega
  | ⟨1, _⟩ => by show (0 + 1) * 1 ≤ 1; omega
  | ⟨2, _⟩ => by show (0 + 1) * 512 ≤ 512; omega
theorem blk_inb_item (w : Nat) (hw : w < 50000) : ∀ a, ((![w, 0, 0] : Fin 3 → Nat) a + 1) * S1x1x512.size a ≤ S50000x1x512.size a
  | ⟨0, _⟩ => by show (w + 1) * 1 ≤ 50000; omega
  | ⟨1, _⟩ => by show (0 + 1) * 1 ≤ 1; omega
  | ⟨2, _⟩ => by show (0 + 1) * 512 ≤ 512; omega
theorem blk_inb_bias (w : Nat) (hw : w < 50000) : ∀ a, ((![w, 0, 0] : Fin 3 → Nat) a + 1) * S1x1x1.size a ≤ S50000x1x1.size a
  | ⟨0, _⟩ => by show (w + 1) * 1 ≤ 50000; omega
  | ⟨1, _⟩ => by show (0 + 1) * 1 ≤ 1; omega
  | ⟨2, _⟩ => by show (0 + 1) * 1 ≤ 1; omega

theorem arg3_V2 (outs : Gen.Outs (F := F)) (c : Dev nD) : Gen.V2 m outs c main_arg3 = m ((c : Thread nD τ).loc main_arg3) :=
  (V2_of m outs c main_arg3 (by decide)).trans (V1_of m c main_arg3 (by decide))
theorem arg4_V2 (outs : Gen.Outs (F := F)) (c : Dev nD) : Gen.V2 m outs c main_arg4 = m ((c : Thread nD τ).loc main_arg4) :=
  (V2_of m outs c main_arg4 (by decide)).trans (V1_of m c main_arg4 (by decide))

def pf1 : pre1.Contents (Elt F) := fun j => E1 m (outs0 m) (0 : Dev nD) (pre1.ref j)

theorem E1_user (outs : Gen.Outs (F := F)) (c : Dev nD) :
    (E1 m outs c main_v20 : S32768.Idx → BitVec 32) = extractStridedSlice S32768 ![0] (m ((c : Thread nD τ).loc main_arg3) : S262144.Idx → BitVec 32) slices_S262144_S32768_0 := by
  dsimp only [E1, atRefs, Gen.V3, Gen.hostOps1]
  after_results
  rw [arg3_V2]

theorem E1_item (outs : Gen.Outs (F := F)) (c : Dev nD) :
    (E1 m outs c main_v21 : S32768.Idx → BitVec 32) = extractStridedSlice S32768 ![0] (m ((c : Thread nD τ).loc main_arg4) : S262144.Idx → BitVec 32) slices_S262144_S32768_0 := by
  dsimp only [E1, atRefs, Gen.V3, Gen.hostOps1]
  after_results
  rw [arg4_V2]

theorem arg3_V4 (outs : Gen.Outs (F := F)) (c : Dev nD) : Gen.V4 m outs c main_arg3 = m ((c : Thread nD τ).loc main_arg3) :=
  (V4_of m outs c main_arg3 (by decide)).trans ((V3_of m outs c main_arg3 (by decide)).trans (arg3_V2 m outs c))
theorem arg4_V4 (outs : Gen.Outs (F := F)) (c : Dev nD) : Gen.V4 m outs c main_arg4 = m ((c : Thread nD τ).loc main_arg4) :=
  (V4_of m outs c main_arg4 (by decide)).trans ((V3_of m outs c main_arg4 (by decide)).trans (arg4_V2 m outs c))

theorem pf1_entry (outs : Gen.Outs (F := F)) (c : Dev nD) (j : Fin 2) : E1 m outs c (pre1.ref j) = pf1 m j := by
  obtain rfl : c = 0 := Subsingleton.elim _ _
  match j with
  | 0 => exact (E1_user m outs 0).trans (E1_user m (outs0 m) 0).symm
  | 1 => exact (E1_item m outs 0).trans (E1_item m (outs0 m) 0).symm

theorem pf1_user (x : S32768.Idx) :
    (pf1 m 0 x : BitVec 32) = (m (((0 : Dev nD) : Thread nD τ).loc main_arg3) : S262144.Idx → BitVec 32) (ValueIdx.ix1 ⟨0 + (x 0).val, by have := lt_32768 x; omega⟩) :=
  (congrFun (E1_user m (outs0 m) 0) x).trans (slice_at 0 _ _ x _)
theorem pf1_item (x : S32768.Idx) :
    (pf1 m 1 x : BitVec 32) = (m (((0 : Dev nD) : Thread nD τ).loc main_arg4) : S262144.Idx → BitVec 32) (ValueIdx.ix1 ⟨0 + (x 0).val, by have := lt_32768 x; omega⟩) :=
  (congrFun (E1_item m (outs0 m) 0) x).trans (slice_at 0 _ _ x _)

theorem tix1 (i : grid1.Coords) (h1 : 0 < S1.numel) :
    (Rect.unit (s := S32768) (k1_off1 i) S1.size (k1_off1_inb i)).emb (Shape.Idx.first h1) = ValueIdx.ix1 ⟨(i 0).val, (i 0).isLt⟩ := by
  funext a
  match a with
  | ⟨0, _⟩ =>
    apply Fin.ext
    show k1_off1 i 0 + 1 * 0 = (i 0).val
    rw [k1_off1_eq]; rfl

theorem cc1_t0 (pf : pre1.Contents (Elt F)) (i : grid1.Coords) :
    cc1_transform_0 k1_off1_inb numel1_S1 pf i = ![(pf 0 (ValueIdx.ix1 ⟨(i 0).val, (i 0).isLt⟩) : BitVec 32).toNat, 0, 0] := by
  unfold cc1_transform_0
  exact congrArg (fun x => ![(pf 0 x : BitVec 32).toNat, 0, 0]) (tix1 i (numel1_S1.symm ▸ Nat.one_pos))

theorem cc1_t1 (pf : pre1.Contents (Elt F)) (i : grid1.Coords) :
    cc1_transform_1 k1_off1_inb numel1_S1 pf i = ![(pf 1 (ValueIdx.ix1 ⟨(i 0).val, (i 0).isLt⟩) : BitVec 32).toNat, 0, 0] := by
  unfold cc1_transform_1
  exact congrArg (fun x => ![(pf 1 x : BitVec 32).toNat, 0, 0]) (tix1 i (numel1_S1.symm ▸ Nat.one_pos))
theorem cc1_t2 (pf : pre1.Contents (Elt F)) (i : grid1.Coords) :
    cc1_transform_2 k1_off1_inb numel1_S1 pf i = ![(pf 1 (ValueIdx.ix1 ⟨(i 0).val, (i 0).isLt⟩) : BitVec 32).toNat, 0, 0] := by
  unfold cc1_transform_2
  exact congrArg (fun x => ![(pf 1 x : BitVec 32).toNat, 0, 0]) (tix1 i (numel1_S1.symm ▸ Nat.one_pos))

/-- With user words below 16384 and item words below 50000 every table-indexed block lies inside its array. -/
theorem ok1_of_tables (pf : pre1.Contents (Elt F)) (hu : ∀ x, (pf 0 x : BitVec 32).toNat < 16384) (hi : ∀ x, (pf 1 x : BitVec 32).toNat < 50000) :
    ok1 pf := by
  refine ⟨fun i => ⟨?_, .inl rfl⟩, fun i => ⟨?_, .inl rfl⟩, fun i => ⟨?_, .inl rfl⟩⟩
  · rw [cc1_t0]; exact blk_inb_user _ (hu _)
  · rw [cc1_t1]; exact blk_inb_item _ (hi _)
  · rw [cc1_t2]; exact blk_inb_bias _ (hi _)

theorem ok1_of_ranges (hu : ∀ i, ((m (((0 : Dev nD) : Thread nD τ).loc main_arg3) : S262144.Idx → BitVec 32) i).toNat < 16384)
    (hi : ∀ i, ((m (((0 : Dev nD) : Thread nD τ).loc main_arg4) : S262144.Idx → BitVec 32) i).toNat < 50000) : ok1 (F := F) (pf1 m) :=
  ok1_of_tables (pf1 m) (fun x => (congrArg BitVec.toNat (pf1_user m x)).trans_lt (hu _))
    (fun x => (congrArg BitVec.toNat (pf1_item m x)).trans_lt (hi _))

def pf2 : pre2.Contents (Elt F) := fun j => E2 m (outs0 m) (0 : Dev nD) (pre2.ref j)

theorem E2_user (outs : Gen.Outs (F := F)) (c : Dev nD) :
    (E2 m outs c main_v27 : S32768.Idx → BitVec 32) = extractStridedSlice S32768 ![32768] (m ((c : Thread nD τ).loc main_arg3) : S262144.Idx → BitVec 32) slices_S262144_S32768_32768 := by
  dsimp only [E2, atRefs, Gen.V5, Gen.hostOps2]
  after_results
  rw [arg3_V4]

theorem E2_item (outs : Gen.Outs (F := F)) (c : Dev nD) :
    (E2 m outs c main_v28 : S32768.Idx → BitVec 32) = extractStridedSlice S32768 ![32768] (m ((c : Thread nD τ).loc main_arg4) : S262144.Idx → BitVec 32) slices_S262144_S32768_32768 := by
  dsimp only [E2, atRefs, Gen.V5, Gen.hostOps2]
  after_results
  rw [arg4_V4]

theorem arg3_V6 (outs : Gen.Outs (F := F)) (c : Dev nD) : Gen.V6 m outs c main_arg3 = m ((c : Thread nD τ).loc main_arg3) :=
  (V6_of m outs c main_arg3 (by decide)).trans ((V5_of m outs c main_arg3 (by decide)).trans (arg3_V4 m outs c))
theorem arg4_V6 (outs : Gen.Outs (F := F)) (c : Dev nD) : Gen.V6 m outs c main_arg4 = m ((c : Thread nD τ).loc main_arg4) :=
  (V6_of m outs c main_arg4 (by decide)).trans ((V5_of m outs c main_arg4 (by decide)).trans (arg4_V4 m outs c))

theorem pf2_entry (outs : Gen.Outs (F := F)) (c : Dev nD) (j : Fin 2) : E2 m outs c (pre2.ref j) = pf2 m j := by
  obtain rfl : c = 0 := Subsingleton.elim _ _
  match j with
  | 0 => exact (E2_user m outs 0).trans (E2_user m (outs0 m) 0).symm
  | 1 => exact (E2_item m outs 0).trans (E2_item m (outs0 m) 0).symm

theorem pf2_user (x : S32768.Idx) :
    (pf2 m 0 x : BitVec 32) = (m (((0 : Dev nD) : Thread nD τ).loc main_arg3) : S262144.Idx → BitVec 32) (ValueIdx.ix1 ⟨32768 + (x 0).val, by have := lt_32768 x; omega⟩) :=
  (congrFun (E2_user m (outs0 m) 0) x).trans (slice_at 32768 _ _ x _)
theorem pf2_item (x : S32768.Idx) :
    (pf2 m 1 x : BitVec 32) = (m (((0 : Dev nD) : Thread nD τ).loc main_arg4) : S262144.Idx → BitVec 32) (ValueIdx.ix1 ⟨32768 + (x 0).val, by have := lt_32768 x; omega⟩) :=
  (congrFun (E2_item m (outs0 m) 0) x).trans (slice_at 32768 _ _ x _)

theorem tix2 (i : grid2.Coords) (h1 : 0 < S1.numel) :
    (Rect.unit (s := S32768) (k2_off1 i) S1.size (k2_off1_inb i)).emb (Shape.Idx.first h1) = ValueIdx.ix1 ⟨(i 0).val, (i 0).isLt⟩ :=
  tix1 i h1

theorem cc2_t0 (pf : pre2.Contents (Elt F)) (i : grid2.Coords) :
    cc2_transform_0 k2_off1_inb numel1_S1 pf i = ![(pf 0 (ValueIdx.ix1 ⟨(i 0).val, (i 0).isLt⟩) : BitVec 32).toNat, 0, 0] := by
  unfold cc2_transform_0
  exact congrArg (fun x => ![(pf 0 x : BitVec 32).toNat, 0, 0]) (tix2 i (numel1_S1.symm ▸ Nat.one_pos))

theorem cc2_t1 (pf : pre2.Contents (Elt F)) (i : grid2.Coords) :
    cc2_transform_1 k2_off1_inb numel1_S1 pf i = ![(pf 1 (ValueIdx.ix1 ⟨(i 0).val, (i 0).isLt⟩) : BitVec 32).toNat, 0, 0] := by
  unfold cc2_transform_1
  exact congrArg (fun x => ![(pf 1 x : BitVec 32).toNat, 0, 0]) (tix2 i (numel1_S1.symm ▸ Nat.one_pos))
theorem cc2_t2 (pf : pre2.Contents (Elt F)) (i : grid2.Coords) :
    cc2_transform_2 k2_off1_inb numel1_S1 pf i = ![(pf 1 (ValueIdx.ix1 ⟨(i 0).val, (i 0).isLt⟩) : BitVec 32).toNat, 0, 0] := by
  unfold cc2_transform_2
  exact congrArg (fun x => ![(pf 1 x : BitVec 32).toNat, 0, 0]) (tix2 i (numel1_S1.symm ▸ Nat.one_pos))

theorem ok2_of_tables (pf : pre2.Contents (Elt F)) (hu : ∀ x, (pf 0 x : BitVec 32).toNat < 16384) (hi : ∀ x, (pf 1 x : BitVec 32).toNat < 50000) :
    ok2 pf := by
  refine ⟨fun i => ⟨?_, .inl rfl⟩, fun i => ⟨?_, .inl rfl⟩, fun i => ⟨?_, .inl rfl⟩⟩
  · rw [cc2_t0]; exact blk_inb_user _ (hu _)
  · rw [cc2_t1]; exact blk_inb_item _ (hi _)
  · rw [cc2_t2]; exact blk_inb_bias _ (hi _)

theorem ok2_of_ranges (hu : ∀ i, ((m (((0 : Dev nD) : Thread nD τ).loc main_arg3) : S262144.Idx → BitVec 32) i).toNat < 16384)
    (hi : ∀ i, ((m (((0 : Dev nD) : Thread nD τ).loc main_arg4) : S262144.Idx → BitVec 32) i).toNat < 50000) : ok2 (F := F) (pf2 m) :=
  ok2_of_tables (pf2 m) (fun x => (congrArg BitVec.toNat (pf2_user m x)).trans_lt (hu _))
    (fun x => (congrArg BitVec.toNat (pf2_item m x)).trans_lt (hi _))

def pf3 : pre3.Contents (Elt F) := fun j => E3 m (outs0 m) (0 : Dev nD) (pre3.ref j)

theorem E3_user (outs : Gen.Outs (F := F)) (c : Dev nD) :
    (E3 m outs c main_v34 : S32768.Idx → BitVec 32) = extractStridedSlice S32768 ![65536] (m ((c : Thread nD τ).loc main_arg3) : S262144.Idx → BitVec 32) slices_S262144_S32768_65536 := by
  dsimp only [E3, atRefs, Gen.V7, Gen.hostOps3]
  after_results
  rw [arg3_V6]

theorem E3_item (outs : Gen.Outs (F := F)) (c : Dev nD) :
    (E3 m outs c main_v35 : S32768.Idx → BitVec 32) = extractStridedSlice S32768 ![65536] (m ((c : Thread nD τ).loc main_arg4) : S262144.Idx → BitVec 32) slices_S262144_S32768_65536 := by
  dsimp only [E3, atRefs, Gen.V7, Gen.hostOps3]
  after_results
  rw [arg4_V6]

theorem arg3_V8 (outs : Gen.Outs (F := F)) (c : Dev nD) : Gen.V8 m outs c main_arg3 = m ((c : Thread nD τ).loc main_arg3) :=
  (V8_of m outs c main_arg3 (by decide)).trans ((V7_of m outs c main_arg3 (by decide)).trans (arg3_V6 m outs c))
theorem arg4_V8 (outs : Gen.Outs (F := F)) (c : Dev nD) : Gen.V8 m outs c main_arg4 = m ((c : Thread nD τ).loc main_arg4) :=
  (V8_of m outs c main_arg4 (by decide)).trans ((V7_of m outs c main_arg4 (by decide)).trans (arg4_V6 m outs c))

theorem pf3_entry (outs : Gen.Outs (F := F)) (c : Dev nD) (j : Fin 2) : E3 m outs c (pre3.ref j) = pf3 m j := by
  obtain rfl : c = 0 := Subsingleton.elim _ _
  match j with
  | 0 => exact (E3_user m outs 0).trans (E3_user m (outs0 m) 0).symm
  | 1 => exact (E3_item m outs 0).trans (E3_item m (outs0 m) 0).symm

theorem pf3_user (x : S32768.Idx) :
    (pf3 m 0 x : BitVec 32) = (m (((0 : Dev nD) : Thread nD τ).loc main_arg3) : S262144.Idx → BitVec 32) (ValueIdx.ix1 ⟨65536 + (x 0).val, by have := lt_32768 x; omega⟩) :=
  (congrFun (E3_user m (outs0 m) 0) x).trans (slice_at 65536 _ _ x _)
theorem pf3_item (x : S32768.Idx) :
    (pf3 m 1 x : BitVec 32) = (m (((0 : Dev nD) : Thread nD τ).loc main_arg4) : S262144.Idx → BitVec 32) (ValueIdx.ix1 ⟨65536 + (x 0).val, by have := lt_32768 x; omega⟩) :=
  (congrFun (E3_item m (outs0 m) 0) x).trans (slice_at 65536 _ _ x _)

theorem tix3 (i : grid3.Coords) (h1 : 0 < S1.numel) :
    (Rect.unit (s := S32768) (k3_off1 i) S1.size (k3_off1_inb i)).emb (Shape.Idx.first h1) = ValueIdx.ix1 ⟨(i 0).val, (i 0).isLt⟩ :=
  tix1 i h1

theorem cc3_t0 (pf : pre3.Contents (Elt F)) (i : grid3.Coords) :
    cc3_transform_0 k3_off1_inb numel1_S1 pf i = ![(pf 0 (ValueIdx.ix1 ⟨(i 0).val, (i 0).isLt⟩) : BitVec 32).toNat, 0, 0] := by
  unfold cc3_transform_0
  exact congrArg (fun x => ![(pf 0 x : BitVec 32).toNat, 0, 0]) (tix3 i (numel1_S1.symm ▸ Nat.one_pos))

theorem cc3_t1 (pf : pre3.Contents (Elt F)) (i : grid3.Coords) :
    cc3_transform_1 k3_off1_inb numel1_S1 pf i = ![(pf 1 (ValueIdx.ix1 ⟨(i 0).val, (i 0).isLt⟩) : BitVec 32).toNat, 0, 0] := by
  unfold cc3_transform_1
  exact congrArg (fun x => ![(pf 1 x : BitVec 32).toNat, 0, 0]) (tix3 i (numel1_S1.symm ▸ Nat.one_pos))
theorem cc3_t2 (pf : pre3.Contents (Elt F)) (i : grid3.Coords) :
    cc3_transform_2 k3_off1_inb numel1_S1 pf i = ![(pf 1 (ValueIdx.ix1 ⟨(i 0).val, (i 0).isLt⟩) : BitVec 32).toNat, 0, 0] := by
  unfold cc3_transform_2
  exact congrArg (fun x => ![(pf 1 x : BitVec 32).toNat, 0, 0]) (tix3 i (numel1_S1.symm ▸ Nat.one_pos))

theorem ok3_of_tables (pf : pre3.Contents (Elt F)) (hu : ∀ x, (pf 0 x : BitVec 32).toNat < 16384) (hi : ∀ x, (pf 1 x : BitVec 32).toNat < 50000) :
    ok3 pf := by
  refine ⟨fun i => ⟨?_, .inl rfl⟩, fun i => ⟨?_, .inl rfl⟩, fun i => ⟨?_, .inl rfl⟩⟩
  · rw [cc3_t0]; exact blk_inb_user _ (hu _)
  · rw [cc3_t1]; exact blk_inb_item _ (hi _)
  · rw [cc3_t2]; exact blk_inb_bias _ (hi _)

theorem ok3_of_ranges (hu : ∀ i, ((m (((0 : Dev nD) : Thread nD τ).loc main_arg3) : S262144.Idx → BitVec 32) i).toNat < 16384)
    (hi : ∀ i, ((m (((0 : Dev nD) : Thread nD τ).loc main_arg4) : S262144.Idx → BitVec 32) i).toNat < 50000) : ok3 (F := F) (pf3 m) :=
  ok3_of_tables (pf3 m) (fun x => (congrArg BitVec.toNat (pf3_user m x)).trans_lt (hu _))
    (fun x => (congrArg BitVec.toNat (pf3_item m x)).trans_lt (hi _))

def pf4 : pre4.Contents (Elt F) := fun j => E4 m (outs0 m) (0 : Dev nD) (pre4.ref j)

theorem E4_user (outs : Gen.Outs (F := F)) (c : Dev nD) :
    (E4 m outs c main_v41 : S32768.Idx → BitVec 32) = extractStridedSlice S32768 ![98304] (m ((c : Thread nD τ).loc main_arg3) : S262144.Idx → BitVec 32) slices_S262144_S32768_98304 := by
  dsimp only [E4, atRefs, Gen.V9, Gen.hostOps4]
  after_results
  rw [arg3_V8]

theorem E4_item (outs : Gen.Outs (F := F)) (c : Dev nD) :
    (E4 m outs c main_v42 : S32768.Idx → BitVec 32) = extractStridedSlice S32768 ![98304] (m ((c : Thread nD τ).loc main_arg4) : S262144.Idx → BitVec 32) slices_S262144_S32768_98304 := by
  dsimp only [E4, atRefs, Gen.V9, Gen.hostOps4]
  after_results
  rw [arg4_V8]

theorem arg3_V10 (outs : Gen.Outs (F := F)) (c : Dev nD) : Gen.V10 m outs c main_arg3 = m ((c : Thread nD τ).loc main_arg3) :=
  (V10_of m outs c main_arg3 (by decide)).trans ((V9_of m outs c main_arg3 (by decide)).trans (arg3_V8 m outs c))
theorem arg4_V10 (outs : Gen.Outs (F := F)) (c : Dev nD) : Gen.V10 m outs c main_arg4 = m ((c : Thread nD τ).loc main_arg4) :=
  (V10_of m outs c main_arg4 (by decide)).trans ((V9_of m outs c main_arg4 (by decide)).trans (arg4_V8 m outs c))

theorem pf4_entry (outs : Gen.Outs (F := F)) (c : Dev nD) (j : Fin 2) : E4 m outs c (pre4.ref j) = pf4 m j := by
  obtain rfl : c = 0 := Subsingleton.elim _ _
  match j with
  | 0 => exact (E4_user m outs 0).trans (E4_user m (outs0 m) 0).symm
  | 1 => exact (E4_item m outs 0).trans (E4_item m (outs0 m) 0).symm

theorem pf4_user (x : S32768.Idx) :
    (pf4 m 0 x : BitVec 32) = (m (((0 : Dev nD) : Thread nD τ).loc main_arg3) : S262144.Idx → BitVec 32) (ValueIdx.ix1 ⟨98304 + (x 0).val, by have := lt_32768 x; omega⟩) :=
  (congrFun (E4_user m (outs0 m) 0) x).trans (slice_at 98304 _ _ x _)
theorem pf4_item (x : S32768.Idx) :
    (pf4 m 1 x : BitVec 32) = (m (((0 : Dev nD) : Thread nD τ).loc main_arg4) : S262144.Idx → BitVec 32) (ValueIdx.ix1 ⟨98304 + (x 0).val, by have := lt_32768 x; omega⟩) :=
  (congrFun (E4_item m (outs0 m) 0) x).trans (slice_at 98304 _ _ x _)

theorem tix4 (i : grid4.Coords) (h1 : 0 < S1.numel) :
    (Rect.unit (s := S32768) (k4_off1 i) S1.size (k4_off1_inb i)).emb (Shape.Idx.first h1) = ValueIdx.ix1 ⟨(i 0).val, (i 0).isLt⟩ :=
  tix1 i h1

theorem cc4_t0 (pf : pre4.Contents (Elt F)) (i : grid4.Coords) :
    cc4_transform_0 k4_off1_inb numel1_S1 pf i = ![(pf 0 (ValueIdx.ix1 ⟨(i 0).val, (i 0).isLt⟩) : BitVec 32).toNat, 0, 0] := by
  unfold cc4_transform_0
  exact congrArg (fun x => ![(pf 0 x : BitVec 32).toNat, 0, 0]) (tix4 i (numel1_S1.symm ▸ Nat.one_pos))

theorem cc4_t1 (pf : pre4.Contents (Elt F)) (i : grid4.Coords) :
    cc4_transform_1 k4_off1_inb numel1_S1 pf i = ![(pf 1 (ValueIdx.ix1 ⟨(i 0).val, (i 0).isLt⟩) : BitVec 32).toNat, 0, 0] := by
  unfold cc4_transform_1
  exact congrArg (fun x => ![(pf 1 x : BitVec 32).toNat, 0, 0]) (tix4 i (numel1_S1.symm ▸ Nat.one_pos))
theorem cc4_t2 (pf : pre4.Contents (Elt F)) (i : grid4.Coords) :
    cc4_transform_2 k4_off1_inb numel1_S1 pf i = ![(pf 1 (ValueIdx.ix1 ⟨(i 0).val, (i 0).isLt⟩) : BitVec 32).toNat, 0, 0] := by
  unfold cc4_transform_2
  exact congrArg (fun x => ![(pf 1 x : BitVec 32).toNat, 0, 0]) (tix4 i (numel1_S1.symm ▸ Nat.one_pos))

theorem ok4_of_tables (pf : pre4.Contents (Elt F)) (hu : ∀ x, (pf 0 x : BitVec 32).toNat < 16384) (hi : ∀ x, (pf 1 x : BitVec 32).toNat < 50000) :
    ok4 pf := by
  refine ⟨fun i => ⟨?_, .inl rfl⟩, fun i => ⟨?_, .inl rfl⟩, fun i => ⟨?_, .inl rfl⟩⟩
  · rw [cc4_t0]; exact blk_inb_user _ (hu _)
  · rw [cc4_t1]; exact blk_inb_item _ (hi _)
  · rw [cc4_t2]; exact blk_inb_bias _ (hi _)

theorem ok4_of_ranges (hu : ∀ i, ((m (((0 : Dev nD) : Thread nD τ).loc main_arg3) : S262144.Idx → BitVec 32) i).toNat < 16384)
    (hi : ∀ i, ((m (((0 : Dev nD) : Thread nD τ).loc main_arg4) : S262144.Idx → BitVec 32) i).toNat < 50000) : ok4 (F := F) (pf4 m) :=
  ok4_of_tables (pf4 m) (fun x => (congrArg BitVec.toNat (pf4_user m x)).trans_lt (hu _))
    (fun x => (congrArg BitVec.toNat (pf4_item m x)).trans_lt (hi _))

def pf5 : pre5.Contents (Elt F) := fun j => E5 m (outs0 m) (0 : Dev nD) (pre5.ref j)

theorem E5_user (outs : Gen.Outs (F := F)) (c : Dev nD) :
    (E5 m outs c main_v48 : S32768.Idx → BitVec 32) = extractStridedSlice S32768 ![131072] (m ((c : Thread nD τ).loc main_arg3) : S262144.Idx → BitVec 32) slices_S262144_S32768_131072 := by
  dsimp only [E5, atRefs, Gen.V11, Gen.hostOps5]
  after_results
  rw [arg3_V10]

theorem E5_item (outs : Gen.Outs (F := F)) (c : Dev nD) :
    (E5 m outs c main_v49 : S32768.Idx → BitVec 32) = extractStridedSlice S32768 ![131072] (m ((c : Thread nD τ).loc main_arg4) : S262144.Idx → BitVec 32) slices_S262144_S32768_131072 := by
  dsimp only [E5, atRefs, Gen.V11, Gen.hostOps5]
  after_results
  rw [arg4_V10]

theorem arg3_V12 (outs : Gen.Outs (F := F)) (c : Dev nD) : Gen.V12 m outs c main_arg3 = m ((c : Thread nD τ).loc main_arg3) :=
  (V12_of m outs c main_arg3 (by decide)).trans ((V11_of m outs c main_arg3 (by decide)).trans (arg3_V10 m outs c))
theorem arg4_V12 (outs : Gen.Outs (F := F)) (c : Dev nD) : Gen.V12 m outs c main_arg4 = m ((c : Thread nD τ).loc main_arg4) :=
  (V12_of m outs c main_arg4 (by decide)).trans ((V11_of m outs c main_arg4 (by decide)).trans (arg4_V10 m outs c))

theorem pf5_entry (outs : Gen.Outs (F := F)) (c : Dev nD) (j : Fin 2) : E5 m outs c (pre5.ref j) = pf5 m j := by
  obtain rfl : c = 0 := Subsingleton.elim _ _
  match j with
  | 0 => exact (E5_user m outs 0).trans (E5_user m (outs0 m) 0).symm
  | 1 => exact (E5_item m outs 0).trans (E5_item m (outs0 m) 0).symm

theorem pf5_user (x : S32768.Idx) :
    (pf5 m 0 x : BitVec 32) = (m (((0 : Dev nD) : Thread nD τ).loc main_arg3) : S262144.Idx → BitVec 32) (ValueIdx.ix1 ⟨131072 + (x 0).val, by have := lt_32768 x; omega⟩) :=
  (congrFun (E5_user m (outs0 m) 0) x).trans (slice_at 131072 _ _ x _)
theorem pf5_item (x : S32768.Idx) :
    (pf5 m 1 x : BitVec 32) = (m (((0 : Dev nD) : Thread nD τ).loc main_arg4) : S262144.Idx → BitVec 32) (ValueIdx.ix1 ⟨131072 + (x 0).val, by have := lt_32768 x; omega⟩) :=
  (congrFun (E5_item m (outs0 m) 0) x).trans (slice_at 131072 _ _ x _)

theorem tix5 (i : grid5.Coords) (h1 : 0 < S1.numel) :
    (Rect.unit (s := S32768) (k5_off1 i) S1.size (k5_off1_inb i)).emb (Shape.Idx.first h1) = ValueIdx.ix1 ⟨(i 0).val, (i 0).isLt⟩ :=
  tix1 i h1

theorem cc5_t0 (pf : pre5.Contents (Elt F)) (i : grid5.Coords) :
    cc5_transform_0 k5_off1_inb numel1_S1 pf i = ![(pf 0 (ValueIdx.ix1 ⟨(i 0).val, (i 0).isLt⟩) : BitVec 32).toNat, 0, 0] := by
  unfold cc5_transform_0
  exact congrArg (fun x => ![(pf 0 x : BitVec 32).toNat, 0, 0]) (tix5 i (numel1_S1.symm ▸ Nat.one_pos))

theorem cc5_t1 (pf : pre5.Contents (Elt F)) (i : grid5.Coords) :
    cc5_transform_1 k5_off1_inb numel1_S1 pf i = ![(pf 1 (ValueIdx.ix1 ⟨(i 0).val, (i 0).isLt⟩) : BitVec 32).toNat, 0, 0] := by
  unfold cc5_transform_1
  exact congrArg (fun x => ![(pf 1 x : BitVec 32).toNat, 0, 0]) (tix5 i (numel1_S1.symm ▸ Nat.one_pos))
theorem cc5_t2 (pf : pre5.Contents (Elt F)) (i : grid5.Coords) :
    cc5_transform_2 k5_off1_inb numel1_S1 pf i = ![(pf 1 (ValueIdx.ix1 ⟨(i 0).val, (i 0).isLt⟩) : BitVec 32).toNat, 0, 0] := by
  unfold cc5_transform_2
  exact congrArg (fun x => ![(pf 1 x : BitVec 32).toNat, 0, 0]) (tix5 i (numel1_S1.symm ▸ Nat.one_pos))

theorem ok5_of_tables (pf : pre5.Contents (Elt F)) (hu : ∀ x, (pf 0 x : BitVec 32).toNat < 16384) (hi : ∀ x, (pf 1 x : BitVec 32).toNat < 50000) :
    ok5 pf := by
  refine ⟨fun i => ⟨?_, .inl rfl⟩, fun i => ⟨?_, .inl rfl⟩, fun i => ⟨?_, .inl rfl⟩⟩
  · rw [cc5_t0]; exact blk_inb_user _ (hu _)
  · rw [cc5_t1]; exact blk_inb_item _ (hi _)
  · rw [cc5_t2]; exact blk_inb_bias _ (hi _)

theorem ok5_of_ranges (hu : ∀ i, ((m (((0 : Dev nD) : Thread nD τ).loc main_arg3) : S262144.Idx → BitVec 32) i).toNat < 16384)
    (hi : ∀ i, ((m (((0 : Dev nD) : Thread nD τ).loc main_arg4) : S262144.Idx → BitVec 32) i).toNat < 50000) : ok5 (F := F) (pf5 m) :=
  ok5_of_tables (pf5 m) (fun x => (congrArg BitVec.toNat (pf5_user m x)).trans_lt (hu _))
    (fun x => (congrArg BitVec.toNat (pf5_item m x)).trans_lt (hi _))

def pf6 : pre6.Contents (Elt F) := fun j => E6 m (outs0 m) (0 : Dev nD) (pre6.ref j)

theorem E6_user (outs : Gen.Outs (F := F)) (c : Dev nD) :
    (E6 m outs c main_v55 : S32768.Idx → BitVec 32) = extractStridedSlice S32768 ![163840] (m ((c : Thread nD τ).loc main_arg3) : S262144.Idx → BitVec 32) slices_S262144_S32768_163840 := by
  dsimp only [E6, atRefs, Gen.V13, Gen.hostOps6]
  after_results
  rw [arg3_V12]

theorem E6_item (outs : Gen.Outs (F := F)) (c : Dev nD) :
    (E6 m outs c main_v56 : S32768.Idx → BitVec 32) = extractStridedSlice S32768 ![163840] (m ((c : Thread nD τ).loc main_arg4) : S262144.Idx → BitVec 32) slices_S262144_S32768_163840 := by
  dsimp only [E6, atRefs, Gen.V13, Gen.hostOps6]
  after_results
  rw [arg4_V12]

theorem arg3_V14 (outs : Gen.Outs (F := F)) (c : Dev nD) : Gen.V14 m outs c main_arg3 = m ((c : Thread nD τ).loc main_arg3) :=
  (V14_of m outs c main_arg3 (by decide)).trans ((V13_of m outs c main_arg3 (by decide)).trans (arg3_V12 m outs c))
theorem arg4_V14 (outs : Gen.Outs (F := F)) (c : Dev nD) : Gen.V14 m outs c main_arg4 = m ((c : Thread nD τ).loc main_arg4) :=
  (V14_of m outs c main_arg4 (by decide)).trans ((V13_of m outs c main_arg4 (by decide)).trans (arg4_V12 m outs c))

theorem pf6_entry (outs : Gen.Outs (F := F)) (c : Dev nD) (j : Fin 2) : E6 m outs c (pre6.ref j) = pf6 m j := by
  obtain rfl : c = 0 := Subsingleton.elim _ _
  match j with
  | 0 => exact (E6_user m outs 0).trans (E6_user m (outs0 m) 0).symm
  | 1 => exact (E6_item m outs 0).trans (E6_item m (outs0 m) 0).symm

theorem pf6_user (x : S32768.Idx) :
    (pf6 m 0 x : BitVec 32) = (m (((0 : Dev nD) : Thread nD τ).loc main_arg3) : S262144.Idx → BitVec 32) (ValueIdx.ix1 ⟨163840 + (x 0).val, by have := lt_32768 x; omega⟩) :=
  (congrFun (E6_user m (outs0 m) 0) x).trans (slice_at 163840 _ _ x _)
theorem pf6_item (x : S32768.Idx) :
    (pf6 m 1 x : BitVec 32) = (m (((0 : Dev nD) : Thread nD τ).loc main_arg4) : S262144.Idx → BitVec 32) (ValueIdx.ix1 ⟨163840 + (x 0).val, by have := lt_32768 x; omega⟩) :=
  (congrFun (E6_item m (outs0 m) 0) x).trans (slice_at 163840 _ _ x _)

theorem tix6 (i : grid6.Coords) (h1 : 0 < S1.numel) :
    (Rect.unit (s := S32768) (k6_off1 i) S1.size (k6_off1_inb i)).emb (Shape.Idx.first h1) = ValueIdx.ix1 ⟨(i 0).val, (i 0).isLt⟩ :=
  tix1 i h1

theorem cc6_t0 (pf : pre6.Contents (Elt F)) (i : grid6.Coords) :
    cc6_transform_0 k6_off1_inb numel1_S1 pf i = ![(pf 0 (ValueIdx.ix1 ⟨(i 0).val, (i 0).isLt⟩) : BitVec 32).toNat, 0, 0] := by
  unfold cc6_transform_0
  exact congrArg (fun x => ![(pf 0 x : BitVec 32).toNat, 0, 0]) (tix6 i (numel1_S1.symm ▸ Nat.one_pos))

theorem cc6_t1 (pf : pre6.Contents (Elt F)) (i : grid6.Coords) :
    cc6_transform_1 k6_off1_inb numel1_S1 pf i = ![(pf 1 (ValueIdx.ix1 ⟨(i 0).val, (i 0).isLt⟩) : BitVec 32).toNat, 0, 0] := by
  unfold cc6_transform_1
  exact congrArg (fun x => ![(pf 1 x : BitVec 32).toNat, 0, 0]) (tix6 i (numel1_S1.symm ▸ Nat.one_pos))
theorem cc6_t2 (pf : pre6.Contents (Elt F)) (i : grid6.Coords) :
    cc6_transform_2 k6_off1_inb numel1_S1 pf i = ![(pf 1 (ValueIdx.ix1 ⟨(i 0).val, (i 0).isLt⟩) : BitVec 32).toNat, 0, 0] := by
  unfold cc6_transform_2
  exact congrArg (fun x => ![(pf 1 x : BitVec 32).toNat, 0, 0]) (tix6 i (numel1_S1.symm ▸ Nat.one_pos))

theorem ok6_of_tables (pf : pre6.Contents (Elt F)) (hu : ∀ x, (pf 0 x : BitVec 32).toNat < 16384) (hi : ∀ x, (pf 1 x : BitVec 32).toNat < 50000) :
    ok6 pf := by
  refine ⟨fun i => ⟨?_, .inl rfl⟩, fun i => ⟨?_, .inl rfl⟩, fun i => ⟨?_, .inl rfl⟩⟩
  · rw [cc6_t0]; exact blk_inb_user _ (hu _)
  · rw [cc6_t1]; exact blk_inb_item _ (hi _)
  · rw [cc6_t2]; exact blk_inb_bias _ (hi _)

theorem ok6_of_ranges (hu : ∀ i, ((m (((0 : Dev nD) : Thread nD τ).loc main_arg3) : S262144.Idx → BitVec 32) i).toNat < 16384)
    (hi : ∀ i, ((m (((0 : Dev nD) : Thread nD τ).loc main_arg4) : S262144.Idx → BitVec 32) i).toNat < 50000) : ok6 (F := F) (pf6 m) :=
  ok6_of_tables (pf6 m) (fun x => (congrArg BitVec.toNat (pf6_user m x)).trans_lt (hu _))
    (fun x => (congrArg BitVec.toNat (pf6_item m x)).trans_lt (hi _))

def pf7 : pre7.Contents (Elt F) := fun j => E7 m (outs0 m) (0 : Dev nD) (pre7.ref j)

theorem E7_user (outs : Gen.Outs (F := F)) (c : Dev nD) :
    (E7 m outs c main_v62 : S32768.Idx → BitVec 32) = extractStridedSlice S32768 ![196608] (m ((c : Thread nD τ).loc main_arg3) : S262144.Idx → BitVec 32) slices_S262144_S32768_196608 := by
  dsimp only [E7, atRefs, Gen.V15, Gen.hostOps7]
  after_results
  rw [arg3_V14]

theorem E7_item (outs : Gen.Outs (F := F)) (c : Dev nD) :
    (E7 m outs c main_v63 : S32768.Idx → BitVec 32) = extractStridedSlice S32768 ![196608] (m ((c : Thread nD τ).loc main_arg4) : S262144.Idx → BitVec 32) slices_S262144_S32768_196608 := by
  dsimp only [E7, atRefs, Gen.V15, Gen.hostOps7]
  after_results
  rw [arg4_V14]

theorem arg3_V16 (outs : Gen.Outs (F := F)) (c : Dev nD) : Gen.V16 m outs c main_arg3 = m ((c : Thread nD τ).loc main_arg3) :=
  (V16_of m outs c main_arg3 (by decide)).trans ((V15_of m outs c main_arg3 (by decide)).trans (arg3_V14 m outs c))
theorem arg4_V16 (outs : Gen.Outs (F := F)) (c : Dev nD) : Gen.V16 m outs c main_arg4 = m ((c : Thread nD τ).loc main_arg4) :=
  (V16_of m outs c main_arg4 (by decide)).trans ((V15_of m outs c main_arg4 (by decide)).trans (arg4_V14 m outs c))

theorem pf7_entry (outs : Gen.Outs (F := F)) (c : Dev nD) (j : Fin 2) : E7 m outs c (pre7.ref j) = pf7 m j := by
  obtain rfl : c = 0 := Subsingleton.elim _ _
  match j with
  | 0 => exact (E7_user m outs 0).trans (E7_user m (outs0 m) 0).symm
  | 1 => exact (E7_item m outs 0).trans (E7_item m (outs0 m) 0).symm

theorem pf7_user (x : S32768.Idx) :
    (pf7 m 0 x : BitVec 32) = (m (((0 : Dev nD) : Thread nD τ).loc main_arg3) : S262144.Idx → BitVec 32) (ValueIdx.ix1 ⟨196608 + (x 0).val, by have := lt_32768 x; omega⟩) :=
  (congrFun (E7_user m (outs0 m) 0) x).trans (slice_at 196608 _ _ x _)
theorem pf7_item (x : S32768.Idx) :
    (pf7 m 1 x : BitVec 32) = (m (((0 : Dev nD) : Thread nD τ).loc main_arg4) : S262144.Idx → BitVec 32) (ValueIdx.ix1 ⟨196608 + (x 0).val, by have := lt_32768 x; omega⟩) :=
  (congrFun (E7_item m (outs0 m) 0) x).trans (slice_at 196608 _ _ x _)

theorem tix7 (i : grid7.Coords) (h1 : 0 < S1.numel) :
    (Rect.unit (s := S32768) (k7_off1 i) S1.size (k7_off1_inb i)).emb (Shape.Idx.first h1) = ValueIdx.ix1 ⟨(i 0).val, (i 0).isLt⟩ :=
  tix1 i h1

theorem cc7_t0 (pf : pre7.Contents (Elt F)) (i : grid7.Coords) :
    cc7_transform_0 k7_off1_inb numel1_S1 pf i = ![(pf 0 (ValueIdx.ix1 ⟨(i 0).val, (i 0).isLt⟩) : BitVec 32).toNat, 0, 0] := by
  unfold cc7_transform_0
  exact congrArg (fun x => ![(pf 0 x : BitVec 32).toNat, 0, 0]) (tix7 i (numel1_S1.symm ▸ Nat.one_pos))

theorem cc7_t1 (pf : pre7.Contents (Elt F)) (i : grid7.Coords) :
    cc7_transform_1 k7_off1_inb numel1_S1 pf i = ![(pf 1 (ValueIdx.ix1 ⟨(i 0).val, (i 0).isLt⟩) : BitVec 32).toNat, 0, 0] := by
  unfold cc7_transform_1
  exact congrArg (fun x => ![(pf 1 x : BitVec 32).toNat, 0, 0]) (tix7 i (numel1_S1.symm ▸ Nat.one_pos))
theorem cc7_t2 (pf : pre7.Contents (Elt F)) (i : grid7.Coords) :
    cc7_transform_2 k7_off1_inb numel1_S1 pf i = ![(pf 1 (ValueIdx.ix1 ⟨(i 0).val, (i 0).isLt⟩) : BitVec 32).toNat, 0, 0] := by
  unfold cc7_transform_2
  exact congrArg (fun x => ![(pf 1 x : BitVec 32).toNat, 0, 0]) (tix7 i (numel1_S1.symm ▸ Nat.one_pos))

theorem ok7_of_tables (pf : pre7.Contents (Elt F)) (hu : ∀ x, (pf 0 x : BitVec 32).toNat < 16384) (hi : ∀ x, (pf 1 x : BitVec 32).toNat < 50000) :
    ok7 pf := by
  refine ⟨fun i => ⟨?_, .inl rfl⟩, fun i => ⟨?_, .inl rfl⟩, fun i => ⟨?_, .inl rfl⟩⟩
  · rw [cc7_t0]; exact blk_inb_user _ (hu _)
  · rw [cc7_t1]; exact blk_inb_item _ (hi _)
  · rw [cc7_t2]; exact blk_inb_bias _ (hi _)

theorem ok7_of_ranges (hu : ∀ i, ((m (((0 : Dev nD) : Thread nD τ).loc main_arg3) : S262144.Idx → BitVec 32) i).toNat < 16384)
    (hi : ∀ i, ((m (((0 : Dev nD) : Thread nD τ).loc main_arg4) : S262144.Idx → BitVec 32) i).toNat < 50000) : ok7 (F := F) (pf7 m) :=
  ok7_of_tables (pf7 m) (fun x => (congrArg BitVec.toNat (pf7_user m x)).trans_lt (hu _))
    (fun x => (congrArg BitVec.toNat (pf7_item m x)).trans_lt (hi _))

def pf8 : pre8.Contents (Elt F) := fun j => E8 m (outs0 m) (0 : Dev nD) (pre8.ref j)

theorem E8_user (outs : Gen.Outs (F := F)) (c : Dev nD) :
    (E8 m outs c main_v69 : S32768.Idx → BitVec 32) = extractStridedSlice S32768 ![229376] (m ((c : Thread nD τ).loc main_arg3) : S262144.Idx → BitVec 32) slices_S262144_S32768_229376 := by
  dsimp only [E8, atRefs, Gen.V17, Gen.hostOps8]
  after_results
  rw [arg3_V16]

theorem E8_item (outs : Gen.Outs (F := F)) (c : Dev nD) :
    (E8 m outs c main_v70 : S32768.Idx → BitVec 32) = extractStridedSlice S32768 ![229376] (m ((c : Thread nD τ).loc main_arg4) : S262144.Idx → BitVec 32) slices_S262144_S32768_229376 := by
  dsimp only [E8, atRefs, Gen.V17, Gen.hostOps8]
  after_results
  rw [arg4_V16]

theorem pf8_entry (outs : Gen.Outs (F := F)) (c : Dev nD) (j : Fin 2) : E8 m outs c (pre8.ref j) = pf8 m j := by
  obtain rfl : c = 0 := Subsingleton.elim _ _
  match j with
  | 0 => exact (E8_user m outs 0).trans (E8_user m (outs0 m) 0).symm
  | 1 => exact (E8_item m outs 0).trans (E8_item m (outs0 m) 0).symm

theorem pf8_user (x : S32768.Idx) :
    (pf8 m 0 x : BitVec 32) = (m (((0 : Dev nD) : Thread nD τ).loc main_arg3) : S262144.Idx → BitVec 32) (ValueIdx.ix1 ⟨229376 + (x 0).val, by have := lt_32768 x; omega⟩) :=
  (congrFun (E8_user m (outs0 m) 0) x).trans (slice_at 229376 _ _ x _)
theorem pf8_item (x : S32768.Idx) :
    (pf8 m 1 x : BitVec 32) = (m (((0 : Dev nD) : Thread nD τ).loc main_arg4) : S262144.Idx → BitVec 32) (ValueIdx.ix1 ⟨229376 + (x 0).val, by have := lt_32768 x; omega⟩) :=
  (congrFun (E8_item m (outs0 m) 0) x).trans (slice_at 229376 _ _ x _)

theorem tix8 (i : grid8.Coords) (h1 : 0 < S1.numel) :
    (Rect.unit (s := S32768) (k8_off1 i) S1.size (k8_off1_inb i)).emb (Shape.Idx.first h1) = ValueIdx.ix1 ⟨(i 0).val, (i 0).isLt⟩ :=
  tix1 i h1

theorem cc8_t0 (pf : pre8.Contents (Elt F)) (i : grid8.Coords) :
    cc8_transform_0 k8_off1_inb numel1_S1 pf i = ![(pf 0 (ValueIdx.ix1 ⟨(i 0).val, (i 0).isLt⟩) : BitVec 32).toNat, 0, 0] := by
  unfold cc8_transform_0
  exact congrArg (fun x => ![(pf 0 x : BitVec 32).toNat, 0, 0]) (tix8 i (numel1_S1.symm ▸ Nat.one_pos))

theorem cc8_t1 (pf : pre8.Contents (Elt F)) (i : grid8.Coords) :
    cc8_transform_1 k8_off1_inb numel1_S1 pf i = ![(pf 1 (ValueIdx.ix1 ⟨(i 0).val, (i 0).isLt⟩) : BitVec 32).toNat, 0, 0] := by
  unfold cc8_transform_1
  exact congrArg (fun x => ![(pf 1 x : BitVec 32).toNat, 0, 0]) (tix8 i (numel1_S1.symm ▸ Nat.one_pos))
theorem cc8_t2 (pf : pre8.Contents (Elt F)) (i : grid8.Coords) :
    cc8_transform_2 k8_off1_inb numel1_S1 pf i = ![(pf 1 (ValueIdx.ix1 ⟨(i 0).val, (i 0).isLt⟩) : BitVec 32).toNat, 0, 0] := by
  unfold cc8_transform_2
  exact congrArg (fun x => ![(pf 1 x : BitVec 32).toNat, 0, 0]) (tix8 i (numel1_S1.symm ▸ Nat.one_pos))

theorem ok8_of_tables (pf : pre8.Contents (Elt F)) (hu : ∀ x, (pf 0 x : BitVec 32).toNat < 16384) (hi : ∀ x, (pf 1 x : BitVec 32).toNat < 50000) :
    ok8 pf := by
  refine ⟨fun i => ⟨?_, .inl rfl⟩, fun i => ⟨?_, .inl rfl⟩, fun i => ⟨?_, .inl rfl⟩⟩
  · rw [cc8_t0]; exact blk_inb_user _ (hu _)
  · rw [cc8_t1]; exact blk_inb_item _ (hi _)
  · rw [cc8_t2]; exact blk_inb_bias _ (hi _)

theorem ok8_of_ranges (hu : ∀ i, ((m (((0 : Dev nD) : Thread nD τ).loc main_arg3) : S262144.Idx → BitVec 32) i).toNat < 16384)
    (hi : ∀ i, ((m (((0 : Dev nD) : Thread nD τ).loc main_arg4) : S262144.Idx → BitVec 32) i).toNat < 50000) : ok8 (F := F) (pf8 m) :=
  ok8_of_tables (pf8 m) (fun x => (congrArg BitVec.toNat (pf8_user m x)).trans_lt (hu _))
    (fun x => (congrArg BitVec.toNat (pf8_item m x)).trans_lt (hi _))

end Cert.KernelIdeal.Hand

end
-- ==== Proof.KI.Frame.lean ====
import proofs.«421490_j32530082300068_2_alg».proof.Proof.KI.Run
import proofs.«421490_j32530082300068_2_alg».proof.Proof.KI.SolExists
import proofs.«421490_j32530082300068_2_alg».proof.Proof.KI.Tables

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (m : (ℓ : Loc nD τ sig) → Buf (Elt F) ℓ) (ρ : Dev nD → PrngReg)

abbrev RangeU : Prop := ∀ i, ((m (((0 : Dev nD) : Thread nD τ).loc main_arg3) : S262144.Idx → BitVec 32) i).toNat < 16384
abbrev RangeI : Prop := ∀ i, ((m (((0 : Dev nD) : Thread nD τ).loc main_arg4) : S262144.Idx → BitVec 32) i).toNat < 50000

def tabsOf (hu : RangeU m) (hi : RangeI m) : Tabs F where
  pf1 := pf1 m
  ok1 := ok1_of_ranges m hu hi
  pf2 := pf2 m
  ok2 := ok2_of_ranges m hu hi
  pf3 := pf3 m
  ok3 := ok3_of_ranges m hu hi
  pf4 := pf4 m
  ok4 := ok4_of_ranges m hu hi
  pf5 := pf5 m
  ok5 := ok5_of_ranges m hu hi
  pf6 := pf6 m
  ok6 := ok6_of_ranges m hu hi
  pf7 := pf7 m
  ok7 := ok7_of_ranges m hu hi
  pf8 := pf8 m
  ok8 := ok8_of_ranges m hu hi

theorem tabsAt (hu : RangeU m) (hi : RangeI m) (S : Sol m (tabsOf m hu hi)) : TabsAt S where
  e1 := pf1_entry m S.outs
  e2 := pf2_entry m S.outs
  e3 := pf3_entry m S.outs
  e4 := pf4_entry m S.outs
  e5 := pf5_entry m S.outs
  e6 := pf6_entry m S.outs
  e7 := pf7_entry m S.outs
  e8 := pf8_entry m S.outs

theorem frame (hu : RangeU m) (hi : RangeI m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  obtain ⟨S⟩ := Sol.exists m (tabsOf m hu hi)
  exact (θ_run defs _ _).mono (fun r h c =>
    ⟨(h c _ (mem_uc main_arg0 (by decide))).trans (Gen.V19_main_arg0 m S.outs c),
     (h c _ (mem_uc main_arg1 (by decide))).trans (Gen.V19_main_arg1 m S.outs c),
     (h c _ (mem_uc main_arg2 (by decide))).trans (Gen.V19_main_arg2 m S.outs c),
     (h c _ (mem_uc main_arg3 (by decide))).trans (Gen.V19_main_arg3 m S.outs c),
     (h c _ (mem_uc main_arg4 (by decide))).trans (Gen.V19_main_arg4 m S.outs c),
     (h c _ (mem_uc main_arg5 (by decide))).trans (Gen.V19_main_arg5 m S.outs c),
     (h c _ (mem_uc main_arg6 (by decide))).trans (Gen.V19_main_arg6 m S.outs c),
     (h c _ (mem_uc main_arg7 (by decide))).trans (Gen.V19_main_arg7 m S.outs c),
     (h c _ (mem_uc main_arg8 (by decide))).trans (Gen.V19_main_arg8 m S.outs c),
     (h c _ (mem_uc main_arg9 (by decide))).trans (Gen.V19_main_arg9 m S.outs c),
     (h c _ (mem_uc main_arg10 (by decide))).trans (Gen.V19_main_arg10 m S.outs c),
     (h c _ (mem_uc main_arg11 (by decide))).trans (Gen.V19_main_arg11 m S.outs c),
     (h c _ (mem_uc main_arg12 (by decide))).trans (Gen.V19_main_arg12 m S.outs c),
     (h c _ (mem_uc main_arg13 (by decide))).trans (Gen.V19_main_arg13 m S.outs c)⟩)
    (run_all S ρ (tabsAt m hu hi S))

end

end Cert.KernelIdeal.Hand

end
-- ==== Proof.KI.MlpValue.lean ====
import proofs.«421490_j32530082300068_2_alg».proof.Proof.KI.Mlp
import proofs.«421490_j32530082300068_2_alg».proof.Proof.Spec
import Idealize.ShloMosaic.Lib.Pipeline.Value
import Idealize.ShloMosaic.Lib.ValueLayout

noncomputable section

namespace Cert.KernelIdeal.Hand

open Idealize.ShloMosaic Idealize.ShloMosaic.TcCoe Idealize.ShloMosaic.Tactic
open Idealize.ShloMosaic.Pipeline (Dat Cfg Window BodyObligation cellOf)
open Idealize.ShloMosaic.ValueIdx
open Cert.KernelIdeal Cert.KernelIdeal.Gen
open scoped BigOperators

theorem lhs_mmHidden_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem lhs_mmHidden_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
theorem rhs_mmHidden_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
theorem rhs_mmHidden_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

theorem mmHidden_apply (A : FVec Ideal S1024x512 .bf16) (B : FVec Ideal S512x256 .bf16) (p : Fin 1024) (j : Fin 256) :
    matmul dot_S1024x512_S512x256_S1024x256_1_0_0_1_n_n none A B (constant (F := Ideal) S1024x256 .f32 0x00000000#32) (ValueIdx.ix2 p j)
      = ∑ k : Fin 512, A (ValueIdx.ix2 p k) * B (ValueIdx.ix2 k j) := by
  simp only [matmul]
  rw [Ideal.matmul_constant_zero_apply, ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ValueIdx.ix2 p j) ((contrEquiv1 dot_S1024x512_S512x256_S1024x256_1_0_0_1_n_n 512 rfl rfl).symm k) = ValueIdx.ix2 p k := funext fun a => Fin.ext (by
    match a with
    | ⟨0, _⟩ => exact lhs_mmHidden_0 _ _
    | ⟨1, _⟩ => exact (lhs_mmHidden_1 _ _).trans hk)
  have er : dot_S1024x512_S512x256_S1024x256_1_0_0_1_n_n.rhsIdx (ValueIdx.ix2 p j) ((contrEquiv1 dot_S1024x512_S512x256_S1024x256_1_0_0_1_n_n 512 rfl rfl).symm k) = ValueIdx.ix2 k j := funext fun a => Fin.ext (by
    match a with
    | ⟨0, _⟩ => exact (rhs_mmHidden_0 _ _).trans hk
    | ⟨1, _⟩ => exact rhs_mmHidden_1 _ _)
  rw [el, er]

theorem lhs_mmOut_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem lhs_mmOut_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
theorem rhs_mmOut_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem rhs_mmOut_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

theorem mmOut_apply (A : FVec Ideal S1024x256 .bf16) (B : FVec Ideal S256x512 .bf16) (p : Fin 1024) (j : Fin 512) :
    matmul dot_S1024x256_S256x512_S1024x512_1_0_0_1_n_n none A B (constant (F := Ideal) S1024x512 .f32 0x00000000#32) (ValueIdx.ix2 p j)
      = ∑ k : Fin 256, A (ValueIdx.ix2 p k) * B (ValueIdx.ix2 k j) := by
  simp only [matmul]
  rw [Ideal.matmul_constant_zero_apply, ← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ValueIdx.ix2 p j) ((contrEquiv1 dot_S1024x256_S256x512_S1024x512_1_0_0_1_n_n 256 rfl rfl).symm k) = ValueIdx.ix2 p k := funext fun a => Fin.ext (by
    match a with
    | ⟨0, _⟩ => exact lhs_mmOut_0 _ _
    | ⟨1, _⟩ => exact (lhs_mmOut_1 _ _).trans hk)
  have er : dot_S1024x256_S256x512_S1024x512_1_0_0_1_n_n.rhsIdx (ValueIdx.ix2 p j) ((contrEquiv1 dot_S1024x256_S256x512_S1024x512_1_0_0_1_n_n 256 rfl rfl).symm k) = ValueIdx.ix2 k j := funext fun a => Fin.ext (by
    match a with
    | ⟨0, _⟩ => exact (rhs_mmOut_0 _ _).trans hk
    | ⟨1, _⟩ => exact rhs_mmOut_1 _ _)
  rw [el, er]

theorem tanh_apply {s : Shape} {φ : FTy} (a : FVec Ideal s φ) (i : s.Idx) : tanh a i = Ideal.tanh (a i) := rfl

theorem pay_apply (x0 : Vec Ideal S1024x512 .f32) (x1 : Vec Ideal S1x512 .f32) (x2 : Vec Ideal S512x256 .f32)
    (x3 : Vec Ideal S1x256 .f32) (x4 : Vec Ideal S256x512 .f32) (x5 : Vec Ideal S1x512 .f32) (p : Fin 1024) (q : Fin 512) :
    k0_pay1 (F := Ideal) x0 x1 x2 x3 x4 x5 (ValueIdx.ix2 p q)
      = Ideal.tanh ((∑ j : Fin 256, Ideal.tanh ((∑ k : Fin 512, Ideal.tanh (x0 (ValueIdx.ix2 p k) + x1 (ValueIdx.ix2 (0 : Fin 1) k)) * x2 (ValueIdx.ix2 k j))
          + x3 (ValueIdx.ix2 (0 : Fin 1) j)) * x4 (ValueIdx.ix2 j q)) + x5 (ValueIdx.ix2 (0 : Fin 1) q)) := by
  unfold k0_pay1
  simp only [shapeCast_self]
  rw [tanh_apply, addf_apply, mmOut_apply, broadcastTo_1b_ab_apply]
  simp only [truncf_apply, tanh_apply, addf_apply, mmHidden_apply, broadcastTo_1b_ab_apply]

theorem block_value (agg : FVec Ideal S16384x512 .f32) (benc : FVec Ideal S512 .f32) (W1 : FVec Ideal S256x512 .f32) (b1 : FVec Ideal S256 .f32) (W2 : FVec Ideal S512x256 .f32) (b2 : FVec Ideal S512 .f32)
    (x0 : Vec Ideal S1024x512 .f32) (x1 : Vec Ideal S1x512 .f32) (x2 : Vec Ideal S512x256 .f32) (x3 : Vec Ideal S1x256 .f32) (x4 : Vec Ideal S256x512 .f32) (x5 : Vec Ideal S1x512 .f32) (row : Fin 1024 → Fin 16384)
    (h0 : ∀ (p : Fin 1024) (k : Fin 512), x0 (ValueIdx.ix2 p k) = agg (ValueIdx.ix2 (row p) k))
    (h1 : ∀ k : Fin 512, x1 (ValueIdx.ix2 (0 : Fin 1) k) = benc (ValueIdx.ix1 k))
    (h2 : ∀ (k : Fin 512) (j : Fin 256), x2 (ValueIdx.ix2 k j) = W1 (ValueIdx.ix2 j k))
    (h3 : ∀ j : Fin 256, x3 (ValueIdx.ix2 (0 : Fin 1) j) = b1 (ValueIdx.ix1 j))
    (h4 : ∀ (j : Fin 256) (q : Fin 512), x4 (ValueIdx.ix2 j q) = W2 (ValueIdx.ix2 q j))
    (h5 : ∀ q : Fin 512, x5 (ValueIdx.ix2 (0 : Fin 1) q) = b2 (ValueIdx.ix1 q)) (p : Fin 1024) (q : Fin 512) :
    k0_pay1 (F := Ideal) x0 x1 x2 x3 x4 x5 (ValueIdx.ix2 p q) = Cert.Spec.dec agg benc W1 b1 W2 b2 (ValueIdx.ix2 (row p) q) := by
  rw [pay_apply]
  unfold Cert.Spec.dec
  simp only [h0, h1, h2, h3, h4, h5]

theorem hz0 : (![0, 0] : Fin 2 → Nat) = fun _ => 0 := funext fun a => by
  match a with
  | ⟨0, _⟩ => rfl
  | ⟨1, _⟩ => rfl

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

section
variable (V : (c : Dev nD) → (b : Ref sig .tc) → Buf (Elt Ideal) ((c : Thread nD τ).loc b)) (c : Dev nD)
  (benc : FVec Ideal S512 .f32) (W1 : FVec Ideal S256x512 .f32) (b1 : FVec Ideal S256 .f32) (W2 : FVec Ideal S512x256 .f32) (b2 : FVec Ideal S512 .f32)

theorem mlp_flushed (h14 : V c main_v14 = transpose S512x256 [1, 0] W1 transposes_S256x512_S512x256_1_0)
    (h15 : V c main_v15 = transpose S256x512 [1, 0] W2 transposes_S512x256_S256x512_1_0)
    (h16 : V c main_v16 = shapeCast S1x512 benc shapeCasts_S512_S1x512)
    (h17 : V c main_v17 = shapeCast S1x256 b1 shapeCasts_S256_S1x256)
    (h18 : V c main_v18 = shapeCast S1x512 b2 shapeCasts_S512_S1x512) (t : Fin cfg0.N) :
    (dat0 (F := Ideal) V c).flushed 6 t
      = ((cfg0.win 6).blk t).view.read (Elt Ideal) (Cert.Spec.dec (V c main_v13) benc W1 b1 W2 b2) := by
  show (cfg0.win 6).cut (grid0.coords t) ((dat0 V c).after 6 t) = _
  rw [after0_6]
  unfold out0_6
  rw [View.canon_unit_zero hz0]
  simp only [View.ld_unit_zero (S := S1024x512) hz0, View.ld_unit_zero (S := S1x512) hz0, View.ld_unit_zero (S := S512x256) hz0,
    View.ld_unit_zero (S := S1x256) hz0, View.ld_unit_zero (S := S256x512) hz0]
  obtain ⟨e00, e01, e10, e11, e20, e21, e30, e31, e40, e41, e50, e51, e60, e61⟩ := idx_facts0 t
  have ht : t.val < 16 := lt_of_lt_of_eq t.isLt N_0
  funext j
  obtain ⟨p, q, rfl⟩ : ∃ (p : Fin 1024) (q : Fin 512), j = ValueIdx.ix2 p q := ⟨j 0, j 1, eq_ix2 j⟩
  show k0_pay1 (F := Ideal) (iblk0 V c 0 t) (iblk0 V c 1 t) (iblk0 V c 2 t) (iblk0 V c 3 t) (iblk0 V c 4 t) (iblk0 V c 5 t) (ValueIdx.ix2 p q)
    = Cert.Spec.dec (V c main_v13) benc W1 b1 W2 b2 (((cfg0.win 6).blk t).view.emb (ValueIdx.ix2 p q))
  have e6 : ((cfg0.win 6).blk t).view.emb (ValueIdx.ix2 p q) = ValueIdx.ix2 (⟨t.val * 1024 + p.val, by have := p.isLt; omega⟩ : Fin 16384) q :=
    funext fun ax => Fin.ext (by
      match ax with
      | ⟨0, _⟩ => show win0_6.index t (0 : Fin 2) * 1024 + 1 * p.val = t.val * 1024 + p.val; omega
      | ⟨1, _⟩ => show win0_6.index t (1 : Fin 2) * 512 + 1 * q.val = q.val; omega)
  rw [e6]
  refine block_value (V c main_v13) benc W1 b1 W2 b2 (iblk0 V c 0 t) (iblk0 V c 1 t) (iblk0 V c 2 t) (iblk0 V c 3 t) (iblk0 V c 4 t) (iblk0 V c 5 t)
    (fun p => ⟨t.val * 1024 + p.val, by have := p.isLt; omega⟩) ?_ ?_ ?_ ?_ ?_ ?_ p q
  · intro p k
    show V c main_v13 (((cfg0.win 0).blk t).view.emb (ValueIdx.ix2 p k)) = V c main_v13 _
    refine congrArg _ (funext fun ax => Fin.ext (by
      match ax with
      | ⟨0, _⟩ => show win0_0.index t (0 : Fin 2) * 1024 + 1 * p.val = t.val * 1024 + p.val; omega
      | ⟨1, _⟩ => show win0_0.index t (1 : Fin 2) * 512 + 1 * k.val = k.val; omega))
  · intro k
    show V c main_v16 (((cfg0.win 1).blk t).view.emb (ValueIdx.ix2 (0 : Fin 1) k)) = _
    rw [h16]
    have e : ((cfg0.win 1).blk t).view.emb (ValueIdx.ix2 (0 : Fin 1) k) = ValueIdx.ix2 (0 : Fin 1) k :=
      funext fun ax => Fin.ext (by
      match ax with
      | ⟨0, _⟩ => show win0_1.index t (0 : Fin 2) * 1 + 1 * 0 = 0; omega
      | ⟨1, _⟩ => show win0_1.index t (1 : Fin 2) * 512 + 1 * k.val = k.val; omega)
    rw [e]
    exact shapeCast_a_1a_apply benc _ 0 k
  · intro k j
    show V c main_v14 (((cfg0.win 2).blk t).view.emb (ValueIdx.ix2 k j)) = _
    rw [h14]
    have e : ((cfg0.win 2).blk t).view.emb (ValueIdx.ix2 k j) = ValueIdx.ix2 k j :=
      funext fun ax => Fin.ext (by
      match ax with
      | ⟨0, _⟩ => show win0_2.index t (0 : Fin 2) * 512 + 1 * k.val = k.val; omega
      | ⟨1, _⟩ => show win0_2.index t (1 : Fin 2) * 256 + 1 * j.val = j.val; omega)
    rw [e]
    exact transpose_ix2_apply W1 _ k j
  · intro j
    show V c main_v17 (((cfg0.win 3).blk t).view.emb (ValueIdx.ix2 (0 : Fin 1) j)) = _
    rw [h17]
    have e : ((cfg0.win 3).blk t).view.emb (ValueIdx.ix2 (0 : Fin 1) j) = ValueIdx.ix2 (0 : Fin 1) j :=
      funext fun ax => Fin.ext (by
      match ax with
      | ⟨0, _⟩ => show win0_3.index t (0 : Fin 2) * 1 + 1 * 0 = 0; omega
      | ⟨1, _⟩ => show win0_3.index t (1 : Fin 2) * 256 + 1 * j.val = j.val; omega)
    rw [e]
    exact shapeCast_a_1a_apply b1 _ 0 j
  · intro j q
    show V c main_v15 (((cfg0.win 4).blk t).view.emb (ValueIdx.ix2 j q)) = _
    rw [h15]
    have e : ((cfg0.win 4).blk t).view.emb (ValueIdx.ix2 j q) = ValueIdx.ix2 j q :=
      funext fun ax => Fin.ext (by
      match ax with
      | ⟨0, _⟩ => show win0_4.index t (0 : Fin 2) * 256 + 1 * j.val = j.val; omega
      | ⟨1, _⟩ => show win0_4.index t (1 : Fin 2) * 512 + 1 * q.val = q.val; omega)
    rw [e]
    exact transpose_ix2_apply W2 _ j q
  · intro q
    show V c main_v18 (((cfg0.win 5).blk t).view.emb (ValueIdx.ix2 (0 : Fin 1) q)) = _
    rw [h18]
    have e : ((cfg0.win 5).blk t).view.emb (ValueIdx.ix2 (0 : Fin 1) q) = ValueIdx.ix2 (0 : Fin 1) q :=
      funext fun ax => Fin.ext (by
      match ax with
      | ⟨0, _⟩ => show win0_5.index t (0 : Fin 2) * 1 + 1 * 0 = 0; omega
      | ⟨1, _⟩ => show win0_5.index t (1 : Fin 2) * 512 + 1 * q.val = q.val; omega)
    rw [e]
    exact shapeCast_a_1a_apply b2 _ 0 q

end

theorem mem_blk6 (t : Fin cfg0.N) (i : S16384x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v19).slice (win0_6.rect t)).set ↔ _
  rw [View.set_slice_whole, Rect.mem_set_unit]
  exact Iff.rfl

theorem idx_onto6 : ∀ q0 : Fin 16, ∃ t : Fin cfg0.N, win0_6.index t = ![q0.val, 0] :=
  (by decide +kernel : ∀ q0 : Fin 16, ∃ t : Fin grid0.N, win0_6.index t = ![q0.val, 0])

theorem cover6 (i : S16384x512.Idx) :
    ∃ t : Fin cfg0.N, (cfg0.win 6).flush t = true ∧ i ∈ ((cfg0.win 6).blk t).view.set := by
  have hi0 : (i 0).val < 16384 := (i 0).isLt
  have hi1 : (i 1).val < 512 := (i 1).isLt
  obtain ⟨t, ht⟩ := idx_onto6 ⟨(i 0).val / 1024, by omega⟩
  have q0 : win0_6.index t (0 : Fin 2) = (i 0).val / 1024 := congrFun ht 0
  have q1 : win0_6.index t (1 : Fin 2) = 0 := congrFun ht 1
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 512 ≤ (i 1).val ∧ (i 1).val < win0_6.index t (1 : Fin 2) * 512 + 512; omega

theorem mlp_final (V : (c : Dev nD) → (b : Ref sig .tc) → Buf (Elt Ideal) ((c : Thread nD τ).loc b)) (c : Dev nD)
    (benc : FVec Ideal S512 .f32) (W1 : FVec Ideal S256x512 .f32) (b1 : FVec Ideal S256 .f32) (W2 : FVec Ideal S512x256 .f32) (b2 : FVec Ideal S512 .f32)
    (h14 : V c main_v14 = transpose S512x256 [1, 0] W1 transposes_S256x512_S512x256_1_0)
    (h15 : V c main_v15 = transpose S256x512 [1, 0] W2 transposes_S512x256_S256x512_1_0)
    (h16 : V c main_v16 = shapeCast S1x512 benc shapeCasts_S512_S1x512)
    (h17 : V c main_v17 = shapeCast S1x256 b1 shapeCasts_S256_S1x256)
    (h18 : V c main_v18 = shapeCast S1x512 b2 shapeCasts_S512_S1x512) :
    (dat0 (F := Ideal) V c).arrAt 6 cfg0.N = Cert.Spec.dec (V c main_v13) benc W1 b1 W2 b2 :=
  (dat0 (F := Ideal) V c).arrAt_eq_of_cover 6 (Cert.Spec.dec (V c main_v13) benc W1 b1 W2 b2)
    (fun t _ => mlp_flushed V c benc W1 b1 W2 b2 h14 h15 h16 h17 h18 t) cover6

end Cert.KernelIdeal.Hand

end
-- ==== Proof.KI.HostValue.lean ====
import proofs.«421490_j32530082300068_2_alg».proof.Proof.KI.Entry
import proofs.«421490_j32530082300068_2_alg».proof.Proof.Spec
import Idealize.ShloMosaic.Lib.StableHlo.Run
import Idealize.ShloMosaic.Lib.Pipeline.Value

noncomputable section

namespace Cert.KernelIdeal.Hand

open Idealize.ShloMosaic Idealize.ShloMosaic.TcCoe Idealize.SL Idealize.SL.Sem
open Idealize.ShloMosaic.StableHlo
open Cert.KernelIdeal Cert.KernelIdeal.Gen

variable (m : (ℓ : Loc nD τ sig) → Buf (Elt Ideal) ℓ) (outs : Gen.Outs (F := Ideal))

theorem e0_agg (c : Dev nD) :
    (E0 m c main_v13 : S16384x512.Idx → EReal)
      = Cert.Spec.agg (m ((c : Thread nD τ).loc main_arg0)) (m ((c : Thread nD τ).loc main_arg1))
          (m ((c : Thread nD τ).loc main_arg2)) (m ((c : Thread nD τ).loc main_arg6)) := by
  dsimp only [E0, atRefs, Gen.V1, Gen.V0, Gen.hostOps0]
  after_results_simp
  rfl

theorem e0_w1t (c : Dev nD) :
    (E0 m c main_v14 : S512x256.Idx → EReal)
      = transpose S512x256 [1, 0] (m ((c : Thread nD τ).loc main_arg8)) transposes_S256x512_S512x256_1_0 := by
  dsimp only [E0, atRefs, Gen.V1, Gen.V0, Gen.hostOps0]
  after_results

theorem e0_w2t (c : Dev nD) :
    (E0 m c main_v15 : S256x512.Idx → EReal)
      = transpose S256x512 [1, 0] (m ((c : Thread nD τ).loc main_arg10)) transposes_S512x256_S256x512_1_0 := by
  dsimp only [E0, atRefs, Gen.V1, Gen.V0, Gen.hostOps0]
  after_results

theorem e0_benc (c : Dev nD) :
    (E0 m c main_v16 : S1x512.Idx → EReal)
      = shapeCast S1x512 (m ((c : Thread nD τ).loc main_arg7)) shapeCasts_S512_S1x512 := by
  dsimp only [E0, atRefs, Gen.V1, Gen.V0, Gen.hostOps0]
  after_results
  rfl

theorem e0_b1 (c : Dev nD) :
    (E0 m c main_v17 : S1x256.Idx → EReal)
      = shapeCast S1x256 (m ((c : Thread nD τ).loc main_arg9)) shapeCasts_S256_S1x256 := by
  dsimp only [E0, atRefs, Gen.V1, Gen.V0, Gen.hostOps0]
  after_results
  rfl

theorem e0_b2 (c : Dev nD) :
    (E0 m c main_v18 : S1x512.Idx → EReal)
      = shapeCast S1x512 (m ((c : Thread nD τ).loc main_arg11)) shapeCasts_S512_S1x512 := by
  dsimp only [E0, atRefs, Gen.V1, Gen.V0, Gen.hostOps0]
  after_results
  rfl

theorem e1_dec (c : Dev nD) :
    (E1 m outs c main_v22 : S16384x1x512.Idx → EReal)
      = shapeCast S16384x1x512 (outs 2 main_v19 c) shapeCasts_S16384x512_S16384x1x512 := by
  have h : Gen.V2 m outs c main_v19 = outs 2 main_v19 c := by
    dsimp only [Gen.V2]
    rw [Function.update_self]
  rw [← h]
  dsimp only [E1, atRefs, Gen.V3, Gen.hostOps1]
  after_results
  rfl

theorem e1_wdec (c : Dev nD) :
    (E1 m outs c main_v23 : S50000x1x512.Idx → EReal)
      = shapeCast S50000x1x512 (m ((c : Thread nD τ).loc main_arg12)) shapeCasts_S50000x512_S50000x1x512 := by
  have h : Gen.V2 m outs c main_arg12 = m ((c : Thread nD τ).loc main_arg12) := by
    rw [Gen.V2_of m outs c main_arg12 (by decide), Gen.V1_of m c main_arg12 (by decide)]
  rw [← h]
  dsimp only [E1, atRefs, Gen.V3, Gen.hostOps1]
  after_results
  rfl

theorem e1_bdec (c : Dev nD) :
    (E1 m outs c main_v24 : S50000x1x1.Idx → EReal)
      = shapeCast S50000x1x1 (m ((c : Thread nD τ).loc main_arg13)) shapeCasts_S50000_S50000x1x1 := by
  have h : Gen.V2 m outs c main_arg13 = m ((c : Thread nD τ).loc main_arg13) := by
    rw [Gen.V2_of m outs c main_arg13 (by decide), Gen.V1_of m c main_arg13 (by decide)]
  rw [← h]
  dsimp only [E1, atRefs, Gen.V3, Gen.hostOps1]
  after_results
  rfl

theorem e2_dec (c : Dev nD) :
    (E2 m outs c main_v29 : S16384x1x512.Idx → EReal)
      = shapeCast S16384x1x512 (outs 2 main_v19 c) shapeCasts_S16384x512_S16384x1x512 := by
  have h : Gen.V4 m outs c main_v19 = outs 2 main_v19 c := by
    rw [Gen.V4_of m outs c main_v19 (by decide), Gen.V3_of m outs c main_v19 (by decide)]
    dsimp only [Gen.V2]
    rw [Function.update_self]
  rw [← h]
  dsimp only [E2, atRefs, Gen.V5, Gen.hostOps2]
  after_results
  rfl

theorem e2_wdec (c : Dev nD) :
    (E2 m outs c main_v30 : S50000x1x512.Idx → EReal)
      = shapeCast S50000x1x512 (m ((c : Thread nD τ).loc main_arg12)) shapeCasts_S50000x512_S50000x1x512 := by
  have h : Gen.V4 m outs c main_arg12 = m ((c : Thread nD τ).loc main_arg12) := by
    rw [Gen.V4_of m outs c main_arg12 (by decide), Gen.V3_of m outs c main_arg12 (by decide), Gen.V2_of m outs c main_arg12 (by decide), Gen.V1_of m c main_arg12 (by decide)]
  rw [← h]
  dsimp only [E2, atRefs, Gen.V5, Gen.hostOps2]
  after_results
  rfl

theorem e2_bdec (c : Dev nD) :
    (E2 m outs c main_v31 : S50000x1x1.Idx → EReal)
      = shapeCast S50000x1x1 (m ((c : Thread nD τ).loc main_arg13)) shapeCasts_S50000_S50000x1x1 := by
  have h : Gen.V4 m outs c main_arg13 = m ((c : Thread nD τ).loc main_arg13) := by
    rw [Gen.V4_of m outs c main_arg13 (by decide), Gen.V3_of m outs c main_arg13 (by decide), Gen.V2_of m outs c main_arg13 (by decide), Gen.V1_of m c main_arg13 (by decide)]
  rw [← h]
  dsimp only [E2, atRefs, Gen.V5, Gen.hostOps2]
  after_results
  rfl

theorem e3_dec (c : Dev nD) :
    (E3 m outs c main_v36 : S16384x1x512.Idx → EReal)
      = shapeCast S16384x1x512 (outs 2 main_v19 c) shapeCasts_S16384x512_S16384x1x512 := by
  have h : Gen.V6 m outs c main_v19 = outs 2 main_v19 c := by
    rw [Gen.V6_of m outs c main_v19 (by decide), Gen.V5_of m outs c main_v19 (by decide), Gen.V4_of m outs c main_v19 (by decide), Gen.V3_of m outs c main_v19 (by decide)]
    dsimp only [Gen.V2]
    rw [Function.update_self]
  rw [← h]
  dsimp only [E3, atRefs, Gen.V7, Gen.hostOps3]
  after_results
  rfl

theorem e3_wdec (c : Dev nD) :
    (E3 m outs c main_v37 : S50000x1x512.Idx → EReal)
      = shapeCast S50000x1x512 (m ((c : Thread nD τ).loc main_arg12)) shapeCasts_S50000x512_S50000x1x512 := by
  have h : Gen.V6 m outs c main_arg12 = m ((c : Thread nD τ).loc main_arg12) := by
    rw [Gen.V6_of m outs c main_arg12 (by decide), Gen.V5_of m outs c main_arg12 (by decide), Gen.V4_of m outs c main_arg12 (by decide), Gen.V3_of m outs c main_arg12 (by decide), Gen.V2_of m outs c main_arg12 (by decide), Gen.V1_of m c main_arg12 (by decide)]
  rw [← h]
  dsimp only [E3, atRefs, Gen.V7, Gen.hostOps3]
  after_results
  rfl

theorem e3_bdec (c : Dev nD) :
    (E3 m outs c main_v38 : S50000x1x1.Idx → EReal)
      = shapeCast S50000x1x1 (m ((c : Thread nD τ).loc main_arg13)) shapeCasts_S50000_S50000x1x1 := by
  have h : Gen.V6 m outs c main_arg13 = m ((c : Thread nD τ).loc main_arg13) := by
    rw [Gen.V6_of m outs c main_arg13 (by decide), Gen.V5_of m outs c main_arg13 (by decide), Gen.V4_of m outs c main_arg13 (by decide), Gen.V3_of m outs c main_arg13 (by decide), Gen.V2_of m outs c main_arg13 (by decide), Gen.V1_of m c main_arg13 (by decide)]
  rw [← h]
  dsimp only [E3, atRefs, Gen.V7, Gen.hostOps3]
  after_results
  rfl

theorem e4_dec (c : Dev nD) :
    (E4 m outs c main_v43 : S16384x1x512.Idx → EReal)
      = shapeCast S16384x1x512 (outs 2 main_v19 c) shapeCasts_S16384x512_S16384x1x512 := by
  have h : Gen.V8 m outs c main_v19 = outs 2 main_v19 c := by
    rw [Gen.V8_of m outs c main_v19 (by decide), Gen.V7_of m outs c main_v19 (by decide), Gen.V6_of m outs c main_v19 (by decide), Gen.V5_of m outs c main_v19 (by decide), Gen.V4_of m outs c main_v19 (by decide), Gen.V3_of m outs c main_v19 (by decide)]
    dsimp only [Gen.V2]
    rw [Function.update_self]
  rw [← h]
  dsimp only [E4, atRefs, Gen.V9, Gen.hostOps4]
  after_results
  rfl

theorem e4_wdec (c : Dev nD) :
    (E4 m outs c main_v44 : S50000x1x512.Idx → EReal)
      = shapeCast S50000x1x512 (m ((c : Thread nD τ).loc main_arg12)) shapeCasts_S50000x512_S50000x1x512 := by
  have h : Gen.V8 m outs c main_arg12 = m ((c : Thread nD τ).loc main_arg12) := by
    rw [Gen.V8_of m outs c main_arg12 (by decide), Gen.V7_of m outs c main_arg12 (by decide), Gen.V6_of m outs c main_arg12 (by decide), Gen.V5_of m outs c main_arg12 (by decide), Gen.V4_of m outs c main_arg12 (by decide), Gen.V3_of m outs c main_arg12 (by decide), Gen.V2_of m outs c main_arg12 (by decide), Gen.V1_of m c main_arg12 (by decide)]
  rw [← h]
  dsimp only [E4, atRefs, Gen.V9, Gen.hostOps4]
  after_results
  rfl

theorem e4_bdec (c : Dev nD) :
    (E4 m outs c main_v45 : S50000x1x1.Idx → EReal)
      = shapeCast S50000x1x1 (m ((c : Thread nD τ).loc main_arg13)) shapeCasts_S50000_S50000x1x1 := by
  have h : Gen.V8 m outs c main_arg13 = m ((c : Thread nD τ).loc main_arg13) := by
    rw [Gen.V8_of m outs c main_arg13 (by decide), Gen.V7_of m outs c main_arg13 (by decide), Gen.V6_of m outs c main_arg13 (by decide), Gen.V5_of m outs c main_arg13 (by decide), Gen.V4_of m outs c main_arg13 (by decide), Gen.V3_of m outs c main_arg13 (by decide), Gen.V2_of m outs c main_arg13 (by decide), Gen.V1_of m c main_arg13 (by decide)]
  rw [← h]
  dsimp only [E4, atRefs, Gen.V9, Gen.hostOps4]
  after_results
  rfl

theorem e5_dec (c : Dev nD) :
    (E5 m outs c main_v50 : S16384x1x512.Idx → EReal)
      = shapeCast S16384x1x512 (outs 2 main_v19 c) shapeCasts_S16384x512_S16384x1x512 := by
  have h : Gen.V10 m outs c main_v19 = outs 2 main_v19 c := by
    rw [Gen.V10_of m outs c main_v19 (by decide), Gen.V9_of m outs c main_v19 (by decide), Gen.V8_of m outs c main_v19 (by decide), Gen.V7_of m outs c main_v19 (by decide), Gen.V6_of m outs c main_v19 (by decide), Gen.V5_of m outs c main_v19 (by decide), Gen.V4_of m outs c main_v19 (by decide), Gen.V3_of m outs c main_v19 (by decide)]
    dsimp only [Gen.V2]
    rw [Function.update_self]
  rw [← h]
  dsimp only [E5, atRefs, Gen.V11, Gen.hostOps5]
  after_results
  rfl

theorem e5_wdec (c : Dev nD) :
    (E5 m outs c main_v51 : S50000x1x512.Idx → EReal)
      = shapeCast S50000x1x512 (m ((c : Thread nD τ).loc main_arg12)) shapeCasts_S50000x512_S50000x1x512 := by
  have h : Gen.V10 m outs c main_arg12 = m ((c : Thread nD τ).loc main_arg12) := by
    rw [Gen.V10_of m outs c main_arg12 (by decide), Gen.V9_of m outs c main_arg12 (by decide), Gen.V8_of m outs c main_arg12 (by decide), Gen.V7_of m outs c main_arg12 (by decide), Gen.V6_of m outs c main_arg12 (by decide), Gen.V5_of m outs c main_arg12 (by decide), Gen.V4_of m outs c main_arg12 (by decide), Gen.V3_of m outs c main_arg12 (by decide), Gen.V2_of m outs c main_arg12 (by decide), Gen.V1_of m c main_arg12 (by decide)]
  rw [← h]
  dsimp only [E5, atRefs, Gen.V11, Gen.hostOps5]
  after_results
  rfl

theorem e5_bdec (c : Dev nD) :
    (E5 m outs c main_v52 : S50000x1x1.Idx → EReal)
      = shapeCast S50000x1x1 (m ((c : Thread nD τ).loc main_arg13)) shapeCasts_S50000_S50000x1x1 := by
  have h : Gen.V10 m outs c main_arg13 = m ((c : Thread nD τ).loc main_arg13) := by
    rw [Gen.V10_of m outs c main_arg13 (by decide), Gen.V9_of m outs c main_arg13 (by decide), Gen.V8_of m outs c main_arg13 (by decide), Gen.V7_of m outs c main_arg13 (by decide), Gen.V6_of m outs c main_arg13 (by decide), Gen.V5_of m outs c main_arg13 (by decide), Gen.V4_of m outs c main_arg13 (by decide), Gen.V3_of m outs c main_arg13 (by decide), Gen.V2_of m outs c main_arg13 (by decide), Gen.V1_of m c main_arg13 (by decide)]
  rw [← h]
  dsimp only [E5, atRefs, Gen.V11, Gen.hostOps5]
  after_results
  rfl

theorem e6_dec (c : Dev nD) :
    (E6 m outs c main_v57 : S16384x1x512.Idx → EReal)
      = shapeCast S16384x1x512 (outs 2 main_v19 c) shapeCasts_S16384x512_S16384x1x512 := by
  have h : Gen.V12 m outs c main_v19 = outs 2 main_v19 c := by
    rw [Gen.V12_of m outs c main_v19 (by decide), Gen.V11_of m outs c main_v19 (by decide), Gen.V10_of m outs c main_v19 (by decide), Gen.V9_of m outs c main_v19 (by decide), Gen.V8_of m outs c main_v19 (by decide), Gen.V7_of m outs c main_v19 (by decide), Gen.V6_of m outs c main_v19 (by decide), Gen.V5_of m outs c main_v19 (by decide), Gen.V4_of m outs c main_v19 (by decide), Gen.V3_of m outs c main_v19 (by decide)]
    dsimp only [Gen.V2]
    rw [Function.update_self]
  rw [← h]
  dsimp only [E6, atRefs, Gen.V13, Gen.hostOps6]
  after_results
  rfl

theorem e6_wdec (c : Dev nD) :
    (E6 m outs c main_v58 : S50000x1x512.Idx → EReal)
      = shapeCast S50000x1x512 (m ((c : Thread nD τ).loc main_arg12)) shapeCasts_S50000x512_S50000x1x512 := by
  have h : Gen.V12 m outs c main_arg12 = m ((c : Thread nD τ).loc main_arg12) := by
    rw [Gen.V12_of m outs c main_arg12 (by decide), Gen.V11_of m outs c main_arg12 (by decide), Gen.V10_of m outs c main_arg12 (by decide), Gen.V9_of m outs c main_arg12 (by decide), Gen.V8_of m outs c main_arg12 (by decide), Gen.V7_of m outs c main_arg12 (by decide), Gen.V6_of m outs c main_arg12 (by decide), Gen.V5_of m outs c main_arg12 (by decide), Gen.V4_of m outs c main_arg12 (by decide), Gen.V3_of m outs c main_arg12 (by decide), Gen.V2_of m outs c main_arg12 (by decide), Gen.V1_of m c main_arg12 (by decide)]
  rw [← h]
  dsimp only [E6, atRefs, Gen.V13, Gen.hostOps6]
  after_results
  rfl

theorem e6_bdec (c : Dev nD) :
    (E6 m outs c main_v59 : S50000x1x1.Idx → EReal)
      = shapeCast S50000x1x1 (m ((c : Thread nD τ).loc main_arg13)) shapeCasts_S50000_S50000x1x1 := by
  have h : Gen.V12 m outs c main_arg13 = m ((c : Thread nD τ).loc main_arg13) := by
    rw [Gen.V12_of m outs c main_arg13 (by decide), Gen.V11_of m outs c main_arg13 (by decide), Gen.V10_of m outs c main_arg13 (by decide), Gen.V9_of m outs c main_arg13 (by decide), Gen.V8_of m outs c main_arg13 (by decide), Gen.V7_of m outs c main_arg13 (by decide), Gen.V6_of m outs c main_arg13 (by decide), Gen.V5_of m outs c main_arg13 (by decide), Gen.V4_of m outs c main_arg13 (by decide), Gen.V3_of m outs c main_arg13 (by decide), Gen.V2_of m outs c main_arg13 (by decide), Gen.V1_of m c main_arg13 (by decide)]
  rw [← h]
  dsimp only [E6, atRefs, Gen.V13, Gen.hostOps6]
  after_results
  rfl

theorem e7_dec (c : Dev nD) :
    (E7 m outs c main_v64 : S16384x1x512.Idx → EReal)
      = shapeCast S16384x1x512 (outs 2 main_v19 c) shapeCasts_S16384x512_S16384x1x512 := by
  have h : Gen.V14 m outs c main_v19 = outs 2 main_v19 c := by
    rw [Gen.V14_of m outs c main_v19 (by decide), Gen.V13_of m outs c main_v19 (by decide), Gen.V12_of m outs c main_v19 (by decide), Gen.V11_of m outs c main_v19 (by decide), Gen.V10_of m outs c main_v19 (by decide), Gen.V9_of m outs c main_v19 (by decide), Gen.V8_of m outs c main_v19 (by decide), Gen.V7_of m outs c main_v19 (by decide), Gen.V6_of m outs c main_v19 (by decide), Gen.V5_of m outs c main_v19 (by decide), Gen.V4_of m outs c main_v19 (by decide), Gen.V3_of m outs c main_v19 (by decide)]
    dsimp only [Gen.V2]
    rw [Function.update_self]
  rw [← h]
  dsimp only [E7, atRefs, Gen.V15, Gen.hostOps7]
  after_results
  rfl

theorem e7_wdec (c : Dev nD) :
    (E7 m outs c main_v65 : S50000x1x512.Idx → EReal)
      = shapeCast S50000x1x512 (m ((c : Thread nD τ).loc main_arg12)) shapeCasts_S50000x512_S50000x1x512 := by
  have h : Gen.V14 m outs c main_arg12 = m ((c : Thread nD τ).loc main_arg12) := by
    rw [Gen.V14_of m outs c main_arg12 (by decide), Gen.V13_of m outs c main_arg12 (by decide), Gen.V12_of m outs c main_arg12 (by decide), Gen.V11_of m outs c main_arg12 (by decide), Gen.V10_of m outs c main_arg12 (by decide), Gen.V9_of m outs c main_arg12 (by decide), Gen.V8_of m outs c main_arg12 (by decide), Gen.V7_of m outs c main_arg12 (by decide), Gen.V6_of m outs c main_arg12 (by decide), Gen.V5_of m outs c main_arg12 (by decide), Gen.V4_of m outs c main_arg12 (by decide), Gen.V3_of m outs c main_arg12 (by decide), Gen.V2_of m outs c main_arg12 (by decide), Gen.V1_of m c main_arg12 (by decide)]
  rw [← h]
  dsimp only [E7, atRefs, Gen.V15, Gen.hostOps7]
  after_results
  rfl

theorem e7_bdec (c : Dev nD) :
    (E7 m outs c main_v66 : S50000x1x1.Idx → EReal)
      = shapeCast S50000x1x1 (m ((c : Thread nD τ).loc main_arg13)) shapeCasts_S50000_S50000x1x1 := by
  have h : Gen.V14 m outs c main_arg13 = m ((c : Thread nD τ).loc main_arg13) := by
    rw [Gen.V14_of m outs c main_arg13 (by decide), Gen.V13_of m outs c main_arg13 (by decide), Gen.V12_of m outs c main_arg13 (by decide), Gen.V11_of m outs c main_arg13 (by decide), Gen.V10_of m outs c main_arg13 (by decide), Gen.V9_of m outs c main_arg13 (by decide), Gen.V8_of m outs c main_arg13 (by decide), Gen.V7_of m outs c main_arg13 (by decide), Gen.V6_of m outs c main_arg13 (by decide), Gen.V5_of m outs c main_arg13 (by decide), Gen.V4_of m outs c main_arg13 (by decide), Gen.V3_of m outs c main_arg13 (by decide), Gen.V2_of m outs c main_arg13 (by decide), Gen.V1_of m c main_arg13 (by decide)]
  rw [← h]
  dsimp only [E7, atRefs, Gen.V15, Gen.hostOps7]
  after_results
  rfl

theorem e8_dec (c : Dev nD) :
    (E8 m outs c main_v71 : S16384x1x512.Idx → EReal)
      = shapeCast S16384x1x512 (outs 2 main_v19 c) shapeCasts_S16384x512_S16384x1x512 := by
  have h : Gen.V16 m outs c main_v19 = outs 2 main_v19 c := by
    rw [Gen.V16_of m outs c main_v19 (by decide), Gen.V15_of m outs c main_v19 (by decide), Gen.V14_of m outs c main_v19 (by decide), Gen.V13_of m outs c main_v19 (by decide), Gen.V12_of m outs c main_v19 (by decide), Gen.V11_of m outs c main_v19 (by decide), Gen.V10_of m outs c main_v19 (by decide), Gen.V9_of m outs c main_v19 (by decide), Gen.V8_of m outs c main_v19 (by decide), Gen.V7_of m outs c main_v19 (by decide), Gen.V6_of m outs c main_v19 (by decide), Gen.V5_of m outs c main_v19 (by decide), Gen.V4_of m outs c main_v19 (by decide), Gen.V3_of m outs c main_v19 (by decide)]
    dsimp only [Gen.V2]
    rw [Function.update_self]
  rw [← h]
  dsimp only [E8, atRefs, Gen.V17, Gen.hostOps8]
  after_results
  rfl

theorem e8_wdec (c : Dev nD) :
    (E8 m outs c main_v72 : S50000x1x512.Idx → EReal)
      = shapeCast S50000x1x512 (m ((c : Thread nD τ).loc main_arg12)) shapeCasts_S50000x512_S50000x1x512 := by
  have h : Gen.V16 m outs c main_arg12 = m ((c : Thread nD τ).loc main_arg12) := by
    rw [Gen.V16_of m outs c main_arg12 (by decide), Gen.V15_of m outs c main_arg12 (by decide), Gen.V14_of m outs c main_arg12 (by decide), Gen.V13_of m outs c main_arg12 (by decide), Gen.V12_of m outs c main_arg12 (by decide), Gen.V11_of m outs c main_arg12 (by decide), Gen.V10_of m outs c main_arg12 (by decide), Gen.V9_of m outs c main_arg12 (by decide), Gen.V8_of m outs c main_arg12 (by decide), Gen.V7_of m outs c main_arg12 (by decide), Gen.V6_of m outs c main_arg12 (by decide), Gen.V5_of m outs c main_arg12 (by decide), Gen.V4_of m outs c main_arg12 (by decide), Gen.V3_of m outs c main_arg12 (by decide), Gen.V2_of m outs c main_arg12 (by decide), Gen.V1_of m c main_arg12 (by decide)]
  rw [← h]
  dsimp only [E8, atRefs, Gen.V17, Gen.hostOps8]
  after_results
  rfl

theorem e8_bdec (c : Dev nD) :
    (E8 m outs c main_v73 : S50000x1x1.Idx → EReal)
      = shapeCast S50000x1x1 (m ((c : Thread nD τ).loc main_arg13)) shapeCasts_S50000_S50000x1x1 := by
  have h : Gen.V16 m outs c main_arg13 = m ((c : Thread nD τ).loc main_arg13) := by
    rw [Gen.V16_of m outs c main_arg13 (by decide), Gen.V15_of m outs c main_arg13 (by decide), Gen.V14_of m outs c main_arg13 (by decide), Gen.V13_of m outs c main_arg13 (by decide), Gen.V12_of m outs c main_arg13 (by decide), Gen.V11_of m outs c main_arg13 (by decide), Gen.V10_of m outs c main_arg13 (by decide), Gen.V9_of m outs c main_arg13 (by decide), Gen.V8_of m outs c main_arg13 (by decide), Gen.V7_of m outs c main_arg13 (by decide), Gen.V6_of m outs c main_arg13 (by decide), Gen.V5_of m outs c main_arg13 (by decide), Gen.V4_of m outs c main_arg13 (by decide), Gen.V3_of m outs c main_arg13 (by decide), Gen.V2_of m outs c main_arg13 (by decide), Gen.V1_of m c main_arg13 (by decide)]
  rw [← h]
  dsimp only [E8, atRefs, Gen.V17, Gen.hostOps8]
  after_results
  rfl

theorem end_piece1 (c : Dev nD) :
    (Gen.V18 m outs c main_v26 : S32768.Idx → EReal)
      = shapeCast S32768 (outs 4 main_v25 c) shapeCasts_S32768x1x1_S32768 := by
  have h : Gen.V4 m outs c main_v25 = outs 4 main_v25 c := by
    dsimp only [Gen.V4]
    rw [Function.update_self]
  rw [Gen.V18_of m outs c main_v26 (by decide), Gen.V17_of m outs c main_v26 (by decide), Gen.V16_of m outs c main_v26 (by decide), Gen.V15_of m outs c main_v26 (by decide), Gen.V14_of m outs c main_v26 (by decide), Gen.V13_of m outs c main_v26 (by decide), Gen.V12_of m outs c main_v26 (by decide), Gen.V11_of m outs c main_v26 (by decide), Gen.V10_of m outs c main_v26 (by decide), Gen.V9_of m outs c main_v26 (by decide), Gen.V8_of m outs c main_v26 (by decide), Gen.V7_of m outs c main_v26 (by decide), Gen.V6_of m outs c main_v26 (by decide)]
  rw [← h]
  dsimp only [Gen.V5, Gen.hostOps2]
  after_results
  rfl

theorem end_piece2 (c : Dev nD) :
    (Gen.V18 m outs c main_v33 : S32768.Idx → EReal)
      = shapeCast S32768 (outs 6 main_v32 c) shapeCasts_S32768x1x1_S32768 := by
  have h : Gen.V6 m outs c main_v32 = outs 6 main_v32 c := by
    dsimp only [Gen.V6]
    rw [Function.update_self]
  rw [Gen.V18_of m outs c main_v33 (by decide), Gen.V17_of m outs c main_v33 (by decide), Gen.V16_of m outs c main_v33 (by decide), Gen.V15_of m outs c main_v33 (by decide), Gen.V14_of m outs c main_v33 (by decide), Gen.V13_of m outs c main_v33 (by decide), Gen.V12_of m outs c main_v33 (by decide), Gen.V11_of m outs c main_v33 (by decide), Gen.V10_of m outs c main_v33 (by decide), Gen.V9_of m outs c main_v33 (by decide), Gen.V8_of m outs c main_v33 (by decide)]
  rw [← h]
  dsimp only [Gen.V7, Gen.hostOps3]
  after_results
  rfl

theorem end_piece3 (c : Dev nD) :
    (Gen.V18 m outs c main_v40 : S32768.Idx → EReal)
      = shapeCast S32768 (outs 8 main_v39 c) shapeCasts_S32768x1x1_S32768 := by
  have h : Gen.V8 m outs c main_v39 = outs 8 main_v39 c := by
    dsimp only [Gen.V8]
    rw [Function.update_self]
  rw [Gen.V18_of m outs c main_v40 (by decide), Gen.V17_of m outs c main_v40 (by decide), Gen.V16_of m outs c main_v40 (by decide), Gen.V15_of m outs c main_v40 (by decide), Gen.V14_of m outs c main_v40 (by decide), Gen.V13_of m outs c main_v40 (by decide), Gen.V12_of m outs c main_v40 (by decide), Gen.V11_of m outs c main_v40 (by decide), Gen.V10_of m outs c main_v40 (by decide)]
  rw [← h]
  dsimp only [Gen.V9, Gen.hostOps4]
  after_results
  rfl

theorem end_piece4 (c : Dev nD) :
    (Gen.V18 m outs c main_v47 : S32768.Idx → EReal)
      = shapeCast S32768 (outs 10 main_v46 c) shapeCasts_S32768x1x1_S32768 := by
  have h : Gen.V10 m outs c main_v46 = outs 10 main_v46 c := by
    dsimp only [Gen.V10]
    rw [Function.update_self]
  rw [Gen.V18_of m outs c main_v47 (by decide), Gen.V17_of m outs c main_v47 (by decide), Gen.V16_of m outs c main_v47 (by decide), Gen.V15_of m outs c main_v47 (by decide), Gen.V14_of m outs c main_v47 (by decide), Gen.V13_of m outs c main_v47 (by decide), Gen.V12_of m outs c main_v47 (by decide)]
  rw [← h]
  dsimp only [Gen.V11, Gen.hostOps5]
  after_results
  rfl

theorem end_piece5 (c : Dev nD) :
    (Gen.V18 m outs c main_v54 : S32768.Idx → EReal)
      = shapeCast S32768 (outs 12 main_v53 c) shapeCasts_S32768x1x1_S32768 := by
  have h : Gen.V12 m outs c main_v53 = outs 12 main_v53 c := by
    dsimp only [Gen.V12]
    rw [Function.update_self]
  rw [Gen.V18_of m outs c main_v54 (by decide), Gen.V17_of m outs c main_v54 (by decide), Gen.V16_of m outs c main_v54 (by decide), Gen.V15_of m outs c main_v54 (by decide), Gen.V14_of m outs c main_v54 (by decide)]
  rw [← h]
  dsimp only [Gen.V13, Gen.hostOps6]
  after_results
  rfl

theorem end_piece6 (c : Dev nD) :
    (Gen.V18 m outs c main_v61 : S32768.Idx → EReal)
      = shapeCast S32768 (outs 14 main_v60 c) shapeCasts_S32768x1x1_S32768 := by
  have h : Gen.V14 m outs c main_v60 = outs 14 main_v60 c := by
    dsimp only [Gen.V14]
    rw [Function.update_self]
  rw [Gen.V18_of m outs c main_v61 (by decide), Gen.V17_of m outs c main_v61 (by decide), Gen.V16_of m outs c main_v61 (by decide)]
  rw [← h]
  dsimp only [Gen.V15, Gen.hostOps7]
  after_results
  rfl

theorem end_piece7 (c : Dev nD) :
    (Gen.V18 m outs c main_v68 : S32768.Idx → EReal)
      = shapeCast S32768 (outs 16 main_v67 c) shapeCasts_S32768x1x1_S32768 := by
  have h : Gen.V16 m outs c main_v67 = outs 16 main_v67 c := by
    dsimp only [Gen.V16]
    rw [Function.update_self]
  rw [Gen.V18_of m outs c main_v68 (by decide)]
  rw [← h]
  dsimp only [Gen.V17, Gen.hostOps8]
  after_results
  rfl

theorem end_pred_cat (c : Dev nD) :
    (Gen.V19 m outs c main_v76 : S262144.Idx → EReal)
      = concatenate S262144 0
          [⟨S32768, shapeCast S32768 (outs 4 main_v25 c) shapeCasts_S32768x1x1_S32768⟩,
           ⟨S32768, shapeCast S32768 (outs 6 main_v32 c) shapeCasts_S32768x1x1_S32768⟩,
           ⟨S32768, shapeCast S32768 (outs 8 main_v39 c) shapeCasts_S32768x1x1_S32768⟩,
           ⟨S32768, shapeCast S32768 (outs 10 main_v46 c) shapeCasts_S32768x1x1_S32768⟩,
           ⟨S32768, shapeCast S32768 (outs 12 main_v53 c) shapeCasts_S32768x1x1_S32768⟩,
           ⟨S32768, shapeCast S32768 (outs 14 main_v60 c) shapeCasts_S32768x1x1_S32768⟩,
           ⟨S32768, shapeCast S32768 (outs 16 main_v67 c) shapeCasts_S32768x1x1_S32768⟩,
           ⟨S32768, shapeCast S32768 (outs 18 main_v74 c) shapeCasts_S32768x1x1_S32768⟩]
          concatenates_S32768_S32768_S32768_S32768_S32768_S32768_S32768_S32768_S262144_d0 := by
  have h8 : Gen.V18 m outs c main_v74 = outs 18 main_v74 c := by
    dsimp only [Gen.V18]
    rw [Function.update_self]
  rw [← end_piece1 m outs c, ← end_piece2 m outs c, ← end_piece3 m outs c, ← end_piece4 m outs c,
    ← end_piece5 m outs c, ← end_piece6 m outs c, ← end_piece7 m outs c, ← h8]
  dsimp only [Gen.V19, Gen.hostOps9]
  after_results
  dsimp only [Matrix.cons_val]
  repeat (first | rw [reshape_result] | (rw [reshape_result_ne]; rotate_left; decide))
  rfl

theorem shapeCast_col_apply (x : S32768x1x1.Idx → EReal) (t : Fin 32768) :
    shapeCast S32768 x shapeCasts_S32768x1x1_S32768 (ValueIdx.ix1 t) = x (ValueIdx.ix3 t 0 0) :=
  shapeCast_apply x shapeCasts_S32768x1x1_S32768 (ValueIdx.ix1 t) (ValueIdx.ix3 t 0 0) (by
    rw [Shape.rowMajor_val_three, Shape.rowMajor_val_one]
    show (t.val * 1 + 0) * 1 + 0 = t.val
    omega)

theorem end_pred_at1 (c : Dev nD) (t : Fin 32768) :
    (Gen.V19 m outs c main_v76 : S262144.Idx → EReal)
        (ValueIdx.ix1 ⟨32768 * 0 + t.val, by have := t.isLt; omega⟩)
      = (outs 4 main_v25 c : S32768x1x1.Idx → EReal) (ValueIdx.ix3 t 0 0) := by
  rw [end_pred_cat m outs c, ← shapeCast_col_apply (outs 4 main_v25 c) t]
  exact concatenate_apply_piece (0 : Fin S262144.rank) _ _ _ 0 (by show (0 : ℕ) < 8; omega) S32768 _ rfl rfl
    (0) rfl (ValueIdx.ix1 t) (fun b hb => absurd (Subsingleton.elim _ _) hb)
    (by show 0 + t.val = 32768 * 0 + t.val; omega)

theorem end_pred_at2 (c : Dev nD) (t : Fin 32768) :
    (Gen.V19 m outs c main_v76 : S262144.Idx → EReal)
        (ValueIdx.ix1 ⟨32768 * 1 + t.val, by have := t.isLt; omega⟩)
      = (outs 6 main_v32 c : S32768x1x1.Idx → EReal) (ValueIdx.ix3 t 0 0) := by
  rw [end_pred_cat m outs c, ← shapeCast_col_apply (outs 6 main_v32 c) t]
  exact concatenate_apply_piece (0 : Fin S262144.rank) _ _ _ 1 (by show (1 : ℕ) < 8; omega) S32768 _ rfl rfl
    (32768 + (0)) rfl (ValueIdx.ix1 t) (fun b hb => absurd (Subsingleton.elim _ _) hb)
    (by show 32768 + (0) + t.val = 32768 * 1 + t.val; omega)

theorem end_pred_at3 (c : Dev nD) (t : Fin 32768) :
    (Gen.V19 m outs c main_v76 : S262144.Idx → EReal)
        (ValueIdx.ix1 ⟨32768 * 2 + t.val, by have := t.isLt; omega⟩)
      = (outs 8 main_v39 c : S32768x1x1.Idx → EReal) (ValueIdx.ix3 t 0 0) := by
  rw [end_pred_cat m outs c, ← shapeCast_col_apply (outs 8 main_v39 c) t]
  exact concatenate_apply_piece (0 : Fin S262144.rank) _ _ _ 2 (by show (2 : ℕ) < 8; omega) S32768 _ rfl rfl
    (32768 + (32768 + (0))) rfl (ValueIdx.ix1 t) (fun b hb => absurd (Subsingleton.elim _ _) hb)
    (by show 32768 + (32768 + (0)) + t.val = 32768 * 2 + t.val; omega)

theorem end_pred_at4 (c : Dev nD) (t : Fin 32768) :
    (Gen.V19 m outs c main_v76 : S262144.Idx → EReal)
        (ValueIdx.ix1 ⟨32768 * 3 + t.val, by have := t.isLt; omega⟩)
      = (outs 10 main_v46 c : S32768x1x1.Idx → EReal) (ValueIdx.ix3 t 0 0) := by
  rw [end_pred_cat m outs c, ← shapeCast_col_apply (outs 10 main_v46 c) t]
  exact concatenate_apply_piece (0 : Fin S262144.rank) _ _ _ 3 (by show (3 : ℕ) < 8; omega) S32768 _ rfl rfl
    (32768 + (32768 + (32768 + (0)))) rfl (ValueIdx.ix1 t) (fun b hb => absurd (Subsingleton.elim _ _) hb)
    (by show 32768 + (32768 + (32768 + (0))) + t.val = 32768 * 3 + t.val; omega)

theorem end_pred_at5 (c : Dev nD) (t : Fin 32768) :
    (Gen.V19 m outs c main_v76 : S262144.Idx → EReal)
        (ValueIdx.ix1 ⟨32768 * 4 + t.val, by have := t.isLt; omega⟩)
      = (outs 12 main_v53 c : S32768x1x1.Idx → EReal) (ValueIdx.ix3 t 0 0) := by
  rw [end_pred_cat m outs c, ← shapeCast_col_apply (outs 12 main_v53 c) t]
  exact concatenate_apply_piece (0 : Fin S262144.rank) _ _ _ 4 (by show (4 : ℕ) < 8; omega) S32768 _ rfl rfl
    (32768 + (32768 + (32768 + (32768 + (0))))) rfl (ValueIdx.ix1 t) (fun b hb => absurd (Subsingleton.elim _ _) hb)
    (by show 32768 + (32768 + (32768 + (32768 + (0)))) + t.val = 32768 * 4 + t.val; omega)

theorem end_pred_at6 (c : Dev nD) (t : Fin 32768) :
    (Gen.V19 m outs c main_v76 : S262144.Idx → EReal)
        (ValueIdx.ix1 ⟨32768 * 5 + t.val, by have := t.isLt; omega⟩)
      = (outs 14 main_v60 c : S32768x1x1.Idx → EReal) (ValueIdx.ix3 t 0 0) := by
  rw [end_pred_cat m outs c, ← shapeCast_col_apply (outs 14 main_v60 c) t]
  exact concatenate_apply_piece (0 : Fin S262144.rank) _ _ _ 5 (by show (5 : ℕ) < 8; omega) S32768 _ rfl rfl
    (32768 + (32768 + (32768 + (32768 + (32768 + (0)))))) rfl (ValueIdx.ix1 t) (fun b hb => absurd (Subsingleton.elim _ _) hb)
    (by show 32768 + (32768 + (32768 + (32768 + (32768 + (0))))) + t.val = 32768 * 5 + t.val; omega)

theorem end_pred_at7 (c : Dev nD) (t : Fin 32768) :
    (Gen.V19 m outs c main_v76 : S262144.Idx → EReal)
        (ValueIdx.ix1 ⟨32768 * 6 + t.val, by have := t.isLt; omega⟩)
      = (outs 16 main_v67 c : S32768x1x1.Idx → EReal) (ValueIdx.ix3 t 0 0) := by
  rw [end_pred_cat m outs c, ← shapeCast_col_apply (outs 16 main_v67 c) t]
  exact concatenate_apply_piece (0 : Fin S262144.rank) _ _ _ 6 (by show (6 : ℕ) < 8; omega) S32768 _ rfl rfl
    (32768 + (32768 + (32768 + (32768 + (32768 + (32768 + (0))))))) rfl (ValueIdx.ix1 t) (fun b hb => absurd (Subsingleton.elim _ _) hb)
    (by show 32768 + (32768 + (32768 + (32768 + (32768 + (32768 + (0)))))) + t.val = 32768 * 6 + t.val; omega)

theorem end_pred_at8 (c : Dev nD) (t : Fin 32768) :
    (Gen.V19 m outs c main_v76 : S262144.Idx → EReal)
        (ValueIdx.ix1 ⟨32768 * 7 + t.val, by have := t.isLt; omega⟩)
      = (outs 18 main_v74 c : S32768x1x1.Idx → EReal) (ValueIdx.ix3 t 0 0) := by
  rw [end_pred_cat m outs c, ← shapeCast_col_apply (outs 18 main_v74 c) t]
  exact concatenate_apply_piece (0 : Fin S262144.rank) _ _ _ 7 (by show (7 : ℕ) < 8; omega) S32768 _ rfl rfl
    (32768 + (32768 + (32768 + (32768 + (32768 + (32768 + (32768 + (0)))))))) rfl (ValueIdx.ix1 t) (fun b hb => absurd (Subsingleton.elim _ _) hb)
    (by show 32768 + (32768 + (32768 + (32768 + (32768 + (32768 + (32768 + (0))))))) + t.val = 32768 * 7 + t.val; omega)

def predOut (c : Dev nD) : Fin 8 → (S32768x1x1.Idx → EReal)
  | 0 => outs 4 main_v25 c
  | 1 => outs 6 main_v32 c
  | 2 => outs 8 main_v39 c
  | 3 => outs 10 main_v46 c
  | 4 => outs 12 main_v53 c
  | 5 => outs 14 main_v60 c
  | 6 => outs 16 main_v67 c
  | 7 => outs 18 main_v74 c

theorem end_pred_at (c : Dev nD) (K : Fin 8) (t : Fin 32768) :
    (Gen.V19 m outs c main_v76 : S262144.Idx → EReal)
        (ValueIdx.ix1 ⟨32768 * K.val + t.val, by have := t.isLt; have := K.isLt; omega⟩)
      = predOut outs c K (ValueIdx.ix3 t 0 0) := by
  match K with
  | 0 => exact end_pred_at1 m outs c t
  | 1 => exact end_pred_at2 m outs c t
  | 2 => exact end_pred_at3 m outs c t
  | 3 => exact end_pred_at4 m outs c t
  | 4 => exact end_pred_at5 m outs c t
  | 5 => exact end_pred_at6 m outs c t
  | 6 => exact end_pred_at7 m outs c t
  | 7 => exact end_pred_at8 m outs c t

theorem end_loss (c : Dev nD) :
    (Gen.V19 m outs c main_v80 : S_.Idx → EReal)
      = Cert.Spec.loss (Gen.V19 m outs c main_v76) (m ((c : Thread nD τ).loc main_arg5)) := by
  have h5 : Gen.V18 m outs c main_arg5 = m ((c : Thread nD τ).loc main_arg5) := by
    rw [Gen.V18_of m outs c main_arg5 (by decide), Gen.V17_of m outs c main_arg5 (by decide), Gen.V16_of m outs c main_arg5 (by decide), Gen.V15_of m outs c main_arg5 (by decide), Gen.V14_of m outs c main_arg5 (by decide), Gen.V13_of m outs c main_arg5 (by decide), Gen.V12_of m outs c main_arg5 (by decide), Gen.V11_of m outs c main_arg5 (by decide), Gen.V10_of m outs c main_arg5 (by decide), Gen.V9_of m outs c main_arg5 (by decide), Gen.V8_of m outs c main_arg5 (by decide), Gen.V7_of m outs c main_arg5 (by decide), Gen.V6_of m outs c main_arg5 (by decide), Gen.V5_of m outs c main_arg5 (by decide), Gen.V4_of m outs c main_arg5 (by decide), Gen.V3_of m outs c main_arg5 (by decide), Gen.V2_of m outs c main_arg5 (by decide), Gen.V1_of m c main_arg5 (by decide)]
  rw [← h5]
  dsimp only [Gen.V19, Gen.hostOps9]
  after_results
  rfl

end Cert.KernelIdeal.Hand

end
-- ==== Proof.KI.TablesIdx.lean ====
import proofs.«421490_j32530082300068_2_alg».proof.Proof.KI.Tables

noncomputable section

namespace Cert.KernelIdeal.Hand

open Idealize.ShloMosaic Idealize.ShloMosaic.TcCoe Idealize.SL Idealize.SL.Sem
open Cert.KernelIdeal Cert.KernelIdeal.Gen

variable {F : FTy → Type} [FloatOps F]
variable (m : (ℓ : Loc nD τ sig) → Buf (Elt F) ℓ)

theorem lt_N1 (t : Fin grid1.N) : t.val < 32768 := t.isLt
theorem coords1_val (t : Fin grid1.N) : ((grid1.coords t) 0).val = t.val := by
  have ht := lt_N1 t
  show t.val / 1 % 32768 = t.val
  omega

/-- A table that is the cut from `off` of an index array names, at grid point `t`, the array's word at `off + t`. -/
theorem row_at (off : Nat) (hoff : off + 32768 ≤ 262144) (v : S262144.Idx → BitVec 32) (p : S32768.Idx → BitVec 32)
    (hp : ∀ x : S32768.Idx, p x = v (ValueIdx.ix1 ⟨off + (x 0).val, by have := lt_32768 x; omega⟩)) (t : Fin grid1.N) :
    (p (ValueIdx.ix1 ⟨((grid1.coords t) 0).val, ((grid1.coords t) 0).isLt⟩)).toNat
      = (v (ValueIdx.ix1 ⟨off + t.val, by have := lt_N1 t; omega⟩)).toNat := by
  refine (congrArg BitVec.toNat (hp _)).trans ?_
  refine congrArg (fun k => BitVec.toNat (v (ValueIdx.ix1 k))) (Fin.ext ?_)
  show off + ((grid1.coords t) 0).val = off + t.val
  rw [coords1_val]

theorem idx1_user (t : Fin grid1.N) :
    cc1_transform_0 k1_off1_inb numel1_S1 (pf1 m) (grid1.coords t) 0
      = ((m (((0 : Dev nD) : Thread nD τ).loc main_arg3) : S262144.Idx → BitVec 32) (ValueIdx.ix1 ⟨0 + t.val, by have := lt_N1 t; omega⟩)).toNat := by
  rw [cc1_t0]; exact row_at 0 (by omega) _ _ (pf1_user m) t
theorem idx1_item (t : Fin grid1.N) :
    cc1_transform_1 k1_off1_inb numel1_S1 (pf1 m) (grid1.coords t) 0
      = ((m (((0 : Dev nD) : Thread nD τ).loc main_arg4) : S262144.Idx → BitVec 32) (ValueIdx.ix1 ⟨0 + t.val, by have := lt_N1 t; omega⟩)).toNat := by
  rw [cc1_t1]; exact row_at 0 (by omega) _ _ (pf1_item m) t
theorem idx1_bias (t : Fin grid1.N) :
    cc1_transform_2 k1_off1_inb numel1_S1 (pf1 m) (grid1.coords t) 0
      = ((m (((0 : Dev nD) : Thread nD τ).loc main_arg4) : S262144.Idx → BitVec 32) (ValueIdx.ix1 ⟨0 + t.val, by have := lt_N1 t; omega⟩)).toNat := by
  rw [cc1_t2]; exact row_at 0 (by omega) _ _ (pf1_item m) t

theorem idx2_user (t : Fin grid2.N) :
    cc2_transform_0 k2_off1_inb numel1_S1 (pf2 m) (grid2.coords t) 0
      = ((m (((0 : Dev nD) : Thread nD τ).loc main_arg3) : S262144.Idx → BitVec 32) (ValueIdx.ix1 ⟨32768 + t.val, by have := lt_N1 t; omega⟩)).toNat := by
  rw [cc2_t0]; exact row_at 32768 (by omega) _ _ (pf2_user m) t
theorem idx2_item (t : Fin grid2.N) :
    cc2_transform_1 k2_off1_inb numel1_S1 (pf2 m) (grid2.coords t) 0
      = ((m (((0 : Dev nD) : Thread nD τ).loc main_arg4) : S262144.Idx → BitVec 32) (ValueIdx.ix1 ⟨32768 + t.val, by have := lt_N1 t; omega⟩)).toNat := by
  rw [cc2_t1]; exact row_at 32768 (by omega) _ _ (pf2_item m) t
theorem idx2_bias (t : Fin grid2.N) :
    cc2_transform_2 k2_off1_inb numel1_S1 (pf2 m) (grid2.coords t) 0
      = ((m (((0 : Dev nD) : Thread nD τ).loc main_arg4) : S262144.Idx → BitVec 32) (ValueIdx.ix1 ⟨32768 + t.val, by have := lt_N1 t; omega⟩)).toNat := by
  rw [cc2_t2]; exact row_at 32768 (by omega) _ _ (pf2_item m) t

theorem idx3_user (t : Fin grid3.N) :
    cc3_transform_0 k3_off1_inb numel1_S1 (pf3 m) (grid3.coords t) 0
      = ((m (((0 : Dev nD) : Thread nD τ).loc main_arg3) : S262144.Idx → BitVec 32) (ValueIdx.ix1 ⟨65536 + t.val, by have := lt_N1 t; omega⟩)).toNat := by
  rw [cc3_t0]; exact row_at 65536 (by omega) _ _ (pf3_user m) t
theorem idx3_item (t : Fin grid3.N) :
    cc3_transform_1 k3_off1_inb numel1_S1 (pf3 m) (grid3.coords t) 0
      = ((m (((0 : Dev nD) : Thread nD τ).loc main_arg4) : S262144.Idx → BitVec 32) (ValueIdx.ix1 ⟨65536 + t.val, by have := lt_N1 t; omega⟩)).toNat := by
  rw [cc3_t1]; exact row_at 65536 (by omega) _ _ (pf3_item m) t
theorem idx3_bias (t : Fin grid3.N) :
    cc3_transform_2 k3_off1_inb numel1_S1 (pf3 m) (grid3.coords t) 0
      = ((m (((0 : Dev nD) : Thread nD τ).loc main_arg4) : S262144.Idx → BitVec 32) (ValueIdx.ix1 ⟨65536 + t.val, by have := lt_N1 t; omega⟩)).toNat := by
  rw [cc3_t2]; exact row_at 65536 (by omega) _ _ (pf3_item m) t

theorem idx4_user (t : Fin grid4.N) :
    cc4_transform_0 k4_off1_inb numel1_S1 (pf4 m) (grid4.coords t) 0
      = ((m (((0 : Dev nD) : Thread nD τ).loc main_arg3) : S262144.Idx → BitVec 32) (ValueIdx.ix1 ⟨98304 + t.val, by have := lt_N1 t; omega⟩)).toNat := by
  rw [cc4_t0]; exact row_at 98304 (by omega) _ _ (pf4_user m) t
theorem idx4_item (t : Fin grid4.N) :
    cc4_transform_1 k4_off1_inb numel1_S1 (pf4 m) (grid4.coords t) 0
      = ((m (((0 : Dev nD) : Thread nD τ).loc main_arg4) : S262144.Idx → BitVec 32) (ValueIdx.ix1 ⟨98304 + t.val, by have := lt_N1 t; omega⟩)).toNat := by
  rw [cc4_t1]; exact row_at 98304 (by omega) _ _ (pf4_item m) t
theorem idx4_bias (t : Fin grid4.N) :
    cc4_transform_2 k4_off1_inb numel1_S1 (pf4 m) (grid4.coords t) 0
      = ((m (((0 : Dev nD) : Thread nD τ).loc main_arg4) : S262144.Idx → BitVec 32) (ValueIdx.ix1 ⟨98304 + t.val, by have := lt_N1 t; omega⟩)).toNat := by
  rw [cc4_t2]; exact row_at 98304 (by omega) _ _ (pf4_item m) t

theorem idx5_user (t : Fin grid5.N) :
    cc5_transform_0 k5_off1_inb numel1_S1 (pf5 m) (grid5.coords t) 0
      = ((m (((0 : Dev nD) : Thread nD τ).loc main_arg3) : S262144.Idx → BitVec 32) (ValueIdx.ix1 ⟨131072 + t.val, by have := lt_N1 t; omega⟩)).toNat := by
  rw [cc5_t0]; exact row_at 131072 (by omega) _ _ (pf5_user m) t
theorem idx5_item (t : Fin grid5.N) :
    cc5_transform_1 k5_off1_inb numel1_S1 (pf5 m) (grid5.coords t) 0
      = ((m (((0 : Dev nD) : Thread nD τ).loc main_arg4) : S262144.Idx → BitVec 32) (ValueIdx.ix1 ⟨131072 + t.val, by have := lt_N1 t; omega⟩)).toNat := by
  rw [cc5_t1]; exact row_at 131072 (by omega) _ _ (pf5_item m) t
theorem idx5_bias (t : Fin grid5.N) :
    cc5_transform_2 k5_off1_inb numel1_S1 (pf5 m) (grid5.coords t) 0
      = ((m (((0 : Dev nD) : Thread nD τ).loc main_arg4) : S262144.Idx → BitVec 32) (ValueIdx.ix1 ⟨131072 + t.val, by have := lt_N1 t; omega⟩)).toNat := by
  rw [cc5_t2]; exact row_at 131072 (by omega) _ _ (pf5_item m) t

theorem idx6_user (t : Fin grid6.N) :
    cc6_transform_0 k6_off1_inb numel1_S1 (pf6 m) (grid6.coords t) 0
      = ((m (((0 : Dev nD) : Thread nD τ).loc main_arg3) : S262144.Idx → BitVec 32) (ValueIdx.ix1 ⟨163840 + t.val, by have := lt_N1 t; omega⟩)).toNat := by
  rw [cc6_t0]; exact row_at 163840 (by omega) _ _ (pf6_user m) t
theorem idx6_item (t : Fin grid6.N) :
    cc6_transform_1 k6_off1_inb numel1_S1 (pf6 m) (grid6.coords t) 0
      = ((m (((0 : Dev nD) : Thread nD τ).loc main_arg4) : S262144.Idx → BitVec 32) (ValueIdx.ix1 ⟨163840 + t.val, by have := lt_N1 t; omega⟩)).toNat := by
  rw [cc6_t1]; exact row_at 163840 (by omega) _ _ (pf6_item m) t
theorem idx6_bias (t : Fin grid6.N) :
    cc6_transform_2 k6_off1_inb numel1_S1 (pf6 m) (grid6.coords t) 0
      = ((m (((0 : Dev nD) : Thread nD τ).loc main_arg4) : S262144.Idx → BitVec 32) (ValueIdx.ix1 ⟨163840 + t.val, by have := lt_N1 t; omega⟩)).toNat := by
  rw [cc6_t2]; exact row_at 163840 (by omega) _ _ (pf6_item m) t

theorem idx7_user (t : Fin grid7.N) :
    cc7_transform_0 k7_off1_inb numel1_S1 (pf7 m) (grid7.coords t) 0
      = ((m (((0 : Dev nD) : Thread nD τ).loc main_arg3) : S262144.Idx → BitVec 32) (ValueIdx.ix1 ⟨196608 + t.val, by have := lt_N1 t; omega⟩)).toNat := by
  rw [cc7_t0]; exact row_at 196608 (by omega) _ _ (pf7_user m) t
theorem idx7_item (t : Fin grid7.N) :
    cc7_transform_1 k7_off1_inb numel1_S1 (pf7 m) (grid7.coords t) 0
      = ((m (((0 : Dev nD) : Thread nD τ).loc main_arg4) : S262144.Idx → BitVec 32) (ValueIdx.ix1 ⟨196608 + t.val, by have := lt_N1 t; omega⟩)).toNat := by
  rw [cc7_t1]; exact row_at 196608 (by omega) _ _ (pf7_item m) t
theorem idx7_bias (t : Fin grid7.N) :
    cc7_transform_2 k7_off1_inb numel1_S1 (pf7 m) (grid7.coords t) 0
      = ((m (((0 : Dev nD) : Thread nD τ).loc main_arg4) : S262144.Idx → BitVec 32) (ValueIdx.ix1 ⟨196608 + t.val, by have := lt_N1 t; omega⟩)).toNat := by
  rw [cc7_t2]; exact row_at 196608 (by omega) _ _ (pf7_item m) t

theorem idx8_user (t : Fin grid8.N) :
    cc8_transform_0 k8_off1_inb numel1_S1 (pf8 m) (grid8.coords t) 0
      = ((m (((0 : Dev nD) : Thread nD τ).loc main_arg3) : S262144.Idx → BitVec 32) (ValueIdx.ix1 ⟨229376 + t.val, by have := lt_N1 t; omega⟩)).toNat := by
  rw [cc8_t0]; exact row_at 229376 (by omega) _ _ (pf8_user m) t
theorem idx8_item (t : Fin grid8.N) :
    cc8_transform_1 k8_off1_inb numel1_S1 (pf8 m) (grid8.coords t) 0
      = ((m (((0 : Dev nD) : Thread nD τ).loc main_arg4) : S262144.Idx → BitVec 32) (ValueIdx.ix1 ⟨229376 + t.val, by have := lt_N1 t; omega⟩)).toNat := by
  rw [cc8_t1]; exact row_at 229376 (by omega) _ _ (pf8_item m) t
theorem idx8_bias (t : Fin grid8.N) :
    cc8_transform_2 k8_off1_inb numel1_S1 (pf8 m) (grid8.coords t) 0
      = ((m (((0 : Dev nD) : Thread nD τ).loc main_arg4) : S262144.Idx → BitVec 32) (ValueIdx.ix1 ⟨229376 + t.val, by have := lt_N1 t; omega⟩)).toNat := by
  rw [cc8_t2]; exact row_at 229376 (by omega) _ _ (pf8_item m) t

end Cert.KernelIdeal.Hand

end
-- ==== Proof.KI.PredValueLib.lean ====
import proofs.«421490_j32530082300068_2_alg».proof.Proof.KI.PredBody
import proofs.«421490_j32530082300068_2_alg».proof.Proof.Spec
import Idealize.ShloMosaic.Lib.Pipeline.Value
import Idealize.ShloMosaic.Lib.ValueLayout

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen
open scoped BigOperators

theorem pv_one_idx (j : S1x1x1.Idx) : j = ValueIdx.ix3 0 0 0 := by
  funext a
  apply Fin.ext
  match a with
  | ⟨0, _⟩ => have := (j 0).isLt; show (j 0).val = 0; have e : S1x1x1.size 0 = 1 := rfl; omega
  | ⟨1, _⟩ => have := (j 1).isLt; show (j 1).val = 0; have e : S1x1x1.size 1 = 1 := rfl; omega
  | ⟨2, _⟩ => have := (j 2).isLt; show (j 2).val = 0; have e : S1x1x1.size 2 = 1 := rfl; omega

theorem pv_pay_word (x0 x1 : Vec Ideal S1x1x512 .f32) (x2 : Vec Ideal S1x1x1 .f32) (j : S1x1x1.Idx) :
    k1_pay1 (F := Ideal) x0 x1 x2 j
      = (∑ k : Fin 512, x0 (ValueIdx.ix3 0 0 k) * x1 (ValueIdx.ix3 0 0 k)) + x2 (ValueIdx.ix3 0 0 0) := by
  unfold k1_pay1
  dsimp only
  rw [ValueIdx.addf_apply, shapeCast_self x2, shapeCast_self x0, shapeCast_self x1, pv_one_idx j]
  refine congrArg (· + x2 (ValueIdx.ix3 0 0 0)) ?_
  refine (shapeCast_apply _ shapeCasts_S1x1_S1x1x1 (ValueIdx.ix3 0 0 0) (ValueIdx.ix2 0 0) ?_).trans ?_
  · rw [Shape.rowMajor_val_two, Shape.rowMajor_val_three]; rfl
  refine (Ideal.multiReduction_add_single _ _ reduces_S1x1x512_S1x1 _ _ (ValueIdx.ix2 0 0)).trans ?_
  refine Finset.sum_congr rfl fun k _ => ?_
  rw [ValueIdx.mulf_apply]
  have e : reduces_S1x1x512_S1x1.lift (ValueIdx.ix2 0 0) k = ValueIdx.ix3 0 0 k := by
    funext a
    match a with
    | ⟨0, _⟩ => rfl
    | ⟨1, _⟩ => rfl
    | ⟨2, _⟩ => rfl
  rw [e]
  rfl

theorem pv_hz : (![0, 0, 0] : Fin 3 → Nat) = fun _ => 0 := funext fun a => by fin_cases a <;> rfl

theorem pv_act_view (dec : FVec Ideal S16384x512 .f32) (i : S16384x1x512.Idx) (r : Fin 16384) (k : Fin 512)
    (hr : (i 0).val = r.val) (hk : (i 2).val = k.val) :
    shapeCast S16384x1x512 dec shapeCasts_S16384x512_S16384x1x512 i = dec (ValueIdx.ix2 r k) := by
  refine shapeCast_apply dec _ i (ValueIdx.ix2 r k) ?_
  rw [Shape.rowMajor_val_two, Shape.rowMajor_val_three]
  have hm : (i 1).val < 1 := (i 1).isLt
  show r.val * 512 + k.val = ((i 0).val * 1 + (i 1).val) * 512 + (i 2).val
  omega

theorem pv_wgt_view (Wdec : FVec Ideal S50000x512 .f32) (i : S50000x1x512.Idx) (r : Fin 50000) (k : Fin 512)
    (hr : (i 0).val = r.val) (hk : (i 2).val = k.val) :
    shapeCast S50000x1x512 Wdec shapeCasts_S50000x512_S50000x1x512 i = Wdec (ValueIdx.ix2 r k) := by
  refine shapeCast_apply Wdec _ i (ValueIdx.ix2 r k) ?_
  rw [Shape.rowMajor_val_two, Shape.rowMajor_val_three]
  have hm : (i 1).val < 1 := (i 1).isLt
  show r.val * 512 + k.val = ((i 0).val * 1 + (i 1).val) * 512 + (i 2).val
  omega

theorem pv_bias_view (bdec : FVec Ideal S50000 .f32) (i : S50000x1x1.Idx) (r : Fin 50000)
    (hr : (i 0).val = r.val) :
    shapeCast S50000x1x1 bdec shapeCasts_S50000_S50000x1x1 i = bdec (ValueIdx.ix1 r) := by
  refine shapeCast_apply bdec _ i (ValueIdx.ix1 r) ?_
  rw [Shape.rowMajor_val_one, Shape.rowMajor_val_three]
  have hm : (i 1).val < 1 := (i 1).isLt
  have hn : (i 2).val < 1 := (i 2).isLt
  show r.val = ((i 0).val * 1 + (i 1).val) * 1 + (i 2).val
  omega

theorem pv_out_block (x0 x1 : Vec Ideal S1x1x512 .f32) (x2 : Vec Ideal S1x1x1 .f32) :
    outBlock (F := Ideal) x0 x1 x2 = k1_pay1 (F := Ideal) x0 x1 x2 := by
  unfold outBlock
  rw [View.canon_unit_zero pv_hz, View.ld_unit_zero pv_hz, View.ld_unit_zero pv_hz, View.ld_unit_zero pv_hz]

end Cert.KernelIdeal.Hand

end
-- ==== Proof.KI.PredValue1.lean ====
import proofs.«421490_j32530082300068_2_alg».proof.Proof.KI.Pred1Dat
import proofs.«421490_j32530082300068_2_alg».proof.Proof.KI.PredValueLib

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen
open scoped BigOperators

private theorem coord_val (t : Fin grid1.N) : (grid1.coords t 0).val = t.val := by
  have h : t.val < grid1.N := t.isLt
  have e : grid1.N = 32768 := N_1
  show t.val / grid1.stride 0 % grid1.bound 0 = t.val
  have hs : grid1.stride 0 = 1 := by decide
  have hb : grid1.bound 0 = 32768 := rfl
  rw [hs, hb]; omega

section
variable (V : (c : Dev nD) → (b : Ref sig .tc) → Buf (Elt Ideal) ((c : Thread nD τ).loc b)) (pf : pre1.Contents (Elt Ideal))
  (hO : ok1 (F := Ideal) pf) (c : Dev nD)
  (dec : FVec Ideal S16384x512 .f32) (Wdec : FVec Ideal S50000x512 .f32) (bdec : FVec Ideal S50000 .f32) (tu ti : IVec S262144 32)

private theorem points : (cfgM1 pf hO).N = 32768 := N_1

private theorem act_blk (h0 : V c (Pipeline.arrRef spec1 0) = shapeCast S16384x1x512 dec shapeCasts_S16384x512_S16384x1x512)
    (t : Fin (cfgM1 pf hO).N) (w : BitVec 32) (hw : w.toNat < 16384)
    (hrow : ((cfgM1 pf hO).win 0).index t (0 : Fin 3) = w.toNat) (k : Fin 512) :
    (iblk1 V pf hO c 0 t : Vec Ideal S1x1x512 .f32) (ValueIdx.ix3 0 0 k) = dec (ValueIdx.ix2 (Cert.Spec.U w) k) := by
  show V c (Pipeline.arrRef spec1 0) ((((cfgM1 pf hO).win 0).blk t).view.emb (ValueIdx.ix3 0 0 k)) = _
  rw [h0]
  refine pv_act_view dec _ _ k ?_ ?_
  · show ((cfgM1 pf hO).win 0).index t (0 : Fin 3) * 1 + 1 * 0 = (Cert.Spec.U w).val
    rw [hrow, Cert.Spec.U_val hw]; omega
  · show ((cfgM1 pf hO).win 0).index t (2 : Fin 3) * 512 + 1 * k.val = k.val
    have e : ((cfgM1 pf hO).win 0).index t (2 : Fin 3) = 0 := rfl
    omega

private theorem wgt_blk (h1 : V c (Pipeline.arrRef spec1 1) = shapeCast S50000x1x512 Wdec shapeCasts_S50000x512_S50000x1x512)
    (t : Fin (cfgM1 pf hO).N) (w : BitVec 32) (hw : w.toNat < 50000)
    (hrow : ((cfgM1 pf hO).win 1).index t (0 : Fin 3) = w.toNat) (k : Fin 512) :
    (iblk1 V pf hO c 1 t : Vec Ideal S1x1x512 .f32) (ValueIdx.ix3 0 0 k) = Wdec (ValueIdx.ix2 (Cert.Spec.I w) k) := by
  show V c (Pipeline.arrRef spec1 1) ((((cfgM1 pf hO).win 1).blk t).view.emb (ValueIdx.ix3 0 0 k)) = _
  rw [h1]
  refine pv_wgt_view Wdec _ _ k ?_ ?_
  · show ((cfgM1 pf hO).win 1).index t (0 : Fin 3) * 1 + 1 * 0 = (Cert.Spec.I w).val
    rw [hrow, Cert.Spec.I_val hw]; omega
  · show ((cfgM1 pf hO).win 1).index t (2 : Fin 3) * 512 + 1 * k.val = k.val
    have e : ((cfgM1 pf hO).win 1).index t (2 : Fin 3) = 0 := rfl
    omega

private theorem bias_blk (h2 : V c (Pipeline.arrRef spec1 2) = shapeCast S50000x1x1 bdec shapeCasts_S50000_S50000x1x1)
    (t : Fin (cfgM1 pf hO).N) (w : BitVec 32) (hw : w.toNat < 50000)
    (hrow : ((cfgM1 pf hO).win 2).index t (0 : Fin 3) = w.toNat) :
    (iblk1 V pf hO c 2 t : Vec Ideal S1x1x1 .f32) (ValueIdx.ix3 0 0 0) = bdec (ValueIdx.ix1 (Cert.Spec.I w)) := by
  show V c (Pipeline.arrRef spec1 2) ((((cfgM1 pf hO).win 2).blk t).view.emb (ValueIdx.ix3 0 0 0)) = _
  rw [h2]
  refine pv_bias_view bdec _ _ ?_
  show ((cfgM1 pf hO).win 2).index t (0 : Fin 3) * 1 + 1 * 0 = (Cert.Spec.I w).val
  rw [hrow, Cert.Spec.I_val hw]; omega

/-- The three blocks at a point are the rows the tables name there, so the payload is the specification's prediction. -/
private theorem point_word
    (h0 : V c (Pipeline.arrRef spec1 0) = shapeCast S16384x1x512 dec shapeCasts_S16384x512_S16384x1x512)
    (h1 : V c (Pipeline.arrRef spec1 1) = shapeCast S50000x1x512 Wdec shapeCasts_S50000x512_S50000x1x512)
    (h2 : V c (Pipeline.arrRef spec1 2) = shapeCast S50000x1x1 bdec shapeCasts_S50000_S50000x1x1)
    (t : Fin (cfgM1 pf hO).N) (i : S262144.Idx) (hu : (tu i).toNat < 16384) (hi : (ti i).toNat < 50000)
    (hrow0 : ((cfgM1 pf hO).win 0).index t (0 : Fin 3) = (tu i).toNat)
    (hrow1 : ((cfgM1 pf hO).win 1).index t (0 : Fin 3) = (ti i).toNat)
    (hrow2 : ((cfgM1 pf hO).win 2).index t (0 : Fin 3) = (ti i).toNat) (j : S1x1x1.Idx) :
    k1_pay1 (F := Ideal) (iblk1 V pf hO c 0 t : Vec Ideal S1x1x512 .f32) (iblk1 V pf hO c 1 t : Vec Ideal S1x1x512 .f32)
        (iblk1 V pf hO c 2 t : Vec Ideal S1x1x1 .f32) j
      = Cert.Spec.pred dec Wdec bdec tu ti i := by
  refine (pv_pay_word _ _ _ j).trans ?_
  show _ = (∑ k : Fin 512, dec (ValueIdx.ix2 (Cert.Spec.U (tu i)) k) * Wdec (ValueIdx.ix2 (Cert.Spec.I (ti i)) k))
    + bdec (ValueIdx.ix1 (Cert.Spec.I (ti i)))
  rw [bias_blk V pf hO c bdec h2 t (ti i) hi hrow2]
  refine congrArg (· + bdec (ValueIdx.ix1 (Cert.Spec.I (ti i)))) (Finset.sum_congr rfl fun k _ => ?_)
  rw [act_blk V pf hO c dec h0 t (tu i) hu hrow0 k, wgt_blk V pf hO c Wdec h1 t (ti i) hi hrow1 k]

private theorem out_row (t : Fin (cfgM1 pf hO).N) : ((cfgM1 pf hO).win 3).index t (0 : Fin 3) = t.val := by
  show (BitVec.ofNat 32 (grid1.coords t 0).val).toNat = t.val
  rw [coord_val, BitVec.toNat_ofNat]
  have h := t.isLt
  have e := points pf hO
  exact Nat.mod_eq_of_lt (by omega)

private theorem out_flush (t : Fin (cfgM1 pf hO).N) : ((cfgM1 pf hO).win 3).flush t = true := by
  have hout : ((cfgM1 pf hO).win 3).isOut = true := rfl
  unfold Window.flush
  rw [hout, Bool.true_and, Bool.or_eq_true, decide_eq_true_eq, decide_eq_true_eq]
  by_cases h : t.val + 1 = (pcfg1.gridAt pf).N
  · exact Or.inl h
  · have hlt : t.val + 1 < (pcfg1.gridAt pf).N := by have ht : t.val < (pcfg1.gridAt pf).N := t.isLt; omega
    refine Or.inr ⟨hlt, fun e => ?_⟩
    have e0 := congrFun e (0 : Fin 3)
    rw [out_row pf hO t, out_row pf hO ⟨t.val + 1, hlt⟩] at e0
    simp at e0

private theorem mem_out_blk (t : Fin (cfgM1 pf hO).N) (i : S32768x1x1.Idx) :
    i ∈ (((cfgM1 pf hO).win 3).blk t).view.set
      ↔ ∀ a : Fin 3, ((cfgM1 pf hO).win 3).index t a * S1x1x1.size a ≤ (i a).val
          ∧ (i a).val < ((cfgM1 pf hO).win 3).index t a * S1x1x1.size a + S1x1x1.size a := by
  exact (Finset.ext_iff.mp (View.set_slice_whole (Pipeline.arrRef spec1 3) (((cfgM1 pf hO).win 3).rect t)) i).trans
    Rect.mem_set_unit

private theorem covered (t : Fin (cfgM1 pf hO).N) (i : S32768x1x1.Idx) (h : (i 0).val = t.val) :
    i ∈ (((cfgM1 pf hO).win 3).blk t).view.set := by
  rw [mem_out_blk]
  intro a
  match a with
  | ⟨0, _⟩ =>
    show ((cfgM1 pf hO).win 3).index t (0 : Fin 3) * 1 ≤ (i 0).val ∧ (i 0).val < ((cfgM1 pf hO).win 3).index t (0 : Fin 3) * 1 + 1
    rw [out_row pf hO t]; omega
  | ⟨1, _⟩ =>
    show ((cfgM1 pf hO).win 3).index t (1 : Fin 3) * 1 ≤ (i 1).val ∧ (i 1).val < ((cfgM1 pf hO).win 3).index t (1 : Fin 3) * 1 + 1
    have e : ((cfgM1 pf hO).win 3).index t (1 : Fin 3) = 0 := rfl
    have hm : (i 1).val < 1 := (i 1).isLt
    omega
  | ⟨2, _⟩ =>
    show ((cfgM1 pf hO).win 3).index t (2 : Fin 3) * 1 ≤ (i 2).val ∧ (i 2).val < ((cfgM1 pf hO).win 3).index t (2 : Fin 3) * 1 + 1
    have e : ((cfgM1 pf hO).win 3).index t (2 : Fin 3) = 0 := rfl
    have hm : (i 2).val < 1 := (i 2).isLt
    omega

/-- Block `t` of the output is entry `t` of the chunk, so the blocks cover the array: it ends as the predictions at the chunk's targets. -/
theorem pred_final1
    (h0 : V c (Pipeline.arrRef spec1 0) = shapeCast S16384x1x512 dec shapeCasts_S16384x512_S16384x1x512)
    (h1 : V c (Pipeline.arrRef spec1 1) = shapeCast S50000x1x512 Wdec shapeCasts_S50000x512_S50000x1x512)
    (h2 : V c (Pipeline.arrRef spec1 2) = shapeCast S50000x1x1 bdec shapeCasts_S50000_S50000x1x1)
    (hrow0 : ∀ t : Fin (cfgM1 pf hO).N, ((cfgM1 pf hO).win 0).index t (0 : Fin 3)
      = (tu (ValueIdx.ix1 ⟨32768 * 0 + t.val, by have h := t.isLt; have e : (cfgM1 pf hO).N = 32768 := N_1; omega⟩)).toNat)
    (hrow1 : ∀ t : Fin (cfgM1 pf hO).N, ((cfgM1 pf hO).win 1).index t (0 : Fin 3)
      = (ti (ValueIdx.ix1 ⟨32768 * 0 + t.val, by have h := t.isLt; have e : (cfgM1 pf hO).N = 32768 := N_1; omega⟩)).toNat)
    (hrow2 : ∀ t : Fin (cfgM1 pf hO).N, ((cfgM1 pf hO).win 2).index t (0 : Fin 3)
      = (ti (ValueIdx.ix1 ⟨32768 * 0 + t.val, by have h := t.isLt; have e : (cfgM1 pf hO).N = 32768 := N_1; omega⟩)).toNat)
    (hu : ∀ i, (tu i).toNat < 16384) (hi : ∀ i, (ti i).toNat < 50000) :
    (dat1 (F := Ideal) V pf hO c).arrAt 3 (cfgM1 pf hO).N
      = fun y : S32768x1x1.Idx => Cert.Spec.pred dec Wdec bdec tu ti
          (ValueIdx.ix1 ⟨32768 * 0 + (y 0).val, by have h : (y 0).val < 32768 := (y 0).isLt; omega⟩) := by
  refine (dat1 (F := Ideal) V pf hO c).arrAt_eq_of_cover 3 _ (fun t _ => ?_) (fun (i : S32768x1x1.Idx) => ?_)
  ·
    show ((cfgM1 pf hO).win 3).cut ((cfgM1 pf hO).grid.coords t) ((dat1 (F := Ideal) V pf hO c).after 3 t) = _
    rw [after1_3]
    funext j
    refine (congrFun (pv_out_block (iblk1 V pf hO c 0 t) (iblk1 V pf hO c 1 t) (iblk1 V pf hO c 2 t)) _).trans ?_
    refine (point_word V pf hO c dec Wdec bdec tu ti h0 h1 h2 t _ (hu _) (hi _) (hrow0 t) (hrow1 t) (hrow2 t) _).trans ?_
    show _ = Cert.Spec.pred dec Wdec bdec tu ti
      (ValueIdx.ix1 ⟨32768 * 0 + ((((cfgM1 pf hO).win 3).blk t).view.emb j (0 : Fin 3)).val, _⟩)
    refine congrArg (Cert.Spec.pred dec Wdec bdec tu ti) (congrArg ValueIdx.ix1 (Fin.ext ?_))
    show 32768 * 0 + t.val = 32768 * 0 + (((cfgM1 pf hO).win 3).index t (0 : Fin 3) * 1 + 1 * (j (0 : Fin 3)).val)
    rw [out_row pf hO t]
    have hj : (j (0 : Fin 3)).val < 1 := (j (0 : Fin 3)).isLt
    omega
  ·
    have hlt : (i 0).val < 32768 := (i 0).isLt
    exact ⟨⟨(i 0).val, by rw [points pf hO]; exact hlt⟩, out_flush pf hO _, covered pf hO _ i rfl⟩

end

end Cert.KernelIdeal.Hand

end
-- ==== Proof.KI.PredValue2.lean ====
import proofs.«421490_j32530082300068_2_alg».proof.Proof.KI.Pred2Dat
import proofs.«421490_j32530082300068_2_alg».proof.Proof.KI.PredValueLib

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen
open scoped BigOperators

private theorem coord_val (t : Fin grid2.N) : (grid2.coords t 0).val = t.val := by
  have h : t.val < grid2.N := t.isLt
  have e : grid2.N = 32768 := N_2
  show t.val / grid2.stride 0 % grid2.bound 0 = t.val
  have hs : grid2.stride 0 = 1 := by decide
  have hb : grid2.bound 0 = 32768 := rfl
  rw [hs, hb]; omega

section
variable (V : (c : Dev nD) → (b : Ref sig .tc) → Buf (Elt Ideal) ((c : Thread nD τ).loc b)) (pf : pre2.Contents (Elt Ideal))
  (hO : ok2 (F := Ideal) pf) (c : Dev nD)
  (dec : FVec Ideal S16384x512 .f32) (Wdec : FVec Ideal S50000x512 .f32) (bdec : FVec Ideal S50000 .f32) (tu ti : IVec S262144 32)

private theorem points : (cfgM2 pf hO).N = 32768 := N_2

private theorem act_blk (h0 : V c (Pipeline.arrRef spec2 0) = shapeCast S16384x1x512 dec shapeCasts_S16384x512_S16384x1x512)
    (t : Fin (cfgM2 pf hO).N) (w : BitVec 32) (hw : w.toNat < 16384)
    (hrow : ((cfgM2 pf hO).win 0).index t (0 : Fin 3) = w.toNat) (k : Fin 512) :
    (iblk2 V pf hO c 0 t : Vec Ideal S1x1x512 .f32) (ValueIdx.ix3 0 0 k) = dec (ValueIdx.ix2 (Cert.Spec.U w) k) := by
  show V c (Pipeline.arrRef spec2 0) ((((cfgM2 pf hO).win 0).blk t).view.emb (ValueIdx.ix3 0 0 k)) = _
  rw [h0]
  refine pv_act_view dec _ _ k ?_ ?_
  · show ((cfgM2 pf hO).win 0).index t (0 : Fin 3) * 1 + 1 * 0 = (Cert.Spec.U w).val
    rw [hrow, Cert.Spec.U_val hw]; omega
  · show ((cfgM2 pf hO).win 0).index t (2 : Fin 3) * 512 + 1 * k.val = k.val
    have e : ((cfgM2 pf hO).win 0).index t (2 : Fin 3) = 0 := rfl
    omega

private theorem wgt_blk (h1 : V c (Pipeline.arrRef spec2 1) = shapeCast S50000x1x512 Wdec shapeCasts_S50000x512_S50000x1x512)
    (t : Fin (cfgM2 pf hO).N) (w : BitVec 32) (hw : w.toNat < 50000)
    (hrow : ((cfgM2 pf hO).win 1).index t (0 : Fin 3) = w.toNat) (k : Fin 512) :
    (iblk2 V pf hO c 1 t : Vec Ideal S1x1x512 .f32) (ValueIdx.ix3 0 0 k) = Wdec (ValueIdx.ix2 (Cert.Spec.I w) k) := by
  show V c (Pipeline.arrRef spec2 1) ((((cfgM2 pf hO).win 1).blk t).view.emb (ValueIdx.ix3 0 0 k)) = _
  rw [h1]
  refine pv_wgt_view Wdec _ _ k ?_ ?_
  · show ((cfgM2 pf hO).win 1).index t (0 : Fin 3) * 1 + 1 * 0 = (Cert.Spec.I w).val
    rw [hrow, Cert.Spec.I_val hw]; omega
  · show ((cfgM2 pf hO).win 1).index t (2 : Fin 3) * 512 + 1 * k.val = k.val
    have e : ((cfgM2 pf hO).win 1).index t (2 : Fin 3) = 0 := rfl
    omega

private theorem bias_blk (h2 : V c (Pipeline.arrRef spec2 2) = shapeCast S50000x1x1 bdec shapeCasts_S50000_S50000x1x1)
    (t : Fin (cfgM2 pf hO).N) (w : BitVec 32) (hw : w.toNat < 50000)
    (hrow : ((cfgM2 pf hO).win 2).index t (0 : Fin 3) = w.toNat) :
    (iblk2 V pf hO c 2 t : Vec Ideal S1x1x1 .f32) (ValueIdx.ix3 0 0 0) = bdec (ValueIdx.ix1 (Cert.Spec.I w)) := by
  show V c (Pipeline.arrRef spec2 2) ((((cfgM2 pf hO).win 2).blk t).view.emb (ValueIdx.ix3 0 0 0)) = _
  rw [h2]
  refine pv_bias_view bdec _ _ ?_
  show ((cfgM2 pf hO).win 2).index t (0 : Fin 3) * 1 + 1 * 0 = (Cert.Spec.I w).val
  rw [hrow, Cert.Spec.I_val hw]; omega

/-- The three blocks at a point are the rows the tables name there, so the payload is the specification's prediction. -/
private theorem point_word
    (h0 : V c (Pipeline.arrRef spec2 0) = shapeCast S16384x1x512 dec shapeCasts_S16384x512_S16384x1x512)
    (h1 : V c (Pipeline.arrRef spec2 1) = shapeCast S50000x1x512 Wdec shapeCasts_S50000x512_S50000x1x512)
    (h2 : V c (Pipeline.arrRef spec2 2) = shapeCast S50000x1x1 bdec shapeCasts_S50000_S50000x1x1)
    (t : Fin (cfgM2 pf hO).N) (i : S262144.Idx) (hu : (tu i).toNat < 16384) (hi : (ti i).toNat < 50000)
    (hrow0 : ((cfgM2 pf hO).win 0).index t (0 : Fin 3) = (tu i).toNat)
    (hrow1 : ((cfgM2 pf hO).win 1).index t (0 : Fin 3) = (ti i).toNat)
    (hrow2 : ((cfgM2 pf hO).win 2).index t (0 : Fin 3) = (ti i).toNat) (j : S1x1x1.Idx) :
    k1_pay1 (F := Ideal) (iblk2 V pf hO c 0 t : Vec Ideal S1x1x512 .f32) (iblk2 V pf hO c 1 t : Vec Ideal S1x1x512 .f32)
        (iblk2 V pf hO c 2 t : Vec Ideal S1x1x1 .f32) j
      = Cert.Spec.pred dec Wdec bdec tu ti i := by
  refine (pv_pay_word _ _ _ j).trans ?_
  show _ = (∑ k : Fin 512, dec (ValueIdx.ix2 (Cert.Spec.U (tu i)) k) * Wdec (ValueIdx.ix2 (Cert.Spec.I (ti i)) k))
    + bdec (ValueIdx.ix1 (Cert.Spec.I (ti i)))
  rw [bias_blk V pf hO c bdec h2 t (ti i) hi hrow2]
  refine congrArg (· + bdec (ValueIdx.ix1 (Cert.Spec.I (ti i)))) (Finset.sum_congr rfl fun k _ => ?_)
  rw [act_blk V pf hO c dec h0 t (tu i) hu hrow0 k, wgt_blk V pf hO c Wdec h1 t (ti i) hi hrow1 k]

private theorem out_row (t : Fin (cfgM2 pf hO).N) : ((cfgM2 pf hO).win 3).index t (0 : Fin 3) = t.val := by
  show (BitVec.ofNat 32 (grid2.coords t 0).val).toNat = t.val
  rw [coord_val, BitVec.toNat_ofNat]
  have h := t.isLt
  have e := points pf hO
  exact Nat.mod_eq_of_lt (by omega)

private theorem out_flush (t : Fin (cfgM2 pf hO).N) : ((cfgM2 pf hO).win 3).flush t = true := by
  have hout : ((cfgM2 pf hO).win 3).isOut = true := rfl
  unfold Window.flush
  rw [hout, Bool.true_and, Bool.or_eq_true, decide_eq_true_eq, decide_eq_true_eq]
  by_cases h : t.val + 1 = (pcfg2.gridAt pf).N
  · exact Or.inl h
  · have hlt : t.val + 1 < (pcfg2.gridAt pf).N := by have ht : t.val < (pcfg2.gridAt pf).N := t.isLt; omega
    refine Or.inr ⟨hlt, fun e => ?_⟩
    have e0 := congrFun e (0 : Fin 3)
    rw [out_row pf hO t, out_row pf hO ⟨t.val + 1, hlt⟩] at e0
    simp at e0

private theorem mem_out_blk (t : Fin (cfgM2 pf hO).N) (i : S32768x1x1.Idx) :
    i ∈ (((cfgM2 pf hO).win 3).blk t).view.set
      ↔ ∀ a : Fin 3, ((cfgM2 pf hO).win 3).index t a * S1x1x1.size a ≤ (i a).val
          ∧ (i a).val < ((cfgM2 pf hO).win 3).index t a * S1x1x1.size a + S1x1x1.size a := by
  exact (Finset.ext_iff.mp (View.set_slice_whole (Pipeline.arrRef spec2 3) (((cfgM2 pf hO).win 3).rect t)) i).trans
    Rect.mem_set_unit

private theorem covered (t : Fin (cfgM2 pf hO).N) (i : S32768x1x1.Idx) (h : (i 0).val = t.val) :
    i ∈ (((cfgM2 pf hO).win 3).blk t).view.set := by
  rw [mem_out_blk]
  intro a
  match a with
  | ⟨0, _⟩ =>
    show ((cfgM2 pf hO).win 3).index t (0 : Fin 3) * 1 ≤ (i 0).val ∧ (i 0).val < ((cfgM2 pf hO).win 3).index t (0 : Fin 3) * 1 + 1
    rw [out_row pf hO t]; omega
  | ⟨1, _⟩ =>
    show ((cfgM2 pf hO).win 3).index t (1 : Fin 3) * 1 ≤ (i 1).val ∧ (i 1).val < ((cfgM2 pf hO).win 3).index t (1 : Fin 3) * 1 + 1
    have e : ((cfgM2 pf hO).win 3).index t (1 : Fin 3) = 0 := rfl
    have hm : (i 1).val < 1 := (i 1).isLt
    omega
  | ⟨2, _⟩ =>
    show ((cfgM2 pf hO).win 3).index t (2 : Fin 3) * 1 ≤ (i 2).val ∧ (i 2).val < ((cfgM2 pf hO).win 3).index t (2 : Fin 3) * 1 + 1
    have e : ((cfgM2 pf hO).win 3).index t (2 : Fin 3) = 0 := rfl
    have hm : (i 2).val < 1 := (i 2).isLt
    omega

/-- Block `t` of the output is entry `t` of the chunk, so the blocks cover the array: it ends as the predictions at the chunk's targets. -/
theorem pred_final2
    (h0 : V c (Pipeline.arrRef spec2 0) = shapeCast S16384x1x512 dec shapeCasts_S16384x512_S16384x1x512)
    (h1 : V c (Pipeline.arrRef spec2 1) = shapeCast S50000x1x512 Wdec shapeCasts_S50000x512_S50000x1x512)
    (h2 : V c (Pipeline.arrRef spec2 2) = shapeCast S50000x1x1 bdec shapeCasts_S50000_S50000x1x1)
    (hrow0 : ∀ t : Fin (cfgM2 pf hO).N, ((cfgM2 pf hO).win 0).index t (0 : Fin 3)
      = (tu (ValueIdx.ix1 ⟨32768 * 1 + t.val, by have h := t.isLt; have e : (cfgM2 pf hO).N = 32768 := N_2; omega⟩)).toNat)
    (hrow1 : ∀ t : Fin (cfgM2 pf hO).N, ((cfgM2 pf hO).win 1).index t (0 : Fin 3)
      = (ti (ValueIdx.ix1 ⟨32768 * 1 + t.val, by have h := t.isLt; have e : (cfgM2 pf hO).N = 32768 := N_2; omega⟩)).toNat)
    (hrow2 : ∀ t : Fin (cfgM2 pf hO).N, ((cfgM2 pf hO).win 2).index t (0 : Fin 3)
      = (ti (ValueIdx.ix1 ⟨32768 * 1 + t.val, by have h := t.isLt; have e : (cfgM2 pf hO).N = 32768 := N_2; omega⟩)).toNat)
    (hu : ∀ i, (tu i).toNat < 16384) (hi : ∀ i, (ti i).toNat < 50000) :
    (dat2 (F := Ideal) V pf hO c).arrAt 3 (cfgM2 pf hO).N
      = fun y : S32768x1x1.Idx => Cert.Spec.pred dec Wdec bdec tu ti
          (ValueIdx.ix1 ⟨32768 * 1 + (y 0).val, by have h : (y 0).val < 32768 := (y 0).isLt; omega⟩) := by
  refine (dat2 (F := Ideal) V pf hO c).arrAt_eq_of_cover 3 _ (fun t _ => ?_) (fun (i : S32768x1x1.Idx) => ?_)
  ·
    show ((cfgM2 pf hO).win 3).cut ((cfgM2 pf hO).grid.coords t) ((dat2 (F := Ideal) V pf hO c).after 3 t) = _
    rw [after2_3]
    funext j
    refine (congrFun (pv_out_block (iblk2 V pf hO c 0 t) (iblk2 V pf hO c 1 t) (iblk2 V pf hO c 2 t)) _).trans ?_
    refine (point_word V pf hO c dec Wdec bdec tu ti h0 h1 h2 t _ (hu _) (hi _) (hrow0 t) (hrow1 t) (hrow2 t) _).trans ?_
    show _ = Cert.Spec.pred dec Wdec bdec tu ti
      (ValueIdx.ix1 ⟨32768 * 1 + ((((cfgM2 pf hO).win 3).blk t).view.emb j (0 : Fin 3)).val, _⟩)
    refine congrArg (Cert.Spec.pred dec Wdec bdec tu ti) (congrArg ValueIdx.ix1 (Fin.ext ?_))
    show 32768 * 1 + t.val = 32768 * 1 + (((cfgM2 pf hO).win 3).index t (0 : Fin 3) * 1 + 1 * (j (0 : Fin 3)).val)
    rw [out_row pf hO t]
    have hj : (j (0 : Fin 3)).val < 1 := (j (0 : Fin 3)).isLt
    omega
  ·
    have hlt : (i 0).val < 32768 := (i 0).isLt
    exact ⟨⟨(i 0).val, by rw [points pf hO]; exact hlt⟩, out_flush pf hO _, covered pf hO _ i rfl⟩

end

end Cert.KernelIdeal.Hand

end
-- ==== Proof.KI.PredValue3.lean ====
import proofs.«421490_j32530082300068_2_alg».proof.Proof.KI.Pred3Dat
import proofs.«421490_j32530082300068_2_alg».proof.Proof.KI.PredValueLib

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen
open scoped BigOperators

private theorem coord_val (t : Fin grid3.N) : (grid3.coords t 0).val = t.val := by
  have h : t.val < grid3.N := t.isLt
  have e : grid3.N = 32768 := N_3
  show t.val / grid3.stride 0 % grid3.bound 0 = t.val
  have hs : grid3.stride 0 = 1 := by decide
  have hb : grid3.bound 0 = 32768 := rfl
  rw [hs, hb]; omega

section
variable (V : (c : Dev nD) → (b : Ref sig .tc) → Buf (Elt Ideal) ((c : Thread nD τ).loc b)) (pf : pre3.Contents (Elt Ideal))
  (hO : ok3 (F := Ideal) pf) (c : Dev nD)
  (dec : FVec Ideal S16384x512 .f32) (Wdec : FVec Ideal S50000x512 .f32) (bdec : FVec Ideal S50000 .f32) (tu ti : IVec S262144 32)

private theorem points : (cfgM3 pf hO).N = 32768 := N_3

private theorem act_blk (h0 : V c (Pipeline.arrRef spec3 0) = shapeCast S16384x1x512 dec shapeCasts_S16384x512_S16384x1x512)
    (t : Fin (cfgM3 pf hO).N) (w : BitVec 32) (hw : w.toNat < 16384)
    (hrow : ((cfgM3 pf hO).win 0).index t (0 : Fin 3) = w.toNat) (k : Fin 512) :
    (iblk3 V pf hO c 0 t : Vec Ideal S1x1x512 .f32) (ValueIdx.ix3 0 0 k) = dec (ValueIdx.ix2 (Cert.Spec.U w) k) := by
  show V c (Pipeline.arrRef spec3 0) ((((cfgM3 pf hO).win 0).blk t).view.emb (ValueIdx.ix3 0 0 k)) = _
  rw [h0]
  refine pv_act_view dec _ _ k ?_ ?_
  · show ((cfgM3 pf hO).win 0).index t (0 : Fin 3) * 1 + 1 * 0 = (Cert.Spec.U w).val
    rw [hrow, Cert.Spec.U_val hw]; omega
  · show ((cfgM3 pf hO).win 0).index t (2 : Fin 3) * 512 + 1 * k.val = k.val
    have e : ((cfgM3 pf hO).win 0).index t (2 : Fin 3) = 0 := rfl
    omega

private theorem wgt_blk (h1 : V c (Pipeline.arrRef spec3 1) = shapeCast S50000x1x512 Wdec shapeCasts_S50000x512_S50000x1x512)
    (t : Fin (cfgM3 pf hO).N) (w : BitVec 32) (hw : w.toNat < 50000)
    (hrow : ((cfgM3 pf hO).win 1).index t (0 : Fin 3) = w.toNat) (k : Fin 512) :
    (iblk3 V pf hO c 1 t : Vec Ideal S1x1x512 .f32) (ValueIdx.ix3 0 0 k) = Wdec (ValueIdx.ix2 (Cert.Spec.I w) k) := by
  show V c (Pipeline.arrRef spec3 1) ((((cfgM3 pf hO).win 1).blk t).view.emb (ValueIdx.ix3 0 0 k)) = _
  rw [h1]
  refine pv_wgt_view Wdec _ _ k ?_ ?_
  · show ((cfgM3 pf hO).win 1).index t (0 : Fin 3) * 1 + 1 * 0 = (Cert.Spec.I w).val
    rw [hrow, Cert.Spec.I_val hw]; omega
  · show ((cfgM3 pf hO).win 1).index t (2 : Fin 3) * 512 + 1 * k.val = k.val
    have e : ((cfgM3 pf hO).win 1).index t (2 : Fin 3) = 0 := rfl
    omega

private theorem bias_blk (h2 : V c (Pipeline.arrRef spec3 2) = shapeCast S50000x1x1 bdec shapeCasts_S50000_S50000x1x1)
    (t : Fin (cfgM3 pf hO).N) (w : BitVec 32) (hw : w.toNat < 50000)
    (hrow : ((cfgM3 pf hO).win 2).index t (0 : Fin 3) = w.toNat) :
    (iblk3 V pf hO c 2 t : Vec Ideal S1x1x1 .f32) (ValueIdx.ix3 0 0 0) = bdec (ValueIdx.ix1 (Cert.Spec.I w)) := by
  show V c (Pipeline.arrRef spec3 2) ((((cfgM3 pf hO).win 2).blk t).view.emb (ValueIdx.ix3 0 0 0)) = _
  rw [h2]
  refine pv_bias_view bdec _ _ ?_
  show ((cfgM3 pf hO).win 2).index t (0 : Fin 3) * 1 + 1 * 0 = (Cert.Spec.I w).val
  rw [hrow, Cert.Spec.I_val hw]; omega

/-- The three blocks at a point are the rows the tables name there, so the payload is the specification's prediction. -/
private theorem point_word
    (h0 : V c (Pipeline.arrRef spec3 0) = shapeCast S16384x1x512 dec shapeCasts_S16384x512_S16384x1x512)
    (h1 : V c (Pipeline.arrRef spec3 1) = shapeCast S50000x1x512 Wdec shapeCasts_S50000x512_S50000x1x512)
    (h2 : V c (Pipeline.arrRef spec3 2) = shapeCast S50000x1x1 bdec shapeCasts_S50000_S50000x1x1)
    (t : Fin (cfgM3 pf hO).N) (i : S262144.Idx) (hu : (tu i).toNat < 16384) (hi : (ti i).toNat < 50000)
    (hrow0 : ((cfgM3 pf hO).win 0).index t (0 : Fin 3) = (tu i).toNat)
    (hrow1 : ((cfgM3 pf hO).win 1).index t (0 : Fin 3) = (ti i).toNat)
    (hrow2 : ((cfgM3 pf hO).win 2).index t (0 : Fin 3) = (ti i).toNat) (j : S1x1x1.Idx) :
    k1_pay1 (F := Ideal) (iblk3 V pf hO c 0 t : Vec Ideal S1x1x512 .f32) (iblk3 V pf hO c 1 t : Vec Ideal S1x1x512 .f32)
        (iblk3 V pf hO c 2 t : Vec Ideal S1x1x1 .f32) j
      = Cert.Spec.pred dec Wdec bdec tu ti i := by
  refine (pv_pay_word _ _ _ j).trans ?_
  show _ = (∑ k : Fin 512, dec (ValueIdx.ix2 (Cert.Spec.U (tu i)) k) * Wdec (ValueIdx.ix2 (Cert.Spec.I (ti i)) k))
    + bdec (ValueIdx.ix1 (Cert.Spec.I (ti i)))
  rw [bias_blk V pf hO c bdec h2 t (ti i) hi hrow2]
  refine congrArg (· + bdec (ValueIdx.ix1 (Cert.Spec.I (ti i)))) (Finset.sum_congr rfl fun k _ => ?_)
  rw [act_blk V pf hO c dec h0 t (tu i) hu hrow0 k, wgt_blk V pf hO c Wdec h1 t (ti i) hi hrow1 k]

private theorem out_row (t : Fin (cfgM3 pf hO).N) : ((cfgM3 pf hO).win 3).index t (0 : Fin 3) = t.val := by
  show (BitVec.ofNat 32 (grid3.coords t 0).val).toNat = t.val
  rw [coord_val, BitVec.toNat_ofNat]
  have h := t.isLt
  have e := points pf hO
  exact Nat.mod_eq_of_lt (by omega)

private theorem out_flush (t : Fin (cfgM3 pf hO).N) : ((cfgM3 pf hO).win 3).flush t = true := by
  have hout : ((cfgM3 pf hO).win 3).isOut = true := rfl
  unfold Window.flush
  rw [hout, Bool.true_and, Bool.or_eq_true, decide_eq_true_eq, decide_eq_true_eq]
  by_cases h : t.val + 1 = (pcfg3.gridAt pf).N
  · exact Or.inl h
  · have hlt : t.val + 1 < (pcfg3.gridAt pf).N := by have ht : t.val < (pcfg3.gridAt pf).N := t.isLt; omega
    refine Or.inr ⟨hlt, fun e => ?_⟩
    have e0 := congrFun e (0 : Fin 3)
    rw [out_row pf hO t, out_row pf hO ⟨t.val + 1, hlt⟩] at e0
    simp at e0

private theorem mem_out_blk (t : Fin (cfgM3 pf hO).N) (i : S32768x1x1.Idx) :
    i ∈ (((cfgM3 pf hO).win 3).blk t).view.set
      ↔ ∀ a : Fin 3, ((cfgM3 pf hO).win 3).index t a * S1x1x1.size a ≤ (i a).val
          ∧ (i a).val < ((cfgM3 pf hO).win 3).index t a * S1x1x1.size a + S1x1x1.size a := by
  exact (Finset.ext_iff.mp (View.set_slice_whole (Pipeline.arrRef spec3 3) (((cfgM3 pf hO).win 3).rect t)) i).trans
    Rect.mem_set_unit

private theorem covered (t : Fin (cfgM3 pf hO).N) (i : S32768x1x1.Idx) (h : (i 0).val = t.val) :
    i ∈ (((cfgM3 pf hO).win 3).blk t).view.set := by
  rw [mem_out_blk]
  intro a
  match a with
  | ⟨0, _⟩ =>
    show ((cfgM3 pf hO).win 3).index t (0 : Fin 3) * 1 ≤ (i 0).val ∧ (i 0).val < ((cfgM3 pf hO).win 3).index t (0 : Fin 3) * 1 + 1
    rw [out_row pf hO t]; omega
  | ⟨1, _⟩ =>
    show ((cfgM3 pf hO).win 3).index t (1 : Fin 3) * 1 ≤ (i 1).val ∧ (i 1).val < ((cfgM3 pf hO).win 3).index t (1 : Fin 3) * 1 + 1
    have e : ((cfgM3 pf hO).win 3).index t (1 : Fin 3) = 0 := rfl
    have hm : (i 1).val < 1 := (i 1).isLt
    omega
  | ⟨2, _⟩ =>
    show ((cfgM3 pf hO).win 3).index t (2 : Fin 3) * 1 ≤ (i 2).val ∧ (i 2).val < ((cfgM3 pf hO).win 3).index t (2 : Fin 3) * 1 + 1
    have e : ((cfgM3 pf hO).win 3).index t (2 : Fin 3) = 0 := rfl
    have hm : (i 2).val < 1 := (i 2).isLt
    omega

/-- Block `t` of the output is entry `t` of the chunk, so the blocks cover the array: it ends as the predictions at the chunk's targets. -/
theorem pred_final3
    (h0 : V c (Pipeline.arrRef spec3 0) = shapeCast S16384x1x512 dec shapeCasts_S16384x512_S16384x1x512)
    (h1 : V c (Pipeline.arrRef spec3 1) = shapeCast S50000x1x512 Wdec shapeCasts_S50000x512_S50000x1x512)
    (h2 : V c (Pipeline.arrRef spec3 2) = shapeCast S50000x1x1 bdec shapeCasts_S50000_S50000x1x1)
    (hrow0 : ∀ t : Fin (cfgM3 pf hO).N, ((cfgM3 pf hO).win 0).index t (0 : Fin 3)
      = (tu (ValueIdx.ix1 ⟨32768 * 2 + t.val, by have h := t.isLt; have e : (cfgM3 pf hO).N = 32768 := N_3; omega⟩)).toNat)
    (hrow1 : ∀ t : Fin (cfgM3 pf hO).N, ((cfgM3 pf hO).win 1).index t (0 : Fin 3)
      = (ti (ValueIdx.ix1 ⟨32768 * 2 + t.val, by have h := t.isLt; have e : (cfgM3 pf hO).N = 32768 := N_3; omega⟩)).toNat)
    (hrow2 : ∀ t : Fin (cfgM3 pf hO).N, ((cfgM3 pf hO).win 2).index t (0 : Fin 3)
      = (ti (ValueIdx.ix1 ⟨32768 * 2 + t.val, by have h := t.isLt; have e : (cfgM3 pf hO).N = 32768 := N_3; omega⟩)).toNat)
    (hu : ∀ i, (tu i).toNat < 16384) (hi : ∀ i, (ti i).toNat < 50000) :
    (dat3 (F := Ideal) V pf hO c).arrAt 3 (cfgM3 pf hO).N
      = fun y : S32768x1x1.Idx => Cert.Spec.pred dec Wdec bdec tu ti
          (ValueIdx.ix1 ⟨32768 * 2 + (y 0).val, by have h : (y 0).val < 32768 := (y 0).isLt; omega⟩) := by
  refine (dat3 (F := Ideal) V pf hO c).arrAt_eq_of_cover 3 _ (fun t _ => ?_) (fun (i : S32768x1x1.Idx) => ?_)
  ·
    show ((cfgM3 pf hO).win 3).cut ((cfgM3 pf hO).grid.coords t) ((dat3 (F := Ideal) V pf hO c).after 3 t) = _
    rw [after3_3]
    funext j
    refine (congrFun (pv_out_block (iblk3 V pf hO c 0 t) (iblk3 V pf hO c 1 t) (iblk3 V pf hO c 2 t)) _).trans ?_
    refine (point_word V pf hO c dec Wdec bdec tu ti h0 h1 h2 t _ (hu _) (hi _) (hrow0 t) (hrow1 t) (hrow2 t) _).trans ?_
    show _ = Cert.Spec.pred dec Wdec bdec tu ti
      (ValueIdx.ix1 ⟨32768 * 2 + ((((cfgM3 pf hO).win 3).blk t).view.emb j (0 : Fin 3)).val, _⟩)
    refine congrArg (Cert.Spec.pred dec Wdec bdec tu ti) (congrArg ValueIdx.ix1 (Fin.ext ?_))
    show 32768 * 2 + t.val = 32768 * 2 + (((cfgM3 pf hO).win 3).index t (0 : Fin 3) * 1 + 1 * (j (0 : Fin 3)).val)
    rw [out_row pf hO t]
    have hj : (j (0 : Fin 3)).val < 1 := (j (0 : Fin 3)).isLt
    omega
  ·
    have hlt : (i 0).val < 32768 := (i 0).isLt
    exact ⟨⟨(i 0).val, by rw [points pf hO]; exact hlt⟩, out_flush pf hO _, covered pf hO _ i rfl⟩

end

end Cert.KernelIdeal.Hand

end
-- ==== Proof.KI.PredValue4.lean ====
import proofs.«421490_j32530082300068_2_alg».proof.Proof.KI.Pred4Dat
import proofs.«421490_j32530082300068_2_alg».proof.Proof.KI.PredValueLib

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen
open scoped BigOperators

private theorem coord_val (t : Fin grid4.N) : (grid4.coords t 0).val = t.val := by
  have h : t.val < grid4.N := t.isLt
  have e : grid4.N = 32768 := N_4
  show t.val / grid4.stride 0 % grid4.bound 0 = t.val
  have hs : grid4.stride 0 = 1 := by decide
  have hb : grid4.bound 0 = 32768 := rfl
  rw [hs, hb]; omega

section
variable (V : (c : Dev nD) → (b : Ref sig .tc) → Buf (Elt Ideal) ((c : Thread nD τ).loc b)) (pf : pre4.Contents (Elt Ideal))
  (hO : ok4 (F := Ideal) pf) (c : Dev nD)
  (dec : FVec Ideal S16384x512 .f32) (Wdec : FVec Ideal S50000x512 .f32) (bdec : FVec Ideal S50000 .f32) (tu ti : IVec S262144 32)

private theorem points : (cfgM4 pf hO).N = 32768 := N_4

private theorem act_blk (h0 : V c (Pipeline.arrRef spec4 0) = shapeCast S16384x1x512 dec shapeCasts_S16384x512_S16384x1x512)
    (t : Fin (cfgM4 pf hO).N) (w : BitVec 32) (hw : w.toNat < 16384)
    (hrow : ((cfgM4 pf hO).win 0).index t (0 : Fin 3) = w.toNat) (k : Fin 512) :
    (iblk4 V pf hO c 0 t : Vec Ideal S1x1x512 .f32) (ValueIdx.ix3 0 0 k) = dec (ValueIdx.ix2 (Cert.Spec.U w) k) := by
  show V c (Pipeline.arrRef spec4 0) ((((cfgM4 pf hO).win 0).blk t).view.emb (ValueIdx.ix3 0 0 k)) = _
  rw [h0]
  refine pv_act_view dec _ _ k ?_ ?_
  · show ((cfgM4 pf hO).win 0).index t (0 : Fin 3) * 1 + 1 * 0 = (Cert.Spec.U w).val
    rw [hrow, Cert.Spec.U_val hw]; omega
  · show ((cfgM4 pf hO).win 0).index t (2 : Fin 3) * 512 + 1 * k.val = k.val
    have e : ((cfgM4 pf hO).win 0).index t (2 : Fin 3) = 0 := rfl
    omega

private theorem wgt_blk (h1 : V c (Pipeline.arrRef spec4 1) = shapeCast S50000x1x512 Wdec shapeCasts_S50000x512_S50000x1x512)
    (t : Fin (cfgM4 pf hO).N) (w : BitVec 32) (hw : w.toNat < 50000)
    (hrow : ((cfgM4 pf hO).win 1).index t (0 : Fin 3) = w.toNat) (k : Fin 512) :
    (iblk4 V pf hO c 1 t : Vec Ideal S1x1x512 .f32) (ValueIdx.ix3 0 0 k) = Wdec (ValueIdx.ix2 (Cert.Spec.I w) k) := by
  show V c (Pipeline.arrRef spec4 1) ((((cfgM4 pf hO).win 1).blk t).view.emb (ValueIdx.ix3 0 0 k)) = _
  rw [h1]
  refine pv_wgt_view Wdec _ _ k ?_ ?_
  · show ((cfgM4 pf hO).win 1).index t (0 : Fin 3) * 1 + 1 * 0 = (Cert.Spec.I w).val
    rw [hrow, Cert.Spec.I_val hw]; omega
  · show ((cfgM4 pf hO).win 1).index t (2 : Fin 3) * 512 + 1 * k.val = k.val
    have e : ((cfgM4 pf hO).win 1).index t (2 : Fin 3) = 0 := rfl
    omega

private theorem bias_blk (h2 : V c (Pipeline.arrRef spec4 2) = shapeCast S50000x1x1 bdec shapeCasts_S50000_S50000x1x1)
    (t : Fin (cfgM4 pf hO).N) (w : BitVec 32) (hw : w.toNat < 50000)
    (hrow : ((cfgM4 pf hO).win 2).index t (0 : Fin 3) = w.toNat) :
    (iblk4 V pf hO c 2 t : Vec Ideal S1x1x1 .f32) (ValueIdx.ix3 0 0 0) = bdec (ValueIdx.ix1 (Cert.Spec.I w)) := by
  show V c (Pipeline.arrRef spec4 2) ((((cfgM4 pf hO).win 2).blk t).view.emb (ValueIdx.ix3 0 0 0)) = _
  rw [h2]
  refine pv_bias_view bdec _ _ ?_
  show ((cfgM4 pf hO).win 2).index t (0 : Fin 3) * 1 + 1 * 0 = (Cert.Spec.I w).val
  rw [hrow, Cert.Spec.I_val hw]; omega

/-- The three blocks at a point are the rows the tables name there, so the payload is the specification's prediction. -/
private theorem point_word
    (h0 : V c (Pipeline.arrRef spec4 0) = shapeCast S16384x1x512 dec shapeCasts_S16384x512_S16384x1x512)
    (h1 : V c (Pipeline.arrRef spec4 1) = shapeCast S50000x1x512 Wdec shapeCasts_S50000x512_S50000x1x512)
    (h2 : V c (Pipeline.arrRef spec4 2) = shapeCast S50000x1x1 bdec shapeCasts_S50000_S50000x1x1)
    (t : Fin (cfgM4 pf hO).N) (i : S262144.Idx) (hu : (tu i).toNat < 16384) (hi : (ti i).toNat < 50000)
    (hrow0 : ((cfgM4 pf hO).win 0).index t (0 : Fin 3) = (tu i).toNat)
    (hrow1 : ((cfgM4 pf hO).win 1).index t (0 : Fin 3) = (ti i).toNat)
    (hrow2 : ((cfgM4 pf hO).win 2).index t (0 : Fin 3) = (ti i).toNat) (j : S1x1x1.Idx) :
    k1_pay1 (F := Ideal) (iblk4 V pf hO c 0 t : Vec Ideal S1x1x512 .f32) (iblk4 V pf hO c 1 t : Vec Ideal S1x1x512 .f32)
        (iblk4 V pf hO c 2 t : Vec Ideal S1x1x1 .f32) j
      = Cert.Spec.pred dec Wdec bdec tu ti i := by
  refine (pv_pay_word _ _ _ j).trans ?_
  show _ = (∑ k : Fin 512, dec (ValueIdx.ix2 (Cert.Spec.U (tu i)) k) * Wdec (ValueIdx.ix2 (Cert.Spec.I (ti i)) k))
    + bdec (ValueIdx.ix1 (Cert.Spec.I (ti i)))
  rw [bias_blk V pf hO c bdec h2 t (ti i) hi hrow2]
  refine congrArg (· + bdec (ValueIdx.ix1 (Cert.Spec.I (ti i)))) (Finset.sum_congr rfl fun k _ => ?_)
  rw [act_blk V pf hO c dec h0 t (tu i) hu hrow0 k, wgt_blk V pf hO c Wdec h1 t (ti i) hi hrow1 k]

private theorem out_row (t : Fin (cfgM4 pf hO).N) : ((cfgM4 pf hO).win 3).index t (0 : Fin 3) = t.val := by
  show (BitVec.ofNat 32 (grid4.coords t 0).val).toNat = t.val
  rw [coord_val, BitVec.toNat_ofNat]
  have h := t.isLt
  have e := points pf hO
  exact Nat.mod_eq_of_lt (by omega)

private theorem out_flush (t : Fin (cfgM4 pf hO).N) : ((cfgM4 pf hO).win 3).flush t = true := by
  have hout : ((cfgM4 pf hO).win 3).isOut = true := rfl
  unfold Window.flush
  rw [hout, Bool.true_and, Bool.or_eq_true, decide_eq_true_eq, decide_eq_true_eq]
  by_cases h : t.val + 1 = (pcfg4.gridAt pf).N
  · exact Or.inl h
  · have hlt : t.val + 1 < (pcfg4.gridAt pf).N := by have ht : t.val < (pcfg4.gridAt pf).N := t.isLt; omega
    refine Or.inr ⟨hlt, fun e => ?_⟩
    have e0 := congrFun e (0 : Fin 3)
    rw [out_row pf hO t, out_row pf hO ⟨t.val + 1, hlt⟩] at e0
    simp at e0

private theorem mem_out_blk (t : Fin (cfgM4 pf hO).N) (i : S32768x1x1.Idx) :
    i ∈ (((cfgM4 pf hO).win 3).blk t).view.set
      ↔ ∀ a : Fin 3, ((cfgM4 pf hO).win 3).index t a * S1x1x1.size a ≤ (i a).val
          ∧ (i a).val < ((cfgM4 pf hO).win 3).index t a * S1x1x1.size a + S1x1x1.size a := by
  exact (Finset.ext_iff.mp (View.set_slice_whole (Pipeline.arrRef spec4 3) (((cfgM4 pf hO).win 3).rect t)) i).trans
    Rect.mem_set_unit

private theorem covered (t : Fin (cfgM4 pf hO).N) (i : S32768x1x1.Idx) (h : (i 0).val = t.val) :
    i ∈ (((cfgM4 pf hO).win 3).blk t).view.set := by
  rw [mem_out_blk]
  intro a
  match a with
  | ⟨0, _⟩ =>
    show ((cfgM4 pf hO).win 3).index t (0 : Fin 3) * 1 ≤ (i 0).val ∧ (i 0).val < ((cfgM4 pf hO).win 3).index t (0 : Fin 3) * 1 + 1
    rw [out_row pf hO t]; omega
  | ⟨1, _⟩ =>
    show ((cfgM4 pf hO).win 3).index t (1 : Fin 3) * 1 ≤ (i 1).val ∧ (i 1).val < ((cfgM4 pf hO).win 3).index t (1 : Fin 3) * 1 + 1
    have e : ((cfgM4 pf hO).win 3).index t (1 : Fin 3) = 0 := rfl
    have hm : (i 1).val < 1 := (i 1).isLt
    omega
  | ⟨2, _⟩ =>
    show ((cfgM4 pf hO).win 3).index t (2 : Fin 3) * 1 ≤ (i 2).val ∧ (i 2).val < ((cfgM4 pf hO).win 3).index t (2 : Fin 3) * 1 + 1
    have e : ((cfgM4 pf hO).win 3).index t (2 : Fin 3) = 0 := rfl
    have hm : (i 2).val < 1 := (i 2).isLt
    omega

/-- Block `t` of the output is entry `t` of the chunk, so the blocks cover the array: it ends as the predictions at the chunk's targets. -/
theorem pred_final4
    (h0 : V c (Pipeline.arrRef spec4 0) = shapeCast S16384x1x512 dec shapeCasts_S16384x512_S16384x1x512)
    (h1 : V c (Pipeline.arrRef spec4 1) = shapeCast S50000x1x512 Wdec shapeCasts_S50000x512_S50000x1x512)
    (h2 : V c (Pipeline.arrRef spec4 2) = shapeCast S50000x1x1 bdec shapeCasts_S50000_S50000x1x1)
    (hrow0 : ∀ t : Fin (cfgM4 pf hO).N, ((cfgM4 pf hO).win 0).index t (0 : Fin 3)
      = (tu (ValueIdx.ix1 ⟨32768 * 3 + t.val, by have h := t.isLt; have e : (cfgM4 pf hO).N = 32768 := N_4; omega⟩)).toNat)
    (hrow1 : ∀ t : Fin (cfgM4 pf hO).N, ((cfgM4 pf hO).win 1).index t (0 : Fin 3)
      = (ti (ValueIdx.ix1 ⟨32768 * 3 + t.val, by have h := t.isLt; have e : (cfgM4 pf hO).N = 32768 := N_4; omega⟩)).toNat)
    (hrow2 : ∀ t : Fin (cfgM4 pf hO).N, ((cfgM4 pf hO).win 2).index t (0 : Fin 3)
      = (ti (ValueIdx.ix1 ⟨32768 * 3 + t.val, by have h := t.isLt; have e : (cfgM4 pf hO).N = 32768 := N_4; omega⟩)).toNat)
    (hu : ∀ i, (tu i).toNat < 16384) (hi : ∀ i, (ti i).toNat < 50000) :
    (dat4 (F := Ideal) V pf hO c).arrAt 3 (cfgM4 pf hO).N
      = fun y : S32768x1x1.Idx => Cert.Spec.pred dec Wdec bdec tu ti
          (ValueIdx.ix1 ⟨32768 * 3 + (y 0).val, by have h : (y 0).val < 32768 := (y 0).isLt; omega⟩) := by
  refine (dat4 (F := Ideal) V pf hO c).arrAt_eq_of_cover 3 _ (fun t _ => ?_) (fun (i : S32768x1x1.Idx) => ?_)
  ·
    show ((cfgM4 pf hO).win 3).cut ((cfgM4 pf hO).grid.coords t) ((dat4 (F := Ideal) V pf hO c).after 3 t) = _
    rw [after4_3]
    funext j
    refine (congrFun (pv_out_block (iblk4 V pf hO c 0 t) (iblk4 V pf hO c 1 t) (iblk4 V pf hO c 2 t)) _).trans ?_
    refine (point_word V pf hO c dec Wdec bdec tu ti h0 h1 h2 t _ (hu _) (hi _) (hrow0 t) (hrow1 t) (hrow2 t) _).trans ?_
    show _ = Cert.Spec.pred dec Wdec bdec tu ti
      (ValueIdx.ix1 ⟨32768 * 3 + ((((cfgM4 pf hO).win 3).blk t).view.emb j (0 : Fin 3)).val, _⟩)
    refine congrArg (Cert.Spec.pred dec Wdec bdec tu ti) (congrArg ValueIdx.ix1 (Fin.ext ?_))
    show 32768 * 3 + t.val = 32768 * 3 + (((cfgM4 pf hO).win 3).index t (0 : Fin 3) * 1 + 1 * (j (0 : Fin 3)).val)
    rw [out_row pf hO t]
    have hj : (j (0 : Fin 3)).val < 1 := (j (0 : Fin 3)).isLt
    omega
  ·
    have hlt : (i 0).val < 32768 := (i 0).isLt
    exact ⟨⟨(i 0).val, by rw [points pf hO]; exact hlt⟩, out_flush pf hO _, covered pf hO _ i rfl⟩

end

end Cert.KernelIdeal.Hand

end
-- ==== Proof.KI.PredValue5.lean ====
import proofs.«421490_j32530082300068_2_alg».proof.Proof.KI.Pred5Dat
import proofs.«421490_j32530082300068_2_alg».proof.Proof.KI.PredValueLib

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen
open scoped BigOperators

private theorem coord_val (t : Fin grid5.N) : (grid5.coords t 0).val = t.val := by
  have h : t.val < grid5.N := t.isLt
  have e : grid5.N = 32768 := N_5
  show t.val / grid5.stride 0 % grid5.bound 0 = t.val
  have hs : grid5.stride 0 = 1 := by decide
  have hb : grid5.bound 0 = 32768 := rfl
  rw [hs, hb]; omega

section
variable (V : (c : Dev nD) → (b : Ref sig .tc) → Buf (Elt Ideal) ((c : Thread nD τ).loc b)) (pf : pre5.Contents (Elt Ideal))
  (hO : ok5 (F := Ideal) pf) (c : Dev nD)
  (dec : FVec Ideal S16384x512 .f32) (Wdec : FVec Ideal S50000x512 .f32) (bdec : FVec Ideal S50000 .f32) (tu ti : IVec S262144 32)

private theorem points : (cfgM5 pf hO).N = 32768 := N_5

private theorem act_blk (h0 : V c (Pipeline.arrRef spec5 0) = shapeCast S16384x1x512 dec shapeCasts_S16384x512_S16384x1x512)
    (t : Fin (cfgM5 pf hO).N) (w : BitVec 32) (hw : w.toNat < 16384)
    (hrow : ((cfgM5 pf hO).win 0).index t (0 : Fin 3) = w.toNat) (k : Fin 512) :
    (iblk5 V pf hO c 0 t : Vec Ideal S1x1x512 .f32) (ValueIdx.ix3 0 0 k) = dec (ValueIdx.ix2 (Cert.Spec.U w) k) := by
  show V c (Pipeline.arrRef spec5 0) ((((cfgM5 pf hO).win 0).blk t).view.emb (ValueIdx.ix3 0 0 k)) = _
  rw [h0]
  refine pv_act_view dec _ _ k ?_ ?_
  · show ((cfgM5 pf hO).win 0).index t (0 : Fin 3) * 1 + 1 * 0 = (Cert.Spec.U w).val
    rw [hrow, Cert.Spec.U_val hw]; omega
  · show ((cfgM5 pf hO).win 0).index t (2 : Fin 3) * 512 + 1 * k.val = k.val
    have e : ((cfgM5 pf hO).win 0).index t (2 : Fin 3) = 0 := rfl
    omega

private theorem wgt_blk (h1 : V c (Pipeline.arrRef spec5 1) = shapeCast S50000x1x512 Wdec shapeCasts_S50000x512_S50000x1x512)
    (t : Fin (cfgM5 pf hO).N) (w : BitVec 32) (hw : w.toNat < 50000)
    (hrow : ((cfgM5 pf hO).win 1).index t (0 : Fin 3) = w.toNat) (k : Fin 512) :
    (iblk5 V pf hO c 1 t : Vec Ideal S1x1x512 .f32) (ValueIdx.ix3 0 0 k) = Wdec (ValueIdx.ix2 (Cert.Spec.I w) k) := by
  show V c (Pipeline.arrRef spec5 1) ((((cfgM5 pf hO).win 1).blk t).view.emb (ValueIdx.ix3 0 0 k)) = _
  rw [h1]
  refine pv_wgt_view Wdec _ _ k ?_ ?_
  · show ((cfgM5 pf hO).win 1).index t (0 : Fin 3) * 1 + 1 * 0 = (Cert.Spec.I w).val
    rw [hrow, Cert.Spec.I_val hw]; omega
  · show ((cfgM5 pf hO).win 1).index t (2 : Fin 3) * 512 + 1 * k.val = k.val
    have e : ((cfgM5 pf hO).win 1).index t (2 : Fin 3) = 0 := rfl
    omega

private theorem bias_blk (h2 : V c (Pipeline.arrRef spec5 2) = shapeCast S50000x1x1 bdec shapeCasts_S50000_S50000x1x1)
    (t : Fin (cfgM5 pf hO).N) (w : BitVec 32) (hw : w.toNat < 50000)
    (hrow : ((cfgM5 pf hO).win 2).index t (0 : Fin 3) = w.toNat) :
    (iblk5 V pf hO c 2 t : Vec Ideal S1x1x1 .f32) (ValueIdx.ix3 0 0 0) = bdec (ValueIdx.ix1 (Cert.Spec.I w)) := by
  show V c (Pipeline.arrRef spec5 2) ((((cfgM5 pf hO).win 2).blk t).view.emb (ValueIdx.ix3 0 0 0)) = _
  rw [h2]
  refine pv_bias_view bdec _ _ ?_
  show ((cfgM5 pf hO).win 2).index t (0 : Fin 3) * 1 + 1 * 0 = (Cert.Spec.I w).val
  rw [hrow, Cert.Spec.I_val hw]; omega

/-- The three blocks at a point are the rows the tables name there, so the payload is the specification's prediction. -/
private theorem point_word
    (h0 : V c (Pipeline.arrRef spec5 0) = shapeCast S16384x1x512 dec shapeCasts_S16384x512_S16384x1x512)
    (h1 : V c (Pipeline.arrRef spec5 1) = shapeCast S50000x1x512 Wdec shapeCasts_S50000x512_S50000x1x512)
    (h2 : V c (Pipeline.arrRef spec5 2) = shapeCast S50000x1x1 bdec shapeCasts_S50000_S50000x1x1)
    (t : Fin (cfgM5 pf hO).N) (i : S262144.Idx) (hu : (tu i).toNat < 16384) (hi : (ti i).toNat < 50000)
    (hrow0 : ((cfgM5 pf hO).win 0).index t (0 : Fin 3) = (tu i).toNat)
    (hrow1 : ((cfgM5 pf hO).win 1).index t (0 : Fin 3) = (ti i).toNat)
    (hrow2 : ((cfgM5 pf hO).win 2).index t (0 : Fin 3) = (ti i).toNat) (j : S1x1x1.Idx) :
    k1_pay1 (F := Ideal) (iblk5 V pf hO c 0 t : Vec Ideal S1x1x512 .f32) (iblk5 V pf hO c 1 t : Vec Ideal S1x1x512 .f32)
        (iblk5 V pf hO c 2 t : Vec Ideal S1x1x1 .f32) j
      = Cert.Spec.pred dec Wdec bdec tu ti i := by
  refine (pv_pay_word _ _ _ j).trans ?_
  show _ = (∑ k : Fin 512, dec (ValueIdx.ix2 (Cert.Spec.U (tu i)) k) * Wdec (ValueIdx.ix2 (Cert.Spec.I (ti i)) k))
    + bdec (ValueIdx.ix1 (Cert.Spec.I (ti i)))
  rw [bias_blk V pf hO c bdec h2 t (ti i) hi hrow2]
  refine congrArg (· + bdec (ValueIdx.ix1 (Cert.Spec.I (ti i)))) (Finset.sum_congr rfl fun k _ => ?_)
  rw [act_blk V pf hO c dec h0 t (tu i) hu hrow0 k, wgt_blk V pf hO c Wdec h1 t (ti i) hi hrow1 k]

private theorem out_row (t : Fin (cfgM5 pf hO).N) : ((cfgM5 pf hO).win 3).index t (0 : Fin 3) = t.val := by
  show (BitVec.ofNat 32 (grid5.coords t 0).val).toNat = t.val
  rw [coord_val, BitVec.toNat_ofNat]
  have h := t.isLt
  have e := points pf hO
  exact Nat.mod_eq_of_lt (by omega)

private theorem out_flush (t : Fin (cfgM5 pf hO).N) : ((cfgM5 pf hO).win 3).flush t = true := by
  have hout : ((cfgM5 pf hO).win 3).isOut = true := rfl
  unfold Window.flush
  rw [hout, Bool.true_and, Bool.or_eq_true, decide_eq_true_eq, decide_eq_true_eq]
  by_cases h : t.val + 1 = (pcfg5.gridAt pf).N
  · exact Or.inl h
  · have hlt : t.val + 1 < (pcfg5.gridAt pf).N := by have ht : t.val < (pcfg5.gridAt pf).N := t.isLt; omega
    refine Or.inr ⟨hlt, fun e => ?_⟩
    have e0 := congrFun e (0 : Fin 3)
    rw [out_row pf hO t, out_row pf hO ⟨t.val + 1, hlt⟩] at e0
    simp at e0

private theorem mem_out_blk (t : Fin (cfgM5 pf hO).N) (i : S32768x1x1.Idx) :
    i ∈ (((cfgM5 pf hO).win 3).blk t).view.set
      ↔ ∀ a : Fin 3, ((cfgM5 pf hO).win 3).index t a * S1x1x1.size a ≤ (i a).val
          ∧ (i a).val < ((cfgM5 pf hO).win 3).index t a * S1x1x1.size a + S1x1x1.size a := by
  exact (Finset.ext_iff.mp (View.set_slice_whole (Pipeline.arrRef spec5 3) (((cfgM5 pf hO).win 3).rect t)) i).trans
    Rect.mem_set_unit

private theorem covered (t : Fin (cfgM5 pf hO).N) (i : S32768x1x1.Idx) (h : (i 0).val = t.val) :
    i ∈ (((cfgM5 pf hO).win 3).blk t).view.set := by
  rw [mem_out_blk]
  intro a
  match a with
  | ⟨0, _⟩ =>
    show ((cfgM5 pf hO).win 3).index t (0 : Fin 3) * 1 ≤ (i 0).val ∧ (i 0).val < ((cfgM5 pf hO).win 3).index t (0 : Fin 3) * 1 + 1
    rw [out_row pf hO t]; omega
  | ⟨1, _⟩ =>
    show ((cfgM5 pf hO).win 3).index t (1 : Fin 3) * 1 ≤ (i 1).val ∧ (i 1).val < ((cfgM5 pf hO).win 3).index t (1 : Fin 3) * 1 + 1
    have e : ((cfgM5 pf hO).win 3).index t (1 : Fin 3) = 0 := rfl
    have hm : (i 1).val < 1 := (i 1).isLt
    omega
  | ⟨2, _⟩ =>
    show ((cfgM5 pf hO).win 3).index t (2 : Fin 3) * 1 ≤ (i 2).val ∧ (i 2).val < ((cfgM5 pf hO).win 3).index t (2 : Fin 3) * 1 + 1
    have e : ((cfgM5 pf hO).win 3).index t (2 : Fin 3) = 0 := rfl
    have hm : (i 2).val < 1 := (i 2).isLt
    omega

/-- Block `t` of the output is entry `t` of the chunk, so the blocks cover the array: it ends as the predictions at the chunk's targets. -/
theorem pred_final5
    (h0 : V c (Pipeline.arrRef spec5 0) = shapeCast S16384x1x512 dec shapeCasts_S16384x512_S16384x1x512)
    (h1 : V c (Pipeline.arrRef spec5 1) = shapeCast S50000x1x512 Wdec shapeCasts_S50000x512_S50000x1x512)
    (h2 : V c (Pipeline.arrRef spec5 2) = shapeCast S50000x1x1 bdec shapeCasts_S50000_S50000x1x1)
    (hrow0 : ∀ t : Fin (cfgM5 pf hO).N, ((cfgM5 pf hO).win 0).index t (0 : Fin 3)
      = (tu (ValueIdx.ix1 ⟨32768 * 4 + t.val, by have h := t.isLt; have e : (cfgM5 pf hO).N = 32768 := N_5; omega⟩)).toNat)
    (hrow1 : ∀ t : Fin (cfgM5 pf hO).N, ((cfgM5 pf hO).win 1).index t (0 : Fin 3)
      = (ti (ValueIdx.ix1 ⟨32768 * 4 + t.val, by have h := t.isLt; have e : (cfgM5 pf hO).N = 32768 := N_5; omega⟩)).toNat)
    (hrow2 : ∀ t : Fin (cfgM5 pf hO).N, ((cfgM5 pf hO).win 2).index t (0 : Fin 3)
      = (ti (ValueIdx.ix1 ⟨32768 * 4 + t.val, by have h := t.isLt; have e : (cfgM5 pf hO).N = 32768 := N_5; omega⟩)).toNat)
    (hu : ∀ i, (tu i).toNat < 16384) (hi : ∀ i, (ti i).toNat < 50000) :
    (dat5 (F := Ideal) V pf hO c).arrAt 3 (cfgM5 pf hO).N
      = fun y : S32768x1x1.Idx => Cert.Spec.pred dec Wdec bdec tu ti
          (ValueIdx.ix1 ⟨32768 * 4 + (y 0).val, by have h : (y 0).val < 32768 := (y 0).isLt; omega⟩) := by
  refine (dat5 (F := Ideal) V pf hO c).arrAt_eq_of_cover 3 _ (fun t _ => ?_) (fun (i : S32768x1x1.Idx) => ?_)
  ·
    show ((cfgM5 pf hO).win 3).cut ((cfgM5 pf hO).grid.coords t) ((dat5 (F := Ideal) V pf hO c).after 3 t) = _
    rw [after5_3]
    funext j
    refine (congrFun (pv_out_block (iblk5 V pf hO c 0 t) (iblk5 V pf hO c 1 t) (iblk5 V pf hO c 2 t)) _).trans ?_
    refine (point_word V pf hO c dec Wdec bdec tu ti h0 h1 h2 t _ (hu _) (hi _) (hrow0 t) (hrow1 t) (hrow2 t) _).trans ?_
    show _ = Cert.Spec.pred dec Wdec bdec tu ti
      (ValueIdx.ix1 ⟨32768 * 4 + ((((cfgM5 pf hO).win 3).blk t).view.emb j (0 : Fin 3)).val, _⟩)
    refine congrArg (Cert.Spec.pred dec Wdec bdec tu ti) (congrArg ValueIdx.ix1 (Fin.ext ?_))
    show 32768 * 4 + t.val = 32768 * 4 + (((cfgM5 pf hO).win 3).index t (0 : Fin 3) * 1 + 1 * (j (0 : Fin 3)).val)
    rw [out_row pf hO t]
    have hj : (j (0 : Fin 3)).val < 1 := (j (0 : Fin 3)).isLt
    omega
  ·
    have hlt : (i 0).val < 32768 := (i 0).isLt
    exact ⟨⟨(i 0).val, by rw [points pf hO]; exact hlt⟩, out_flush pf hO _, covered pf hO _ i rfl⟩

end

end Cert.KernelIdeal.Hand

end
-- ==== Proof.KI.PredValue6.lean ====
import proofs.«421490_j32530082300068_2_alg».proof.Proof.KI.Pred6Dat
import proofs.«421490_j32530082300068_2_alg».proof.Proof.KI.PredValueLib

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen
open scoped BigOperators

private theorem coord_val (t : Fin grid6.N) : (grid6.coords t 0).val = t.val := by
  have h : t.val < grid6.N := t.isLt
  have e : grid6.N = 32768 := N_6
  show t.val / grid6.stride 0 % grid6.bound 0 = t.val
  have hs : grid6.stride 0 = 1 := by decide
  have hb : grid6.bound 0 = 32768 := rfl
  rw [hs, hb]; omega

section
variable (V : (c : Dev nD) → (b : Ref sig .tc) → Buf (Elt Ideal) ((c : Thread nD τ).loc b)) (pf : pre6.Contents (Elt Ideal))
  (hO : ok6 (F := Ideal) pf) (c : Dev nD)
  (dec : FVec Ideal S16384x512 .f32) (Wdec : FVec Ideal S50000x512 .f32) (bdec : FVec Ideal S50000 .f32) (tu ti : IVec S262144 32)

private theorem points : (cfgM6 pf hO).N = 32768 := N_6

private theorem act_blk (h0 : V c (Pipeline.arrRef spec6 0) = shapeCast S16384x1x512 dec shapeCasts_S16384x512_S16384x1x512)
    (t : Fin (cfgM6 pf hO).N) (w : BitVec 32) (hw : w.toNat < 16384)
    (hrow : ((cfgM6 pf hO).win 0).index t (0 : Fin 3) = w.toNat) (k : Fin 512) :
    (iblk6 V pf hO c 0 t : Vec Ideal S1x1x512 .f32) (ValueIdx.ix3 0 0 k) = dec (ValueIdx.ix2 (Cert.Spec.U w) k) := by
  show V c (Pipeline.arrRef spec6 0) ((((cfgM6 pf hO).win 0).blk t).view.emb (ValueIdx.ix3 0 0 k)) = _
  rw [h0]
  refine pv_act_view dec _ _ k ?_ ?_
  · show ((cfgM6 pf hO).win 0).index t (0 : Fin 3) * 1 + 1 * 0 = (Cert.Spec.U w).val
    rw [hrow, Cert.Spec.U_val hw]; omega
  · show ((cfgM6 pf hO).win 0).index t (2 : Fin 3) * 512 + 1 * k.val = k.val
    have e : ((cfgM6 pf hO).win 0).index t (2 : Fin 3) = 0 := rfl
    omega

private theorem wgt_blk (h1 : V c (Pipeline.arrRef spec6 1) = shapeCast S50000x1x512 Wdec shapeCasts_S50000x512_S50000x1x512)
    (t : Fin (cfgM6 pf hO).N) (w : BitVec 32) (hw : w.toNat < 50000)
    (hrow : ((cfgM6 pf hO).win 1).index t (0 : Fin 3) = w.toNat) (k : Fin 512) :
    (iblk6 V pf hO c 1 t : Vec Ideal S1x1x512 .f32) (ValueIdx.ix3 0 0 k) = Wdec (ValueIdx.ix2 (Cert.Spec.I w) k) := by
  show V c (Pipeline.arrRef spec6 1) ((((cfgM6 pf hO).win 1).blk t).view.emb (ValueIdx.ix3 0 0 k)) = _
  rw [h1]
  refine pv_wgt_view Wdec _ _ k ?_ ?_
  · show ((cfgM6 pf hO).win 1).index t (0 : Fin 3) * 1 + 1 * 0 = (Cert.Spec.I w).val
    rw [hrow, Cert.Spec.I_val hw]; omega
  · show ((cfgM6 pf hO).win 1).index t (2 : Fin 3) * 512 + 1 * k.val = k.val
    have e : ((cfgM6 pf hO).win 1).index t (2 : Fin 3) = 0 := rfl
    omega

private theorem bias_blk (h2 : V c (Pipeline.arrRef spec6 2) = shapeCast S50000x1x1 bdec shapeCasts_S50000_S50000x1x1)
    (t : Fin (cfgM6 pf hO).N) (w : BitVec 32) (hw : w.toNat < 50000)
    (hrow : ((cfgM6 pf hO).win 2).index t (0 : Fin 3) = w.toNat) :
    (iblk6 V pf hO c 2 t : Vec Ideal S1x1x1 .f32) (ValueIdx.ix3 0 0 0) = bdec (ValueIdx.ix1 (Cert.Spec.I w)) := by
  show V c (Pipeline.arrRef spec6 2) ((((cfgM6 pf hO).win 2).blk t).view.emb (ValueIdx.ix3 0 0 0)) = _
  rw [h2]
  refine pv_bias_view bdec _ _ ?_
  show ((cfgM6 pf hO).win 2).index t (0 : Fin 3) * 1 + 1 * 0 = (Cert.Spec.I w).val
  rw [hrow, Cert.Spec.I_val hw]; omega

/-- The three blocks at a point are the rows the tables name there, so the payload is the specification's prediction. -/
private theorem point_word
    (h0 : V c (Pipeline.arrRef spec6 0) = shapeCast S16384x1x512 dec shapeCasts_S16384x512_S16384x1x512)
    (h1 : V c (Pipeline.arrRef spec6 1) = shapeCast S50000x1x512 Wdec shapeCasts_S50000x512_S50000x1x512)
    (h2 : V c (Pipeline.arrRef spec6 2) = shapeCast S50000x1x1 bdec shapeCasts_S50000_S50000x1x1)
    (t : Fin (cfgM6 pf hO).N) (i : S262144.Idx) (hu : (tu i).toNat < 16384) (hi : (ti i).toNat < 50000)
    (hrow0 : ((cfgM6 pf hO).win 0).index t (0 : Fin 3) = (tu i).toNat)
    (hrow1 : ((cfgM6 pf hO).win 1).index t (0 : Fin 3) = (ti i).toNat)
    (hrow2 : ((cfgM6 pf hO).win 2).index t (0 : Fin 3) = (ti i).toNat) (j : S1x1x1.Idx) :
    k1_pay1 (F := Ideal) (iblk6 V pf hO c 0 t : Vec Ideal S1x1x512 .f32) (iblk6 V pf hO c 1 t : Vec Ideal S1x1x512 .f32)
        (iblk6 V pf hO c 2 t : Vec Ideal S1x1x1 .f32) j
      = Cert.Spec.pred dec Wdec bdec tu ti i := by
  refine (pv_pay_word _ _ _ j).trans ?_
  show _ = (∑ k : Fin 512, dec (ValueIdx.ix2 (Cert.Spec.U (tu i)) k) * Wdec (ValueIdx.ix2 (Cert.Spec.I (ti i)) k))
    + bdec (ValueIdx.ix1 (Cert.Spec.I (ti i)))
  rw [bias_blk V pf hO c bdec h2 t (ti i) hi hrow2]
  refine congrArg (· + bdec (ValueIdx.ix1 (Cert.Spec.I (ti i)))) (Finset.sum_congr rfl fun k _ => ?_)
  rw [act_blk V pf hO c dec h0 t (tu i) hu hrow0 k, wgt_blk V pf hO c Wdec h1 t (ti i) hi hrow1 k]

private theorem out_row (t : Fin (cfgM6 pf hO).N) : ((cfgM6 pf hO).win 3).index t (0 : Fin 3) = t.val := by
  show (BitVec.ofNat 32 (grid6.coords t 0).val).toNat = t.val
  rw [coord_val, BitVec.toNat_ofNat]
  have h := t.isLt
  have e := points pf hO
  exact Nat.mod_eq_of_lt (by omega)

private theorem out_flush (t : Fin (cfgM6 pf hO).N) : ((cfgM6 pf hO).win 3).flush t = true := by
  have hout : ((cfgM6 pf hO).win 3).isOut = true := rfl
  unfold Window.flush
  rw [hout, Bool.true_and, Bool.or_eq_true, decide_eq_true_eq, decide_eq_true_eq]
  by_cases h : t.val + 1 = (pcfg6.gridAt pf).N
  · exact Or.inl h
  · have hlt : t.val + 1 < (pcfg6.gridAt pf).N := by have ht : t.val < (pcfg6.gridAt pf).N := t.isLt; omega
    refine Or.inr ⟨hlt, fun e => ?_⟩
    have e0 := congrFun e (0 : Fin 3)
    rw [out_row pf hO t, out_row pf hO ⟨t.val + 1, hlt⟩] at e0
    simp at e0

private theorem mem_out_blk (t : Fin (cfgM6 pf hO).N) (i : S32768x1x1.Idx) :
    i ∈ (((cfgM6 pf hO).win 3).blk t).view.set
      ↔ ∀ a : Fin 3, ((cfgM6 pf hO).win 3).index t a * S1x1x1.size a ≤ (i a).val
          ∧ (i a).val < ((cfgM6 pf hO).win 3).index t a * S1x1x1.size a + S1x1x1.size a := by
  exact (Finset.ext_iff.mp (View.set_slice_whole (Pipeline.arrRef spec6 3) (((cfgM6 pf hO).win 3).rect t)) i).trans
    Rect.mem_set_unit

private theorem covered (t : Fin (cfgM6 pf hO).N) (i : S32768x1x1.Idx) (h : (i 0).val = t.val) :
    i ∈ (((cfgM6 pf hO).win 3).blk t).view.set := by
  rw [mem_out_blk]
  intro a
  match a with
  | ⟨0, _⟩ =>
    show ((cfgM6 pf hO).win 3).index t (0 : Fin 3) * 1 ≤ (i 0).val ∧ (i 0).val < ((cfgM6 pf hO).win 3).index t (0 : Fin 3) * 1 + 1
    rw [out_row pf hO t]; omega
  | ⟨1, _⟩ =>
    show ((cfgM6 pf hO).win 3).index t (1 : Fin 3) * 1 ≤ (i 1).val ∧ (i 1).val < ((cfgM6 pf hO).win 3).index t (1 : Fin 3) * 1 + 1
    have e : ((cfgM6 pf hO).win 3).index t (1 : Fin 3) = 0 := rfl
    have hm : (i 1).val < 1 := (i 1).isLt
    omega
  | ⟨2, _⟩ =>
    show ((cfgM6 pf hO).win 3).index t (2 : Fin 3) * 1 ≤ (i 2).val ∧ (i 2).val < ((cfgM6 pf hO).win 3).index t (2 : Fin 3) * 1 + 1
    have e : ((cfgM6 pf hO).win 3).index t (2 : Fin 3) = 0 := rfl
    have hm : (i 2).val < 1 := (i 2).isLt
    omega

/-- Block `t` of the output is entry `t` of the chunk, so the blocks cover the array: it ends as the predictions at the chunk's targets. -/
theorem pred_final6
    (h0 : V c (Pipeline.arrRef spec6 0) = shapeCast S16384x1x512 dec shapeCasts_S16384x512_S16384x1x512)
    (h1 : V c (Pipeline.arrRef spec6 1) = shapeCast S50000x1x512 Wdec shapeCasts_S50000x512_S50000x1x512)
    (h2 : V c (Pipeline.arrRef spec6 2) = shapeCast S50000x1x1 bdec shapeCasts_S50000_S50000x1x1)
    (hrow0 : ∀ t : Fin (cfgM6 pf hO).N, ((cfgM6 pf hO).win 0).index t (0 : Fin 3)
      = (tu (ValueIdx.ix1 ⟨32768 * 5 + t.val, by have h := t.isLt; have e : (cfgM6 pf hO).N = 32768 := N_6; omega⟩)).toNat)
    (hrow1 : ∀ t : Fin (cfgM6 pf hO).N, ((cfgM6 pf hO).win 1).index t (0 : Fin 3)
      = (ti (ValueIdx.ix1 ⟨32768 * 5 + t.val, by have h := t.isLt; have e : (cfgM6 pf hO).N = 32768 := N_6; omega⟩)).toNat)
    (hrow2 : ∀ t : Fin (cfgM6 pf hO).N, ((cfgM6 pf hO).win 2).index t (0 : Fin 3)
      = (ti (ValueIdx.ix1 ⟨32768 * 5 + t.val, by have h := t.isLt; have e : (cfgM6 pf hO).N = 32768 := N_6; omega⟩)).toNat)
    (hu : ∀ i, (tu i).toNat < 16384) (hi : ∀ i, (ti i).toNat < 50000) :
    (dat6 (F := Ideal) V pf hO c).arrAt 3 (cfgM6 pf hO).N
      = fun y : S32768x1x1.Idx => Cert.Spec.pred dec Wdec bdec tu ti
          (ValueIdx.ix1 ⟨32768 * 5 + (y 0).val, by have h : (y 0).val < 32768 := (y 0).isLt; omega⟩) := by
  refine (dat6 (F := Ideal) V pf hO c).arrAt_eq_of_cover 3 _ (fun t _ => ?_) (fun (i : S32768x1x1.Idx) => ?_)
  ·
    show ((cfgM6 pf hO).win 3).cut ((cfgM6 pf hO).grid.coords t) ((dat6 (F := Ideal) V pf hO c).after 3 t) = _
    rw [after6_3]
    funext j
    refine (congrFun (pv_out_block (iblk6 V pf hO c 0 t) (iblk6 V pf hO c 1 t) (iblk6 V pf hO c 2 t)) _).trans ?_
    refine (point_word V pf hO c dec Wdec bdec tu ti h0 h1 h2 t _ (hu _) (hi _) (hrow0 t) (hrow1 t) (hrow2 t) _).trans ?_
    show _ = Cert.Spec.pred dec Wdec bdec tu ti
      (ValueIdx.ix1 ⟨32768 * 5 + ((((cfgM6 pf hO).win 3).blk t).view.emb j (0 : Fin 3)).val, _⟩)
    refine congrArg (Cert.Spec.pred dec Wdec bdec tu ti) (congrArg ValueIdx.ix1 (Fin.ext ?_))
    show 32768 * 5 + t.val = 32768 * 5 + (((cfgM6 pf hO).win 3).index t (0 : Fin 3) * 1 + 1 * (j (0 : Fin 3)).val)
    rw [out_row pf hO t]
    have hj : (j (0 : Fin 3)).val < 1 := (j (0 : Fin 3)).isLt
    omega
  ·
    have hlt : (i 0).val < 32768 := (i 0).isLt
    exact ⟨⟨(i 0).val, by rw [points pf hO]; exact hlt⟩, out_flush pf hO _, covered pf hO _ i rfl⟩

end

end Cert.KernelIdeal.Hand

end
-- ==== Proof.KI.PredValue7.lean ====
import proofs.«421490_j32530082300068_2_alg».proof.Proof.KI.Pred7Dat
import proofs.«421490_j32530082300068_2_alg».proof.Proof.KI.PredValueLib

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen
open scoped BigOperators

private theorem coord_val (t : Fin grid7.N) : (grid7.coords t 0).val = t.val := by
  have h : t.val < grid7.N := t.isLt
  have e : grid7.N = 32768 := N_7
  show t.val / grid7.stride 0 % grid7.bound 0 = t.val
  have hs : grid7.stride 0 = 1 := by decide
  have hb : grid7.bound 0 = 32768 := rfl
  rw [hs, hb]; omega

section
variable (V : (c : Dev nD) → (b : Ref sig .tc) → Buf (Elt Ideal) ((c : Thread nD τ).loc b)) (pf : pre7.Contents (Elt Ideal))
  (hO : ok7 (F := Ideal) pf) (c : Dev nD)
  (dec : FVec Ideal S16384x512 .f32) (Wdec : FVec Ideal S50000x512 .f32) (bdec : FVec Ideal S50000 .f32) (tu ti : IVec S262144 32)

private theorem points : (cfgM7 pf hO).N = 32768 := N_7

private theorem act_blk (h0 : V c (Pipeline.arrRef spec7 0) = shapeCast S16384x1x512 dec shapeCasts_S16384x512_S16384x1x512)
    (t : Fin (cfgM7 pf hO).N) (w : BitVec 32) (hw : w.toNat < 16384)
    (hrow : ((cfgM7 pf hO).win 0).index t (0 : Fin 3) = w.toNat) (k : Fin 512) :
    (iblk7 V pf hO c 0 t : Vec Ideal S1x1x512 .f32) (ValueIdx.ix3 0 0 k) = dec (ValueIdx.ix2 (Cert.Spec.U w) k) := by
  show V c (Pipeline.arrRef spec7 0) ((((cfgM7 pf hO).win 0).blk t).view.emb (ValueIdx.ix3 0 0 k)) = _
  rw [h0]
  refine pv_act_view dec _ _ k ?_ ?_
  · show ((cfgM7 pf hO).win 0).index t (0 : Fin 3) * 1 + 1 * 0 = (Cert.Spec.U w).val
    rw [hrow, Cert.Spec.U_val hw]; omega
  · show ((cfgM7 pf hO).win 0).index t (2 : Fin 3) * 512 + 1 * k.val = k.val
    have e : ((cfgM7 pf hO).win 0).index t (2 : Fin 3) = 0 := rfl
    omega

private theorem wgt_blk (h1 : V c (Pipeline.arrRef spec7 1) = shapeCast S50000x1x512 Wdec shapeCasts_S50000x512_S50000x1x512)
    (t : Fin (cfgM7 pf hO).N) (w : BitVec 32) (hw : w.toNat < 50000)
    (hrow : ((cfgM7 pf hO).win 1).index t (0 : Fin 3) = w.toNat) (k : Fin 512) :
    (iblk7 V pf hO c 1 t : Vec Ideal S1x1x512 .f32) (ValueIdx.ix3 0 0 k) = Wdec (ValueIdx.ix2 (Cert.Spec.I w) k) := by
  show V c (Pipeline.arrRef spec7 1) ((((cfgM7 pf hO).win 1).blk t).view.emb (ValueIdx.ix3 0 0 k)) = _
  rw [h1]
  refine pv_wgt_view Wdec _ _ k ?_ ?_
  · show ((cfgM7 pf hO).win 1).index t (0 : Fin 3) * 1 + 1 * 0 = (Cert.Spec.I w).val
    rw [hrow, Cert.Spec.I_val hw]; omega
  · show ((cfgM7 pf hO).win 1).index t (2 : Fin 3) * 512 + 1 * k.val = k.val
    have e : ((cfgM7 pf hO).win 1).index t (2 : Fin 3) = 0 := rfl
    omega

private theorem bias_blk (h2 : V c (Pipeline.arrRef spec7 2) = shapeCast S50000x1x1 bdec shapeCasts_S50000_S50000x1x1)
    (t : Fin (cfgM7 pf hO).N) (w : BitVec 32) (hw : w.toNat < 50000)
    (hrow : ((cfgM7 pf hO).win 2).index t (0 : Fin 3) = w.toNat) :
    (iblk7 V pf hO c 2 t : Vec Ideal S1x1x1 .f32) (ValueIdx.ix3 0 0 0) = bdec (ValueIdx.ix1 (Cert.Spec.I w)) := by
  show V c (Pipeline.arrRef spec7 2) ((((cfgM7 pf hO).win 2).blk t).view.emb (ValueIdx.ix3 0 0 0)) = _
  rw [h2]
  refine pv_bias_view bdec _ _ ?_
  show ((cfgM7 pf hO).win 2).index t (0 : Fin 3) * 1 + 1 * 0 = (Cert.Spec.I w).val
  rw [hrow, Cert.Spec.I_val hw]; omega

/-- The three blocks at a point are the rows the tables name there, so the payload is the specification's prediction. -/
private theorem point_word
    (h0 : V c (Pipeline.arrRef spec7 0) = shapeCast S16384x1x512 dec shapeCasts_S16384x512_S16384x1x512)
    (h1 : V c (Pipeline.arrRef spec7 1) = shapeCast S50000x1x512 Wdec shapeCasts_S50000x512_S50000x1x512)
    (h2 : V c (Pipeline.arrRef spec7 2) = shapeCast S50000x1x1 bdec shapeCasts_S50000_S50000x1x1)
    (t : Fin (cfgM7 pf hO).N) (i : S262144.Idx) (hu : (tu i).toNat < 16384) (hi : (ti i).toNat < 50000)
    (hrow0 : ((cfgM7 pf hO).win 0).index t (0 : Fin 3) = (tu i).toNat)
    (hrow1 : ((cfgM7 pf hO).win 1).index t (0 : Fin 3) = (ti i).toNat)
    (hrow2 : ((cfgM7 pf hO).win 2).index t (0 : Fin 3) = (ti i).toNat) (j : S1x1x1.Idx) :
    k1_pay1 (F := Ideal) (iblk7 V pf hO c 0 t : Vec Ideal S1x1x512 .f32) (iblk7 V pf hO c 1 t : Vec Ideal S1x1x512 .f32)
        (iblk7 V pf hO c 2 t : Vec Ideal S1x1x1 .f32) j
      = Cert.Spec.pred dec Wdec bdec tu ti i := by
  refine (pv_pay_word _ _ _ j).trans ?_
  show _ = (∑ k : Fin 512, dec (ValueIdx.ix2 (Cert.Spec.U (tu i)) k) * Wdec (ValueIdx.ix2 (Cert.Spec.I (ti i)) k))
    + bdec (ValueIdx.ix1 (Cert.Spec.I (ti i)))
  rw [bias_blk V pf hO c bdec h2 t (ti i) hi hrow2]
  refine congrArg (· + bdec (ValueIdx.ix1 (Cert.Spec.I (ti i)))) (Finset.sum_congr rfl fun k _ => ?_)
  rw [act_blk V pf hO c dec h0 t (tu i) hu hrow0 k, wgt_blk V pf hO c Wdec h1 t (ti i) hi hrow1 k]

private theorem out_row (t : Fin (cfgM7 pf hO).N) : ((cfgM7 pf hO).win 3).index t (0 : Fin 3) = t.val := by
  show (BitVec.ofNat 32 (grid7.coords t 0).val).toNat = t.val
  rw [coord_val, BitVec.toNat_ofNat]
  have h := t.isLt
  have e := points pf hO
  exact Nat.mod_eq_of_lt (by omega)

private theorem out_flush (t : Fin (cfgM7 pf hO).N) : ((cfgM7 pf hO).win 3).flush t = true := by
  have hout : ((cfgM7 pf hO).win 3).isOut = true := rfl
  unfold Window.flush
  rw [hout, Bool.true_and, Bool.or_eq_true, decide_eq_true_eq, decide_eq_true_eq]
  by_cases h : t.val + 1 = (pcfg7.gridAt pf).N
  · exact Or.inl h
  · have hlt : t.val + 1 < (pcfg7.gridAt pf).N := by have ht : t.val < (pcfg7.gridAt pf).N := t.isLt; omega
    refine Or.inr ⟨hlt, fun e => ?_⟩
    have e0 := congrFun e (0 : Fin 3)
    rw [out_row pf hO t, out_row pf hO ⟨t.val + 1, hlt⟩] at e0
    simp at e0

private theorem mem_out_blk (t : Fin (cfgM7 pf hO).N) (i : S32768x1x1.Idx) :
    i ∈ (((cfgM7 pf hO).win 3).blk t).view.set
      ↔ ∀ a : Fin 3, ((cfgM7 pf hO).win 3).index t a * S1x1x1.size a ≤ (i a).val
          ∧ (i a).val < ((cfgM7 pf hO).win 3).index t a * S1x1x1.size a + S1x1x1.size a := by
  exact (Finset.ext_iff.mp (View.set_slice_whole (Pipeline.arrRef spec7 3) (((cfgM7 pf hO).win 3).rect t)) i).trans
    Rect.mem_set_unit

private theorem covered (t : Fin (cfgM7 pf hO).N) (i : S32768x1x1.Idx) (h : (i 0).val = t.val) :
    i ∈ (((cfgM7 pf hO).win 3).blk t).view.set := by
  rw [mem_out_blk]
  intro a
  match a with
  | ⟨0, _⟩ =>
    show ((cfgM7 pf hO).win 3).index t (0 : Fin 3) * 1 ≤ (i 0).val ∧ (i 0).val < ((cfgM7 pf hO).win 3).index t (0 : Fin 3) * 1 + 1
    rw [out_row pf hO t]; omega
  | ⟨1, _⟩ =>
    show ((cfgM7 pf hO).win 3).index t (1 : Fin 3) * 1 ≤ (i 1).val ∧ (i 1).val < ((cfgM7 pf hO).win 3).index t (1 : Fin 3) * 1 + 1
    have e : ((cfgM7 pf hO).win 3).index t (1 : Fin 3) = 0 := rfl
    have hm : (i 1).val < 1 := (i 1).isLt
    omega
  | ⟨2, _⟩ =>
    show ((cfgM7 pf hO).win 3).index t (2 : Fin 3) * 1 ≤ (i 2).val ∧ (i 2).val < ((cfgM7 pf hO).win 3).index t (2 : Fin 3) * 1 + 1
    have e : ((cfgM7 pf hO).win 3).index t (2 : Fin 3) = 0 := rfl
    have hm : (i 2).val < 1 := (i 2).isLt
    omega

/-- Block `t` of the output is entry `t` of the chunk, so the blocks cover the array: it ends as the predictions at the chunk's targets. -/
theorem pred_final7
    (h0 : V c (Pipeline.arrRef spec7 0) = shapeCast S16384x1x512 dec shapeCasts_S16384x512_S16384x1x512)
    (h1 : V c (Pipeline.arrRef spec7 1) = shapeCast S50000x1x512 Wdec shapeCasts_S50000x512_S50000x1x512)
    (h2 : V c (Pipeline.arrRef spec7 2) = shapeCast S50000x1x1 bdec shapeCasts_S50000_S50000x1x1)
    (hrow0 : ∀ t : Fin (cfgM7 pf hO).N, ((cfgM7 pf hO).win 0).index t (0 : Fin 3)
      = (tu (ValueIdx.ix1 ⟨32768 * 6 + t.val, by have h := t.isLt; have e : (cfgM7 pf hO).N = 32768 := N_7; omega⟩)).toNat)
    (hrow1 : ∀ t : Fin (cfgM7 pf hO).N, ((cfgM7 pf hO).win 1).index t (0 : Fin 3)
      = (ti (ValueIdx.ix1 ⟨32768 * 6 + t.val, by have h := t.isLt; have e : (cfgM7 pf hO).N = 32768 := N_7; omega⟩)).toNat)
    (hrow2 : ∀ t : Fin (cfgM7 pf hO).N, ((cfgM7 pf hO).win 2).index t (0 : Fin 3)
      = (ti (ValueIdx.ix1 ⟨32768 * 6 + t.val, by have h := t.isLt; have e : (cfgM7 pf hO).N = 32768 := N_7; omega⟩)).toNat)
    (hu : ∀ i, (tu i).toNat < 16384) (hi : ∀ i, (ti i).toNat < 50000) :
    (dat7 (F := Ideal) V pf hO c).arrAt 3 (cfgM7 pf hO).N
      = fun y : S32768x1x1.Idx => Cert.Spec.pred dec Wdec bdec tu ti
          (ValueIdx.ix1 ⟨32768 * 6 + (y 0).val, by have h : (y 0).val < 32768 := (y 0).isLt; omega⟩) := by
  refine (dat7 (F := Ideal) V pf hO c).arrAt_eq_of_cover 3 _ (fun t _ => ?_) (fun (i : S32768x1x1.Idx) => ?_)
  ·
    show ((cfgM7 pf hO).win 3).cut ((cfgM7 pf hO).grid.coords t) ((dat7 (F := Ideal) V pf hO c).after 3 t) = _
    rw [after7_3]
    funext j
    refine (congrFun (pv_out_block (iblk7 V pf hO c 0 t) (iblk7 V pf hO c 1 t) (iblk7 V pf hO c 2 t)) _).trans ?_
    refine (point_word V pf hO c dec Wdec bdec tu ti h0 h1 h2 t _ (hu _) (hi _) (hrow0 t) (hrow1 t) (hrow2 t) _).trans ?_
    show _ = Cert.Spec.pred dec Wdec bdec tu ti
      (ValueIdx.ix1 ⟨32768 * 6 + ((((cfgM7 pf hO).win 3).blk t).view.emb j (0 : Fin 3)).val, _⟩)
    refine congrArg (Cert.Spec.pred dec Wdec bdec tu ti) (congrArg ValueIdx.ix1 (Fin.ext ?_))
    show 32768 * 6 + t.val = 32768 * 6 + (((cfgM7 pf hO).win 3).index t (0 : Fin 3) * 1 + 1 * (j (0 : Fin 3)).val)
    rw [out_row pf hO t]
    have hj : (j (0 : Fin 3)).val < 1 := (j (0 : Fin 3)).isLt
    omega
  ·
    have hlt : (i 0).val < 32768 := (i 0).isLt
    exact ⟨⟨(i 0).val, by rw [points pf hO]; exact hlt⟩, out_flush pf hO _, covered pf hO _ i rfl⟩

end

end Cert.KernelIdeal.Hand

end
-- ==== Proof.KI.PredValue8.lean ====
import proofs.«421490_j32530082300068_2_alg».proof.Proof.KI.Pred8Dat
import proofs.«421490_j32530082300068_2_alg».proof.Proof.KI.PredValueLib

noncomputable section

namespace Cert.KernelIdeal.Hand

open Idealize.ShloMosaic Idealize.ShloMosaic.TcCoe
open Idealize.SL.Sem
open Idealize.ShloMosaic.Pipeline (Dat Cfg Window)
open Cert.KernelIdeal Cert.KernelIdeal.Gen
open scoped BigOperators

private theorem coord_val (t : Fin grid8.N) : (grid8.coords t 0).val = t.val := by
  have h : t.val < grid8.N := t.isLt
  have e : grid8.N = 32768 := N_8
  show t.val / grid8.stride 0 % grid8.bound 0 = t.val
  have hs : grid8.stride 0 = 1 := by decide
  have hb : grid8.bound 0 = 32768 := rfl
  rw [hs, hb]; omega

section
variable (V : (c : Dev nD) → (b : Ref sig .tc) → Buf (Elt Ideal) ((c : Thread nD τ).loc b)) (pf : pre8.Contents (Elt Ideal))
  (hO : ok8 (F := Ideal) pf) (c : Dev nD)
  (dec : FVec Ideal S16384x512 .f32) (Wdec : FVec Ideal S50000x512 .f32) (bdec : FVec Ideal S50000 .f32) (tu ti : IVec S262144 32)

private theorem points : (cfgM8 pf hO).N = 32768 := N_8

private theorem act_blk (h0 : V c (Pipeline.arrRef spec8 0) = shapeCast S16384x1x512 dec shapeCasts_S16384x512_S16384x1x512)
    (t : Fin (cfgM8 pf hO).N) (w : BitVec 32) (hw : w.toNat < 16384)
    (hrow : ((cfgM8 pf hO).win 0).index t (0 : Fin 3) = w.toNat) (k : Fin 512) :
    (iblk8 V pf hO c 0 t : Vec Ideal S1x1x512 .f32) (ValueIdx.ix3 0 0 k) = dec (ValueIdx.ix2 (Cert.Spec.U w) k) := by
  show V c (Pipeline.arrRef spec8 0) ((((cfgM8 pf hO).win 0).blk t).view.emb (ValueIdx.ix3 0 0 k)) = _
  rw [h0]
  refine pv_act_view dec _ _ k ?_ ?_
  · show ((cfgM8 pf hO).win 0).index t (0 : Fin 3) * 1 + 1 * 0 = (Cert.Spec.U w).val
    rw [hrow, Cert.Spec.U_val hw]; omega
  · show ((cfgM8 pf hO).win 0).index t (2 : Fin 3) * 512 + 1 * k.val = k.val
    have e : ((cfgM8 pf hO).win 0).index t (2 : Fin 3) = 0 := rfl
    omega

private theorem wgt_blk (h1 : V c (Pipeline.arrRef spec8 1) = shapeCast S50000x1x512 Wdec shapeCasts_S50000x512_S50000x1x512)
    (t : Fin (cfgM8 pf hO).N) (w : BitVec 32) (hw : w.toNat < 50000)
    (hrow : ((cfgM8 pf hO).win 1).index t (0 : Fin 3) = w.toNat) (k : Fin 512) :
    (iblk8 V pf hO c 1 t : Vec Ideal S1x1x512 .f32) (ValueIdx.ix3 0 0 k) = Wdec (ValueIdx.ix2 (Cert.Spec.I w) k) := by
  show V c (Pipeline.arrRef spec8 1) ((((cfgM8 pf hO).win 1).blk t).view.emb (ValueIdx.ix3 0 0 k)) = _
  rw [h1]
  refine pv_wgt_view Wdec _ _ k ?_ ?_
  · show ((cfgM8 pf hO).win 1).index t (0 : Fin 3) * 1 + 1 * 0 = (Cert.Spec.I w).val
    rw [hrow, Cert.Spec.I_val hw]; omega
  · show ((cfgM8 pf hO).win 1).index t (2 : Fin 3) * 512 + 1 * k.val = k.val
    have e : ((cfgM8 pf hO).win 1).index t (2 : Fin 3) = 0 := rfl
    omega

private theorem bias_blk (h2 : V c (Pipeline.arrRef spec8 2) = shapeCast S50000x1x1 bdec shapeCasts_S50000_S50000x1x1)
    (t : Fin (cfgM8 pf hO).N) (w : BitVec 32) (hw : w.toNat < 50000)
    (hrow : ((cfgM8 pf hO).win 2).index t (0 : Fin 3) = w.toNat) :
    (iblk8 V pf hO c 2 t : Vec Ideal S1x1x1 .f32) (ValueIdx.ix3 0 0 0) = bdec (ValueIdx.ix1 (Cert.Spec.I w)) := by
  show V c (Pipeline.arrRef spec8 2) ((((cfgM8 pf hO).win 2).blk t).view.emb (ValueIdx.ix3 0 0 0)) = _
  rw [h2]
  refine pv_bias_view bdec _ _ ?_
  show ((cfgM8 pf hO).win 2).index t (0 : Fin 3) * 1 + 1 * 0 = (Cert.Spec.I w).val
  rw [hrow, Cert.Spec.I_val hw]; omega

/-- The three blocks at a point are the rows the tables name there, so the payload is the specification's prediction. -/
private theorem point_word
    (h0 : V c (Pipeline.arrRef spec8 0) = shapeCast S16384x1x512 dec shapeCasts_S16384x512_S16384x1x512)
    (h1 : V c (Pipeline.arrRef spec8 1) = shapeCast S50000x1x512 Wdec shapeCasts_S50000x512_S50000x1x512)
    (h2 : V c (Pipeline.arrRef spec8 2) = shapeCast S50000x1x1 bdec shapeCasts_S50000_S50000x1x1)
    (t : Fin (cfgM8 pf hO).N) (i : S262144.Idx) (hu : (tu i).toNat < 16384) (hi : (ti i).toNat < 50000)
    (hrow0 : ((cfgM8 pf hO).win 0).index t (0 : Fin 3) = (tu i).toNat)
    (hrow1 : ((cfgM8 pf hO).win 1).index t (0 : Fin 3) = (ti i).toNat)
    (hrow2 : ((cfgM8 pf hO).win 2).index t (0 : Fin 3) = (ti i).toNat) (j : S1x1x1.Idx) :
    k1_pay1 (F := Ideal) (iblk8 V pf hO c 0 t : Vec Ideal S1x1x512 .f32) (iblk8 V pf hO c 1 t : Vec Ideal S1x1x512 .f32)
        (iblk8 V pf hO c 2 t : Vec Ideal S1x1x1 .f32) j
      = Cert.Spec.pred dec Wdec bdec tu ti i := by
  refine (pv_pay_word _ _ _ j).trans ?_
  show _ = (∑ k : Fin 512, dec (ValueIdx.ix2 (Cert.Spec.U (tu i)) k) * Wdec (ValueIdx.ix2 (Cert.Spec.I (ti i)) k))
    + bdec (ValueIdx.ix1 (Cert.Spec.I (ti i)))
  rw [bias_blk V pf hO c bdec h2 t (ti i) hi hrow2]
  refine congrArg (· + bdec (ValueIdx.ix1 (Cert.Spec.I (ti i)))) (Finset.sum_congr rfl fun k _ => ?_)
  rw [act_blk V pf hO c dec h0 t (tu i) hu hrow0 k, wgt_blk V pf hO c Wdec h1 t (ti i) hi hrow1 k]

private theorem out_row (t : Fin (cfgM8 pf hO).N) : ((cfgM8 pf hO).win 3).index t (0 : Fin 3) = t.val := by
  show (BitVec.ofNat 32 (grid8.coords t 0).val).toNat = t.val
  rw [coord_val, BitVec.toNat_ofNat]
  have h := t.isLt
  have e := points pf hO
  exact Nat.mod_eq_of_lt (by omega)

private theorem out_flush (t : Fin (cfgM8 pf hO).N) : ((cfgM8 pf hO).win 3).flush t = true := by
  have hout : ((cfgM8 pf hO).win 3).isOut = true := rfl
  unfold Window.flush
  rw [hout, Bool.true_and, Bool.or_eq_true, decide_eq_true_eq, decide_eq_true_eq]
  by_cases h : t.val + 1 = (pcfg8.gridAt pf).N
  · exact Or.inl h
  · have hlt : t.val + 1 < (pcfg8.gridAt pf).N := by have ht : t.val < (pcfg8.gridAt pf).N := t.isLt; omega
    refine Or.inr ⟨hlt, fun e => ?_⟩
    have e0 := congrFun e (0 : Fin 3)
    rw [out_row pf hO t, out_row pf hO ⟨t.val + 1, hlt⟩] at e0
    simp at e0

private theorem mem_out_blk (t : Fin (cfgM8 pf hO).N) (i : S32768x1x1.Idx) :
    i ∈ (((cfgM8 pf hO).win 3).blk t).view.set
      ↔ ∀ a : Fin 3, ((cfgM8 pf hO).win 3).index t a * S1x1x1.size a ≤ (i a).val
          ∧ (i a).val < ((cfgM8 pf hO).win 3).index t a * S1x1x1.size a + S1x1x1.size a := by
  exact (Finset.ext_iff.mp (View.set_slice_whole (Pipeline.arrRef spec8 3) (((cfgM8 pf hO).win 3).rect t)) i).trans
    Rect.mem_set_unit

private theorem covered (t : Fin (cfgM8 pf hO).N) (i : S32768x1x1.Idx) (h : (i 0).val = t.val) :
    i ∈ (((cfgM8 pf hO).win 3).blk t).view.set := by
  rw [mem_out_blk]
  intro a
  match a with
  | ⟨0, _⟩ =>
    show ((cfgM8 pf hO).win 3).index t (0 : Fin 3) * 1 ≤ (i 0).val ∧ (i 0).val < ((cfgM8 pf hO).win 3).index t (0 : Fin 3) * 1 + 1
    rw [out_row pf hO t]; omega
  | ⟨1, _⟩ =>
    show ((cfgM8 pf hO).win 3).index t (1 : Fin 3) * 1 ≤ (i 1).val ∧ (i 1).val < ((cfgM8 pf hO).win 3).index t (1 : Fin 3) * 1 + 1
    have e : ((cfgM8 pf hO).win 3).index t (1 : Fin 3) = 0 := rfl
    have hm : (i 1).val < 1 := (i 1).isLt
    omega
  | ⟨2, _⟩ =>
    show ((cfgM8 pf hO).win 3).index t (2 : Fin 3) * 1 ≤ (i 2).val ∧ (i 2).val < ((cfgM8 pf hO).win 3).index t (2 : Fin 3) * 1 + 1
    have e : ((cfgM8 pf hO).win 3).index t (2 : Fin 3) = 0 := rfl
    have hm : (i 2).val < 1 := (i 2).isLt
    omega

/-- Block `t` of the output is entry `t` of the chunk, so the blocks cover the array: it ends as the predictions at the chunk's targets. -/
theorem pred_final8
    (h0 : V c (Pipeline.arrRef spec8 0) = shapeCast S16384x1x512 dec shapeCasts_S16384x512_S16384x1x512)
    (h1 : V c (Pipeline.arrRef spec8 1) = shapeCast S50000x1x512 Wdec shapeCasts_S50000x512_S50000x1x512)
    (h2 : V c (Pipeline.arrRef spec8 2) = shapeCast S50000x1x1 bdec shapeCasts_S50000_S50000x1x1)
    (hrow0 : ∀ t : Fin (cfgM8 pf hO).N, ((cfgM8 pf hO).win 0).index t (0 : Fin 3)
      = (tu (ValueIdx.ix1 ⟨32768 * 7 + t.val, by have h := t.isLt; have e : (cfgM8 pf hO).N = 32768 := N_8; omega⟩)).toNat)
    (hrow1 : ∀ t : Fin (cfgM8 pf hO).N, ((cfgM8 pf hO).win 1).index t (0 : Fin 3)
      = (ti (ValueIdx.ix1 ⟨32768 * 7 + t.val, by have h := t.isLt; have e : (cfgM8 pf hO).N = 32768 := N_8; omega⟩)).toNat)
    (hrow2 : ∀ t : Fin (cfgM8 pf hO).N, ((cfgM8 pf hO).win 2).index t (0 : Fin 3)
      = (ti (ValueIdx.ix1 ⟨32768 * 7 + t.val, by have h := t.isLt; have e : (cfgM8 pf hO).N = 32768 := N_8; omega⟩)).toNat)
    (hu : ∀ i, (tu i).toNat < 16384) (hi : ∀ i, (ti i).toNat < 50000) :
    (dat8 (F := Ideal) V pf hO c).arrAt 3 (cfgM8 pf hO).N
      = fun y : S32768x1x1.Idx => Cert.Spec.pred dec Wdec bdec tu ti
          (ValueIdx.ix1 ⟨32768 * 7 + (y 0).val, by have h : (y 0).val < 32768 := (y 0).isLt; omega⟩) := by
  refine (dat8 (F := Ideal) V pf hO c).arrAt_eq_of_cover 3 _ (fun t _ => ?_) (fun (i : S32768x1x1.Idx) => ?_)
  ·
    show ((cfgM8 pf hO).win 3).cut ((cfgM8 pf hO).grid.coords t) ((dat8 (F := Ideal) V pf hO c).after 3 t) = _
    rw [after8_3]
    funext j
    refine (congrFun (pv_out_block (iblk8 V pf hO c 0 t) (iblk8 V pf hO c 1 t) (iblk8 V pf hO c 2 t)) _).trans ?_
    refine (point_word V pf hO c dec Wdec bdec tu ti h0 h1 h2 t _ (hu _) (hi _) (hrow0 t) (hrow1 t) (hrow2 t) _).trans ?_
    show _ = Cert.Spec.pred dec Wdec bdec tu ti
      (ValueIdx.ix1 ⟨32768 * 7 + ((((cfgM8 pf hO).win 3).blk t).view.emb j (0 : Fin 3)).val, _⟩)
    refine congrArg (Cert.Spec.pred dec Wdec bdec tu ti) (congrArg ValueIdx.ix1 (Fin.ext ?_))
    show 32768 * 7 + t.val = 32768 * 7 + (((cfgM8 pf hO).win 3).index t (0 : Fin 3) * 1 + 1 * (j (0 : Fin 3)).val)
    rw [out_row pf hO t]
    have hj : (j (0 : Fin 3)).val < 1 := (j (0 : Fin 3)).isLt
    omega
  ·
    have hlt : (i 0).val < 32768 := (i 0).isLt
    exact ⟨⟨(i 0).val, by rw [points pf hO]; exact hlt⟩, out_flush pf hO _, covered pf hO _ i rfl⟩

end

end Cert.KernelIdeal.Hand

end
-- ==== Proof.KI.Value.lean ====
import proofs.«421490_j32530082300068_2_alg».proof.Proof.KI.Frame
import proofs.«421490_j32530082300068_2_alg».proof.Proof.KI.MlpValue
import proofs.«421490_j32530082300068_2_alg».proof.Proof.KI.HostValue
import proofs.«421490_j32530082300068_2_alg».proof.Proof.KI.TablesIdx
import proofs.«421490_j32530082300068_2_alg».proof.Proof.KI.PredValue1
import proofs.«421490_j32530082300068_2_alg».proof.Proof.KI.PredValue2
import proofs.«421490_j32530082300068_2_alg».proof.Proof.KI.PredValue3
import proofs.«421490_j32530082300068_2_alg».proof.Proof.KI.PredValue4
import proofs.«421490_j32530082300068_2_alg».proof.Proof.KI.PredValue5
import proofs.«421490_j32530082300068_2_alg».proof.Proof.KI.PredValue6
import proofs.«421490_j32530082300068_2_alg».proof.Proof.KI.PredValue7
import proofs.«421490_j32530082300068_2_alg».proof.Proof.KI.PredValue8

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window BodyObligation cellOf)
open Cert.KernelIdeal Cert.KernelIdeal.Gen

variable (m : (ℓ : Loc nD τ sig) → Buf (Elt Ideal) ℓ)

abbrev decOf (c : Dev nD) : FVec Ideal S16384x512 .f32 :=
  Cert.Spec.dec (Cert.Spec.agg (m ((c : Thread nD τ).loc main_arg0)) (m ((c : Thread nD τ).loc main_arg1)) (m ((c : Thread nD τ).loc main_arg2)) (m ((c : Thread nD τ).loc main_arg6)))
    (m ((c : Thread nD τ).loc main_arg7)) (m ((c : Thread nD τ).loc main_arg8)) (m ((c : Thread nD τ).loc main_arg9)) (m ((c : Thread nD τ).loc main_arg10)) (m ((c : Thread nD τ).loc main_arg11))
abbrev predOf (c : Dev nD) : FVec Ideal S262144 .f32 :=
  Cert.Spec.pred (decOf m c) (m ((c : Thread nD τ).loc main_arg12)) (m ((c : Thread nD τ).loc main_arg13)) (m ((c : Thread nD τ).loc main_arg3)) (m ((c : Thread nD τ).loc main_arg4))

theorem value_dec {T : Tabs Ideal} (S : Sol m T) (c : Dev nD) : (S.outs 2 main_v19 c : S16384x512.Idx → EReal) = decOf m c :=
  (S.h0 c).trans <|
    (mlp_final (E0 m) c (m ((c : Thread nD τ).loc main_arg7)) (m ((c : Thread nD τ).loc main_arg8)) (m ((c : Thread nD τ).loc main_arg9))
      (m ((c : Thread nD τ).loc main_arg10)) (m ((c : Thread nD τ).loc main_arg11))
      (e0_w1t m c) (e0_w2t m c) (e0_benc m c) (e0_b1 m c) (e0_b2 m c)).trans <|
    congrArg (fun a => Cert.Spec.dec a (m ((c : Thread nD τ).loc main_arg7)) (m ((c : Thread nD τ).loc main_arg8)) (m ((c : Thread nD τ).loc main_arg9))
      (m ((c : Thread nD τ).loc main_arg10)) (m ((c : Thread nD τ).loc main_arg11))) (e0_agg m c)

theorem win1_0 (pf : pre1.Contents (Elt Ideal)) (hO : ok1 (F := Ideal) pf) (t : Fin (cfgM1 pf hO).N) :
    ((cfgM1 pf hO).win 0).index t (0 : Fin 3) = cc1_transform_0 k1_off1_inb numel1_S1 pf (grid1.coords t) 0 := rfl
theorem win1_1 (pf : pre1.Contents (Elt Ideal)) (hO : ok1 (F := Ideal) pf) (t : Fin (cfgM1 pf hO).N) :
    ((cfgM1 pf hO).win 1).index t (0 : Fin 3) = cc1_transform_1 k1_off1_inb numel1_S1 pf (grid1.coords t) 0 := rfl
theorem win1_2 (pf : pre1.Contents (Elt Ideal)) (hO : ok1 (F := Ideal) pf) (t : Fin (cfgM1 pf hO).N) :
    ((cfgM1 pf hO).win 2).index t (0 : Fin 3) = cc1_transform_2 k1_off1_inb numel1_S1 pf (grid1.coords t) 0 := rfl

theorem value_chunk1 (hu : RangeU m) (hi : RangeI m) (S : Sol m (tabsOf m hu hi)) (c : Dev nD) :
    (S.outs 4 main_v25 c : S32768x1x1.Idx → EReal)
      = fun y => predOf m c (ValueIdx.ix1 ⟨32768 * 0 + (y 0).val, by have : (y 0).val < 32768 := (y 0).isLt; omega⟩) := by
  obtain rfl : c = 0 := Subsingleton.elim _ _
  refine (S.h1 0).trans ?_
  exact pred_final1 (E1 m S.outs) (pf1 m) (ok1_of_ranges m hu hi) 0 (decOf m 0)
    (m (((0 : Dev nD) : Thread nD τ).loc main_arg12)) (m (((0 : Dev nD) : Thread nD τ).loc main_arg13))
    (m (((0 : Dev nD) : Thread nD τ).loc main_arg3)) (m (((0 : Dev nD) : Thread nD τ).loc main_arg4))
    ((e1_dec m S.outs 0).trans (congrArg (fun d => shapeCast S16384x1x512 d shapeCasts_S16384x512_S16384x1x512) (value_dec m S 0)))
    (e1_wdec m S.outs 0) (e1_bdec m S.outs 0)
    (fun t => (win1_0 (pf1 m) _ t).trans (idx1_user m t))
    (fun t => (win1_1 (pf1 m) _ t).trans (idx1_item m t))
    (fun t => (win1_2 (pf1 m) _ t).trans (idx1_bias m t))
    hu hi

theorem win2_0 (pf : pre2.Contents (Elt Ideal)) (hO : ok2 (F := Ideal) pf) (t : Fin (cfgM2 pf hO).N) :
    ((cfgM2 pf hO).win 0).index t (0 : Fin 3) = cc2_transform_0 k2_off1_inb numel1_S1 pf (grid2.coords t) 0 := rfl
theorem win2_1 (pf : pre2.Contents (Elt Ideal)) (hO : ok2 (F := Ideal) pf) (t : Fin (cfgM2 pf hO).N) :
    ((cfgM2 pf hO).win 1).index t (0 : Fin 3) = cc2_transform_1 k2_off1_inb numel1_S1 pf (grid2.coords t) 0 := rfl
theorem win2_2 (pf : pre2.Contents (Elt Ideal)) (hO : ok2 (F := Ideal) pf) (t : Fin (cfgM2 pf hO).N) :
    ((cfgM2 pf hO).win 2).index t (0 : Fin 3) = cc2_transform_2 k2_off1_inb numel1_S1 pf (grid2.coords t) 0 := rfl

theorem value_chunk2 (hu : RangeU m) (hi : RangeI m) (S : Sol m (tabsOf m hu hi)) (c : Dev nD) :
    (S.outs 6 main_v32 c : S32768x1x1.Idx → EReal)
      = fun y => predOf m c (ValueIdx.ix1 ⟨32768 * 1 + (y 0).val, by have : (y 0).val < 32768 := (y 0).isLt; omega⟩) := by
  obtain rfl : c = 0 := Subsingleton.elim _ _
  refine (S.h2 0).trans ?_
  exact pred_final2 (E2 m S.outs) (pf2 m) (ok2_of_ranges m hu hi) 0 (decOf m 0)
    (m (((0 : Dev nD) : Thread nD τ).loc main_arg12)) (m (((0 : Dev nD) : Thread nD τ).loc main_arg13))
    (m (((0 : Dev nD) : Thread nD τ).loc main_arg3)) (m (((0 : Dev nD) : Thread nD τ).loc main_arg4))
    ((e2_dec m S.outs 0).trans (congrArg (fun d => shapeCast S16384x1x512 d shapeCasts_S16384x512_S16384x1x512) (value_dec m S 0)))
    (e2_wdec m S.outs 0) (e2_bdec m S.outs 0)
    (fun t => (win2_0 (pf2 m) _ t).trans (idx2_user m t))
    (fun t => (win2_1 (pf2 m) _ t).trans (idx2_item m t))
    (fun t => (win2_2 (pf2 m) _ t).trans (idx2_bias m t))
    hu hi

theorem win3_0 (pf : pre3.Contents (Elt Ideal)) (hO : ok3 (F := Ideal) pf) (t : Fin (cfgM3 pf hO).N) :
    ((cfgM3 pf hO).win 0).index t (0 : Fin 3) = cc3_transform_0 k3_off1_inb numel1_S1 pf (grid3.coords t) 0 := rfl
theorem win3_1 (pf : pre3.Contents (Elt Ideal)) (hO : ok3 (F := Ideal) pf) (t : Fin (cfgM3 pf hO).N) :
    ((cfgM3 pf hO).win 1).index t (0 : Fin 3) = cc3_transform_1 k3_off1_inb numel1_S1 pf (grid3.coords t) 0 := rfl
theorem win3_2 (pf : pre3.Contents (Elt Ideal)) (hO : ok3 (F := Ideal) pf) (t : Fin (cfgM3 pf hO).N) :
    ((cfgM3 pf hO).win 2).index t (0 : Fin 3) = cc3_transform_2 k3_off1_inb numel1_S1 pf (grid3.coords t) 0 := rfl

theorem value_chunk3 (hu : RangeU m) (hi : RangeI m) (S : Sol m (tabsOf m hu hi)) (c : Dev nD) :
    (S.outs 8 main_v39 c : S32768x1x1.Idx → EReal)
      = fun y => predOf m c (ValueIdx.ix1 ⟨32768 * 2 + (y 0).val, by have : (y 0).val < 32768 := (y 0).isLt; omega⟩) := by
  obtain rfl : c = 0 := Subsingleton.elim _ _
  refine (S.h3 0).trans ?_
  exact pred_final3 (E3 m S.outs) (pf3 m) (ok3_of_ranges m hu hi) 0 (decOf m 0)
    (m (((0 : Dev nD) : Thread nD τ).loc main_arg12)) (m (((0 : Dev nD) : Thread nD τ).loc main_arg13))
    (m (((0 : Dev nD) : Thread nD τ).loc main_arg3)) (m (((0 : Dev nD) : Thread nD τ).loc main_arg4))
    ((e3_dec m S.outs 0).trans (congrArg (fun d => shapeCast S16384x1x512 d shapeCasts_S16384x512_S16384x1x512) (value_dec m S 0)))
    (e3_wdec m S.outs 0) (e3_bdec m S.outs 0)
    (fun t => (win3_0 (pf3 m) _ t).trans (idx3_user m t))
    (fun t => (win3_1 (pf3 m) _ t).trans (idx3_item m t))
    (fun t => (win3_2 (pf3 m) _ t).trans (idx3_bias m t))
    hu hi

theorem win4_0 (pf : pre4.Contents (Elt Ideal)) (hO : ok4 (F := Ideal) pf) (t : Fin (cfgM4 pf hO).N) :
    ((cfgM4 pf hO).win 0).index t (0 : Fin 3) = cc4_transform_0 k4_off1_inb numel1_S1 pf (grid4.coords t) 0 := rfl
theorem win4_1 (pf : pre4.Contents (Elt Ideal)) (hO : ok4 (F := Ideal) pf) (t : Fin (cfgM4 pf hO).N) :
    ((cfgM4 pf hO).win 1).index t (0 : Fin 3) = cc4_transform_1 k4_off1_inb numel1_S1 pf (grid4.coords t) 0 := rfl
theorem win4_2 (pf : pre4.Contents (Elt Ideal)) (hO : ok4 (F := Ideal) pf) (t : Fin (cfgM4 pf hO).N) :
    ((cfgM4 pf hO).win 2).index t (0 : Fin 3) = cc4_transform_2 k4_off1_inb numel1_S1 pf (grid4.coords t) 0 := rfl

theorem value_chunk4 (hu : RangeU m) (hi : RangeI m) (S : Sol m (tabsOf m hu hi)) (c : Dev nD) :
    (S.outs 10 main_v46 c : S32768x1x1.Idx → EReal)
      = fun y => predOf m c (ValueIdx.ix1 ⟨32768 * 3 + (y 0).val, by have : (y 0).val < 32768 := (y 0).isLt; omega⟩) := by
  obtain rfl : c = 0 := Subsingleton.elim _ _
  refine (S.h4 0).trans ?_
  exact pred_final4 (E4 m S.outs) (pf4 m) (ok4_of_ranges m hu hi) 0 (decOf m 0)
    (m (((0 : Dev nD) : Thread nD τ).loc main_arg12)) (m (((0 : Dev nD) : Thread nD τ).loc main_arg13))
    (m (((0 : Dev nD) : Thread nD τ).loc main_arg3)) (m (((0 : Dev nD) : Thread nD τ).loc main_arg4))
    ((e4_dec m S.outs 0).trans (congrArg (fun d => shapeCast S16384x1x512 d shapeCasts_S16384x512_S16384x1x512) (value_dec m S 0)))
    (e4_wdec m S.outs 0) (e4_bdec m S.outs 0)
    (fun t => (win4_0 (pf4 m) _ t).trans (idx4_user m t))
    (fun t => (win4_1 (pf4 m) _ t).trans (idx4_item m t))
    (fun t => (win4_2 (pf4 m) _ t).trans (idx4_bias m t))
    hu hi

theorem win5_0 (pf : pre5.Contents (Elt Ideal)) (hO : ok5 (F := Ideal) pf) (t : Fin (cfgM5 pf hO).N) :
    ((cfgM5 pf hO).win 0).index t (0 : Fin 3) = cc5_transform_0 k5_off1_inb numel1_S1 pf (grid5.coords t) 0 := rfl
theorem win5_1 (pf : pre5.Contents (Elt Ideal)) (hO : ok5 (F := Ideal) pf) (t : Fin (cfgM5 pf hO).N) :
    ((cfgM5 pf hO).win 1).index t (0 : Fin 3) = cc5_transform_1 k5_off1_inb numel1_S1 pf (grid5.coords t) 0 := rfl
theorem win5_2 (pf : pre5.Contents (Elt Ideal)) (hO : ok5 (F := Ideal) pf) (t : Fin (cfgM5 pf hO).N) :
    ((cfgM5 pf hO).win 2).index t (0 : Fin 3) = cc5_transform_2 k5_off1_inb numel1_S1 pf (grid5.coords t) 0 := rfl

theorem value_chunk5 (hu : RangeU m) (hi : RangeI m) (S : Sol m (tabsOf m hu hi)) (c : Dev nD) :
    (S.outs 12 main_v53 c : S32768x1x1.Idx → EReal)
      = fun y => predOf m c (ValueIdx.ix1 ⟨32768 * 4 + (y 0).val, by have : (y 0).val < 32768 := (y 0).isLt; omega⟩) := by
  obtain rfl : c = 0 := Subsingleton.elim _ _
  refine (S.h5 0).trans ?_
  exact pred_final5 (E5 m S.outs) (pf5 m) (ok5_of_ranges m hu hi) 0 (decOf m 0)
    (m (((0 : Dev nD) : Thread nD τ).loc main_arg12)) (m (((0 : Dev nD) : Thread nD τ).loc main_arg13))
    (m (((0 : Dev nD) : Thread nD τ).loc main_arg3)) (m (((0 : Dev nD) : Thread nD τ).loc main_arg4))
    ((e5_dec m S.outs 0).trans (congrArg (fun d => shapeCast S16384x1x512 d shapeCasts_S16384x512_S16384x1x512) (value_dec m S 0)))
    (e5_wdec m S.outs 0) (e5_bdec m S.outs 0)
    (fun t => (win5_0 (pf5 m) _ t).trans (idx5_user m t))
    (fun t => (win5_1 (pf5 m) _ t).trans (idx5_item m t))
    (fun t => (win5_2 (pf5 m) _ t).trans (idx5_bias m t))
    hu hi

theorem win6_0 (pf : pre6.Contents (Elt Ideal)) (hO : ok6 (F := Ideal) pf) (t : Fin (cfgM6 pf hO).N) :
    ((cfgM6 pf hO).win 0).index t (0 : Fin 3) = cc6_transform_0 k6_off1_inb numel1_S1 pf (grid6.coords t) 0 := rfl
theorem win6_1 (pf : pre6.Contents (Elt Ideal)) (hO : ok6 (F := Ideal) pf) (t : Fin (cfgM6 pf hO).N) :
    ((cfgM6 pf hO).win 1).index t (0 : Fin 3) = cc6_transform_1 k6_off1_inb numel1_S1 pf (grid6.coords t) 0 := rfl
theorem win6_2 (pf : pre6.Contents (Elt Ideal)) (hO : ok6 (F := Ideal) pf) (t : Fin (cfgM6 pf hO).N) :
    ((cfgM6 pf hO).win 2).index t (0 : Fin 3) = cc6_transform_2 k6_off1_inb numel1_S1 pf (grid6.coords t) 0 := rfl

theorem value_chunk6 (hu : RangeU m) (hi : RangeI m) (S : Sol m (tabsOf m hu hi)) (c : Dev nD) :
    (S.outs 14 main_v60 c : S32768x1x1.Idx → EReal)
      = fun y => predOf m c (ValueIdx.ix1 ⟨32768 * 5 + (y 0).val, by have : (y 0).val < 32768 := (y 0).isLt; omega⟩) := by
  obtain rfl : c = 0 := Subsingleton.elim _ _
  refine (S.h6 0).trans ?_
  exact pred_final6 (E6 m S.outs) (pf6 m) (ok6_of_ranges m hu hi) 0 (decOf m 0)
    (m (((0 : Dev nD) : Thread nD τ).loc main_arg12)) (m (((0 : Dev nD) : Thread nD τ).loc main_arg13))
    (m (((0 : Dev nD) : Thread nD τ).loc main_arg3)) (m (((0 : Dev nD) : Thread nD τ).loc main_arg4))
    ((e6_dec m S.outs 0).trans (congrArg (fun d => shapeCast S16384x1x512 d shapeCasts_S16384x512_S16384x1x512) (value_dec m S 0)))
    (e6_wdec m S.outs 0) (e6_bdec m S.outs 0)
    (fun t => (win6_0 (pf6 m) _ t).trans (idx6_user m t))
    (fun t => (win6_1 (pf6 m) _ t).trans (idx6_item m t))
    (fun t => (win6_2 (pf6 m) _ t).trans (idx6_bias m t))
    hu hi

theorem win7_0 (pf : pre7.Contents (Elt Ideal)) (hO : ok7 (F := Ideal) pf) (t : Fin (cfgM7 pf hO).N) :
    ((cfgM7 pf hO).win 0).index t (0 : Fin 3) = cc7_transform_0 k7_off1_inb numel1_S1 pf (grid7.coords t) 0 := rfl
theorem win7_1 (pf : pre7.Contents (Elt Ideal)) (hO : ok7 (F := Ideal) pf) (t : Fin (cfgM7 pf hO).N) :
    ((cfgM7 pf hO).win 1).index t (0 : Fin 3) = cc7_transform_1 k7_off1_inb numel1_S1 pf (grid7.coords t) 0 := rfl
theorem win7_2 (pf : pre7.Contents (Elt Ideal)) (hO : ok7 (F := Ideal) pf) (t : Fin (cfgM7 pf hO).N) :
    ((cfgM7 pf hO).win 2).index t (0 : Fin 3) = cc7_transform_2 k7_off1_inb numel1_S1 pf (grid7.coords t) 0 := rfl

theorem value_chunk7 (hu : RangeU m) (hi : RangeI m) (S : Sol m (tabsOf m hu hi)) (c : Dev nD) :
    (S.outs 16 main_v67 c : S32768x1x1.Idx → EReal)
      = fun y => predOf m c (ValueIdx.ix1 ⟨32768 * 6 + (y 0).val, by have : (y 0).val < 32768 := (y 0).isLt; omega⟩) := by
  obtain rfl : c = 0 := Subsingleton.elim _ _
  refine (S.h7 0).trans ?_
  exact pred_final7 (E7 m S.outs) (pf7 m) (ok7_of_ranges m hu hi) 0 (decOf m 0)
    (m (((0 : Dev nD) : Thread nD τ).loc main_arg12)) (m (((0 : Dev nD) : Thread nD τ).loc main_arg13))
    (m (((0 : Dev nD) : Thread nD τ).loc main_arg3)) (m (((0 : Dev nD) : Thread nD τ).loc main_arg4))
    ((e7_dec m S.outs 0).trans (congrArg (fun d => shapeCast S16384x1x512 d shapeCasts_S16384x512_S16384x1x512) (value_dec m S 0)))
    (e7_wdec m S.outs 0) (e7_bdec m S.outs 0)
    (fun t => (win7_0 (pf7 m) _ t).trans (idx7_user m t))
    (fun t => (win7_1 (pf7 m) _ t).trans (idx7_item m t))
    (fun t => (win7_2 (pf7 m) _ t).trans (idx7_bias m t))
    hu hi

theorem win8_0 (pf : pre8.Contents (Elt Ideal)) (hO : ok8 (F := Ideal) pf) (t : Fin (cfgM8 pf hO).N) :
    ((cfgM8 pf hO).win 0).index t (0 : Fin 3) = cc8_transform_0 k8_off1_inb numel1_S1 pf (grid8.coords t) 0 := rfl
theorem win8_1 (pf : pre8.Contents (Elt Ideal)) (hO : ok8 (F := Ideal) pf) (t : Fin (cfgM8 pf hO).N) :
    ((cfgM8 pf hO).win 1).index t (0 : Fin 3) = cc8_transform_1 k8_off1_inb numel1_S1 pf (grid8.coords t) 0 := rfl
theorem win8_2 (pf : pre8.Contents (Elt Ideal)) (hO : ok8 (F := Ideal) pf) (t : Fin (cfgM8 pf hO).N) :
    ((cfgM8 pf hO).win 2).index t (0 : Fin 3) = cc8_transform_2 k8_off1_inb numel1_S1 pf (grid8.coords t) 0 := rfl

theorem value_chunk8 (hu : RangeU m) (hi : RangeI m) (S : Sol m (tabsOf m hu hi)) (c : Dev nD) :
    (S.outs 18 main_v74 c : S32768x1x1.Idx → EReal)
      = fun y => predOf m c (ValueIdx.ix1 ⟨32768 * 7 + (y 0).val, by have : (y 0).val < 32768 := (y 0).isLt; omega⟩) := by
  obtain rfl : c = 0 := Subsingleton.elim _ _
  refine (S.h8 0).trans ?_
  exact pred_final8 (E8 m S.outs) (pf8 m) (ok8_of_ranges m hu hi) 0 (decOf m 0)
    (m (((0 : Dev nD) : Thread nD τ).loc main_arg12)) (m (((0 : Dev nD) : Thread nD τ).loc main_arg13))
    (m (((0 : Dev nD) : Thread nD τ).loc main_arg3)) (m (((0 : Dev nD) : Thread nD τ).loc main_arg4))
    ((e8_dec m S.outs 0).trans (congrArg (fun d => shapeCast S16384x1x512 d shapeCasts_S16384x512_S16384x1x512) (value_dec m S 0)))
    (e8_wdec m S.outs 0) (e8_bdec m S.outs 0)
    (fun t => (win8_0 (pf8 m) _ t).trans (idx8_user m t))
    (fun t => (win8_1 (pf8 m) _ t).trans (idx8_item m t))
    (fun t => (win8_2 (pf8 m) _ t).trans (idx8_bias m t))
    hu hi

theorem value_chunks (hu : RangeU m) (hi : RangeI m) (S : Sol m (tabsOf m hu hi)) (c : Dev nD) (K : Fin 8) :
    predOut S.outs c K
      = fun y => predOf m c (ValueIdx.ix1 ⟨32768 * K.val + (y 0).val, by have : (y 0).val < 32768 := (y 0).isLt; have := K.isLt; omega⟩) := by
  match K with
  | 0 => exact value_chunk1 m hu hi S c
  | 1 => exact value_chunk2 m hu hi S c
  | 2 => exact value_chunk3 m hu hi S c
  | 3 => exact value_chunk4 m hu hi S c
  | 4 => exact value_chunk5 m hu hi S c
  | 5 => exact value_chunk6 m hu hi S c
  | 6 => exact value_chunk7 m hu hi S c
  | 7 => exact value_chunk8 m hu hi S c

theorem value_pred_at (hu : RangeU m) (hi : RangeI m) (S : Sol m (tabsOf m hu hi)) (c : Dev nD) (K : Fin 8) (t : Fin 32768) :
    (Gen.V19 m S.outs c main_v76 : S262144.Idx → EReal) (ValueIdx.ix1 ⟨32768 * K.val + t.val, by have := t.isLt; have := K.isLt; omega⟩)
      = predOf m c (ValueIdx.ix1 ⟨32768 * K.val + t.val, by have := t.isLt; have := K.isLt; omega⟩) :=
  (end_pred_at m S.outs c K t).trans (congrFun (value_chunks m hu hi S c K) (ValueIdx.ix3 t 0 0))

theorem value_pred (hu : RangeU m) (hi : RangeI m) (S : Sol m (tabsOf m hu hi)) (c : Dev nD) :
    (Gen.V19 m S.outs c main_v76 : S262144.Idx → EReal) = predOf m c := by
  funext i
  have hn : (i 0).val < 262144 := (i 0).isLt
  have e : i = ValueIdx.ix1 ⟨32768 * (⟨(i 0).val / 32768, by omega⟩ : Fin 8).val + (⟨(i 0).val % 32768, Nat.mod_lt _ (by decide)⟩ : Fin 32768).val, by
      show 32768 * ((i 0).val / 32768) + (i 0).val % 32768 < 262144; omega⟩ :=
    (ValueIdx.eq_ix1 i).trans (congrArg ValueIdx.ix1 (Fin.ext (by show (i 0).val = 32768 * ((i 0).val / 32768) + (i 0).val % 32768; omega)))
  rw [e]
  exact value_pred_at m hu hi S c _ _

theorem value_loss (hu : RangeU m) (hi : RangeI m) (S : Sol m (tabsOf m hu hi)) (c : Dev nD) :
    (Gen.V19 m S.outs c main_v80 : S_.Idx → EReal) = Cert.Spec.loss (predOf m c) (m ((c : Thread nD τ).loc main_arg5)) :=
  (end_loss m S.outs c).trans (congrArg (fun p => Cert.Spec.loss p (m ((c : Thread nD τ).loc main_arg5))) (value_pred m hu hi S c))

theorem run_values (ρ : Dev nD → PrngReg) (hu : RangeU m) (hi : RangeI m) :
    θ_run (defs (F := Ideal)) (onTc (τ := τ) (main (F := Ideal))) ⟨m, fun _ => 0, ρ⟩ (fun r => ∀ c : Dev nD,
      r.2.mem ((c.tc : Thread nD τ).loc main_v76) = predOf m c
      ∧ r.2.mem ((c.tc : Thread nD τ).loc main_v80) = Cert.Spec.loss (predOf m c) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  obtain ⟨S⟩ := Sol.exists m (tabsOf m hu hi)
  exact (θ_run defs _ _).mono (fun r h c =>
    ⟨(h c _ (mem_uc main_v76 (by decide))).trans (value_pred m hu hi S c),
     (h c _ (mem_uc main_v80 (by decide))).trans (value_loss m hu hi S c),
     (h c _ (mem_uc main_arg0 (by decide))).trans (Gen.V19_main_arg0 m S.outs c),
     (h c _ (mem_uc main_arg1 (by decide))).trans (Gen.V19_main_arg1 m S.outs c),
     (h c _ (mem_uc main_arg2 (by decide))).trans (Gen.V19_main_arg2 m S.outs c),
     (h c _ (mem_uc main_arg3 (by decide))).trans (Gen.V19_main_arg3 m S.outs c),
     (h c _ (mem_uc main_arg4 (by decide))).trans (Gen.V19_main_arg4 m S.outs c),
     (h c _ (mem_uc main_arg5 (by decide))).trans (Gen.V19_main_arg5 m S.outs c),
     (h c _ (mem_uc main_arg6 (by decide))).trans (Gen.V19_main_arg6 m S.outs c),
     (h c _ (mem_uc main_arg7 (by decide))).trans (Gen.V19_main_arg7 m S.outs c),
     (h c _ (mem_uc main_arg8 (by decide))).trans (Gen.V19_main_arg8 m S.outs c),
     (h c _ (mem_uc main_arg9 (by decide))).trans (Gen.V19_main_arg9 m S.outs c),
     (h c _ (mem_uc main_arg10 (by decide))).trans (Gen.V19_main_arg10 m S.outs c),
     (h c _ (mem_uc main_arg11 (by decide))).trans (Gen.V19_main_arg11 m S.outs c),
     (h c _ (mem_uc main_arg12 (by decide))).trans (Gen.V19_main_arg12 m S.outs c),
     (h c _ (mem_uc main_arg13 (by decide))).trans (Gen.V19_main_arg13 m S.outs c)⟩)
    (run_all S ρ (tabsAt m hu hi S))

end Cert.KernelIdeal.Hand

end
-- ==== Proof.lean ====
import proofs.«421490_j32530082300068_2_alg».proof.Defs
import proofs.«421490_j32530082300068_2_alg».proof.Proof.Gen.Kernel
import proofs.«421490_j32530082300068_2_alg».proof.Proof.Gen.KernelIdeal
import proofs.«421490_j32530082300068_2_alg».proof.Proof.Gen.ReferenceIdeal
import proofs.«421490_j32530082300068_2_alg».proof.Proof.Gen.Pre_finite_inputs
import proofs.«421490_j32530082300068_2_alg».proof.Proof.PreDecode
import proofs.«421490_j32530082300068_2_alg».proof.Proof.RefValue
import proofs.«421490_j32530082300068_2_alg».proof.Proof.K.Frame
import proofs.«421490_j32530082300068_2_alg».proof.Proof.KI.Value
import Idealize.ShloMosaic.Adequacy
import Idealize.ShloMosaic.Init

noncomputable section

namespace Cert.Proof

open Idealize.ShloMosaic Idealize.ShloMosaic.TcCoe Idealize.SL.Sem

/-- The frames need of the precondition only that every target index is in range. -/
theorem frame_k : Cert.frame_Kernel := fun m ρ hpre =>
  have hr := Cert.PreDecode.ranges _ _ _ _ _ _ _ _ _ _ _ _ _ _ (hpre 0)
  Cert.Kernel.Hand.frame m ρ hr.1 hr.2

theorem frame_ki : Cert.frame_KernelIdeal := fun m ρ hpre =>
  have hr := Cert.PreDecode.ranges _ _ _ _ _ _ _ _ _ _ _ _ _ _ (hpre 0)
  Cert.KernelIdeal.Hand.frame m ρ hr.1 hr.2

/-- The reference's frame is its run with the results dropped. -/
theorem frame_ri : Cert.frame_ReferenceIdeal := fun m ρ hpre =>
  have hr := Cert.PreDecode.ranges _ _ _ _ _ _ _ _ _ _ _ _ _ _ (hpre 0)
  (θ_run Cert.ReferenceIdeal.defs _ _).mono (fun _ h c => (h c).2.2)
    (Cert.ReferenceIdeal.RefValue.run_spec m ρ
      (fun c i => by obtain rfl : c = 0 := Subsingleton.elim _ _; exact hr.1 i)
      (fun c i => by obtain rfl : c = 0 := Subsingleton.elim _ _; exact hr.2 i))

theorem preserves : Cert.preserves_Kernel_KernelIdeal := trivial

/-- Both idealized programs end at the specification's predictions and loss of the same arguments. -/
theorem algebraic : Cert.algebraic_KernelIdeal_ReferenceIdeal := by
  intro m ρ m' ρ' hpre hagree
  have hr := Cert.PreDecode.ranges _ _ _ _ _ _ _ _ _ _ _ _ _ _ (hpre 0)
  refine ⟨_, _, Cert.KernelIdeal.Hand.run_values m ρ hr.1 hr.2, ?_⟩
  refine (θ_run Cert.ReferenceIdeal.defs _ _).mono (fun r h c => ?_)
    (Cert.ReferenceIdeal.RefValue.run_spec m' ρ'
      (fun c i => by obtain rfl : c = 0 := Subsingleton.elim _ _; rw [(hagree 0).2.2.2.1]; exact hr.1 i)
      (fun c i => by obtain rfl : c = 0 := Subsingleton.elim _ _; rw [(hagree 0).2.2.2.2.1]; exact hr.2 i))
  obtain ⟨h53, h57, hargs⟩ := h c
  obtain ⟨e0, e1, e2, e3, e4, e5, e6, e7, e8, e9, e10, e11, e12, e13⟩ := hagree c
  refine ⟨h53.trans ?_, h57.trans ?_, hargs⟩
  · rw [e0, e1, e2, e3, e4, e6, e7, e8, e9, e10, e11, e12, e13]
  · rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
